-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v72_0)) (v1 : (c : Dev Cert.KernelIdeal.nD) → Buf (Elt Ideal) ((c.tc : Thread Cert.KernelIdeal.nD Cert.KernelIdeal.τ).loc Cert.KernelIdeal.main_v72_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_v256) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x50000x4 : Shape := ⟨4, ![4, 16, 50000, 4]⟩
abbrev S2x1600000 : Shape := ⟨2, ![2, 1600000]⟩
abbrev S200000x2 : Shape := ⟨2, ![200000, 2]⟩
abbrev S50000x1 : Shape := ⟨2, ![50000, 1]⟩
abbrev S32x64 : Shape := ⟨2, ![32, 64]⟩
abbrev S32 : Shape := ⟨1, ![32]⟩
abbrev S1x64 : Shape := ⟨2, ![1, 64]⟩
abbrev S1 : Shape := ⟨1, ![1]⟩
abbrev S32x32 : Shape := ⟨2, ![32, 32]⟩
abbrev S96x32 : Shape := ⟨2, ![96, 32]⟩
abbrev S96 : Shape := ⟨1, ![96]⟩
abbrev S8x34 : Shape := ⟨2, ![8, 34]⟩
abbrev S8 : Shape := ⟨1, ![8]⟩
abbrev S2x34 : Shape := ⟨2, ![2, 34]⟩
abbrev S2 : Shape := ⟨1, ![2]⟩
abbrev S_ : Shape := ⟨0, ![]⟩

class Facts : Prop where
  bcast_S_S4x16x50000x4 : S_.BroadcastsInDim S4x16x50000x4 (![] : Fin 0 → Fin S4x16x50000x4.rank)
  reducesTo_S4x16x50000x4_S_d0_1_2_3 : S4x16x50000x4.ReducesTo [0, 1, 2, 3] S_
  h_S_ : 0 < S_.numel
  bcast_S_S200000x2 : S_.BroadcastsInDim S200000x2 (![] : Fin 0 → Fin S200000x2.rank)
  reducesTo_S200000x2_S_d0_1 : S200000x2.ReducesTo [0, 1] S_
  bcast_S_S50000x1 : S_.BroadcastsInDim S50000x1 (![] : Fin 0 → Fin S50000x1.rank)
  reducesTo_S50000x1_S_d0_1 : S50000x1.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S32x32 : S_.BroadcastsInDim S32x32 (![] : Fin 0 → Fin S32x32.rank)
  reducesTo_S32x32_S_d0_1 : S32x32.ReducesTo [0, 1] S_
  bcast_S_S96x32 : S_.BroadcastsInDim S96x32 (![] : Fin 0 → Fin S96x32.rank)
  reducesTo_S96x32_S_d0_1 : S96x32.ReducesTo [0, 1] S_
  bcast_S_S96 : S_.BroadcastsInDim S96 (![] : Fin 0 → Fin S96.rank)
  reducesTo_S96_S_d0 : S96.ReducesTo [0] S_
  bcast_S_S8x34 : S_.BroadcastsInDim S8x34 (![] : Fin 0 → Fin S8x34.rank)
  reducesTo_S8x34_S_d0_1 : S8x34.ReducesTo [0, 1] S_
  bcast_S_S8 : S_.BroadcastsInDim S8 (![] : Fin 0 → Fin S8.rank)
  reducesTo_S8_S_d0 : S8.ReducesTo [0] S_
  bcast_S_S2x34 : S_.BroadcastsInDim S2x34 (![] : Fin 0 → Fin S2x34.rank)
  reducesTo_S2x34_S_d0_1 : S2x34.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  main_v103

def fn_part5 {F : FTy → Type} [FloatOps F] (main_arg19 : FVec F S8 .f32) (main_arg20 : FVec F S2x34 .f32) (main_arg21 : FVec F S2 .f32) (main_v83 : IVec S_ 1) (main_v84 : FVec F S8x34 .f32) (main_cst_32 : FVec F S_ .f32) : IVec S_ 1 :=
  let main_v85 : FVec F S8x34 .f32 := broadcastInDim S8x34 ![] bcast_S_S8x34 main_cst_32
  let main_v86 : IVec S8x34 1 := cmpf .olt main_v84 main_v85
  let main_c_33 : IVec S_ 1 := constantI S_ 1 1#1
  let main_v87 : IVec S_ 1 := (fun x v => Host.reduce IntOp.andi x v reducesTo_S8x34_S_d0_1 h_S_) main_v86 main_c_33
  let main_v88 : IVec S_ 1 := andi main_v83 main_v87
  let main_v89 : FVec F S8 .f32 := Host.absf main_arg19
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  let main_v94 : FVec F S2x34 .f32 := Host.absf main_arg20
  let main_cst_36 : FVec F S_ .f32 := constant S_ .f32 0x7F800000#32
  let main_v95 : FVec F S2x34 .f32 := broadcastInDim S2x34 ![] bcast_S_S2x34 main_cst_36
  let main_v96 : IVec S2x34 1 := cmpf .olt main_v94 main_v95
  let main_c_37 : IVec S_ 1 := constantI S_ 1 1#1
  let main_v97 : IVec S_ 1 := (fun x v => Host.reduce IntOp.andi x v reducesTo_S2x34_S_d0_1 h_S_) main_v96 main_c_37
  let main_v98 : IVec S_ 1 := andi main_v93 main_v97
  let main_v99 : FVec F S2 .f32 := Host.absf main_arg21
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_v98 main_v101 main_c_39

def fn_part4 {F : FTy → Type} [FloatOps F] (main_arg15 : FVec F S96 .f32) (main_arg16 : FVec F S8x34 .f32) (main_arg17 : FVec F S8 .f32) (main_arg18 : FVec F S8x34 .f32) (main_arg19 : FVec F S8 .f32) (main_arg20 : FVec F S2x34 .f32) (main_arg21 : FVec F S2 .f32) (main_v63 : IVec S_ 1) (main_v67 : IVec S_ 1) : IVec S_ 1 :=
  let main_v68 : IVec S_ 1 := andi main_v63 main_v67
  let main_v69 : FVec F S96 .f32 := Host.absf main_arg15
  let main_cst_26 : FVec F S_ .f32 := constant S_ .f32 0x7F800000#32
  let main_v70 : FVec F S96 .f32 := broadcastInDim S96 ![] bcast_S_S96 main_cst_26
  let main_v71 : IVec S96 1 := cmpf .olt main_v69 main_v70
  let main_c_27 : IVec S_ 1 := constantI S_ 1 1#1
  let main_v72 : IVec S_ 1 := (fun x v => Host.reduce IntOp.andi x v reducesTo_S96_S_d0 h_S_) main_v71 main_c_27
  let main_v73 : IVec S_ 1 := andi main_v68 main_v72
  let main_v74 : FVec F S8x34 .f32 := Host.absf main_arg16
  let main_cst_28 : FVec F S_ .f32 := constant S_ .f32 0x7F800000#32
  let main_v75 : FVec F S8x34 .f32 := broadcastInDim S8x34 ![] bcast_S_S8x34 main_cst_28
  let main_v76 : IVec S8x34 1 := cmpf .olt main_v74 main_v75
  let main_c_29 : IVec S_ 1 := constantI S_ 1 1#1
  let main_v77 : IVec S_ 1 := (fun x v => Host.reduce IntOp.andi x v reducesTo_S8x34_S_d0_1 h_S_) main_v76 main_c_29
  let main_v78 : IVec S_ 1 := andi main_v73 main_v77
  let main_v79 : FVec F S8 .f32 := Host.absf main_arg17
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : FVec F S8x34 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S96x32 .f32) (main_arg13 : FVec F S96x32 .f32) (main_arg14 : FVec F S96 .f32) (main_arg15 : FVec F S96 .f32) (main_arg16 : FVec F S8x34 .f32) (main_arg17 : FVec F S8 .f32) (main_arg18 : FVec F S8x34 .f32) (main_arg19 : FVec F S8 .f32) (main_arg20 : FVec F S2x34 .f32) (main_arg21 : FVec F S2 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S96x32 .f32 := Host.absf main_arg12
  let main_cst_20 : FVec F S_ .f32 := constant S_ .f32 0x7F800000#32
  let main_v55 : FVec F S96x32 .f32 := broadcastInDim S96x32 ![] bcast_S_S96x32 main_cst_20
  let main_v56 : IVec S96x32 1 := cmpf .olt main_v54 main_v55
  let main_c_21 : IVec S_ 1 := constantI S_ 1 1#1
  let main_v57 : IVec S_ 1 := (fun x v => Host.reduce IntOp.andi x v reducesTo_S96x32_S_d0_1 h_S_) main_v56 main_c_21
  let main_v58 : IVec S_ 1 := andi main_v53 main_v57
  let main_v59 : FVec F S96x32 .f32 := Host.absf main_arg13
  let main_cst_22 : FVec F S_ .f32 := constant S_ .f32 0x7F800000#32
  let main_v60 : FVec F S96x32 .f32 := broadcastInDim S96x32 ![] bcast_S_S96x32 main_cst_22
  let main_v61 : IVec S96x32 1 := cmpf .olt main_v59 main_v60
  let main_c_23 : IVec S_ 1 := constantI S_ 1 1#1
  let main_v62 : IVec S_ 1 := (fun x v => Host.reduce IntOp.andi x v reducesTo_S96x32_S_d0_1 h_S_) main_v61 main_c_23
  let main_v63 : IVec S_ 1 := andi main_v58 main_v62
  let main_v64 : FVec F S96 .f32 := Host.absf main_arg14
  let main_cst_24 : FVec F S_ .f32 := constant S_ .f32 0x7F800000#32
  let main_v65 : FVec F S96 .f32 := broadcastInDim S96 ![] bcast_S_S96 main_cst_24
  let main_v66 : IVec S96 1 := cmpf .olt main_v64 main_v65
  let main_c_25 : IVec S_ 1 := constantI S_ 1 1#1
  let main_v67 : IVec S_ 1 := (fun x v => Host.reduce IntOp.andi x v reducesTo_S96_S_d0 h_S_) main_v66 main_c_25
  fn_part4 (F := F) main_arg15 main_arg16 main_arg17 main_arg18 main_arg19 main_arg20 main_arg21 main_v63 main_v67

def fn_part2 {F : FTy → Type} [FloatOps F] (main_arg8 : FVec F S32x32 .f32) (main_arg9 : FVec F S32 .f32) (main_arg10 : FVec F S1x64 .f32) (main_arg11 : FVec F S1 .f32) (main_arg12 : FVec F S96x32 .f32) (main_arg13 : FVec F S96x32 .f32) (main_arg14 : FVec F S96 .f32) (main_arg15 : FVec F S96 .f32) (main_arg16 : FVec F S8x34 .f32) (main_arg17 : FVec F S8 .f32) (main_arg18 : FVec F S8x34 .f32) (main_arg19 : FVec F S8 .f32) (main_arg20 : FVec F S2x34 .f32) (main_arg21 : FVec F S2 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S1x64 .f32 := Host.absf main_arg10
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S32 .f32) (main_arg6 : FVec F S1x64 .f32) (main_arg7 : FVec F S1 .f32) (main_arg8 : FVec F S32x32 .f32) (main_arg9 : FVec F S32 .f32) (main_arg10 : FVec F S1x64 .f32) (main_arg11 : FVec F S1 .f32) (main_arg12 : FVec F S96x32 .f32) (main_arg13 : FVec F S96x32 .f32) (main_arg14 : FVec F S96 .f32) (main_arg15 : FVec F S96 .f32) (main_arg16 : FVec F S8x34 .f32) (main_arg17 : FVec F S8 .f32) (main_arg18 : FVec F S8x34 .f32) (main_arg19 : FVec F S8 .f32) (main_arg20 : FVec F S2x34 .f32) (main_arg21 : FVec F S2 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1x64 .f32 := Host.absf main_arg6
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S4x16x50000x4 .f32) (main_arg1 : IVec S2x1600000 32) (main_arg2 : FVec F S200000x2 .f32) (main_arg3 : FVec F S50000x1 .f32) (main_arg4 : FVec F S32x64 .f32) (main_arg5 : FVec F S32 .f32) (main_arg6 : FVec F S1x64 .f32) (main_arg7 : FVec F S1 .f32) (main_arg8 : FVec F S32x32 .f32) (main_arg9 : FVec F S32 .f32) (main_arg10 : FVec F S1x64 .f32) (main_arg11 : FVec F S1 .f32) (main_arg12 : FVec F S96x32 .f32) (main_arg13 : FVec F S96x32 .f32) (main_arg14 : FVec F S96 .f32) (main_arg15 : FVec F S96 .f32) (main_arg16 : FVec F S8x34 .f32) (main_arg17 : FVec F S8 .f32) (main_arg18 : FVec F S8x34 .f32) (main_arg19 : FVec F S8 .f32) (main_arg20 : FVec F S2x34 .f32) (main_arg21 : FVec F S2 .f32) : IVec S_ 1 :=
  let main_v0 : FVec F S4x16x50000x4 .f32 := Host.absf main_arg0
  let main_cst : FVec F S_ .f32 := constant S_ .f32 0x7F800000#32
  let main_v1 : FVec F S4x16x50000x4 .f32 := broadcastInDim S4x16x50000x4 ![] bcast_S_S4x16x50000x4 main_cst
  let main_v2 : IVec S4x16x50000x4 1 := cmpf .olt main_v0 main_v1
  let main_c : IVec S_ 1 := constantI S_ 1 1#1
  let main_v3 : IVec S_ 1 := (fun x v => Host.reduce IntOp.andi x v reducesTo_S4x16x50000x4_S_d0_1_2_3 h_S_) main_v2 main_c
  let main_v4 : FVec F S200000x2 .f32 := Host.absf main_arg2
  let main_cst_0 : FVec F S_ .f32 := constant S_ .f32 0x7F800000#32
  let main_v5 : FVec F S200000x2 .f32 := broadcastInDim S200000x2 ![] bcast_S_S200000x2 main_cst_0
  let main_v6 : IVec S200000x2 1 := cmpf .olt main_v4 main_v5
  let main_c_1 : IVec S_ 1 := constantI S_ 1 1#1
  let main_v7 : IVec S_ 1 := (fun x v => Host.reduce IntOp.andi x v reducesTo_S200000x2_S_d0_1 h_S_) main_v6 main_c_1
  let main_v8 : IVec S_ 1 := andi main_v3 main_v7
  let main_v9 : FVec F S50000x1 .f32 := Host.absf main_arg3
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S4x16x50000x4 : Shape := ⟨4, ![4, 16, 50000, 4]⟩
abbrev S2x1600000 : Shape := ⟨2, ![2, 1600000]⟩
abbrev S200000x2 : Shape := ⟨2, ![200000, 2]⟩
abbrev S50000x1 : Shape := ⟨2, ![50000, 1]⟩
abbrev S32x64 : Shape := ⟨2, ![32, 64]⟩
abbrev S32 : Shape := ⟨1, ![32]⟩
abbrev S1x64 : Shape := ⟨2, ![1, 64]⟩
abbrev S1 : Shape := ⟨1, ![1]⟩
abbrev S32x32 : Shape := ⟨2, ![32, 32]⟩
abbrev S96x32 : Shape := ⟨2, ![96, 32]⟩
abbrev S96 : Shape := ⟨1, ![96]⟩
abbrev S8x34 : Shape := ⟨2, ![8, 34]⟩
abbrev S8 : Shape := ⟨1, ![8]⟩
abbrev S2x34 : Shape := ⟨2, ![2, 34]⟩
abbrev S2 : Shape := ⟨1, ![2]⟩
abbrev S4x1x50000x1 : Shape := ⟨4, ![4, 1, 50000, 1]⟩
abbrev S4x50000 : Shape := ⟨2, ![4, 50000]⟩
abbrev S200000x1 : Shape := ⟨2, ![200000, 1]⟩
abbrev S4x50000x16x4 : Shape := ⟨4, ![4, 50000, 16, 4]⟩
abbrev S200000x64 : Shape := ⟨2, ![200000, 64]⟩
abbrev S1x1600000 : Shape := ⟨2, ![1, 1600000]⟩
abbrev S1600000 : Shape := ⟨1, ![1600000]⟩
abbrev S1x32 : Shape := ⟨2, ![1, 32]⟩
abbrev S200000x32 : Shape := ⟨2, ![200000, 32]⟩
abbrev S10000x64 : Shape := ⟨2, ![10000, 64]⟩
abbrev S10000x32 : Shape := ⟨2, ![10000, 32]⟩
abbrev S64x32 : Shape := ⟨2, ![64, 32]⟩
abbrev S_ : Shape := ⟨0, ![]⟩
abbrev S1600000x1 : Shape := ⟨2, ![1600000, 1]⟩
abbrev S1600000x32 : Shape := ⟨2, ![1600000, 32]⟩
abbrev S1x1 : Shape := ⟨2, ![1, 1]⟩
abbrev S8000x32 : Shape := ⟨2, ![8000, 32]⟩
abbrev S8000 : Shape := ⟨1, ![8000]⟩
abbrev S8000x1 : Shape := ⟨2, ![8000, 1]⟩
abbrev S1x96 : Shape := ⟨2, ![1, 96]⟩
abbrev S5000x32 : Shape := ⟨2, ![5000, 32]⟩
abbrev S32x96 : Shape := ⟨2, ![32, 96]⟩
abbrev S5000x96 : Shape := ⟨2, ![5000, 96]⟩
abbrev S50000 : Shape := ⟨1, ![50000]⟩
abbrev S1x50000 : Shape := ⟨2, ![1, 50000]⟩
abbrev S200000 : Shape := ⟨1, ![200000]⟩
abbrev S200000x5 : Shape := ⟨2, ![200000, 5]⟩
abbrev S1x8 : Shape := ⟨2, ![1, 8]⟩
abbrev S1x2 : Shape := ⟨2, ![1, 2]⟩
abbrev S200000x8x2 : Shape := ⟨3, ![200000, 8, 2]⟩
abbrev S1000x32 : Shape := ⟨2, ![1000, 32]⟩
abbrev S1000x5 : Shape := ⟨2, ![1000, 5]⟩
abbrev S1000x8x2 : Shape := ⟨3, ![1000, 8, 2]⟩
abbrev S1000x1 : Shape := ⟨2, ![1000, 1]⟩
abbrev S1000x34 : Shape := ⟨2, ![1000, 34]⟩
abbrev S34x8 : Shape := ⟨2, ![34, 8]⟩
abbrev S1000x8 : Shape := ⟨2, ![1000, 8]⟩
abbrev S34x2 : Shape := ⟨2, ![34, 2]⟩
abbrev S1000x2 : Shape := ⟨2, ![1000, 2]⟩
abbrev S1000x8x1 : Shape := ⟨3, ![1000, 8, 1]⟩

abbrev nBuf : Space → Nat
  | .hbm => 106
  | .vmem => 51
  | .smem => 0
  | _ => 0

abbrev bufTy : (tb : Table) → Fin (tcTables nBuf tb) → BufTy
  | .hbm, ⟨0, _⟩ => ⟨S4x16x50000x4, .f32⟩
  | .hbm, ⟨1, _⟩ => ⟨S2x1600000, .i32⟩
  | .hbm, ⟨2, _⟩ => ⟨S200000x2, .f32⟩
  | .hbm, ⟨3, _⟩ => ⟨S50000x1, .f32⟩
  | .hbm, ⟨4, _⟩ => ⟨S32x64, .f32⟩
  | .hbm, ⟨5, _⟩ => ⟨S32, .f32⟩
  | .hbm, ⟨6, _⟩ => ⟨S1x64, .f32⟩
  | .hbm, ⟨7, _⟩ => ⟨S1, .f32⟩
  | .hbm, ⟨8, _⟩ => ⟨S32x32, .f32⟩
  | .hbm, ⟨9, _⟩ => ⟨S32, .f32⟩
  | .hbm, ⟨10, _⟩ => ⟨S1x64, .f32⟩
  | .hbm, ⟨11, _⟩ => ⟨S1, .f32⟩
  | .hbm, ⟨12, _⟩ => ⟨S96x32, .f32⟩
  | .hbm, ⟨13, _⟩ => ⟨S96x32, .f32⟩
  | .hbm, ⟨14, _⟩ => ⟨S96, .f32⟩
  | .hbm, ⟨15, _⟩ => ⟨S96, .f32⟩
  | .hbm, ⟨16, _⟩ => ⟨S8x34, .f32⟩
  | .hbm, ⟨17, _⟩ => ⟨S8, .f32⟩
  | .hbm, ⟨18, _⟩ => ⟨S8x34, .f32⟩
  | .hbm, ⟨19, _⟩ => ⟨S8, .f32⟩
  | .hbm, ⟨20, _⟩ => ⟨S2x34, .f32⟩
  | .hbm, ⟨21, _⟩ => ⟨S2, .f32⟩
  | .hbm, ⟨22, _⟩ => ⟨S4x1x50000x1, .f32⟩
  | .hbm, ⟨23, _⟩ => ⟨S4x50000, .f32⟩
  | .hbm, ⟨24, _⟩ => ⟨S200000x1, .f32⟩
  | .hbm, ⟨25, _⟩ => ⟨S4x1x50000x1, .f32⟩
  | .hbm, ⟨26, _⟩ => ⟨S4x50000, .f32⟩
  | .hbm, ⟨27, _⟩ => ⟨S200000x1, .f32⟩
  | .hbm, ⟨28, _⟩ => ⟨S4x50000x16x4, .f32⟩
  | .hbm, ⟨29, _⟩ => ⟨S200000x64, .f32⟩
  | .hbm, ⟨30, _⟩ => ⟨S1x1600000, .i32⟩
  | .hbm, ⟨31, _⟩ => ⟨S1600000, .i32⟩
  | .hbm, ⟨32, _⟩ => ⟨S1x1600000, .i32⟩
  | .hbm, ⟨33, _⟩ => ⟨S1600000, .i32⟩
  | .hbm, ⟨34, _⟩ => ⟨S1x32, .f32⟩
  | .hbm, ⟨35, _⟩ => ⟨S200000x32, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x32, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x32, .f32⟩
  | .hbm, ⟨54, _⟩ => ⟨S1x32, .f32⟩
  | .hbm, ⟨55, _⟩ => ⟨S1x32, .f32⟩
  | .hbm, ⟨56, _⟩ => ⟨S1x1, .f32⟩
  | .hbm, ⟨57, _⟩ => ⟨S1600000x32, .f32⟩
  | .hbm, ⟨58, _⟩ => ⟨S_, .f32⟩
  | .hbm, ⟨59, _⟩ => ⟨S200000x32, .f32⟩
  | .hbm, ⟨60, _⟩ => ⟨S1600000x1, .i32⟩
  | .hbm, ⟨61, _⟩ => ⟨S200000x32, .f32⟩
  | .hbm, ⟨62, _⟩ => ⟨S1x32, .f32⟩
  | .hbm, ⟨63, _⟩ => ⟨S200000x32, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x32, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x32, .f32⟩
  | .hbm, ⟨82, _⟩ => ⟨S1x32, .f32⟩
  | .hbm, ⟨83, _⟩ => ⟨S1x32, .f32⟩
  | .hbm, ⟨84, _⟩ => ⟨S1x1, .f32⟩
  | .hbm, ⟨85, _⟩ => ⟨S1600000x32, .f32⟩
  | .hbm, ⟨86, _⟩ => ⟨S_, .f32⟩
  | .hbm, ⟨87, _⟩ => ⟨S200000x32, .f32⟩
  | .hbm, ⟨88, _⟩ => ⟨S1600000x1, .i32⟩
  | .hbm, ⟨89, _⟩ => ⟨S200000x32, .f32⟩
  | .hbm, ⟨90, _⟩ => ⟨S1x96, .f32⟩
  | .hbm, ⟨91, _⟩ => ⟨S1x96, .f32⟩
  | .hbm, ⟨92, _⟩ => ⟨S200000x32, .f32⟩
  | .hbm, ⟨93, _⟩ => ⟨S50000, .f32⟩
  | .hbm, ⟨94, _⟩ => ⟨S1x50000, .f32⟩
  | .hbm, ⟨95, _⟩ => ⟨S4x50000, .f32⟩
  | .hbm, ⟨96, _⟩ => ⟨S200000, .f32⟩
  | .hbm, ⟨97, _⟩ => ⟨S200000x1, .f32⟩
  | .hbm, ⟨98, _⟩ => ⟨S200000x1, .f32⟩
  | .hbm, ⟨99, _⟩ => ⟨S200000x1, .f32⟩
  | .hbm, ⟨100, _⟩ => ⟨S200000x5, .f32⟩
  | .hbm, ⟨101, _⟩ => ⟨S1x8, .f32⟩
  | .hbm, ⟨102, _⟩ => ⟨S1x8, .f32⟩
  | .hbm, ⟨103, _⟩ => ⟨S1x2, .f32⟩
  | .hbm, ⟨104, _⟩ => ⟨S200000x8x2, .f32⟩
  | .hbm, ⟨105, _⟩ => ⟨S200000x8x2, .f32⟩
  | .local _ .vmem, ⟨0, _⟩ => ⟨S10000x64, .f32⟩
  | .local _ .vmem, ⟨1, _⟩ => ⟨S10000x64, .f32⟩
  | .local _ .vmem, ⟨2, _⟩ => ⟨S32x64, .f32⟩
  | .local _ .vmem, ⟨3, _⟩ => ⟨S1x32, .f32⟩
  | .local _ .vmem, ⟨4, _⟩ => ⟨S10000x32, .f32⟩
  | .local _ .vmem, ⟨5, _⟩ => ⟨S10000x32, .f32⟩
  | .local _ .vmem, ⟨6, _⟩ => ⟨S8000x32, .f32⟩
  | .local _ .vmem, ⟨7, _⟩ => ⟨S8000x32, .f32⟩
  | .local _ .vmem, ⟨8, _⟩ => ⟨S8000x32, .f32⟩
  | .local _ .vmem, ⟨9, _⟩ => ⟨S8000x32, .f32⟩
  | .local _ .vmem, ⟨10, _⟩ => ⟨S1x32, .f32⟩
  | .local _ .vmem, ⟨11, _⟩ => ⟨S1x32, .f32⟩
  | .local _ .vmem, ⟨12, _⟩ => ⟨S1x1, .f32⟩
  | .local _ .vmem, ⟨13, _⟩ => ⟨S8000x32, .f32⟩
  | .local _ .vmem, ⟨14, _⟩ => ⟨S8000x32, .f32⟩
  | .local _ .vmem, ⟨15, _⟩ => ⟨S10000x32, .f32⟩
  | .local _ .vmem, ⟨16, _⟩ => ⟨S10000x32, .f32⟩
  | .local _ .vmem, ⟨17, _⟩ => ⟨S32x32, .f32⟩
  | .local _ .vmem, ⟨18, _⟩ => ⟨S1x32, .f32⟩
  | .local _ .vmem, ⟨19, _⟩ => ⟨S10000x32, .f32⟩
  | .local _ .vmem, ⟨20, _⟩ => ⟨S10000x32, .f32⟩
  | .local _ .vmem, ⟨21, _⟩ => ⟨S8000x32, .f32⟩
  | .local _ .vmem, ⟨22, _⟩ => ⟨S8000x32, .f32⟩
  | .local _ .vmem, ⟨23, _⟩ => ⟨S8000x32, .f32⟩
  | .local _ .vmem, ⟨24, _⟩ => ⟨S8000x32, .f32⟩
  | .local _ .vmem, ⟨25, _⟩ => ⟨S1x32, .f32⟩
  | .local _ .vmem, ⟨26, _⟩ => ⟨S1x32, .f32⟩
  | .local _ .vmem, ⟨27, _⟩ => ⟨S1x1, .f32⟩
  | .local _ .vmem, ⟨28, _⟩ => ⟨S8000x32, .f32⟩
  | .local _ .vmem, ⟨29, _⟩ => ⟨S8000x32, .f32⟩
  | .local _ .vmem, ⟨30, _⟩ => ⟨S5000x32, .f32⟩
  | .local _ .vmem, ⟨31, _⟩ => ⟨S5000x32, .f32⟩
  | .local _ .vmem, ⟨32, _⟩ => ⟨S96x32, .f32⟩
  | .local _ .vmem, ⟨33, _⟩ => ⟨S1x96, .f32⟩
  | .local _ .vmem, ⟨34, _⟩ => ⟨S1x96, .f32⟩
  | .local _ .vmem, ⟨35, _⟩ => ⟨S5000x32, .f32⟩
  | .local _ .vmem, ⟨36, _⟩ => ⟨S5000x32, .f32⟩
  | .local _ .vmem, ⟨37, _⟩ => ⟨S1000x32, .f32⟩
  | .local _ .vmem, ⟨38, _⟩ => ⟨S1000x32, .f32⟩
  | .local _ .vmem, ⟨39, _⟩ => ⟨S1000x5, .f32⟩
  | .local _ .vmem, ⟨40, _⟩ => ⟨S1000x5, .f32⟩
  | .local _ .vmem, ⟨41, _⟩ => ⟨S8x34, .f32⟩
  | .local _ .vmem, ⟨42, _⟩ => ⟨S1x8, .f32⟩
  | .local _ .vmem, ⟨43, _⟩ => ⟨S8x34, .f32⟩
  | .local _ .vmem, ⟨44, _⟩ => ⟨S1x8, .f32⟩
  | .local _ .vmem, ⟨45, _⟩ => ⟨S2x34, .f32⟩
  | .local _ .vmem, ⟨46, _⟩ => ⟨S1x2, .f32⟩
  | .local _ .vmem, ⟨47, _⟩ => ⟨S1000x8x2, .f32⟩
  | .local _ .vmem, ⟨48, _⟩ => ⟨S1000x8x2, .f32⟩
  | .local _ .vmem, ⟨49, _⟩ => ⟨S1000x8x2, .f32⟩
  | .local _ .vmem, ⟨50, _⟩ => ⟨S1000x8x2, .f32⟩
  | _, _ => ⟨S4x16x50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_1 : Ref sig .tc := ⟨.hbm, 45, rfl⟩
abbrev main_v21 : Ref sig .tc := ⟨.hbm, 46, rfl⟩
abbrev main_v22 : Ref sig .tc := ⟨.hbm, 47, rfl⟩
abbrev main_c_2 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_3 : Ref sig .tc := ⟨.hbm, 64, rfl⟩
abbrev main_v37 : Ref sig .tc := ⟨.hbm, 65, rfl⟩
abbrev main_v38 : Ref sig .tc := ⟨.hbm, 66, rfl⟩
abbrev main_c_4 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_5 : Ref sig .tc := ⟨.hbm, 73, rfl⟩
abbrev main_v44 : Ref sig .tc := ⟨.hbm, 74, rfl⟩
abbrev main_v45 : Ref sig .tc := ⟨.hbm, 75, rfl⟩
abbrev main_c_6 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_7 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72_0 : Ref sig .tc := ⟨.hbm, 104, rfl⟩
abbrev main_v72_1 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg4_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg6_0 : Ref sig .tc := ⟨.vmem, 45, rfl⟩
abbrev cc5_stg7_0 : Ref sig .tc := ⟨.vmem, 46, rfl⟩
abbrev cc5_stg8_0 : Ref sig .tc := ⟨.vmem, 47, rfl⟩
abbrev cc5_stg8_1 : Ref sig .tc := ⟨.vmem, 48, rfl⟩
abbrev cc5_stg9_0 : Ref sig .tc := ⟨.vmem, 49, rfl⟩
abbrev cc5_stg9_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem4_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem6_0 : DmaSem sig := 45
abbrev cc5_sem7_0 : DmaSem sig := 46
abbrev cc5_sem8_0 : DmaSem sig := 47
abbrev cc5_sem8_1 : DmaSem sig := 48
abbrev cc5_sem9_0 : DmaSem sig := 49
abbrev cc5_sem9_1 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S96x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_9 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x5 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S8x34 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x8 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S8x34 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x8 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S2x34 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x2 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S1000x8x2 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S1000x8x2 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  slices_S4x16x50000x4_S4x1x50000x1_0_15_0_1 : S4x16x50000x4.Slices ![0, 15, 0, 1] S4x1x50000x1
  shapeCasts_S4x1x50000x1_S4x50000 : S4x1x50000x1.ShapeCasts S4x50000
  shapeCasts_S4x50000_S200000x1 : S4x50000.ShapeCasts S200000x1
  slices_S4x16x50000x4_S4x1x50000x1_0_15_0_2 : S4x16x50000x4.Slices ![0, 15, 0, 2] S4x1x50000x1
  transposes_S4x16x50000x4_S4x50000x16x4_0_2_1_3 : S4x16x50000x4.Transposes [0, 2, 1, 3] S4x50000x16x4
  shapeCasts_S4x50000x16x4_S200000x64 : S4x50000x16x4.ShapeCasts S200000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S32_S1x32 : S32.ShapeCasts S1x32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1x64_S1x32_0_0 : S1x64.Slices ![0, 0] S1x32
  slices_S1x64_S1x32_0_32 : S1x64.Slices ![0, 32] S1x32
  shapeCasts_S1_S1x1 : S1.ShapeCasts S1x1
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  broadcasts_S1x32_S8000x32 : S1x32.Broadcasts S8000x32
  reduces_S8000x32_S8000 : S8000x32.Reduces [1] S8000
  shapeCasts_S8000_S8000x1 : S8000.ShapeCasts S8000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  broadcasts_S8000x1_S8000x32 : S8000x1.Broadcasts S8000x32
  bcast_S_S200000x32 : S_.BroadcastsInDim S200000x32 (![] : Fin 0 → Fin S200000x32.rank)
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  shapeCasts_S96_S1x96 : S96.ShapeCasts S1x96
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S96x32_S96x32_0_0 : ∀ a, (![0, 0] : Fin 2 → Nat) a + S96x32.size a ≤ S96x32.size a
  h_S96x32 : 0 < S96x32.numel
  transposes_S96x32_p1_0_S32x96 : S96x32.Transposes [1, 0] S32x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  slices_S5000x96_o0_0_S5000x32 : S5000x96.Slices ![0, 0] S5000x32
  slices_S1x96_o0_0_S1x32 : S1x96.Slices ![0, 0] S1x32
  broadcasts_S1x32_S5000x32 : S1x32.Broadcasts S5000x32
  slices_S5000x96_o0_32_S5000x32 : S5000x96.Slices ![0, 32] S5000x32
  slices_S1x96_o0_32_S1x32 : S1x96.Slices ![0, 32] S1x32
  slices_S5000x96_o0_64_S5000x32 : S5000x96.Slices ![0, 64] S5000x32
  slices_S1x96_o0_64_S1x32 : S1x96.Slices ![0, 64] S1x32
  shapeCasts_S50000x1_S50000 : S50000x1.ShapeCasts S50000
  shapeCasts_S50000_S1x50000 : S50000.ShapeCasts S1x50000
  bcast_S1x50000_S4x50000_0_1 : S1x50000.BroadcastsInDim S4x50000 (![0, 1] : Fin 2 → Fin S4x50000.rank)
  shapeCasts_S4x50000_S200000 : S4x50000.ShapeCasts S200000
  slices_S200000x2_S200000x1_0_0 : S200000x2.Slices ![0, 0] S200000x1
  slices_S200000x2_S200000x1_0_1 : S200000x2.Slices ![0, 1] S200000x1
  bcast_S200000_S200000x1_0 : S200000.BroadcastsInDim S200000x1 (![0] : Fin 1 → Fin S200000x1.rank)
  concatenates_S200000x1_S200000x1_S200000x1_S200000x1_S200000x1_S200000x5_d1 : Shape.Concatenates [S200000x1, S200000x1, S200000x1, S200000x1, S200000x1] S200000x5 1
  shapeCasts_S8_S1x8 : S8.ShapeCasts S1x8
  shapeCasts_S2_S1x2 : S2.ShapeCasts S1x2
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  inb_S1000x5_S1000x5_0_0 : ∀ a, (![0, 0] : Fin 2 → Nat) a + S1000x5.size a ≤ S1000x5.size a
  h_S1000x5 : 0 < S1000x5.numel
  shapeCasts_S1000x5_S1000x5 : S1000x5.ShapeCasts S1000x5
  slices_S1000x5_o0_0_S1000x1 : S1000x5.Slices ![0, 0] S1000x1
  slices_S1000x5_o0_1_S1000x1 : S1000x5.Slices ![0, 1] S1000x1
  slices_S1000x5_o0_2_S1000x1 : S1000x5.Slices ![0, 2] S1000x1
  slices_S1000x5_o0_3_S1000x1 : S1000x5.Slices ![0, 3] S1000x1
  slices_S1000x5_o0_4_S1000x1 : S1000x5.Slices ![0, 4] S1000x1
  concatenates_S1000x32_S1000x1_S1000x1_S1000x34_d1 : Shape.Concatenates [S1000x32, S1000x1, S1000x1] S1000x34 1
  inb_S8x34_S8x34_0_0 : ∀ a, (![0, 0] : Fin 2 → Nat) a + S8x34.size a ≤ S8x34.size a
  h_S8x34 : 0 < S8x34.numel
  inb_S2x34_S2x34_0_0 : ∀ a, (![0, 0] : Fin 2 → Nat) a + S2x34.size a ≤ S2x34.size a
  h_S2x34 : 0 < S2x34.numel
  transposes_S8x34_p1_0_S34x8 : S8x34.Transposes [1, 0] S34x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1000x8 : S1x8.Broadcasts S1000x8
  transposes_S2x34_p1_0_S34x2 : S2x34.Transposes [1, 0] S34x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  slices_S1000x2_o0_0_S1000x1 : S1000x2.Slices ![0, 0] S1000x1
  slices_S1000x2_o0_1_S1000x1 : S1000x2.Slices ![0, 1] S1000x1
  concatenates_S1000x1_S1000x1_S1000x1_S1000x1_S1000x1_S1000x1_S1000x1_S1000x1_S1000x8_d1 : Shape.Concatenates [S1000x1, S1000x1, S1000x1, S1000x1, S1000x1, S1000x1, S1000x1, S1000x1] S1000x8 1
  shapeCasts_S1000x8_S1000x8x1 : S1000x8.ShapeCasts S1000x8x1
  concatenates_S1000x8x1_S1000x8x1_S1000x8x2_d2 : Shape.Concatenates [S1000x8x1, S1000x8x1] S1000x8x2 2
  inb_S1000x8x2_S1000x8x2_0_0_0 : ∀ a, (![0, 0, 0] : Fin 3 → Nat) a + S1000x8x2.size a ≤ S1000x8x2.size a
  h_S1000x8x2 : 0 < S1000x8x2.numel
  dot_S10000x64_S64x32_S10000x32_1_0_0_1_n_n_wf : DotDims.WF S10000x64 S64x32 S10000x32 [1] [0] [0] [1] [] []
  gather_S200000x32_S1600000x1_S1600000x32_1_0_n_n_0_1_132_wf : GatherDims.WF S200000x32 S1600000x1 S1600000x32 [1] [0] [] [0] [] 1 ![1, 32]
  scatter_S200000x32_S1600000x1_S1600000x32_1_0_0_1_wf : ScatterDims.WF S200000x32 S1600000x1 S1600000x32 [1] [0] [0] 1
  dot_S10000x32_S32x32_S10000x32_1_0_0_1_n_n_wf : DotDims.WF S10000x32 S32x32 S10000x32 [1] [0] [0] [1] [] []
  dot_S5000x32_S32x96_S5000x96_1_0_0_1_n_n_wf : DotDims.WF S5000x32 S32x96 S5000x96 [1] [0] [0] [1] [] []
  dot_S1000x34_S34x8_S1000x8_1_0_0_1_n_n_wf : DotDims.WF S1000x34 S34x8 S1000x8 [1] [0] [0] [1] [] []
  dot_S1000x34_S34x2_S1000x2_1_0_0_1_n_n_wf : DotDims.WF S1000x34 S34x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S200000x64.size a
  hwx0_0 : ∀ i : grid0.Coords, EltTy.bits .f32 = 32 ∨ (Rect.block (s := S200000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S200000x32.size a
  hwx0_3 : ∀ i : grid0.Coords, EltTy.bits .f32 = 32 ∨ (Rect.block (s := S200000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S1600000x32.size a
  hwx1_0 : ∀ i : grid1.Coords, EltTy.bits .f32 = 32 ∨ (Rect.block (s := S1600000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S1600000x32.size a
  hwx1_1 : ∀ i : grid1.Coords, EltTy.bits .f32 = 32 ∨ (Rect.block (s := S1600000x32) S8000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x32.size a ≤ S1600000x32.size a
  hwx1_5 : ∀ i : grid1.Coords, EltTy.bits .f32 = 32 ∨ (Rect.block (s := S1600000x32) S8000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S200000x32.size a
  hwx2_0 : ∀ i : grid2.Coords, EltTy.bits .f32 = 32 ∨ (Rect.block (s := S200000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S200000x32.size a
  hwx2_3 : ∀ i : grid2.Coords, EltTy.bits .f32 = 32 ∨ (Rect.block (s := S200000x32) S10000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x32.size a ≤ S1600000x32.size a
  hwx3_0 : ∀ i : grid3.Coords, EltTy.bits .f32 = 32 ∨ (Rect.block (s := S1600000x32) S8000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x32.size a ≤ S1600000x32.size a
  hwx3_1 : ∀ i : grid3.Coords, EltTy.bits .f32 = 32 ∨ (Rect.block (s := S1600000x32) S8000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x32.size a ≤ S1600000x32.size a
  hwx3_5 : ∀ i : grid3.Coords, EltTy.bits .f32 = 32 ∨ (Rect.block (s := S1600000x32) S8000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S200000x32.size a
  hwx4_0 : ∀ i : grid4.Coords, EltTy.bits .f32 = 32 ∨ (Rect.block (s := S200000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x32.size a ≤ S96x32.size a
  hwx4_1 : ∀ i : grid4.Coords, EltTy.bits .f32 = 32 ∨ (Rect.block (s := S96x32) S96x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x96.size a ≤ S1x96.size a
  hwx4_2 : ∀ i : grid4.Coords, EltTy.bits .f32 = 32 ∨ (Rect.block (s := S1x96) S1x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x96.size a ≤ S1x96.size a
  hwx4_3 : ∀ i : grid4.Coords, EltTy.bits .f32 = 32 ∨ (Rect.block (s := S1x96) S1x96.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x32.size a ≤ S200000x32.size a
  hwx4_4 : ∀ i : grid4.Coords, EltTy.bits .f32 = 32 ∨ (Rect.block (s := S200000x32) S5000x32.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x32.size a ≤ S200000x32.size a
  hwx5_0 : ∀ i : grid5.Coords, EltTy.bits .f32 = 32 ∨ (Rect.block (s := S200000x32) S1000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x5.size a ≤ S200000x5.size a
  hwx5_1 : ∀ i : grid5.Coords, EltTy.bits .f32 = 32 ∨ (Rect.block (s := S200000x5) S1000x5.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S8x34.size a ≤ S8x34.size a
  hwx5_2 : ∀ i : grid5.Coords, EltTy.bits .f32 = 32 ∨ (Rect.block (s := S8x34) S8x34.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x8.size a ≤ S1x8.size a
  hwx5_3 : ∀ i : grid5.Coords, EltTy.bits .f32 = 32 ∨ (Rect.block (s := S1x8) S1x8.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S8x34.size a ≤ S8x34.size a
  hwx5_4 : ∀ i : grid5.Coords, EltTy.bits .f32 = 32 ∨ (Rect.block (s := S8x34) S8x34.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x8.size a ≤ S1x8.size a
  hwx5_5 : ∀ i : grid5.Coords, EltTy.bits .f32 = 32 ∨ (Rect.block (s := S1x8) S1x8.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S2x34.size a ≤ S2x34.size a
  hwx5_6 : ∀ i : grid5.Coords, EltTy.bits .f32 = 32 ∨ (Rect.block (s := S2x34) S2x34.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x2.size a ≤ S1x2.size a
  hwx5_7 : ∀ i : grid5.Coords, EltTy.bits .f32 = 32 ∨ (Rect.block (s := S1x2) S1x2.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1000x8x2.size a ≤ S200000x8x2.size a
  hwx5_8 : ∀ i : grid5.Coords, EltTy.bits .f32 = 32 ∨ (Rect.block (s := S200000x8x2) S1000x8x2.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S1000x8x2.size a ≤ S200000x8x2.size a
  hwx5_9 : ∀ i : grid5.Coords, EltTy.bits .f32 = 32 ∨ (Rect.block (s := S200000x8x2) S1000x8x2.size (cc5_transform_9 i) (hinb5_9 i)).WholeWords (EltTy.packing .f32)

variable [Facts₀]

def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S200000x32_S1600000x1_S1600000x32_1_0_n_n_0_1_132 : GatherDims S200000x32 S1600000x1 S1600000x32 where
  offsetDims := [1]
  collapsedSliceDims := [0]
  operandBatchingDims := []
  startIndicesBatchingDims := []
  startIndexMap := [0]
  indexVectorDim := 1
  sliceSizes := ![1, 32]
  wf := gather_S200000x32_S1600000x1_S1600000x32_1_0_n_n_0_1_132_wf
def scatter_S200000x32_S1600000x1_S1600000x32_1_0_0_1 : ScatterDims S200000x32 S1600000x1 S1600000x32 where
  updateWindowDims := [1]
  insertedWindowDims := [0]
  scatterDimsToOperandDims := [0]
  indexVectorDim := 1
  wf := scatter_S200000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S5000x32_S32x96_S5000x96_1_0_0_1_n_n : DotDims S5000x32 S32x96 S5000x96 where
  lhsContracting := [1]
  rhsContracting := [0]
  lhsNonContracting := [0]
  rhsNonContracting := [1]
  lhsBatch := []
  rhsBatch := []
  wf := dot_S5000x32_S32x96_S5000x96_1_0_0_1_n_n_wf
def dot_S1000x34_S34x8_S1000x8_1_0_0_1_n_n : DotDims S1000x34 S34x8 S1000x8 where
  lhsContracting := [1]
  rhsContracting := [0]
  lhsNonContracting := [0]
  rhsNonContracting := [1]
  lhsBatch := []
  rhsBatch := []
  wf := dot_S1000x34_S34x8_S1000x8_1_0_0_1_n_n_wf
def dot_S1000x34_S34x2_S1000x2_1_0_0_1_n_n : DotDims S1000x34 S34x2 S1000x2 where
  lhsContracting := [1]
  rhsContracting := [0]
  lhsNonContracting := [0]
  rhsNonContracting := [1]
  lhsBatch := []
  rhsBatch := []
  wf := dot_S1000x34_S34x2_S1000x2_1_0_0_1_n_n_wf

abbrev win0_0 : Pipeline.Window sig grid0 :=
  Pipeline.Window.ofSpec (Memref.whole main_v7) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S8000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S8000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S8000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S8000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v57) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S96x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59) S1x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S5000x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v60) S1000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S1000x5.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg16) S8x34.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S1x8.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg18) S8x34.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v70) S1x8.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg20) S2x34.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v71) S1x2.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v72_0) S1000x8x2.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v72_1) S1000x8x2.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S4x16x50000x4 : Shape := ⟨4, ![4, 16, 50000, 4]⟩
abbrev S2x1600000 : Shape := ⟨2, ![2, 1600000]⟩
abbrev S200000x2 : Shape := ⟨2, ![200000, 2]⟩
abbrev S50000x1 : Shape := ⟨2, ![50000, 1]⟩
abbrev S32x64 : Shape := ⟨2, ![32, 64]⟩
abbrev S32 : Shape := ⟨1, ![32]⟩
abbrev S1x64 : Shape := ⟨2, ![1, 64]⟩
abbrev S1 : Shape := ⟨1, ![1]⟩
abbrev S32x32 : Shape := ⟨2, ![32, 32]⟩
abbrev S96x32 : Shape := ⟨2, ![96, 32]⟩
abbrev S96 : Shape := ⟨1, ![96]⟩
abbrev S8x34 : Shape := ⟨2, ![8, 34]⟩
abbrev S8 : Shape := ⟨1, ![8]⟩
abbrev S2x34 : Shape := ⟨2, ![2, 34]⟩
abbrev S2 : Shape := ⟨1, ![2]⟩
abbrev S4x1x50000x1 : Shape := ⟨4, ![4, 1, 50000, 1]⟩
abbrev S4x50000 : Shape := ⟨2, ![4, 50000]⟩
abbrev S200000x1 : Shape := ⟨2, ![200000, 1]⟩
abbrev S4x50000x16x4 : Shape := ⟨4, ![4, 50000, 16, 4]⟩
abbrev S200000x64 : Shape := ⟨2, ![200000, 64]⟩
abbrev S1x1600000 : Shape := ⟨2, ![1, 1600000]⟩
abbrev S1600000 : Shape := ⟨1, ![1600000]⟩
abbrev S64x32 : Shape := ⟨2, ![64, 32]⟩
abbrev S200000x32 : Shape := ⟨2, ![200000, 32]⟩
abbrev S1x32 : Shape := ⟨2, ![1, 32]⟩
abbrev S_ : Shape := ⟨0, ![]⟩
abbrev S1600000x1 : Shape := ⟨2, ![1600000, 1]⟩
abbrev S1600000x32 : Shape := ⟨2, ![1600000, 32]⟩
abbrev S1600000x64 : Shape := ⟨2, ![1600000, 64]⟩
abbrev S64x1 : Shape := ⟨2, ![64, 1]⟩
abbrev S1x1 : Shape := ⟨2, ![1, 1]⟩
abbrev S32x96 : Shape := ⟨2, ![32, 96]⟩
abbrev S200000x96 : Shape := ⟨2, ![200000, 96]⟩
abbrev S1x96 : Shape := ⟨2, ![1, 96]⟩
abbrev S200000x34 : Shape := ⟨2, ![200000, 34]⟩
abbrev S34x8 : Shape := ⟨2, ![34, 8]⟩
abbrev S200000x8 : Shape := ⟨2, ![200000, 8]⟩
abbrev S1x8 : Shape := ⟨2, ![1, 8]⟩
abbrev S200000x8x1 : Shape := ⟨3, ![200000, 8, 1]⟩
abbrev S34x2 : Shape := ⟨2, ![34, 2]⟩
abbrev S1x2 : Shape := ⟨2, ![1, 2]⟩
abbrev S200000 : Shape := ⟨1, ![200000]⟩
abbrev S1x50000x1x1 : Shape := ⟨4, ![1, 50000, 1, 1]⟩
abbrev S4x50000x1x1 : Shape := ⟨4, ![4, 50000, 1, 1]⟩
abbrev S200000x8x2 : Shape := ⟨3, ![200000, 8, 2]⟩

abbrev nBuf : Space → Nat
  | .hbm => 340
  | .vmem => 0
  | .smem => 0
  | _ => 0

abbrev hbmTy0_0 (i : Nat) : BufTy := match i % 128 with
  | 0 => ⟨S4x16x50000x4, .f32⟩
  | 1 => ⟨S2x1600000, .i32⟩
  | 2 => ⟨S200000x2, .f32⟩
  | 3 => ⟨S50000x1, .f32⟩
  | 4 => ⟨S32x64, .f32⟩
  | 5 => ⟨S32, .f32⟩
  | 6 => ⟨S1x64, .f32⟩
  | 7 => ⟨S1, .f32⟩
  | 8 => ⟨S32x32, .f32⟩
  | 9 => ⟨S32, .f32⟩
  | 10 => ⟨S1x64, .f32⟩
  | 11 => ⟨S1, .f32⟩
  | 12 => ⟨S96x32, .f32⟩
  | 13 => ⟨S96x32, .f32⟩
  | 14 => ⟨S96, .f32⟩
  | 15 => ⟨S96, .f32⟩
  | 16 => ⟨S8x34, .f32⟩
  | 17 => ⟨S8, .f32⟩
  | 18 => ⟨S8x34, .f32⟩
  | 19 => ⟨S8, .f32⟩
  | 20 => ⟨S2x34, .f32⟩
  | 21 => ⟨S2, .f32⟩
  | 22 => ⟨S4x1x50000x1, .f32⟩
  | 23 => ⟨S4x50000, .f32⟩
  | 24 => ⟨S200000x1, .f32⟩
  | 25 => ⟨S4x1x50000x1, .f32⟩
  | 26 => ⟨S4x50000, .f32⟩
  | 27 => ⟨S200000x1, .f32⟩
  | 28 => ⟨S4x50000x16x4, .f32⟩
  | 29 => ⟨S200000x64, .f32⟩
  | 30 => ⟨S1x1600000, .i32⟩
  | 31 => ⟨S1600000, .i32⟩
  | 32 => ⟨S1x1600000, .i32⟩
  | 33 => ⟨S1600000, .i32⟩
  | 34 => ⟨S64x32, .f32⟩
  | 35 => ⟨S200000x32, .f32⟩
  | 36 => ⟨S1x32, .f32⟩
  | 37 => ⟨S200000x32, .f32⟩
  | 38 => ⟨S200000x32, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x32, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x32, .f32⟩
  | 57 => ⟨S1600000x64, .f32⟩
  | 58 => ⟨S64x1, .f32⟩
  | 59 => ⟨S1600000x1, .f32⟩
  | 60 => ⟨S1x1, .f32⟩
  | 61 => ⟨S1600000x1, .f32⟩
  | 62 => ⟨S1600000x1, .f32⟩
  | 63 => ⟨S_, .f32⟩
  | 64 => ⟨S_, .f32⟩
  | 65 => ⟨S1600000x1, .f32⟩
  | 66 => ⟨S1600000x1, .i1⟩
  | 67 => ⟨S_, .f32⟩
  | 68 => ⟨S1600000x1, .f32⟩
  | 69 => ⟨S1600000x1, .f32⟩
  | 70 => ⟨S1600000x1, .f32⟩
  | 71 => ⟨S1600000x32, .f32⟩
  | 72 => ⟨S1600000x32, .f32⟩
  | 73 => ⟨S_, .f32⟩
  | 74 => ⟨S200000x32, .f32⟩
  | 75 => ⟨S1600000x1, .i32⟩
  | 76 => ⟨S200000x32, .f32⟩
  | 77 => ⟨S_, .f32⟩
  | 78 => ⟨S200000x32, .f32⟩
  | 79 => ⟨S200000x32, .i1⟩
  | 80 => ⟨S_, .f32⟩
  | 81 => ⟨S200000x32, .f32⟩
  | 82 => ⟨S200000x32, .i1⟩
  | 83 => ⟨S_, .f32⟩
  | 84 => ⟨S_, .f32⟩
  | 85 => ⟨S200000x32, .f32⟩
  | 86 => ⟨S200000x32, .f32⟩
  | 87 => ⟨S200000x32, .f32⟩
  | 88 => ⟨S_, .f32⟩
  | 89 => ⟨S200000x32, .f32⟩
  | 90 => ⟨S200000x32, .f32⟩
  | 91 => ⟨S200000x32, .f32⟩
  | 92 => ⟨S32x32, .f32⟩
  | 93 => ⟨S200000x32, .f32⟩
  | 94 => ⟨S1x32, .f32⟩
  | 95 => ⟨S200000x32, .f32⟩
  | 96 => ⟨S200000x32, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x32, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x32, .f32⟩
  | 115 => ⟨S1600000x64, .f32⟩
  | 116 => ⟨S64x1, .f32⟩
  | 117 => ⟨S1600000x1, .f32⟩
  | 118 => ⟨S1x1, .f32⟩
  | 119 => ⟨S1600000x1, .f32⟩
  | 120 => ⟨S1600000x1, .f32⟩
  | 121 => ⟨S_, .f32⟩
  | 122 => ⟨S_, .f32⟩
  | 123 => ⟨S1600000x1, .f32⟩
  | 124 => ⟨S1600000x1, .i1⟩
  | 125 => ⟨S_, .f32⟩
  | 126 => ⟨S1600000x1, .f32⟩
  | 127 => ⟨S1600000x1, .f32⟩
  | _ => ⟨S4x16x50000x4, .f32⟩

abbrev hbmTy0_1 (i : Nat) : BufTy := match i % 128 with
  | 0 => ⟨S1600000x1, .f32⟩
  | 1 => ⟨S1600000x32, .f32⟩
  | 2 => ⟨S1600000x32, .f32⟩
  | 3 => ⟨S_, .f32⟩
  | 4 => ⟨S200000x32, .f32⟩
  | 5 => ⟨S1600000x1, .i32⟩
  | 6 => ⟨S200000x32, .f32⟩
  | 7 => ⟨S_, .f32⟩
  | 8 => ⟨S200000x32, .f32⟩
  | 9 => ⟨S200000x32, .i1⟩
  | 10 => ⟨S_, .f32⟩
  | 11 => ⟨S200000x32, .f32⟩
  | 12 => ⟨S200000x32, .i1⟩
  | 13 => ⟨S_, .f32⟩
  | 14 => ⟨S_, .f32⟩
  | 15 => ⟨S200000x32, .f32⟩
  | 16 => ⟨S200000x32, .f32⟩
  | 17 => ⟨S200000x32, .f32⟩
  | 18 => ⟨S_, .f32⟩
  | 19 => ⟨S200000x32, .f32⟩
  | 20 => ⟨S200000x32, .f32⟩
  | 21 => ⟨S200000x32, .f32⟩
  | 22 => ⟨S32x96, .f32⟩
  | 23 => ⟨S200000x96, .f32⟩
  | 24 => ⟨S1x96, .f32⟩
  | 25 => ⟨S200000x96, .f32⟩
  | 26 => ⟨S200000x96, .f32⟩
  | 27 => ⟨S200000x32, .f32⟩
  | 28 => ⟨S32, .f32⟩
  | 29 => ⟨S1x32, .f32⟩
  | 30 => ⟨S200000x32, .f32⟩
  | 31 => ⟨S200000x32, .f32⟩
  | 32 => ⟨S200000x32, .f32⟩
  | 33 => ⟨S200000x32, .f32⟩
  | 34 => ⟨S_, .f32⟩
  | 35 => ⟨S200000x32, .f32⟩
  | 36 => ⟨S200000x32, .f32⟩
  | 37 => ⟨S_, .f32⟩
  | 38 => ⟨S200000x32, .f32⟩
  | 39 => ⟨S200000x32, .f32⟩
  | 40 => ⟨S200000x32, .f32⟩
  | 41 => ⟨S32, .f32⟩
  | 42 => ⟨S1x32, .f32⟩
  | 43 => ⟨S200000x32, .f32⟩
  | 44 => ⟨S200000x32, .f32⟩
  | 45 => ⟨S200000x32, .f32⟩
  | 46 => ⟨S200000x32, .f32⟩
  | 47 => ⟨S_, .f32⟩
  | 48 => ⟨S200000x32, .f32⟩
  | 49 => ⟨S200000x32, .f32⟩
  | 50 => ⟨S_, .f32⟩
  | 51 => ⟨S200000x32, .f32⟩
  | 52 => ⟨S200000x32, .f32⟩
  | 53 => ⟨S200000x32, .f32⟩
  | 54 => ⟨S32, .f32⟩
  | 55 => ⟨S1x32, .f32⟩
  | 56 => ⟨S200000x32, .f32⟩
  | 57 => ⟨S200000x32, .f32⟩
  | 58 => ⟨S200000x32, .f32⟩
  | 59 => ⟨S200000x32, .f32⟩
  | 60 => ⟨S_, .f32⟩
  | 61 => ⟨S200000x32, .f32⟩
  | 62 => ⟨S200000x32, .f32⟩
  | 63 => ⟨S200000x32, .f32⟩
  | 64 => ⟨S200000x34, .f32⟩
  | 65 => ⟨S34x8, .f32⟩
  | 66 => ⟨S200000x8, .f32⟩
  | 67 => ⟨S1x8, .f32⟩
  | 68 => ⟨S200000x8, .f32⟩
  | 69 => ⟨S200000x8, .f32⟩
  | 70 => ⟨S200000x8x1, .f32⟩
  | 71 => ⟨S34x8, .f32⟩
  | 72 => ⟨S200000x8, .f32⟩
  | 73 => ⟨S1x8, .f32⟩
  | 74 => ⟨S200000x8, .f32⟩
  | 75 => ⟨S200000x8, .f32⟩
  | 76 => ⟨S200000x8x1, .f32⟩
  | 77 => ⟨S34x2, .f32⟩
  | 78 => ⟨S200000x2, .f32⟩
  | 79 => ⟨S1x2, .f32⟩
  | 80 => ⟨S200000x2, .f32⟩
  | 81 => ⟨S200000x2, .f32⟩
  | 82 => ⟨S200000x1, .f32⟩
  | 83 => ⟨S200000, .f32⟩
  | 84 => ⟨S200000, .f32⟩
  | 85 => ⟨S200000, .f32⟩
  | 86 => ⟨S_, .f32⟩
  | 87 => ⟨S200000, .f32⟩
  | 88 => ⟨S200000, .f32⟩
  | 89 => ⟨S_, .f32⟩
  | 90 => ⟨S200000, .f32⟩
  | 91 => ⟨S200000, .f32⟩
  | 92 => ⟨S200000x1, .f32⟩
  | 93 => ⟨S200000, .f32⟩
  | 94 => ⟨S200000, .f32⟩
  | 95 => ⟨S200000, .f32⟩
  | 96 => ⟨S_, .f32⟩
  | 97 => ⟨S200000, .f32⟩
  | 98 => ⟨S200000, .f32⟩
  | 99 => ⟨S_, .f32⟩
  | 100 => ⟨S200000, .f32⟩
  | 101 => ⟨S200000, .f32⟩
  | 102 => ⟨S1x50000x1x1, .f32⟩
  | 103 => ⟨S4x50000x1x1, .f32⟩
  | 104 => ⟨S200000x1, .f32⟩
  | 105 => ⟨S200000, .f32⟩
  | 106 => ⟨S200000x1, .f32⟩
  | 107 => ⟨S200000, .f32⟩
  | 108 => ⟨S200000x1, .f32⟩
  | 109 => ⟨S200000, .f32⟩
  | 110 => ⟨S200000, .f32⟩
  | 111 => ⟨S200000, .f32⟩
  | 112 => ⟨S200000, .f32⟩
  | 113 => ⟨S200000, .f32⟩
  | 114 => ⟨S200000, .f32⟩
  | 115 => ⟨S200000, .f32⟩
  | 116 => ⟨S200000, .f32⟩
  | 117 => ⟨S200000, .f32⟩
  | 118 => ⟨S200000, .f32⟩
  | 119 => ⟨S200000, .f32⟩
  | 120 => ⟨S200000, .f32⟩
  | 121 => ⟨S200000, .f32⟩
  | 122 => ⟨S200000, .f32⟩
  | 123 => ⟨S200000, .f32⟩
  | 124 => ⟨S200000, .f32⟩
  | 125 => ⟨S200000, .f32⟩
  | 126 => ⟨S200000, .f32⟩
  | 127 => ⟨S200000, .f32⟩
  | _ => ⟨S4x16x50000x4, .f32⟩

abbrev hbmTy0_2 (i : Nat) : BufTy := match i % 128 with
  | 0 => ⟨S200000, .f32⟩
  | 1 => ⟨S200000, .f32⟩
  | 2 => ⟨S200000, .f32⟩
  | 3 => ⟨S200000, .f32⟩
  | 4 => ⟨S200000, .f32⟩
  | 5 => ⟨S200000, .f32⟩
  | 6 => ⟨S200000, .f32⟩
  | 7 => ⟨S200000, .f32⟩
  | 8 => ⟨S200000, .f32⟩
  | 9 => ⟨S200000, .f32⟩
  | 10 => ⟨S200000, .f32⟩
  | 11 => ⟨S200000, .f32⟩
  | 12 => ⟨S200000, .f32⟩
  | 13 => ⟨S200000, .f32⟩
  | 14 => ⟨S200000, .f32⟩
  | 15 => ⟨S200000, .f32⟩
  | 16 => ⟨S200000, .f32⟩
  | 17 => ⟨S200000, .f32⟩
  | 18 => ⟨S200000, .f32⟩
  | 19 => ⟨S200000, .f32⟩
  | 20 => ⟨S200000, .f32⟩
  | 21 => ⟨S200000, .f32⟩
  | 22 => ⟨S200000, .f32⟩
  | 23 => ⟨S200000, .f32⟩
  | 24 => ⟨S200000, .f32⟩
  | 25 => ⟨S200000, .f32⟩
  | 26 => ⟨S200000, .f32⟩
  | 27 => ⟨S200000, .f32⟩
  | 28 => ⟨S200000, .f32⟩
  | 29 => ⟨S200000, .f32⟩
  | 30 => ⟨S200000, .f32⟩
  | 31 => ⟨S200000, .f32⟩
  | 32 => ⟨S200000, .f32⟩
  | 33 => ⟨S200000, .f32⟩
  | 34 => ⟨S200000, .f32⟩
  | 35 => ⟨S200000, .f32⟩
  | 36 => ⟨S200000, .f32⟩
  | 37 => ⟨S200000, .f32⟩
  | 38 => ⟨S200000, .f32⟩
  | 39 => ⟨S200000, .f32⟩
  | 40 => ⟨S200000, .f32⟩
  | 41 => ⟨S200000, .f32⟩
  | 42 => ⟨S200000, .f32⟩
  | 43 => ⟨S200000, .f32⟩
  | 44 => ⟨S200000, .f32⟩
  | 45 => ⟨S200000, .f32⟩
  | 46 => ⟨S200000, .f32⟩
  | 47 => ⟨S200000, .f32⟩
  | 48 => ⟨S200000, .f32⟩
  | 49 => ⟨S200000, .f32⟩
  | 50 => ⟨S200000, .f32⟩
  | 51 => ⟨S200000, .f32⟩
  | 52 => ⟨S200000, .f32⟩
  | 53 => ⟨S200000, .f32⟩
  | 54 => ⟨S200000, .f32⟩
  | 55 => ⟨S200000, .f32⟩
  | 56 => ⟨S200000, .f32⟩
  | 57 => ⟨S200000, .f32⟩
  | 58 => ⟨S200000, .f32⟩
  | 59 => ⟨S200000, .f32⟩
  | 60 => ⟨S200000, .f32⟩
  | 61 => ⟨S200000, .f32⟩
  | 62 => ⟨S200000x1, .f32⟩
  | 63 => ⟨S200000x1, .f32⟩
  | 64 => ⟨S200000x1, .f32⟩
  | 65 => ⟨S200000x1, .f32⟩
  | 66 => ⟨S200000x1, .f32⟩
  | 67 => ⟨S200000x1, .f32⟩
  | 68 => ⟨S200000x1, .f32⟩
  | 69 => ⟨S200000x1, .f32⟩
  | 70 => ⟨S200000x8, .f32⟩
  | 71 => ⟨S200000x8x1, .f32⟩
  | 72 => ⟨S200000x1, .f32⟩
  | 73 => ⟨S200000x1, .f32⟩
  | 74 => ⟨S200000x1, .f32⟩
  | 75 => ⟨S200000x1, .f32⟩
  | 76 => ⟨S200000x1, .f32⟩
  | 77 => ⟨S200000x1, .f32⟩
  | 78 => ⟨S200000x1, .f32⟩
  | 79 => ⟨S200000x1, .f32⟩
  | 80 => ⟨S200000x8, .f32⟩
  | 81 => ⟨S200000x8x1, .f32⟩
  | 82 => ⟨S200000x8x2, .f32⟩
  | 83 => ⟨S200000x8x2, .f32⟩
  | _ => ⟨S4x16x50000x4, .f32⟩

abbrev hbmTy (i : Nat) : BufTy := match i / 128 with
  | 0 => hbmTy0_0 i
  | 1 => hbmTy0_1 i
  | 2 => hbmTy0_2 i
  | _ => ⟨S4x16x50000x4, .f32⟩

abbrev bufTy : (tb : Table) → Fin (tcTables nBuf tb) → BufTy
  | .hbm, ⟨i, _⟩ => hbmTy i
  | _, _ => ⟨S4x16x50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_1 : Ref sig .tc := ⟨.hbm, 48, rfl⟩
abbrev main_v24 : Ref sig .tc := ⟨.hbm, 49, rfl⟩
abbrev main_v25 : Ref sig .tc := ⟨.hbm, 50, rfl⟩
abbrev main_c_2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_3 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_cst_1 : Ref sig .tc := ⟨.hbm, 83, rfl⟩
abbrev main_call1_call0_v0 : Ref sig .tc := ⟨.hbm, 84, rfl⟩
abbrev main_call1_call0_v1 : Ref sig .tc := ⟨.hbm, 85, rfl⟩
abbrev main_call1_v4 : Ref sig .tc := ⟨.hbm, 86, rfl⟩
abbrev main_call1_v5 : Ref sig .tc := ⟨.hbm, 87, rfl⟩
abbrev main_call1_cst_2 : Ref sig .tc := ⟨.hbm, 88, rfl⟩
abbrev main_call1_v6 : Ref sig .tc := ⟨.hbm, 89, rfl⟩
abbrev main_call1_v7 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_c_4 : Ref sig .tc := ⟨.hbm, 97, rfl⟩
abbrev main_v49 : Ref sig .tc := ⟨.hbm, 98, rfl⟩
abbrev main_v50 : Ref sig .tc := ⟨.hbm, 99, rfl⟩
abbrev main_c_5 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_6 : Ref sig .tc := ⟨.hbm, 106, rfl⟩
abbrev main_v56 : Ref sig .tc := ⟨.hbm, 107, rfl⟩
abbrev main_v57 : Ref sig .tc := ⟨.hbm, 108, rfl⟩
abbrev main_c_7 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_8 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_cst_9 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_call3_cst : Ref sig .tc := ⟨.hbm, 135, rfl⟩
abbrev main_call3_v0 : Ref sig .tc := ⟨.hbm, 136, rfl⟩
abbrev main_call3_v1 : Ref sig .tc := ⟨.hbm, 137, rfl⟩
abbrev main_call3_cst_0 : Ref sig .tc := ⟨.hbm, 138, rfl⟩
abbrev main_call3_v2 : Ref sig .tc := ⟨.hbm, 139, rfl⟩
abbrev main_call3_v3 : Ref sig .tc := ⟨.hbm, 140, rfl⟩
abbrev main_call3_cst_1 : Ref sig .tc := ⟨.hbm, 141, rfl⟩
abbrev main_call3_call0_v0 : Ref sig .tc := ⟨.hbm, 142, rfl⟩
abbrev main_call3_call0_v1 : Ref sig .tc := ⟨.hbm, 143, rfl⟩
abbrev main_call3_v4 : Ref sig .tc := ⟨.hbm, 144, rfl⟩
abbrev main_call3_v5 : Ref sig .tc := ⟨.hbm, 145, rfl⟩
abbrev main_call3_cst_2 : Ref sig .tc := ⟨.hbm, 146, rfl⟩
abbrev main_call3_v6 : Ref sig .tc := ⟨.hbm, 147, rfl⟩
abbrev main_call3_v7 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_cst_10 : Ref sig .tc := ⟨.hbm, 162, rfl⟩
abbrev main_v88 : Ref sig .tc := ⟨.hbm, 163, rfl⟩
abbrev main_v89 : Ref sig .tc := ⟨.hbm, 164, rfl⟩
abbrev main_cst_11 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_cst_12 : Ref sig .tc := ⟨.hbm, 175, rfl⟩
abbrev main_v99 : Ref sig .tc := ⟨.hbm, 176, rfl⟩
abbrev main_v100 : Ref sig .tc := ⟨.hbm, 177, rfl⟩
abbrev main_cst_13 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_cst_14 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_cst_15 : Ref sig .tc := ⟨.hbm, 214, rfl⟩
abbrev main_v135 : Ref sig .tc := ⟨.hbm, 215, rfl⟩
abbrev main_v136 : Ref sig .tc := ⟨.hbm, 216, rfl⟩
abbrev main_cst_16 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_cst_17 : Ref sig .tc := ⟨.hbm, 224, rfl⟩
abbrev main_v143 : Ref sig .tc := ⟨.hbm, 225, rfl⟩
abbrev main_v144 : Ref sig .tc := ⟨.hbm, 226, rfl⟩
abbrev main_cst_18 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩

abbrev nD : Nat := 1
abbrev τ : Topo := Topo.v7x

variable {F : FTy → Type} [FloatOps F]

class Facts₀ : Prop where
  slices_S4x16x50000x4_S4x1x50000x1_0_15_0_1 : S4x16x50000x4.Slices ![0, 15, 0, 1] S4x1x50000x1
  shapeCasts_S4x1x50000x1_S4x50000 : S4x1x50000x1.ShapeCasts S4x50000
  shapeCasts_S4x50000_S200000x1 : S4x50000.ShapeCasts S200000x1
  slices_S4x16x50000x4_S4x1x50000x1_0_15_0_2 : S4x16x50000x4.Slices ![0, 15, 0, 2] S4x1x50000x1
  transposes_S4x16x50000x4_S4x50000x16x4_0_2_1_3 : S4x16x50000x4.Transposes [0, 2, 1, 3] S4x50000x16x4
  shapeCasts_S4x50000x16x4_S200000x64 : S4x50000x16x4.ShapeCasts S200000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S32x64_S64x32_1_0 : S32x64.Transposes [1, 0] S64x32
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  transposes_S1x64_S64x1_1_0 : S1x64.Transposes [1, 0] S64x1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  bcast_S1600000x1_S1600000x32_0_1 : S1600000x1.BroadcastsInDim S1600000x32 (![0, 1] : Fin 2 → Fin S1600000x32.rank)
  bcast_S_S200000x32 : S_.BroadcastsInDim S200000x32 (![] : Fin 0 → Fin S200000x32.rank)
  transposes_S32x32_S32x32_1_0 : S32x32.Transposes [1, 0] S32x32
  transposes_S96x32_S32x96_1_0 : S96x32.Transposes [1, 0] S32x96
  bcast_S96_S1x96_1 : S96.BroadcastsInDim S1x96 (![1] : Fin 1 → Fin S1x96.rank)
  bcast_S1x96_S200000x96_0_1 : S1x96.BroadcastsInDim S200000x96 (![0, 1] : Fin 2 → Fin S200000x96.rank)
  slices_S200000x96_S200000x32_0_0 : S200000x96.Slices ![0, 0] S200000x32
  slices_S96_S32_0 : S96.Slices ![0] S32
  slices_S200000x96_S200000x32_0_32 : S200000x96.Slices ![0, 32] S200000x32
  slices_S96_S32_32 : S96.Slices ![32] S32
  slices_S200000x96_S200000x32_0_64 : S200000x96.Slices ![0, 64] S200000x32
  slices_S96_S32_64 : S96.Slices ![64] S32
  concatenates_S200000x32_S200000x1_S200000x1_S200000x34_d1 : Shape.Concatenates [S200000x32, S200000x1, S200000x1] S200000x34 1
  transposes_S8x34_S34x8_1_0 : S8x34.Transposes [1, 0] S34x8
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  bcast_S200000x8_S200000x8x1_0_1 : S200000x8.BroadcastsInDim S200000x8x1 (![0, 1] : Fin 2 → Fin S200000x8x1.rank)
  transposes_S2x34_S34x2_1_0 : S2x34.Transposes [1, 0] S34x2
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  slices_S200000x2_S200000x1_0_1 : S200000x2.Slices ![0, 1] S200000x1
  shapeCasts_S50000x1_S1x50000x1x1 : S50000x1.ShapeCasts S1x50000x1x1
  bcast_S1x50000x1x1_S4x50000x1x1_0_1_2_3 : S1x50000x1x1.BroadcastsInDim S4x50000x1x1 (![0, 1, 2, 3] : Fin 4 → Fin S4x50000x1x1.rank)
  shapeCasts_S4x50000x1x1_S200000x1 : S4x50000x1x1.ShapeCasts S200000x1
  bcast_S200000_S200000x1_0 : S200000.BroadcastsInDim S200000x1 (![0] : Fin 1 → Fin S200000x1.rank)
  concatenates_S200000x1_S200000x1_S200000x1_S200000x1_S200000x1_S200000x1_S200000x1_S200000x1_S200000x8_d1 : Shape.Concatenates [S200000x1, S200000x1, S200000x1, S200000x1, S200000x1, S200000x1, S200000x1, S200000x1] S200000x8 1
  concatenates_S200000x8x1_S200000x8x1_S200000x8x2_d2 : Shape.Concatenates [S200000x8x1, S200000x8x1] S200000x8x2 2
  dot_S200000x64_S64x32_S200000x32_1_0_0_1_n_n_wf : DotDims.WF S200000x64 S64x32 S200000x32 [1] [0] [0] [1] [] []
  gather_S200000x32_S1600000x1_S1600000x32_1_0_n_n_0_1_132_wf : GatherDims.WF S200000x32 S1600000x1 S1600000x32 [1] [0] [] [0] [] 1 ![1, 32]
  dot_S1600000x64_S64x1_S1600000x1_1_0_0_1_n_n_wf : DotDims.WF S1600000x64 S64x1 S1600000x1 [1] [0] [0] [1] [] []
  scatter_S200000x32_S1600000x1_S1600000x32_1_0_0_1_wf : ScatterDims.WF S200000x32 S1600000x1 S1600000x32 [1] [0] [0] 1
  dot_S200000x32_S32x32_S200000x32_1_0_0_1_n_n_wf : DotDims.WF S200000x32 S32x32 S200000x32 [1] [0] [0] [1] [] []
  dot_S200000x32_S32x96_S200000x96_1_0_0_1_n_n_wf : DotDims.WF S200000x32 S32x96 S200000x96 [1] [0] [0] [1] [] []
  dot_S200000x34_S34x8_S200000x8_1_0_0_1_n_n_wf : DotDims.WF S200000x34 S34x8 S200000x8 [1] [0] [0] [1] [] []
  dot_S200000x34_S34x2_S200000x2_1_0_0_1_n_n_wf : DotDims.WF S200000x34 S34x2 S200000x2 [1] [0] [0] [1] [] []

variable [Facts₀]

def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf
def gather_S200000x32_S1600000x1_S1600000x32_1_0_n_n_0_1_132 : GatherDims S200000x32 S1600000x1 S1600000x32 where
  offsetDims := [1]
  collapsedSliceDims := [0]
  operandBatchingDims := []
  startIndicesBatchingDims := []
  startIndexMap := [0]
  indexVectorDim := 1
  sliceSizes := ![1, 32]
  wf := gather_S200000x32_S1600000x1_S1600000x32_1_0_n_n_0_1_132_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S200000x32_S1600000x1_S1600000x32_1_0_0_1 : ScatterDims S200000x32 S1600000x1 S1600000x32 where
  updateWindowDims := [1]
  insertedWindowDims := [0]
  scatterDimsToOperandDims := [0]
  indexVectorDim := 1
  wf := scatter_S200000x32_S1600000x1_S1600000x32_1_0_0_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def dot_S200000x32_S32x96_S200000x96_1_0_0_1_n_n : DotDims S200000x32 S32x96 S200000x96 where
  lhsContracting := [1]
  rhsContracting := [0]
  lhsNonContracting := [0]
  rhsNonContracting := [1]
  lhsBatch := []
  rhsBatch := []
  wf := dot_S200000x32_S32x96_S200000x96_1_0_0_1_n_n_wf
def dot_S200000x34_S34x8_S200000x8_1_0_0_1_n_n : DotDims S200000x34 S34x8 S200000x8 where
  lhsContracting := [1]
  rhsContracting := [0]
  lhsNonContracting := [0]
  rhsNonContracting := [1]
  lhsBatch := []
  rhsBatch := []
  wf := dot_S200000x34_S34x8_S200000x8_1_0_0_1_n_n_wf
def dot_S200000x34_S34x2_S200000x2_1_0_0_1_n_n : DotDims S200000x34 S34x2 S200000x2 where
  lhsContracting := [1]
  rhsContracting := [0]
  lhsNonContracting := [0]
  rhsNonContracting := [1]
  lhsBatch := []
  rhsBatch := []
  wf := dot_S200000x34_S34x2_S200000x2_1_0_0_1_n_n_wf

class Facts : Prop extends Facts₀ where

variable [Facts]
-- ==== Proof.K.Reg0.lean ====
import proofs.«419864_j2224793059992_3_alg».proof.Proof.Gen.Kernel.Launch
import proofs.«419864_j2224793059992_3_alg».proof.Proof.Gen.Kernel.Skeleton
import proofs.«419864_j2224793059992_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S10000x64 := Rect.unit (s := S10000x64) ![0, 0] S10000x64.size inb_S10000x64_S10000x64_0_0
abbrev r0_w : Rect S32x64 := Rect.unit (s := S32x64) ![0, 0] S32x64.size inb_S32x64_S32x64_0_0
abbrev r0_b : Rect S1x32 := Rect.unit (s := S1x32) ![0, 0] S1x32.size inb_S1x32_S1x32_0_0
abbrev r0_o : Rect S10000x32 := Rect.unit (s := S10000x32) ![0, 0] S10000x32.size inb_S10000x32_S10000x32_0_0

def out0_3 (x0 : Vec F S10000x64 .f32) (x1 : Vec F S32x64 .f32) (x2 : Vec F S1x32 .f32) : Vec F S10000x32 .f32 :=
  View.canon [⟨r0_o, k0_pay1 (View.ld x0 r0_x) (View.ld x1 r0_w) (View.ld x2 r0_b)⟩]

theorem cover0_3 (p0 : Vec F S10000x32 .f32) (y : S10000x32.Idx) :
    ∃ pc ∈ ([⟨r0_o, p0⟩] : List (View.Piece (Elt F) S10000x32 .f32)), y ∈ pc.1.set :=
  View.cover_of_tiled [⟨r0_o, p0⟩] S10000x32.size (by rfl) y

set_option maxHeartbeats 1000000 in
theorem sound_kernel0 (c : Dev nD) (E : Set ℕ) (i : grid0.Coords)
    (arg1 : Memref sig .tc .vmem S10000x64 .f32) (harg1 : arg1.IsWhole) (arg2 : Memref sig .tc .vmem S32x64 .f32) (harg2 : arg2.IsWhole)
    (arg3 : Memref sig .tc .vmem S1x32 .f32) (harg3 : arg3.IsWhole) (arg4 : Memref sig .tc .vmem S10000x32 .f32) (harg4 : arg4.IsWhole)
    (x0 : Vec F S10000x64 .f32) (x1 : Vec F S32x64 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«419864_j2224793059992_3_alg».proof.Proof.Gen.Kernel.Launch
import proofs.«419864_j2224793059992_3_alg».proof.Proof.Gen.Kernel.Skeleton
import proofs.«419864_j2224793059992_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_e : Rect S8000x32 := Rect.unit (s := S8000x32) ![0, 0] S8000x32.size inb_S8000x32_S8000x32_0_0
abbrev r1_a : Rect S1x32 := Rect.unit (s := S1x32) ![0, 0] S1x32.size inb_S1x32_S1x32_0_0
abbrev r1_b : Rect S1x1 := Rect.unit (s := S1x1) ![0, 0] S1x1.size inb_S1x1_S1x1_0_0

def out1_5 (x0 : Vec F S8000x32 .f32) (x1 : Vec F S8000x32 .f32) (x2 : Vec F S1x32 .f32) (x3 : Vec F S1x32 .f32)
    (x4 : Vec F S1x1 .f32) : Vec F S8000x32 .f32 :=
  View.canon [⟨r1_e, k1_pay1 (View.ld x0 r1_e) (View.ld x1 r1_e) (View.ld x2 r1_a) (View.ld x3 r1_a) (View.ld x4 r1_b)⟩]

theorem cover1_5 (p0 : Vec F S8000x32 .f32) (y : S8000x32.Idx) :
    ∃ pc ∈ ([⟨r1_e, p0⟩] : List (View.Piece (Elt F) S8000x32 .f32)), y ∈ pc.1.set :=
  View.cover_of_tiled [⟨r1_e, p0⟩] S8000x32.size (by rfl) y

set_option maxHeartbeats 1000000 in
theorem sound_kernel1 (c : Dev nD) (E : Set ℕ) (i : grid1.Coords)
    (arg1 : Memref sig .tc .vmem S8000x32 .f32) (harg1 : arg1.IsWhole) (arg2 : Memref sig .tc .vmem S8000x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x1 .f32) (harg5 : arg5.IsWhole) (arg6 : Memref sig .tc .vmem S8000x32 .f32) (harg6 : arg6.IsWhole)
    (x0 : Vec F S8000x32 .f32) (x1 : Vec F S8000x32 .f32) (x2 : Vec F S1x32 .f32) (x3 : Vec F S1x32 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__edge_kernel i arg1 harg1 arg2 harg2 arg3 harg3 arg4 harg4 arg5 harg5 arg6 harg6) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t
      = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«419864_j2224793059992_3_alg».proof.Proof.Gen.Kernel.Launch
import proofs.«419864_j2224793059992_3_alg».proof.Proof.Gen.Kernel.Skeleton
import proofs.«419864_j2224793059992_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_h : Rect S10000x32 := Rect.unit (s := S10000x32) ![0, 0] S10000x32.size inb_S10000x32_S10000x32_0_0
abbrev r2_w : Rect S32x32 := Rect.unit (s := S32x32) ![0, 0] S32x32.size inb_S32x32_S32x32_0_0
abbrev r2_b : Rect S1x32 := Rect.unit (s := S1x32) ![0, 0] S1x32.size inb_S1x32_S1x32_0_0
abbrev r2_o : Rect S10000x32 := Rect.unit (s := S10000x32) ![0, 0] S10000x32.size inb_S10000x32_S10000x32_0_0

def out2_3 (x0 : Vec F S10000x32 .f32) (x1 : Vec F S32x32 .f32) (x2 : Vec F S1x32 .f32) : Vec F S10000x32 .f32 :=
  View.canon [⟨r2_o, k2_pay1 (View.ld x0 r2_h) (View.ld x1 r2_w) (View.ld x2 r2_b)⟩]

theorem cover2_3 (p0 : Vec F S10000x32 .f32) (y : S10000x32.Idx) :
    ∃ pc ∈ ([⟨r2_o, p0⟩] : List (View.Piece (Elt F) S10000x32 .f32)), y ∈ pc.1.set :=
  View.cover_of_tiled [⟨r2_o, p0⟩] S10000x32.size (by rfl) y

set_option maxHeartbeats 1000000 in
theorem sound_kernel2 (c : Dev nD) (E : Set ℕ) (i : grid2.Coords)
    (arg1 : Memref sig .tc .vmem S10000x32 .f32) (harg1 : arg1.IsWhole) (arg2 : Memref sig .tc .vmem S32x32 .f32) (harg2 : arg2.IsWhole)
    (arg3 : Memref sig .tc .vmem S1x32 .f32) (harg3 : arg3.IsWhole) (arg4 : Memref sig .tc .vmem S10000x32 .f32) (harg4 : arg4.IsWhole)
    (x0 : Vec F S10000x32 .f32) (x1 : Vec F S32x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«419864_j2224793059992_3_alg».proof.Proof.Gen.Kernel.Launch
import proofs.«419864_j2224793059992_3_alg».proof.Proof.Gen.Kernel.Skeleton
import proofs.«419864_j2224793059992_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_e : Rect S8000x32 := Rect.unit (s := S8000x32) ![0, 0] S8000x32.size inb_S8000x32_S8000x32_0_0
abbrev r3_a : Rect S1x32 := Rect.unit (s := S1x32) ![0, 0] S1x32.size inb_S1x32_S1x32_0_0
abbrev r3_b : Rect S1x1 := Rect.unit (s := S1x1) ![0, 0] S1x1.size inb_S1x1_S1x1_0_0

def out3_5 (x0 : Vec F S8000x32 .f32) (x1 : Vec F S8000x32 .f32) (x2 : Vec F S1x32 .f32) (x3 : Vec F S1x32 .f32)
    (x4 : Vec F S1x1 .f32) : Vec F S8000x32 .f32 :=
  View.canon [⟨r3_e, k3_pay1 (View.ld x0 r3_e) (View.ld x1 r3_e) (View.ld x2 r3_a) (View.ld x3 r3_a) (View.ld x4 r3_b)⟩]

theorem cover3_5 (p0 : Vec F S8000x32 .f32) (y : S8000x32.Idx) :
    ∃ pc ∈ ([⟨r3_e, p0⟩] : List (View.Piece (Elt F) S8000x32 .f32)), y ∈ pc.1.set :=
  View.cover_of_tiled [⟨r3_e, p0⟩] S8000x32.size (by rfl) y

set_option maxHeartbeats 1000000 in
theorem sound_kernel3 (c : Dev nD) (E : Set ℕ) (i : grid3.Coords)
    (arg1 : Memref sig .tc .vmem S8000x32 .f32) (harg1 : arg1.IsWhole) (arg2 : Memref sig .tc .vmem S8000x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x1 .f32) (harg5 : arg5.IsWhole) (arg6 : Memref sig .tc .vmem S8000x32 .f32) (harg6 : arg6.IsWhole)
    (x0 : Vec F S8000x32 .f32) (x1 : Vec F S8000x32 .f32) (x2 : Vec F S1x32 .f32) (x3 : Vec F S1x32 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__edge_kernel i arg1 harg1 arg2 harg2 arg3 harg3 arg4 harg4 arg5 harg5 arg6 harg6) K := by
  simp only [cc3__edge_kernel_eq_skeleton]; unfold cc3__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t
      = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«419864_j2224793059992_3_alg».proof.Proof.Gen.Kernel.Launch
import proofs.«419864_j2224793059992_3_alg».proof.Proof.Gen.Kernel.Skeleton
import proofs.«419864_j2224793059992_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_h : Rect S5000x32 := Rect.unit (s := S5000x32) ![0, 0] S5000x32.size inb_S5000x32_S5000x32_0_0
abbrev r4_w : Rect S96x32 := Rect.unit (s := S96x32) ![0, 0] S96x32.size inb_S96x32_S96x32_0_0
abbrev r4_b : Rect S1x96 := Rect.unit (s := S1x96) ![0, 0] S1x96.size inb_S1x96_S1x96_0_0
abbrev r4_o : Rect S5000x32 := Rect.unit (s := S5000x32) ![0, 0] S5000x32.size inb_S5000x32_S5000x32_0_0

def out4_4 (x0 : Vec F S5000x32 .f32) (x1 : Vec F S96x32 .f32) (x2 : Vec F S1x96 .f32) (x3 : Vec F S1x96 .f32) : Vec F S5000x32 .f32 :=
  View.canon [⟨r4_o, k4_pay1 (View.ld x0 r4_h) (View.ld x1 r4_w) (View.ld x2 r4_b) (View.ld x3 r4_b)⟩]

theorem cover4_4 (p0 : Vec F S5000x32 .f32) (y : S5000x32.Idx) :
    ∃ pc ∈ ([⟨r4_o, p0⟩] : List (View.Piece (Elt F) S5000x32 .f32)), y ∈ pc.1.set :=
  View.cover_of_tiled [⟨r4_o, p0⟩] S5000x32.size (by rfl) y

set_option maxHeartbeats 1000000 in
theorem sound_kernel4 (c : Dev nD) (E : Set ℕ) (i : grid4.Coords)
    (arg1 : Memref sig .tc .vmem S5000x32 .f32) (harg1 : arg1.IsWhole) (arg2 : Memref sig .tc .vmem S96x32 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S5000x32 .f32) (harg5 : arg5.IsWhole)
    (x0 : Vec F S5000x32 .f32) (x1 : Vec F S96x32 .f32) (x2 : Vec F S1x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__gru_kernel i arg1 harg1 arg2 harg2 arg3 harg3 arg4 harg4 arg5 harg5) K := by
  simp only [cc4__gru_kernel_eq_skeleton]; unfold cc4__gru_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«419864_j2224793059992_3_alg».proof.Proof.Gen.Kernel.Launch
import proofs.«419864_j2224793059992_3_alg».proof.Proof.Gen.Kernel.Skeleton
import proofs.«419864_j2224793059992_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

abbrev r5_h : Rect S1000x32 := Rect.unit (s := S1000x32) ![0, 0] S1000x32.size inb_S1000x32_S1000x32_0_0
abbrev r5_e : Rect S1000x5 := Rect.unit (s := S1000x5) ![0, 0] S1000x5.size inb_S1000x5_S1000x5_0_0
abbrev r5_W : Rect S8x34 := Rect.unit (s := S8x34) ![0, 0] S8x34.size inb_S8x34_S8x34_0_0
abbrev r5_b : Rect S1x8 := Rect.unit (s := S1x8) ![0, 0] S1x8.size inb_S1x8_S1x8_0_0
abbrev r5_Ws : Rect S2x34 := Rect.unit (s := S2x34) ![0, 0] S2x34.size inb_S2x34_S2x34_0_0
abbrev r5_bs : Rect S1x2 := Rect.unit (s := S1x2) ![0, 0] S1x2.size inb_S1x2_S1x2_0_0
abbrev r5_o : Rect S1000x8x2 := Rect.unit (s := S1000x8x2) ![0, 0, 0] S1000x8x2.size inb_S1000x8x2_S1000x8x2_0_0_0

def out5_8 (x0 : Vec F S1000x32 .f32) (x1 : Vec F S1000x5 .f32) (x2 : Vec F S8x34 .f32) (x3 : Vec F S1x8 .f32) (x4 : Vec F S8x34 .f32) (x5 : Vec F S1x8 .f32) (x6 : Vec F S2x34 .f32) (x7 : Vec F S1x2 .f32) : Vec F S1000x8x2 .f32 :=
  View.canon [⟨r5_o, k5_pay5 (k5_pay12 (View.ld x0 r5_h) (View.ld x1 r5_e) (View.ld x2 r5_W) (View.ld x3 r5_b)) (k5_pay13 (View.ld x0 r5_h) (View.ld x1 r5_e) (View.ld x4 r5_W) (View.ld x5 r5_b))⟩]

def out5_9 (x0 : Vec F S1000x32 .f32) (x1 : Vec F S1000x5 .f32) (x2 : Vec F S8x34 .f32) (x3 : Vec F S1x8 .f32) (x4 : Vec F S8x34 .f32) (x5 : Vec F S1x8 .f32) (x6 : Vec F S2x34 .f32) (x7 : Vec F S1x2 .f32) : Vec F S1000x8x2 .f32 :=
  let v6 := k5_pay8 (View.ld x1 r5_e)
  let v7 := k5_pay9 (View.ld x1 r5_e)
  let v8 := k5_pay10 (View.ld x1 r5_e)
  let v36 := k5_pay15 (View.ld x0 r5_h) (View.ld x1 r5_e) (View.ld x6 r5_Ws) (View.ld x7 r5_bs)
  let v38 := k5_pay16 (View.ld x0 r5_h) (View.ld x1 r5_e) (View.ld x6 r5_Ws) (View.ld x7 r5_bs)
  let v39 := k5_pay17 (View.ld x1 r5_e)
  let v97 := k5_pay40 v6 v7 v8 v36 v38 v39
  let v98 := k5_pay41 v6 v7 v8 v36 v38 v39
  let v99 := k5_pay42 v6 v7 v8 v36 v38 v39
  let v105 := k5_pay1 v8 v36 v38 v97 v98 v99
  let v118 := k5_pay4 v38 (k5_pay19 v6 v38) (k5_pay23 v6 v7 v8 v36 v38 v39) (k5_pay27 v6 v7 v8 v36 v38 v39) (k5_pay31 v6 v7 v8 v36 v38 v39)
    (k5_pay35 v6 v7 v8 v36 v38 v39) (k5_pay39 v6 v7 v8 v36 v38 v39) v97 v105
  View.canon [⟨r5_o, k5_pay6 v8 v36 v38 (k5_pay18 v6 v7 v8 v36 v38 v39) (k5_pay22 v6 v7 v8 v36 v38 v39) (k5_pay26 v6 v7 v8 v36 v38 v39)
    (k5_pay30 v6 v7 v8 v36 v38 v39) (k5_pay34 v6 v7 v8 v36 v38 v39) (k5_pay38 v6 v7 v8 v36 v38 v39) v97 v98 v105 v118⟩]

theorem cover5_8 (p0 : Vec F S1000x8x2 .f32) (y : S1000x8x2.Idx) :
    ∃ pc ∈ ([⟨r5_o, p0⟩] : List (View.Piece (Elt F) S1000x8x2 .f32)), y ∈ pc.1.set :=
  View.cover_of_tiled [⟨r5_o, p0⟩] S1000x8x2.size (by rfl) y
theorem cover5_9 (p0 : Vec F S1000x8x2 .f32) (y : S1000x8x2.Idx) :
    ∃ pc ∈ ([⟨r5_o, p0⟩] : List (View.Piece (Elt F) S1000x8x2 .f32)), y ∈ pc.1.set :=
  View.cover_of_tiled [⟨r5_o, p0⟩] S1000x8x2.size (by rfl) y

set_option maxHeartbeats 4000000 in
theorem sound_kernel5 (c : Dev nD) (E : Set ℕ) (i : grid5.Coords)
    (arg1 : Memref sig .tc .vmem S1000x32 .f32) (harg1 : arg1.IsWhole) (arg2 : Memref sig .tc .vmem S1000x5 .f32) (harg2 : arg2.IsWhole)
    (arg3 : Memref sig .tc .vmem S8x34 .f32) (harg3 : arg3.IsWhole) (arg4 : Memref sig .tc .vmem S1x8 .f32) (harg4 : arg4.IsWhole)
    (arg5 : Memref sig .tc .vmem S8x34 .f32) (harg5 : arg5.IsWhole) (arg6 : Memref sig .tc .vmem S1x8 .f32) (harg6 : arg6.IsWhole)
    (arg7 : Memref sig .tc .vmem S2x34 .f32) (harg7 : arg7.IsWhole) (arg8 : Memref sig .tc .vmem S1x2 .f32) (harg8 : arg8.IsWhole)
    (arg9 : Memref sig .tc .vmem S1000x8x2 .f32) (harg9 : arg9.IsWhole) (arg10 : Memref sig .tc .vmem S1000x8x2 .f32) (harg10 : arg10.IsWhole)
    (x0 : Vec F S1000x32 .f32) (x1 : Vec F S1000x5 .f32) (x2 : Vec F S8x34 .f32) (x3 : Vec F S1x8 .f32) (x4 : Vec F S8x34 .f32) (x5 : Vec F S1x8 .f32) (x6 : Vec F S2x34 .f32) (x7 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out5_8 x0 x1 x2 x3 x4 x5 x6 x7) ∗ owns (c : Thread nD τ) arg10 fullShare (out5_9 x0 x1 x2 x3 x4 x5 x6 x7)) -∗ K ⟨⟩))
      ⊢ wp frame (wpE (defs₀ (F := F)) Variants.none c none) E (cc5__outhead_kernel i arg1 harg1 arg2 harg2 arg3 harg3 arg4 harg4 arg5 harg5 arg6 harg6 arg7 harg7 arg8 harg8 arg9 harg9 arg10 harg10) K := by
  simp only [cc5__outhead_kernel_eq_skeleton]; unfold cc5__outhead_kernel_skel
  simp only [k5_part1_eq_skeleton, k5_part2_eq_skeleton]; unfold k5_part1_skel k5_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover5_8 _)
  iexists _; isplitr
  swap; · iexact H9
  ipureintro
  exact View.read_writes_eq_canon _ _ _ (cover5_9 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t) (iblk5 V c 6 t) (iblk5 V c 7 t)
    | ⟨9, _⟩ => out5_9 (iblk5 V c 0 t) (iblk5 V c 1 t) (iblk5 V c 2 t) (iblk5 V c 3 t) (iblk5 V c 4 t) (iblk5 V c 5 t) (iblk5 V c 6 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) :
    (dat5 V c).after 8 t = out5_8 (iblk5 V c 0 t) (iblk5 V c 1 t) (iblk5 V c 2 t) (iblk5 V c 3 t) (iblk5 V c 4 t) (iblk5 V c 5 t) (iblk5 V c 6 t) (iblk5 V c 7 t) := by dsimp only [dat5]
theorem after5_9 (c : Dev nD) (t : Fin cfg5.N) :
    (dat5 V c).after 9 t = out5_9 (iblk5 V c 0 t) (iblk5 V c 1 t) (iblk5 V c 2 t) (iblk5 V c 3 t) (iblk5 V c 4 t) (iblk5 V c 5 t) (iblk5 V c 6 t) (iblk5 V c 7 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Launch.lean ====
import proofs.«419864_j2224793059992_3_alg».proof.Proof.K.Reg0
import proofs.«419864_j2224793059992_3_alg».proof.Proof.K.Reg1
import proofs.«419864_j2224793059992_3_alg».proof.Proof.K.Reg2
import proofs.«419864_j2224793059992_3_alg».proof.Proof.K.Reg3
import proofs.«419864_j2224793059992_3_alg».proof.Proof.K.Reg4
import proofs.«419864_j2224793059992_3_alg».proof.Proof.K.Reg5
import proofs.«419864_j2224793059992_3_alg».proof.Proof.Gen.Kernel.Regions
import Idealize.ShloMosaic.Lib.Pipeline.Frame
import Idealize.ShloMosaic.Lib.Pipeline.Regions
import Mathlib.Logic.Function.Basic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

structure Houts (m : (ℓ : Loc nD τ sig) → Buf (Elt F) ℓ) (outs : Outs (F := F)) : Prop where
  h2 : ∀ c : Dev nD, outs 2 main_v13 c = (dat0 (fun c b => V1 m c b) c).arrAt 3 cfg0.N
  h4 : ∀ c : Dev nD, outs 4 main_v31 c = (dat1 (fun c b => V3 m outs c b) c).arrAt 5 cfg1.N
  h6 : ∀ c : Dev nD, outs 6 main_v36 c = (dat2 (fun c b => V5 m outs c b) c).arrAt 3 cfg2.N
  h8 : ∀ c : Dev nD, outs 8 main_v54 c = (dat3 (fun c b => V7 m outs c b) c).arrAt 5 cfg3.N
  h10 : ∀ c : Dev nD, outs 10 main_v60 c = (dat4 (fun c b => V9 m outs c b) c).arrAt 4 cfg4.N
  h12_0 : ∀ c : Dev nD, outs 12 main_v72_0 c = (dat5 (fun c b => V11 m outs c b) c).arrAt 8 cfg5.N
  h12_1 : ∀ c : Dev nD, outs 12 main_v72_1 c = (dat5 (fun c b => V11 m outs c b) c).arrAt 9 cfg5.N

section Stages

variable (m : (ℓ : Loc nD τ sig) → Buf (Elt F) ℓ)

def mkOuts (a13 : (c : Dev nD) → Buf (Elt F) ((c : Thread nD τ).loc main_v13))
    (a31 : (c : Dev nD) → Buf (Elt F) ((c : Thread nD τ).loc main_v31))
    (a36 : (c : Dev nD) → Buf (Elt F) ((c : Thread nD τ).loc main_v36))
    (a54 : (c : Dev nD) → Buf (Elt F) ((c : Thread nD τ).loc main_v54))
    (a60 : (c : Dev nD) → Buf (Elt F) ((c : Thread nD τ).loc main_v60))
    (a72_0 : (c : Dev nD) → Buf (Elt F) ((c : Thread nD τ).loc main_v72_0))
    (a72_1 : (c : Dev nD) → Buf (Elt F) ((c : Thread nD τ).loc main_v72_1)) : Outs (F := F) :=
  fun _ =>
    Function.update (Function.update (Function.update (Function.update (Function.update (Function.update (Function.update
      (fun (r : Ref sig .tc) (c : Dev nD) => m ((c : Thread nD τ).loc r))
      main_v13 a13) main_v31 a31) main_v36 a36) main_v54 a54) main_v60 a60) main_v72_0 a72_0) main_v72_1 a72_1

section
variable (a13 : (c : Dev nD) → Buf (Elt F) ((c : Thread nD τ).loc main_v13))
    (a31 : (c : Dev nD) → Buf (Elt F) ((c : Thread nD τ).loc main_v31))
    (a36 : (c : Dev nD) → Buf (Elt F) ((c : Thread nD τ).loc main_v36))
    (a54 : (c : Dev nD) → Buf (Elt F) ((c : Thread nD τ).loc main_v54))
    (a60 : (c : Dev nD) → Buf (Elt F) ((c : Thread nD τ).loc main_v60))
    (a72_0 : (c : Dev nD) → Buf (Elt F) ((c : Thread nD τ).loc main_v72_0))
    (a72_1 : (c : Dev nD) → Buf (Elt F) ((c : Thread nD τ).loc main_v72_1)) (j : ℕ)

theorem mkOuts_v72_1 : mkOuts m a13 a31 a36 a54 a60 a72_0 a72_1 j main_v72_1 = a72_1 := by
  unfold mkOuts; rw [Function.update_self]
theorem mkOuts_v72_0 : mkOuts m a13 a31 a36 a54 a60 a72_0 a72_1 j main_v72_0 = a72_0 := by
  unfold mkOuts; rw [Function.update_of_ne (by decide), Function.update_self]
theorem mkOuts_v60 : mkOuts m a13 a31 a36 a54 a60 a72_0 a72_1 j main_v60 = a60 := by
  unfold mkOuts; rw [Function.update_of_ne (by decide), Function.update_of_ne (by decide), Function.update_self]
theorem mkOuts_v54 : mkOuts m a13 a31 a36 a54 a60 a72_0 a72_1 j main_v54 = a54 := by
  unfold mkOuts; rw [Function.update_of_ne (by decide), Function.update_of_ne (by decide), Function.update_of_ne (by decide), Function.update_self]
theorem mkOuts_v36 : mkOuts m a13 a31 a36 a54 a60 a72_0 a72_1 j main_v36 = a36 := by
  unfold mkOuts; rw [Function.update_of_ne (by decide), Function.update_of_ne (by decide), Function.update_of_ne (by decide),
    Function.update_of_ne (by decide), Function.update_self]
theorem mkOuts_v31 : mkOuts m a13 a31 a36 a54 a60 a72_0 a72_1 j main_v31 = a31 := by
  unfold mkOuts; rw [Function.update_of_ne (by decide), Function.update_of_ne (by decide), Function.update_of_ne (by decide),
    Function.update_of_ne (by decide), Function.update_of_ne (by decide), Function.update_self]
theorem mkOuts_v13 : mkOuts m a13 a31 a36 a54 a60 a72_0 a72_1 j main_v13 = a13 := by
  unfold mkOuts; rw [Function.update_of_ne (by decide), Function.update_of_ne (by decide), Function.update_of_ne (by decide),
    Function.update_of_ne (by decide), Function.update_of_ne (by decide), Function.update_of_ne (by decide), Function.update_self]
end

def a13 (c : Dev nD) : Buf (Elt F) ((c : Thread nD τ).loc main_v13) := (dat0 (fun c b => V1 m c b) c).arrAt 3 cfg0.N

def X3 (c : Dev nD) : Valuation τ sig (Elt F) := StableHlo.after hostOps1 (Function.update (V1 m c) main_v13 (a13 m c))
def a31 (c : Dev nD) : Buf (Elt F) ((c : Thread nD τ).loc main_v31) := (dat1 (fun c b => X3 m c b) c).arrAt 5 cfg1.N

def X5 (c : Dev nD) : Valuation τ sig (Elt F) := StableHlo.after hostOps2 (Function.update (X3 m c) main_v31 (a31 m c))
def a36 (c : Dev nD) : Buf (Elt F) ((c : Thread nD τ).loc main_v36) := (dat2 (fun c b => X5 m c b) c).arrAt 3 cfg2.N

def X7 (c : Dev nD) : Valuation τ sig (Elt F) := StableHlo.after hostOps3 (Function.update (X5 m c) main_v36 (a36 m c))
def a54 (c : Dev nD) : Buf (Elt F) ((c : Thread nD τ).loc main_v54) := (dat3 (fun c b => X7 m c b) c).arrAt 5 cfg3.N

def X9 (c : Dev nD) : Valuation τ sig (Elt F) := StableHlo.after hostOps4 (Function.update (X7 m c) main_v54 (a54 m c))
def a60 (c : Dev nD) : Buf (Elt F) ((c : Thread nD τ).loc main_v60) := (dat4 (fun c b => X9 m c b) c).arrAt 4 cfg4.N

def X11 (c : Dev nD) : Valuation τ sig (Elt F) := StableHlo.after hostOps5 (Function.update (X9 m c) main_v60 (a60 m c))
def a72_0 (c : Dev nD) : Buf (Elt F) ((c : Thread nD τ).loc main_v72_0) := (dat5 (fun c b => X11 m c b) c).arrAt 8 cfg5.N
def a72_1 (c : Dev nD) : Buf (Elt F) ((c : Thread nD τ).loc main_v72_1) := (dat5 (fun c b => X11 m c b) c).arrAt 9 cfg5.N

def theOuts : Outs (F := F) := mkOuts m (a13 m) (a31 m) (a36 m) (a54 m) (a60 m) (a72_0 m) (a72_1 m)

theorem V3_the (c : Dev nD) : V3 m (theOuts m) c = X3 m c := by
  unfold X3; rw [show a13 m c = theOuts m 2 main_v13 c from (congrFun (mkOuts_v13 m _ _ _ _ _ _ _ 2) c).symm]
theorem V3_fun : (fun (c : Dev nD) (b : Ref sig .tc) => V3 m (theOuts m) c b) = fun (c : Dev nD) (b : Ref sig .tc) => X3 m c b :=
  funext fun c => funext fun b => congrFun (V3_the m c) b
theorem V5_the (c : Dev nD) : V5 m (theOuts m) c = X5 m c := by
  unfold X5; rw [show a31 m c = theOuts m 4 main_v31 c from (congrFun (mkOuts_v31 m _ _ _ _ _ _ _ 4) c).symm, ← V3_the m c]
theorem V5_fun : (fun (c : Dev nD) (b : Ref sig .tc) => V5 m (theOuts m) c b) = fun (c : Dev nD) (b : Ref sig .tc) => X5 m c b :=
  funext fun c => funext fun b => congrFun (V5_the m c) b
theorem V7_the (c : Dev nD) : V7 m (theOuts m) c = X7 m c := by
  unfold X7; rw [show a36 m c = theOuts m 6 main_v36 c from (congrFun (mkOuts_v36 m _ _ _ _ _ _ _ 6) c).symm, ← V5_the m c]
theorem V7_fun : (fun (c : Dev nD) (b : Ref sig .tc) => V7 m (theOuts m) c b) = fun (c : Dev nD) (b : Ref sig .tc) => X7 m c b :=
  funext fun c => funext fun b => congrFun (V7_the m c) b
theorem V9_the (c : Dev nD) : V9 m (theOuts m) c = X9 m c := by
  unfold X9; rw [show a54 m c = theOuts m 8 main_v54 c from (congrFun (mkOuts_v54 m _ _ _ _ _ _ _ 8) c).symm, ← V7_the m c]
theorem V9_fun : (fun (c : Dev nD) (b : Ref sig .tc) => V9 m (theOuts m) c b) = fun (c : Dev nD) (b : Ref sig .tc) => X9 m c b :=
  funext fun c => funext fun b => congrFun (V9_the m c) b
theorem V11_the (c : Dev nD) : V11 m (theOuts m) c = X11 m c := by
  unfold X11; rw [show a60 m c = theOuts m 10 main_v60 c from (congrFun (mkOuts_v60 m _ _ _ _ _ _ _ 10) c).symm, ← V9_the m c]
theorem V11_fun : (fun (c : Dev nD) (b : Ref sig .tc) => V11 m (theOuts m) c b) = fun (c : Dev nD) (b : Ref sig .tc) => X11 m c b :=
  funext fun c => funext fun b => congrFun (V11_the m c) b

theorem exists_outs : ∃ outs : Outs (F := F), Houts m outs :=
  ⟨theOuts m,
    ⟨fun c => congrFun (mkOuts_v13 m _ _ _ _ _ _ _ 2) c,
     fun c => (congrFun (mkOuts_v31 m _ _ _ _ _ _ _ 4) c).trans (by rw [V3_fun]; rfl),
     fun c => (congrFun (mkOuts_v36 m _ _ _ _ _ _ _ 6) c).trans (by rw [V5_fun]; rfl),
     fun c => (congrFun (mkOuts_v54 m _ _ _ _ _ _ _ 8) c).trans (by rw [V7_fun]; rfl),
     fun c => (congrFun (mkOuts_v60 m _ _ _ _ _ _ _ 10) c).trans (by rw [V9_fun]; rfl),
     fun c => (congrFun (mkOuts_v72_0 m _ _ _ _ _ _ _ 12) c).trans (by rw [V11_fun]; rfl),
     fun c => (congrFun (mkOuts_v72_1 m _ _ _ _ _ _ _ 12) c).trans (by rw [V11_fun]; rfl)⟩⟩

end Stages

section Run

variable (m : (ℓ : Loc nD τ sig) → Buf (Elt F) ℓ) (outs : Outs (F := F))

def pdats : (p : Fin 6) → (c : Dev nD) → Dat τ (Elt F) Unit ℕ (UR sig nD τ) ℕ (cfgs p) c
  | ⟨0, _⟩ => fun c => dat0 (fun c b => V1 m c b) c
  | ⟨1, _⟩ => fun c => dat1 (fun c b => V3 m outs c b) c
  | ⟨2, _⟩ => fun c => dat2 (fun c b => V5 m outs c b) c
  | ⟨3, _⟩ => fun c => dat3 (fun c b => V7 m outs c b) c
  | ⟨4, _⟩ => fun c => dat4 (fun c b => V9 m outs c b) c
  | ⟨5, _⟩ => fun c => dat5 (fun c b => V11 m outs c b) c
  | ⟨_ + 6, hn⟩ => absurd hn (Nat.not_lt.2 (Nat.le_add_left _ _))

abbrev runVar : Variants := Variants.none

abbrev runPairs : GSem nD τ sig → Finset Unit := fun _ => ∅
abbrev runLv : GSem nD τ sig → Unit → ℕ := fun _ _ => 0

abbrev runRest (c : Dev nD) : sProp 𝕄 := iprop((∃ r, prngReg c r) ∗ ∃ W, owes (c : Thread nD τ) (0 : CellTallies nD τ sig Unit) W)

theorem mem_uc_run (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- A kernel region taking the contents `Vi` to `Vo`: `Vo` is `Vi` off the listed outputs, and `hout` says what each output holds.
set_option backward.isDefEq.respectTransparency.types false in
def mkReg (p : Fin 6) (Lc : Pipeline.LaunchFacts (nD := nD) (τ := τ) cfgs p) (Vi Vo : (c : Dev nD) → Valuation τ sig (Elt F))
    (hb : ∀ c, BodyObligation (pdats m outs p c) (defs₀ (F := F)) Variants.none () Set.univ)
    (hq : ∀ c w, (pdats m outs p c).q w = fullShare) (howed : ∀ c t, (pdats m outs p c).owed t = 0)
    (hrec : ∀ c t, (pdats m outs p c).recorded t = Set.univ)
    (hΦ : ∀ c t, (pdats m outs p c).Φ t = Pipeline.ΦA (cfgs p).spec c)
    (hA : ∀ c w, (pdats m outs p c).A w = Vi c (Pipeline.arrRef (cfgs p).spec w))
    (outsL : List (Ref sig .tc)) (hVo : ∀ c, ∀ b : Ref sig .tc, b ∉ outsL → Vo c b = Vi c b)
    (hin : ∀ w, ((cfgs p).win w).isOut = false → Pipeline.arrRef (cfgs p).spec w ∉ outsL)
    (hsub : ∀ b ∈ outsL, b ∈ Finset.univ.image (Pipeline.arrRef (cfgs p).spec))
    (hout : ∀ c w, ((cfgs p).win w).isOut ≠ false → (pdats m outs p c).arrAt w (cfgs p).N = Vo c (Pipeline.arrRef (cfgs p).spec w)) :
    Pipeline.RegionSeg (pcfgs (F := F)) adm (pdats m outs) () defs₀ runVar runPairs runLv p where
  win := Lc.win.to₀
  block_pos := Lc.block_pos
  stage_whole := Lc.stage_whole
  K := PEmpty
  osem k := k.elim
  ho := Pipeline.OwnSemFacts.none _
  hbody c := (hb c).loose
  hwaits := Pipeline.hwaits_of_owed_zero _ _ _ _ runPairs runLv p howed
  pre c := iprop(StableHlo.held (c : Thread nD τ) (Pipeline.ucRefs τ sig) (Vi c) ∗ runRest c)
  post c := iprop(StableHlo.held (c : Thread nD τ) (Pipeline.ucRefs τ sig) (Vo c) ∗ runRest c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) adm (pdats m outs) Lc.win Lc.arr_whole c
      ((pdats m outs p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c _]
      icases HO with ⟨%W, HO⟩; iexists W; isplitr; · ipureintro; exact fun _ _ => Or.inl (by rw [hrec c _]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      Lc.win Lc.arr_whole c (pdats m outs) ((pdats m outs p c).share_full (hq c))
      (fun b => Vi c b) (fun b => Vo c b) ((pdats m outs p c).arrAt · (cfgs p).N)
      (fun w => if hw : ((cfgs p).win w).isOut = false then ((pdats m outs p c).arrAt_in w hw _).trans ((hA c w).trans (hVo c _ (hin w hw)).symm) else hout c w hw)
      (fun b hb => hVo c b fun hm => hb (hsub b hm))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c _]
    icases HO with ⟨%W, -, HO⟩; iexists W; iexact HO

theorem in_ne0 : ∀ w : Fin 4, (cfg0.win w).isOut = false → Pipeline.arrRef spec0 w ∉ ([main_v13] : List (Ref sig .tc)) := by decide

theorem out_eq0 : ∀ w : Fin 4, (cfg0.win w).isOut ≠ false → w = 3 := by decide

theorem hF0_out (h : Houts m outs) (c : Dev nD) :
    (dat0 (fun c b => V1 m c b) c).arrAt 3 cfg0.N = V2 m outs c (Pipeline.arrRef spec0 3) :=
  (h.h2 c).symm.trans (Function.update_self (Proc.devRef .tc main_v13 : DevRef τ sig) (outs 2 main_v13 c) (V1 m c)).symm

def reg0 (h : Houts m outs) : Pipeline.RegionSeg (pcfgs (F := F)) adm (pdats m outs) () defs₀ runVar runPairs runLv 0 :=
  mkReg m outs 0 launch0 (V1 m) (V2 m outs) (fun c => body_obligation0 (fun c b => V1 m c b) c)
    (fun _ _ => rfl) (fun _ _ => rfl) (fun _ _ => rfl) (fun _ _ => rfl) (fun _ _ => rfl) [main_v13] (V2_of m outs) in_ne0 (by decide)
    (fun c w hw => by obtain rfl := out_eq0 w hw; exact hF0_out m outs h c)

theorem in_ne1 : ∀ w : Fin 6, (cfg1.win w).isOut = false → Pipeline.arrRef spec1 w ∉ ([main_v31] : List (Ref sig .tc)) := by decide

theorem out_eq1 : ∀ w : Fin 6, (cfg1.win w).isOut ≠ false → w = 5 := by decide

theorem hF1_out (h : Houts m outs) (c : Dev nD) :
    (dat1 (fun c b => V3 m outs c b) c).arrAt 5 cfg1.N = V4 m outs c (Pipeline.arrRef spec1 5) :=
  (h.h4 c).symm.trans (Function.update_self (Proc.devRef .tc main_v31 : DevRef τ sig) (outs 4 main_v31 c) (V3 m outs c)).symm

def reg1 (h : Houts m outs) : Pipeline.RegionSeg (pcfgs (F := F)) adm (pdats m outs) () defs₀ runVar runPairs runLv 1 :=
  mkReg m outs 1 launch1 (V3 m outs) (V4 m outs) (fun c => body_obligation1 (fun c b => V3 m outs c b) c)
    (fun _ _ => rfl) (fun _ _ => rfl) (fun _ _ => rfl) (fun _ _ => rfl) (fun _ _ => rfl) [main_v31] (V4_of m outs) in_ne1 (by decide)
    (fun c w hw => by obtain rfl := out_eq1 w hw; exact hF1_out m outs h c)

theorem in_ne2 : ∀ w : Fin 4, (cfg2.win w).isOut = false → Pipeline.arrRef spec2 w ∉ ([main_v36] : List (Ref sig .tc)) := by decide

theorem out_eq2 : ∀ w : Fin 4, (cfg2.win w).isOut ≠ false → w = 3 := by decide

theorem hF2_out (h : Houts m outs) (c : Dev nD) :
    (dat2 (fun c b => V5 m outs c b) c).arrAt 3 cfg2.N = V6 m outs c (Pipeline.arrRef spec2 3) :=
  (h.h6 c).symm.trans (Function.update_self (Proc.devRef .tc main_v36 : DevRef τ sig) (outs 6 main_v36 c) (V5 m outs c)).symm

def reg2 (h : Houts m outs) : Pipeline.RegionSeg (pcfgs (F := F)) adm (pdats m outs) () defs₀ runVar runPairs runLv 2 :=
  mkReg m outs 2 launch2 (V5 m outs) (V6 m outs) (fun c => body_obligation2 (fun c b => V5 m outs c b) c)
    (fun _ _ => rfl) (fun _ _ => rfl) (fun _ _ => rfl) (fun _ _ => rfl) (fun _ _ => rfl) [main_v36] (V6_of m outs) in_ne2 (by decide)
    (fun c w hw => by obtain rfl := out_eq2 w hw; exact hF2_out m outs h c)

theorem in_ne3 : ∀ w : Fin 6, (cfg3.win w).isOut = false → Pipeline.arrRef spec3 w ∉ ([main_v54] : List (Ref sig .tc)) := by decide

theorem out_eq3 : ∀ w : Fin 6, (cfg3.win w).isOut ≠ false → w = 5 := by decide

theorem hF3_out (h : Houts m outs) (c : Dev nD) :
    (dat3 (fun c b => V7 m outs c b) c).arrAt 5 cfg3.N = V8 m outs c (Pipeline.arrRef spec3 5) :=
  (h.h8 c).symm.trans (Function.update_self (Proc.devRef .tc main_v54 : DevRef τ sig) (outs 8 main_v54 c) (V7 m outs c)).symm

def reg3 (h : Houts m outs) : Pipeline.RegionSeg (pcfgs (F := F)) adm (pdats m outs) () defs₀ runVar runPairs runLv 3 :=
  mkReg m outs 3 launch3 (V7 m outs) (V8 m outs) (fun c => body_obligation3 (fun c b => V7 m outs c b) c)
    (fun _ _ => rfl) (fun _ _ => rfl) (fun _ _ => rfl) (fun _ _ => rfl) (fun _ _ => rfl) [main_v54] (V8_of m outs) in_ne3 (by decide)
    (fun c w hw => by obtain rfl := out_eq3 w hw; exact hF3_out m outs h c)

theorem in_ne4 : ∀ w : Fin 5, (cfg4.win w).isOut = false → Pipeline.arrRef spec4 w ∉ ([main_v60] : List (Ref sig .tc)) := by decide

theorem out_eq4 : ∀ w : Fin 5, (cfg4.win w).isOut ≠ false → w = 4 := by decide

theorem hF4_out (h : Houts m outs) (c : Dev nD) :
    (dat4 (fun c b => V9 m outs c b) c).arrAt 4 cfg4.N = V10 m outs c (Pipeline.arrRef spec4 4) :=
  (h.h10 c).symm.trans (Function.update_self (Proc.devRef .tc main_v60 : DevRef τ sig) (outs 10 main_v60 c) (V9 m outs c)).symm

def reg4 (h : Houts m outs) : Pipeline.RegionSeg (pcfgs (F := F)) adm (pdats m outs) () defs₀ runVar runPairs runLv 4 :=
  mkReg m outs 4 launch4 (V9 m outs) (V10 m outs) (fun c => body_obligation4 (fun c b => V9 m outs c b) c)
    (fun _ _ => rfl) (fun _ _ => rfl) (fun _ _ => rfl) (fun _ _ => rfl) (fun _ _ => rfl) [main_v60] (V10_of m outs) in_ne4 (by decide)
    (fun c w hw => by obtain rfl := out_eq4 w hw; exact hF4_out m outs h c)

theorem in_ne5 : ∀ w : Fin 10, (cfg5.win w).isOut = false → Pipeline.arrRef spec5 w ∉ ([main_v72_0, main_v72_1] : List (Ref sig .tc)) := by decide

theorem out_eq5 : ∀ w : Fin 10, (cfg5.win w).isOut ≠ false → w = 8 ∨ w = 9 := by decide

theorem hF5_out0 (h : Houts m outs) (c : Dev nD) :
    (dat5 (fun c b => V11 m outs c b) c).arrAt 8 cfg5.N = V12 m outs c (Pipeline.arrRef spec5 8) :=
  (h.h12_0 c).symm.trans
    ((Function.update_of_ne (StableHlo.devRef_ne_of_ne (by decide : main_v72_0 ≠ main_v72_1) : (Proc.devRef .tc main_v72_0 : DevRef τ sig) ≠ (Proc.devRef .tc main_v72_1 : DevRef τ sig))
        (outs 12 main_v72_1 c) (Function.update (V11 m outs c) (Proc.devRef .tc main_v72_0 : DevRef τ sig) (outs 12 main_v72_0 c))).trans
      (Function.update_self (Proc.devRef .tc main_v72_0 : DevRef τ sig) (outs 12 main_v72_0 c) (V11 m outs c))).symm
theorem hF5_out1 (h : Houts m outs) (c : Dev nD) :
    (dat5 (fun c b => V11 m outs c b) c).arrAt 9 cfg5.N = V12 m outs c (Pipeline.arrRef spec5 9) :=
  (h.h12_1 c).symm.trans
    (Function.update_self (Proc.devRef .tc main_v72_1 : DevRef τ sig) (outs 12 main_v72_1 c) (Function.update (V11 m outs c) (Proc.devRef .tc main_v72_0 : DevRef τ sig) (outs 12 main_v72_0 c))).symm

def reg5 (h : Houts m outs) : Pipeline.RegionSeg (pcfgs (F := F)) adm (pdats m outs) () defs₀ runVar runPairs runLv 5 :=
  mkReg m outs 5 launch5 (V11 m outs) (V12 m outs) (fun c => body_obligation5 (fun c b => V11 m outs c b) c)
    (fun _ _ => rfl) (fun _ _ => rfl) (fun _ _ => rfl) (fun _ _ => rfl) (fun _ _ => rfl) [main_v72_0, main_v72_1] (V12_of m outs) in_ne5 (by decide)
    (fun c w hw => by rcases out_eq5 w hw with rfl | rfl; exacts [hF5_out0 m outs h c, hF5_out1 m outs h c])

set_option backward.isDefEq.respectTransparency.types false in
theorem run_main (ρ : Dev nD → PrngReg) (h : Houts m outs) :
    θ_run defs (onTc (τ := τ) (main (F := F))) ⟨m, fun _ => 0, ρ⟩
      (fun r => ∀ c : Dev nD, ∀ b ∈ Pipeline.ucRefs τ sig, r.2.mem ((c : Thread nD τ).1, b) = V12 m outs c b) := by
  refine Pipeline.θ_run_regions_kit_dev (pcfgs (F := F)) adm (pdats m outs) () cellOf_inj emb₁ defs₀ runVar runPairs runLv m ρ main
    (segs m outs runVar runPairs runLv (fun _ c => runRest c) () (pdats m outs)
      (reg0 m outs h) (reg1 m outs h) (reg2 m outs h) (reg3 m outs h) (reg4 m outs h) (reg5 m outs h))
    (fun c Q => by
      rewrite [main_chain c, Pipeline.Seg.run_eq_chain,
        show (segs m outs runVar runPairs runLv (fun _ c => runRest c) () (pdats m outs)
            (reg0 m outs h) (reg1 m outs h) (reg2 m outs h) (reg3 m outs h) (reg4 m outs h) (reg5 m outs h) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ runRest c))
    (Tₙ := fun c => StableHlo.held (c : Thread nD τ) (Pipeline.ucRefs τ sig) (V12 m outs c))
    (hch := fun c => ⟨.rfl, .rfl, .rfl, .rfl, .rfl, .rfl, .rfl, .rfl, .rfl, .rfl, .rfl, .rfl,
      sep_mono .rfl (by iintro ⟨-, H⟩; iexact H)⟩)
    (hinit := by
      refine Pipeline.initEach runPairs runLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m outs c b)
    (hfin := fun c s' => by
      iintro ⟨Hh, HSI⟩
      unfold StableHlo.held
      imodintro
      iapply (pointsTo_read_all (Pipeline.ucRefs τ sig) (fun b => (((c : Thread nD τ)).1, b)) (V12 m outs c) s')
      isplitl [Hh] <;> iassumption)
    (hQ := fun _ hq => hq)

end Run

-- Every argument array holds in the memory `m'` what it held in `m`.
abbrev argsKept (m m' : (ℓ : Loc nD τ sig) → Buf (Elt F) ℓ) (c : Dev nD) : Prop :=
  ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21] : List (Ref sig .tc)).Forall
    fun a => m' ((c.tc : Thread nD τ).loc a) = m ((c.tc : Thread nD τ).loc a)

theorem run_results_args (m : (ℓ : Loc nD τ sig) → Buf (Elt F) ℓ) (ρ : Dev nD → PrngReg) :
    ∃ outs : Outs (F := F), Houts m outs ∧
      θ_run defs (onTc (τ := τ) (main (F := F))) ⟨m, fun _ => 0, ρ⟩ (fun r => ∀ c : Dev nD,
        r.2.mem ((c.tc : Thread nD τ).loc main_v72_0) = outs 12 main_v72_0 c
        ∧ r.2.mem ((c.tc : Thread nD τ).loc main_v72_1) = outs 12 main_v72_1 c
        ∧ argsKept m r.2.mem c) := by
  obtain ⟨outs, h⟩ := exists_outs (F := F) m
  refine ⟨outs, h, (θ_run defs _ _).mono (fun r hr c => ⟨?_, ?_, ?_⟩) (run_main m outs ρ h)⟩
  · exact (hr c _ (mem_uc_run main_v72_0 (by decide))).trans
      ((Function.update_of_ne (StableHlo.devRef_ne_of_ne (by decide : main_v72_0 ≠ main_v72_1) : (Proc.devRef .tc main_v72_0 : DevRef τ sig) ≠ (Proc.devRef .tc main_v72_1 : DevRef τ sig))
          (outs 12 main_v72_1 c) (Function.update (V11 m outs c) (Proc.devRef .tc main_v72_0 : DevRef τ sig) (outs 12 main_v72_0 c))).trans
        (Function.update_self (Proc.devRef .tc main_v72_0 : DevRef τ sig) (outs 12 main_v72_0 c) (V11 m outs c)))
  · exact (hr c _ (mem_uc_run main_v72_1 (by decide))).trans
      (Function.update_self (Proc.devRef .tc main_v72_1 : DevRef τ sig) (outs 12 main_v72_1 c) (Function.update (V11 m outs c) (Proc.devRef .tc main_v72_0 : DevRef τ sig) (outs 12 main_v72_0 c)))
  · simp only [argsKept, List.Forall]
    exact ⟨(hr c _ (mem_uc_run main_arg0 (by decide))).trans (V12_main_arg0 m outs c),
      (hr c _ (mem_uc_run main_arg1 (by decide))).trans (V12_main_arg1 m outs c),
      (hr c _ (mem_uc_run main_arg2 (by decide))).trans (V12_main_arg2 m outs c),
      (hr c _ (mem_uc_run main_arg3 (by decide))).trans (V12_main_arg3 m outs c),
      (hr c _ (mem_uc_run main_arg4 (by decide))).trans (V12_main_arg4 m outs c),
      (hr c _ (mem_uc_run main_arg5 (by decide))).trans (V12_main_arg5 m outs c),
      (hr c _ (mem_uc_run main_arg6 (by decide))).trans (V12_main_arg6 m outs c),
      (hr c _ (mem_uc_run main_arg7 (by decide))).trans (V12_main_arg7 m outs c),
      (hr c _ (mem_uc_run main_arg8 (by decide))).trans (V12_main_arg8 m outs c),
      (hr c _ (mem_uc_run main_arg9 (by decide))).trans (V12_main_arg9 m outs c),
      (hr c _ (mem_uc_run main_arg10 (by decide))).trans (V12_main_arg10 m outs c),
      (hr c _ (mem_uc_run main_arg11 (by decide))).trans (V12_main_arg11 m outs c),
      (hr c _ (mem_uc_run main_arg12 (by decide))).trans (V12_main_arg12 m outs c),
      (hr c _ (mem_uc_run main_arg13 (by decide))).trans (V12_main_arg13 m outs c),
      (hr c _ (mem_uc_run main_arg14 (by decide))).trans (V12_main_arg14 m outs c),
      (hr c _ (mem_uc_run main_arg15 (by decide))).trans (V12_main_arg15 m outs c),
      (hr c _ (mem_uc_run main_arg16 (by decide))).trans (V12_main_arg16 m outs c),
      (hr c _ (mem_uc_run main_arg17 (by decide))).trans (V12_main_arg17 m outs c),
      (hr c _ (mem_uc_run main_arg18 (by decide))).trans (V12_main_arg18 m outs c),
      (hr c _ (mem_uc_run main_arg19 (by decide))).trans (V12_main_arg19 m outs c),
      (hr c _ (mem_uc_run main_arg20 (by decide))).trans (V12_main_arg20 m outs c),
      (hr c _ (mem_uc_run main_arg21 (by decide))).trans (V12_main_arg21 m outs c)⟩

theorem frame (m : (ℓ : Loc nD τ sig) → Buf (Elt F) ℓ) (ρ : Dev nD → PrngReg) :
    θ_run defs (onTc (τ := τ) (main (F := F))) ⟨m, fun _ => 0, ρ⟩ (fun r => ∀ c : Dev nD, argsKept m r.2.mem c) := by
  obtain ⟨_, _, h⟩ := run_results_args (F := F) m ρ
  exact (θ_run defs _ _).mono (fun _ hr c => (hr c).2.2) h

end Cert.Kernel.Hand

end
-- ==== Proof.KI.Reg0.lean ====
import proofs.«419864_j2224793059992_3_alg».proof.Proof.Gen.KernelIdeal.Launch
import proofs.«419864_j2224793059992_3_alg».proof.Proof.Gen.KernelIdeal.Skeleton
import proofs.«419864_j2224793059992_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S10000x64 := Rect.unit (s := S10000x64) ![0, 0] S10000x64.size inb_S10000x64_S10000x64_0_0
abbrev r0_w : Rect S32x64 := Rect.unit (s := S32x64) ![0, 0] S32x64.size inb_S32x64_S32x64_0_0
abbrev r0_b : Rect S1x32 := Rect.unit (s := S1x32) ![0, 0] S1x32.size inb_S1x32_S1x32_0_0
abbrev r0_o : Rect S10000x32 := Rect.unit (s := S10000x32) ![0, 0] S10000x32.size inb_S10000x32_S10000x32_0_0

def out0_3 (x0 : Vec F S10000x64 .f32) (x1 : Vec F S32x64 .f32) (x2 : Vec F S1x32 .f32) : Vec F S10000x32 .f32 :=
  View.canon [⟨r0_o, k0_pay1 (View.ld x0 r0_x) (View.ld x1 r0_w) (View.ld x2 r0_b)⟩]

theorem cover0_3 (p0 : Vec F S10000x32 .f32) (y : S10000x32.Idx) :
    ∃ pc ∈ ([⟨r0_o, p0⟩] : List (View.Piece (Elt F) S10000x32 .f32)), y ∈ pc.1.set :=
  View.cover_of_tiled [⟨r0_o, p0⟩] S10000x32.size (by rfl) y

set_option maxHeartbeats 1000000 in
theorem sound_kernel0 (c : Dev nD) (E : Set ℕ) (i : grid0.Coords)
    (arg1 : Memref sig .tc .vmem S10000x64 .f32) (harg1 : arg1.IsWhole) (arg2 : Memref sig .tc .vmem S32x64 .f32) (harg2 : arg2.IsWhole)
    (arg3 : Memref sig .tc .vmem S1x32 .f32) (harg3 : arg3.IsWhole) (arg4 : Memref sig .tc .vmem S10000x32 .f32) (harg4 : arg4.IsWhole)
    (x0 : Vec F S10000x64 .f32) (x1 : Vec F S32x64 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«419864_j2224793059992_3_alg».proof.Proof.Gen.KernelIdeal.Launch
import proofs.«419864_j2224793059992_3_alg».proof.Proof.Gen.KernelIdeal.Skeleton
import proofs.«419864_j2224793059992_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_e : Rect S8000x32 := Rect.unit (s := S8000x32) ![0, 0] S8000x32.size inb_S8000x32_S8000x32_0_0
abbrev r1_a : Rect S1x32 := Rect.unit (s := S1x32) ![0, 0] S1x32.size inb_S1x32_S1x32_0_0
abbrev r1_b : Rect S1x1 := Rect.unit (s := S1x1) ![0, 0] S1x1.size inb_S1x1_S1x1_0_0

def out1_5 (x0 : Vec F S8000x32 .f32) (x1 : Vec F S8000x32 .f32) (x2 : Vec F S1x32 .f32) (x3 : Vec F S1x32 .f32)
    (x4 : Vec F S1x1 .f32) : Vec F S8000x32 .f32 :=
  View.canon [⟨r1_e, k1_pay1 (View.ld x0 r1_e) (View.ld x1 r1_e) (View.ld x2 r1_a) (View.ld x3 r1_a) (View.ld x4 r1_b)⟩]

theorem cover1_5 (p0 : Vec F S8000x32 .f32) (y : S8000x32.Idx) :
    ∃ pc ∈ ([⟨r1_e, p0⟩] : List (View.Piece (Elt F) S8000x32 .f32)), y ∈ pc.1.set :=
  View.cover_of_tiled [⟨r1_e, p0⟩] S8000x32.size (by rfl) y

set_option maxHeartbeats 1000000 in
theorem sound_kernel1 (c : Dev nD) (E : Set ℕ) (i : grid1.Coords)
    (arg1 : Memref sig .tc .vmem S8000x32 .f32) (harg1 : arg1.IsWhole) (arg2 : Memref sig .tc .vmem S8000x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x1 .f32) (harg5 : arg5.IsWhole) (arg6 : Memref sig .tc .vmem S8000x32 .f32) (harg6 : arg6.IsWhole)
    (x0 : Vec F S8000x32 .f32) (x1 : Vec F S8000x32 .f32) (x2 : Vec F S1x32 .f32) (x3 : Vec F S1x32 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__edge_kernel i arg1 harg1 arg2 harg2 arg3 harg3 arg4 harg4 arg5 harg5 arg6 harg6) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t
      = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«419864_j2224793059992_3_alg».proof.Proof.Gen.KernelIdeal.Launch
import proofs.«419864_j2224793059992_3_alg».proof.Proof.Gen.KernelIdeal.Skeleton
import proofs.«419864_j2224793059992_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_h : Rect S10000x32 := Rect.unit (s := S10000x32) ![0, 0] S10000x32.size inb_S10000x32_S10000x32_0_0
abbrev r2_w : Rect S32x32 := Rect.unit (s := S32x32) ![0, 0] S32x32.size inb_S32x32_S32x32_0_0
abbrev r2_b : Rect S1x32 := Rect.unit (s := S1x32) ![0, 0] S1x32.size inb_S1x32_S1x32_0_0
abbrev r2_o : Rect S10000x32 := Rect.unit (s := S10000x32) ![0, 0] S10000x32.size inb_S10000x32_S10000x32_0_0

def out2_3 (x0 : Vec F S10000x32 .f32) (x1 : Vec F S32x32 .f32) (x2 : Vec F S1x32 .f32) : Vec F S10000x32 .f32 :=
  View.canon [⟨r2_o, k2_pay1 (View.ld x0 r2_h) (View.ld x1 r2_w) (View.ld x2 r2_b)⟩]

theorem cover2_3 (p0 : Vec F S10000x32 .f32) (y : S10000x32.Idx) :
    ∃ pc ∈ ([⟨r2_o, p0⟩] : List (View.Piece (Elt F) S10000x32 .f32)), y ∈ pc.1.set :=
  View.cover_of_tiled [⟨r2_o, p0⟩] S10000x32.size (by rfl) y

set_option maxHeartbeats 1000000 in
theorem sound_kernel2 (c : Dev nD) (E : Set ℕ) (i : grid2.Coords)
    (arg1 : Memref sig .tc .vmem S10000x32 .f32) (harg1 : arg1.IsWhole) (arg2 : Memref sig .tc .vmem S32x32 .f32) (harg2 : arg2.IsWhole)
    (arg3 : Memref sig .tc .vmem S1x32 .f32) (harg3 : arg3.IsWhole) (arg4 : Memref sig .tc .vmem S10000x32 .f32) (harg4 : arg4.IsWhole)
    (x0 : Vec F S10000x32 .f32) (x1 : Vec F S32x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«419864_j2224793059992_3_alg».proof.Proof.Gen.KernelIdeal.Launch
import proofs.«419864_j2224793059992_3_alg».proof.Proof.Gen.KernelIdeal.Skeleton
import proofs.«419864_j2224793059992_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_e : Rect S8000x32 := Rect.unit (s := S8000x32) ![0, 0] S8000x32.size inb_S8000x32_S8000x32_0_0
abbrev r3_a : Rect S1x32 := Rect.unit (s := S1x32) ![0, 0] S1x32.size inb_S1x32_S1x32_0_0
abbrev r3_b : Rect S1x1 := Rect.unit (s := S1x1) ![0, 0] S1x1.size inb_S1x1_S1x1_0_0

def out3_5 (x0 : Vec F S8000x32 .f32) (x1 : Vec F S8000x32 .f32) (x2 : Vec F S1x32 .f32) (x3 : Vec F S1x32 .f32)
    (x4 : Vec F S1x1 .f32) : Vec F S8000x32 .f32 :=
  View.canon [⟨r3_e, k3_pay1 (View.ld x0 r3_e) (View.ld x1 r3_e) (View.ld x2 r3_a) (View.ld x3 r3_a) (View.ld x4 r3_b)⟩]

theorem cover3_5 (p0 : Vec F S8000x32 .f32) (y : S8000x32.Idx) :
    ∃ pc ∈ ([⟨r3_e, p0⟩] : List (View.Piece (Elt F) S8000x32 .f32)), y ∈ pc.1.set :=
  View.cover_of_tiled [⟨r3_e, p0⟩] S8000x32.size (by rfl) y

set_option maxHeartbeats 1000000 in
theorem sound_kernel3 (c : Dev nD) (E : Set ℕ) (i : grid3.Coords)
    (arg1 : Memref sig .tc .vmem S8000x32 .f32) (harg1 : arg1.IsWhole) (arg2 : Memref sig .tc .vmem S8000x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x1 .f32) (harg5 : arg5.IsWhole) (arg6 : Memref sig .tc .vmem S8000x32 .f32) (harg6 : arg6.IsWhole)
    (x0 : Vec F S8000x32 .f32) (x1 : Vec F S8000x32 .f32) (x2 : Vec F S1x32 .f32) (x3 : Vec F S1x32 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E
          (cc3__edge_kernel i arg1 harg1 arg2 harg2 arg3 harg3 arg4 harg4 arg5 harg5 arg6 harg6) K := by
  simp only [cc3__edge_kernel_eq_skeleton]; unfold cc3__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t
      = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«419864_j2224793059992_3_alg».proof.Proof.Gen.KernelIdeal.Launch
import proofs.«419864_j2224793059992_3_alg».proof.Proof.Gen.KernelIdeal.Skeleton
import proofs.«419864_j2224793059992_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_h : Rect S5000x32 := Rect.unit (s := S5000x32) ![0, 0] S5000x32.size inb_S5000x32_S5000x32_0_0
abbrev r4_w : Rect S96x32 := Rect.unit (s := S96x32) ![0, 0] S96x32.size inb_S96x32_S96x32_0_0
abbrev r4_b : Rect S1x96 := Rect.unit (s := S1x96) ![0, 0] S1x96.size inb_S1x96_S1x96_0_0
abbrev r4_o : Rect S5000x32 := Rect.unit (s := S5000x32) ![0, 0] S5000x32.size inb_S5000x32_S5000x32_0_0

def out4_4 (x0 : Vec F S5000x32 .f32) (x1 : Vec F S96x32 .f32) (x2 : Vec F S1x96 .f32) (x3 : Vec F S1x96 .f32) : Vec F S5000x32 .f32 :=
  View.canon [⟨r4_o, k4_pay1 (View.ld x0 r4_h) (View.ld x1 r4_w) (View.ld x2 r4_b) (View.ld x3 r4_b)⟩]

theorem cover4_4 (p0 : Vec F S5000x32 .f32) (y : S5000x32.Idx) :
    ∃ pc ∈ ([⟨r4_o, p0⟩] : List (View.Piece (Elt F) S5000x32 .f32)), y ∈ pc.1.set :=
  View.cover_of_tiled [⟨r4_o, p0⟩] S5000x32.size (by rfl) y

set_option maxHeartbeats 1000000 in
theorem sound_kernel4 (c : Dev nD) (E : Set ℕ) (i : grid4.Coords)
    (arg1 : Memref sig .tc .vmem S5000x32 .f32) (harg1 : arg1.IsWhole) (arg2 : Memref sig .tc .vmem S96x32 .f32) (harg2 : arg2.IsWhole)
    (arg3 : Memref sig .tc .vmem S1x96 .f32) (harg3 : arg3.IsWhole) (arg4 : Memref sig .tc .vmem S1x96 .f32) (harg4 : arg4.IsWhole)
    (arg5 : Memref sig .tc .vmem S5000x32 .f32) (harg5 : arg5.IsWhole)
    (x0 : Vec F S5000x32 .f32) (x1 : Vec F S96x32 .f32) (x2 : Vec F S1x96 .f32) (x3 : Vec F S1x96 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__gru_kernel i arg1 harg1 arg2 harg2 arg3 harg3 arg4 harg4 arg5 harg5) K := by
  simp only [cc4__gru_kernel_eq_skeleton]; unfold cc4__gru_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«419864_j2224793059992_3_alg».proof.Proof.Gen.KernelIdeal.Launch
import proofs.«419864_j2224793059992_3_alg».proof.Proof.Gen.KernelIdeal.Skeleton
import proofs.«419864_j2224793059992_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

abbrev r5_h : Rect S1000x32 := Rect.unit (s := S1000x32) ![0, 0] S1000x32.size inb_S1000x32_S1000x32_0_0
abbrev r5_e : Rect S1000x5 := Rect.unit (s := S1000x5) ![0, 0] S1000x5.size inb_S1000x5_S1000x5_0_0
abbrev r5_W : Rect S8x34 := Rect.unit (s := S8x34) ![0, 0] S8x34.size inb_S8x34_S8x34_0_0
abbrev r5_b : Rect S1x8 := Rect.unit (s := S1x8) ![0, 0] S1x8.size inb_S1x8_S1x8_0_0
abbrev r5_Ws : Rect S2x34 := Rect.unit (s := S2x34) ![0, 0] S2x34.size inb_S2x34_S2x34_0_0
abbrev r5_bs : Rect S1x2 := Rect.unit (s := S1x2) ![0, 0] S1x2.size inb_S1x2_S1x2_0_0
abbrev r5_o : Rect S1000x8x2 := Rect.unit (s := S1000x8x2) ![0, 0, 0] S1000x8x2.size inb_S1000x8x2_S1000x8x2_0_0_0

def out5_8 (x0 : Vec F S1000x32 .f32) (x1 : Vec F S1000x5 .f32) (x2 : Vec F S8x34 .f32) (x3 : Vec F S1x8 .f32) (x4 : Vec F S8x34 .f32) (x5 : Vec F S1x8 .f32) (x6 : Vec F S2x34 .f32) (x7 : Vec F S1x2 .f32) : Vec F S1000x8x2 .f32 :=
  View.canon [⟨r5_o, k5_pay5 (k5_pay12 (View.ld x0 r5_h) (View.ld x1 r5_e) (View.ld x2 r5_W) (View.ld x3 r5_b)) (k5_pay13 (View.ld x0 r5_h) (View.ld x1 r5_e) (View.ld x4 r5_W) (View.ld x5 r5_b))⟩]

def out5_9 (x0 : Vec F S1000x32 .f32) (x1 : Vec F S1000x5 .f32) (x2 : Vec F S8x34 .f32) (x3 : Vec F S1x8 .f32) (x4 : Vec F S8x34 .f32) (x5 : Vec F S1x8 .f32) (x6 : Vec F S2x34 .f32) (x7 : Vec F S1x2 .f32) : Vec F S1000x8x2 .f32 :=
  let v6 := k5_pay8 (View.ld x1 r5_e)
  let v7 := k5_pay9 (View.ld x1 r5_e)
  let v8 := k5_pay10 (View.ld x1 r5_e)
  let v36 := k5_pay15 (View.ld x0 r5_h) (View.ld x1 r5_e) (View.ld x6 r5_Ws) (View.ld x7 r5_bs)
  let v38 := k5_pay16 (View.ld x0 r5_h) (View.ld x1 r5_e) (View.ld x6 r5_Ws) (View.ld x7 r5_bs)
  let v39 := k5_pay17 (View.ld x1 r5_e)
  let v97 := k5_pay40 v6 v7 v8 v36 v38 v39
  let v98 := k5_pay41 v6 v7 v8 v36 v38 v39
  let v99 := k5_pay42 v6 v7 v8 v36 v38 v39
  let v105 := k5_pay1 v8 v36 v38 v97 v98 v99
  let v118 := k5_pay4 v38 (k5_pay19 v6 v38) (k5_pay23 v6 v7 v8 v36 v38 v39) (k5_pay27 v6 v7 v8 v36 v38 v39) (k5_pay31 v6 v7 v8 v36 v38 v39)
    (k5_pay35 v6 v7 v8 v36 v38 v39) (k5_pay39 v6 v7 v8 v36 v38 v39) v97 v105
  View.canon [⟨r5_o, k5_pay6 v8 v36 v38 (k5_pay18 v6 v7 v8 v36 v38 v39) (k5_pay22 v6 v7 v8 v36 v38 v39) (k5_pay26 v6 v7 v8 v36 v38 v39)
    (k5_pay30 v6 v7 v8 v36 v38 v39) (k5_pay34 v6 v7 v8 v36 v38 v39) (k5_pay38 v6 v7 v8 v36 v38 v39) v97 v98 v105 v118⟩]

theorem cover5_8 (p0 : Vec F S1000x8x2 .f32) (y : S1000x8x2.Idx) :
    ∃ pc ∈ ([⟨r5_o, p0⟩] : List (View.Piece (Elt F) S1000x8x2 .f32)), y ∈ pc.1.set :=
  View.cover_of_tiled [⟨r5_o, p0⟩] S1000x8x2.size (by rfl) y
theorem cover5_9 (p0 : Vec F S1000x8x2 .f32) (y : S1000x8x2.Idx) :
    ∃ pc ∈ ([⟨r5_o, p0⟩] : List (View.Piece (Elt F) S1000x8x2 .f32)), y ∈ pc.1.set :=
  View.cover_of_tiled [⟨r5_o, p0⟩] S1000x8x2.size (by rfl) y

set_option maxHeartbeats 4000000 in
theorem sound_kernel5 (c : Dev nD) (E : Set ℕ) (i : grid5.Coords)
    (arg1 : Memref sig .tc .vmem S1000x32 .f32) (harg1 : arg1.IsWhole) (arg2 : Memref sig .tc .vmem S1000x5 .f32) (harg2 : arg2.IsWhole)
    (arg3 : Memref sig .tc .vmem S8x34 .f32) (harg3 : arg3.IsWhole) (arg4 : Memref sig .tc .vmem S1x8 .f32) (harg4 : arg4.IsWhole)
    (arg5 : Memref sig .tc .vmem S8x34 .f32) (harg5 : arg5.IsWhole) (arg6 : Memref sig .tc .vmem S1x8 .f32) (harg6 : arg6.IsWhole)
    (arg7 : Memref sig .tc .vmem S2x34 .f32) (harg7 : arg7.IsWhole) (arg8 : Memref sig .tc .vmem S1x2 .f32) (harg8 : arg8.IsWhole)
    (arg9 : Memref sig .tc .vmem S1000x8x2 .f32) (harg9 : arg9.IsWhole) (arg10 : Memref sig .tc .vmem S1000x8x2 .f32) (harg10 : arg10.IsWhole)
    (x0 : Vec F S1000x32 .f32) (x1 : Vec F S1000x5 .f32) (x2 : Vec F S8x34 .f32) (x3 : Vec F S1x8 .f32) (x4 : Vec F S8x34 .f32) (x5 : Vec F S1x8 .f32) (x6 : Vec F S2x34 .f32) (x7 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out5_8 x0 x1 x2 x3 x4 x5 x6 x7) ∗ owns (c : Thread nD τ) arg10 fullShare (out5_9 x0 x1 x2 x3 x4 x5 x6 x7)) -∗ K ⟨⟩))
      ⊢ wp frame (wpE (defs₀ (F := F)) Variants.none c none) E (cc5__outhead_kernel i arg1 harg1 arg2 harg2 arg3 harg3 arg4 harg4 arg5 harg5 arg6 harg6 arg7 harg7 arg8 harg8 arg9 harg9 arg10 harg10) K := by
  simp only [cc5__outhead_kernel_eq_skeleton]; unfold cc5__outhead_kernel_skel
  simp only [k5_part1_eq_skeleton, k5_part2_eq_skeleton]; unfold k5_part1_skel k5_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover5_8 _)
  iexists _; isplitr
  swap; · iexact H9
  ipureintro
  exact View.read_writes_eq_canon _ _ _ (cover5_9 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t) (iblk5 V c 6 t) (iblk5 V c 7 t)
    | ⟨9, _⟩ => out5_9 (iblk5 V c 0 t) (iblk5 V c 1 t) (iblk5 V c 2 t) (iblk5 V c 3 t) (iblk5 V c 4 t) (iblk5 V c 5 t) (iblk5 V c 6 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) :
    (dat5 V c).after 8 t = out5_8 (iblk5 V c 0 t) (iblk5 V c 1 t) (iblk5 V c 2 t) (iblk5 V c 3 t) (iblk5 V c 4 t) (iblk5 V c 5 t) (iblk5 V c 6 t) (iblk5 V c 7 t) := by dsimp only [dat5]
theorem after5_9 (c : Dev nD) (t : Fin cfg5.N) :
    (dat5 V c).after 9 t = out5_9 (iblk5 V c 0 t) (iblk5 V c 1 t) (iblk5 V c 2 t) (iblk5 V c 3 t) (iblk5 V c 4 t) (iblk5 V c 5 t) (iblk5 V c 6 t) (iblk5 V c 7 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Launch.lean ====
import proofs.«419864_j2224793059992_3_alg».proof.Proof.KI.Reg0
import proofs.«419864_j2224793059992_3_alg».proof.Proof.KI.Reg1
import proofs.«419864_j2224793059992_3_alg».proof.Proof.KI.Reg2
import proofs.«419864_j2224793059992_3_alg».proof.Proof.KI.Reg3
import proofs.«419864_j2224793059992_3_alg».proof.Proof.KI.Reg4
import proofs.«419864_j2224793059992_3_alg».proof.Proof.KI.Reg5
import proofs.«419864_j2224793059992_3_alg».proof.Proof.Gen.KernelIdeal.Regions
import Idealize.ShloMosaic.Lib.Pipeline.Frame
import Idealize.ShloMosaic.Lib.Pipeline.Regions
import Mathlib.Logic.Function.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

structure Houts (m : (ℓ : Loc nD τ sig) → Buf (Elt F) ℓ) (outs : Outs (F := F)) : Prop where
  h2 : ∀ c : Dev nD, outs 2 main_v13 c = (dat0 (fun c b => V1 m c b) c).arrAt 3 cfg0.N
  h4 : ∀ c : Dev nD, outs 4 main_v31 c = (dat1 (fun c b => V3 m outs c b) c).arrAt 5 cfg1.N
  h6 : ∀ c : Dev nD, outs 6 main_v36 c = (dat2 (fun c b => V5 m outs c b) c).arrAt 3 cfg2.N
  h8 : ∀ c : Dev nD, outs 8 main_v54 c = (dat3 (fun c b => V7 m outs c b) c).arrAt 5 cfg3.N
  h10 : ∀ c : Dev nD, outs 10 main_v60 c = (dat4 (fun c b => V9 m outs c b) c).arrAt 4 cfg4.N
  h12_0 : ∀ c : Dev nD, outs 12 main_v72_0 c = (dat5 (fun c b => V11 m outs c b) c).arrAt 8 cfg5.N
  h12_1 : ∀ c : Dev nD, outs 12 main_v72_1 c = (dat5 (fun c b => V11 m outs c b) c).arrAt 9 cfg5.N

section Stages

variable (m : (ℓ : Loc nD τ sig) → Buf (Elt F) ℓ)

def mkOuts (a13 : (c : Dev nD) → Buf (Elt F) ((c : Thread nD τ).loc main_v13))
    (a31 : (c : Dev nD) → Buf (Elt F) ((c : Thread nD τ).loc main_v31))
    (a36 : (c : Dev nD) → Buf (Elt F) ((c : Thread nD τ).loc main_v36))
    (a54 : (c : Dev nD) → Buf (Elt F) ((c : Thread nD τ).loc main_v54))
    (a60 : (c : Dev nD) → Buf (Elt F) ((c : Thread nD τ).loc main_v60))
    (a72_0 : (c : Dev nD) → Buf (Elt F) ((c : Thread nD τ).loc main_v72_0))
    (a72_1 : (c : Dev nD) → Buf (Elt F) ((c : Thread nD τ).loc main_v72_1)) : Outs (F := F) :=
  fun _ =>
    Function.update (Function.update (Function.update (Function.update (Function.update (Function.update (Function.update
      (fun (r : Ref sig .tc) (c : Dev nD) => m ((c : Thread nD τ).loc r))
      main_v13 a13) main_v31 a31) main_v36 a36) main_v54 a54) main_v60 a60) main_v72_0 a72_0) main_v72_1 a72_1

section
variable (a13 : (c : Dev nD) → Buf (Elt F) ((c : Thread nD τ).loc main_v13))
    (a31 : (c : Dev nD) → Buf (Elt F) ((c : Thread nD τ).loc main_v31))
    (a36 : (c : Dev nD) → Buf (Elt F) ((c : Thread nD τ).loc main_v36))
    (a54 : (c : Dev nD) → Buf (Elt F) ((c : Thread nD τ).loc main_v54))
    (a60 : (c : Dev nD) → Buf (Elt F) ((c : Thread nD τ).loc main_v60))
    (a72_0 : (c : Dev nD) → Buf (Elt F) ((c : Thread nD τ).loc main_v72_0))
    (a72_1 : (c : Dev nD) → Buf (Elt F) ((c : Thread nD τ).loc main_v72_1)) (j : ℕ)

theorem mkOuts_v72_1 : mkOuts m a13 a31 a36 a54 a60 a72_0 a72_1 j main_v72_1 = a72_1 := by
  unfold mkOuts; rw [Function.update_self]
theorem mkOuts_v72_0 : mkOuts m a13 a31 a36 a54 a60 a72_0 a72_1 j main_v72_0 = a72_0 := by
  unfold mkOuts; rw [Function.update_of_ne (by decide), Function.update_self]
theorem mkOuts_v60 : mkOuts m a13 a31 a36 a54 a60 a72_0 a72_1 j main_v60 = a60 := by
  unfold mkOuts; rw [Function.update_of_ne (by decide), Function.update_of_ne (by decide), Function.update_self]
theorem mkOuts_v54 : mkOuts m a13 a31 a36 a54 a60 a72_0 a72_1 j main_v54 = a54 := by
  unfold mkOuts; rw [Function.update_of_ne (by decide), Function.update_of_ne (by decide), Function.update_of_ne (by decide), Function.update_self]
theorem mkOuts_v36 : mkOuts m a13 a31 a36 a54 a60 a72_0 a72_1 j main_v36 = a36 := by
  unfold mkOuts; rw [Function.update_of_ne (by decide), Function.update_of_ne (by decide), Function.update_of_ne (by decide),
    Function.update_of_ne (by decide), Function.update_self]
theorem mkOuts_v31 : mkOuts m a13 a31 a36 a54 a60 a72_0 a72_1 j main_v31 = a31 := by
  unfold mkOuts; rw [Function.update_of_ne (by decide), Function.update_of_ne (by decide), Function.update_of_ne (by decide),
    Function.update_of_ne (by decide), Function.update_of_ne (by decide), Function.update_self]
theorem mkOuts_v13 : mkOuts m a13 a31 a36 a54 a60 a72_0 a72_1 j main_v13 = a13 := by
  unfold mkOuts; rw [Function.update_of_ne (by decide), Function.update_of_ne (by decide), Function.update_of_ne (by decide),
    Function.update_of_ne (by decide), Function.update_of_ne (by decide), Function.update_of_ne (by decide), Function.update_self]
end

def a13 (c : Dev nD) : Buf (Elt F) ((c : Thread nD τ).loc main_v13) := (dat0 (fun c b => V1 m c b) c).arrAt 3 cfg0.N

def X3 (c : Dev nD) : Valuation τ sig (Elt F) := StableHlo.after hostOps1 (Function.update (V1 m c) main_v13 (a13 m c))
def a31 (c : Dev nD) : Buf (Elt F) ((c : Thread nD τ).loc main_v31) := (dat1 (fun c b => X3 m c b) c).arrAt 5 cfg1.N

def X5 (c : Dev nD) : Valuation τ sig (Elt F) := StableHlo.after hostOps2 (Function.update (X3 m c) main_v31 (a31 m c))
def a36 (c : Dev nD) : Buf (Elt F) ((c : Thread nD τ).loc main_v36) := (dat2 (fun c b => X5 m c b) c).arrAt 3 cfg2.N

def X7 (c : Dev nD) : Valuation τ sig (Elt F) := StableHlo.after hostOps3 (Function.update (X5 m c) main_v36 (a36 m c))
def a54 (c : Dev nD) : Buf (Elt F) ((c : Thread nD τ).loc main_v54) := (dat3 (fun c b => X7 m c b) c).arrAt 5 cfg3.N

def X9 (c : Dev nD) : Valuation τ sig (Elt F) := StableHlo.after hostOps4 (Function.update (X7 m c) main_v54 (a54 m c))
def a60 (c : Dev nD) : Buf (Elt F) ((c : Thread nD τ).loc main_v60) := (dat4 (fun c b => X9 m c b) c).arrAt 4 cfg4.N

def X11 (c : Dev nD) : Valuation τ sig (Elt F) := StableHlo.after hostOps5 (Function.update (X9 m c) main_v60 (a60 m c))
def a72_0 (c : Dev nD) : Buf (Elt F) ((c : Thread nD τ).loc main_v72_0) := (dat5 (fun c b => X11 m c b) c).arrAt 8 cfg5.N
def a72_1 (c : Dev nD) : Buf (Elt F) ((c : Thread nD τ).loc main_v72_1) := (dat5 (fun c b => X11 m c b) c).arrAt 9 cfg5.N

def theOuts : Outs (F := F) := mkOuts m (a13 m) (a31 m) (a36 m) (a54 m) (a60 m) (a72_0 m) (a72_1 m)

theorem V3_the (c : Dev nD) : V3 m (theOuts m) c = X3 m c := by
  unfold X3; rw [show a13 m c = theOuts m 2 main_v13 c from (congrFun (mkOuts_v13 m _ _ _ _ _ _ _ 2) c).symm]
theorem V3_fun : (fun (c : Dev nD) (b : Ref sig .tc) => V3 m (theOuts m) c b) = fun (c : Dev nD) (b : Ref sig .tc) => X3 m c b :=
  funext fun c => funext fun b => congrFun (V3_the m c) b
theorem V5_the (c : Dev nD) : V5 m (theOuts m) c = X5 m c := by
  unfold X5; rw [show a31 m c = theOuts m 4 main_v31 c from (congrFun (mkOuts_v31 m _ _ _ _ _ _ _ 4) c).symm, ← V3_the m c]
theorem V5_fun : (fun (c : Dev nD) (b : Ref sig .tc) => V5 m (theOuts m) c b) = fun (c : Dev nD) (b : Ref sig .tc) => X5 m c b :=
  funext fun c => funext fun b => congrFun (V5_the m c) b
theorem V7_the (c : Dev nD) : V7 m (theOuts m) c = X7 m c := by
  unfold X7; rw [show a36 m c = theOuts m 6 main_v36 c from (congrFun (mkOuts_v36 m _ _ _ _ _ _ _ 6) c).symm, ← V5_the m c]
theorem V7_fun : (fun (c : Dev nD) (b : Ref sig .tc) => V7 m (theOuts m) c b) = fun (c : Dev nD) (b : Ref sig .tc) => X7 m c b :=
  funext fun c => funext fun b => congrFun (V7_the m c) b
theorem V9_the (c : Dev nD) : V9 m (theOuts m) c = X9 m c := by
  unfold X9; rw [show a54 m c = theOuts m 8 main_v54 c from (congrFun (mkOuts_v54 m _ _ _ _ _ _ _ 8) c).symm, ← V7_the m c]
theorem V9_fun : (fun (c : Dev nD) (b : Ref sig .tc) => V9 m (theOuts m) c b) = fun (c : Dev nD) (b : Ref sig .tc) => X9 m c b :=
  funext fun c => funext fun b => congrFun (V9_the m c) b
theorem V11_the (c : Dev nD) : V11 m (theOuts m) c = X11 m c := by
  unfold X11; rw [show a60 m c = theOuts m 10 main_v60 c from (congrFun (mkOuts_v60 m _ _ _ _ _ _ _ 10) c).symm, ← V9_the m c]
theorem V11_fun : (fun (c : Dev nD) (b : Ref sig .tc) => V11 m (theOuts m) c b) = fun (c : Dev nD) (b : Ref sig .tc) => X11 m c b :=
  funext fun c => funext fun b => congrFun (V11_the m c) b

theorem exists_outs : ∃ outs : Outs (F := F), Houts m outs :=
  ⟨theOuts m,
    ⟨fun c => congrFun (mkOuts_v13 m _ _ _ _ _ _ _ 2) c,
     fun c => (congrFun (mkOuts_v31 m _ _ _ _ _ _ _ 4) c).trans (by rw [V3_fun]; rfl),
     fun c => (congrFun (mkOuts_v36 m _ _ _ _ _ _ _ 6) c).trans (by rw [V5_fun]; rfl),
     fun c => (congrFun (mkOuts_v54 m _ _ _ _ _ _ _ 8) c).trans (by rw [V7_fun]; rfl),
     fun c => (congrFun (mkOuts_v60 m _ _ _ _ _ _ _ 10) c).trans (by rw [V9_fun]; rfl),
     fun c => (congrFun (mkOuts_v72_0 m _ _ _ _ _ _ _ 12) c).trans (by rw [V11_fun]; rfl),
     fun c => (congrFun (mkOuts_v72_1 m _ _ _ _ _ _ _ 12) c).trans (by rw [V11_fun]; rfl)⟩⟩

end Stages

section Run

variable (m : (ℓ : Loc nD τ sig) → Buf (Elt F) ℓ) (outs : Outs (F := F))

def pdats : (p : Fin 6) → (c : Dev nD) → Dat τ (Elt F) Unit ℕ (UR sig nD τ) ℕ (cfgs p) c
  | ⟨0, _⟩ => fun c => dat0 (fun c b => V1 m c b) c
  | ⟨1, _⟩ => fun c => dat1 (fun c b => V3 m outs c b) c
  | ⟨2, _⟩ => fun c => dat2 (fun c b => V5 m outs c b) c
  | ⟨3, _⟩ => fun c => dat3 (fun c b => V7 m outs c b) c
  | ⟨4, _⟩ => fun c => dat4 (fun c b => V9 m outs c b) c
  | ⟨5, _⟩ => fun c => dat5 (fun c b => V11 m outs c b) c
  | ⟨_ + 6, hn⟩ => absurd hn (Nat.not_lt.2 (Nat.le_add_left _ _))

abbrev runVar : Variants := Variants.none

abbrev runPairs : GSem nD τ sig → Finset Unit := fun _ => ∅
abbrev runLv : GSem nD τ sig → Unit → ℕ := fun _ _ => 0

abbrev runRest (c : Dev nD) : sProp 𝕄 := iprop((∃ r, prngReg c r) ∗ ∃ W, owes (c : Thread nD τ) (0 : CellTallies nD τ sig Unit) W)

theorem mem_uc_run (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- A kernel region taking the contents `Vi` to `Vo`: `Vo` is `Vi` off the listed outputs, and `hout` says what each output holds.
set_option backward.isDefEq.respectTransparency.types false in
def mkReg (p : Fin 6) (Lc : Pipeline.LaunchFacts (nD := nD) (τ := τ) cfgs p) (Vi Vo : (c : Dev nD) → Valuation τ sig (Elt F))
    (hb : ∀ c, BodyObligation (pdats m outs p c) (defs₀ (F := F)) Variants.none () Set.univ)
    (hq : ∀ c w, (pdats m outs p c).q w = fullShare) (howed : ∀ c t, (pdats m outs p c).owed t = 0)
    (hrec : ∀ c t, (pdats m outs p c).recorded t = Set.univ)
    (hΦ : ∀ c t, (pdats m outs p c).Φ t = Pipeline.ΦA (cfgs p).spec c)
    (hA : ∀ c w, (pdats m outs p c).A w = Vi c (Pipeline.arrRef (cfgs p).spec w))
    (outsL : List (Ref sig .tc)) (hVo : ∀ c, ∀ b : Ref sig .tc, b ∉ outsL → Vo c b = Vi c b)
    (hin : ∀ w, ((cfgs p).win w).isOut = false → Pipeline.arrRef (cfgs p).spec w ∉ outsL)
    (hsub : ∀ b ∈ outsL, b ∈ Finset.univ.image (Pipeline.arrRef (cfgs p).spec))
    (hout : ∀ c w, ((cfgs p).win w).isOut ≠ false → (pdats m outs p c).arrAt w (cfgs p).N = Vo c (Pipeline.arrRef (cfgs p).spec w)) :
    Pipeline.RegionSeg (pcfgs (F := F)) adm (pdats m outs) () defs₀ runVar runPairs runLv p where
  win := Lc.win.to₀
  block_pos := Lc.block_pos
  stage_whole := Lc.stage_whole
  K := PEmpty
  osem k := k.elim
  ho := Pipeline.OwnSemFacts.none _
  hbody c := (hb c).loose
  hwaits := Pipeline.hwaits_of_owed_zero _ _ _ _ runPairs runLv p howed
  pre c := iprop(StableHlo.held (c : Thread nD τ) (Pipeline.ucRefs τ sig) (Vi c) ∗ runRest c)
  post c := iprop(StableHlo.held (c : Thread nD τ) (Pipeline.ucRefs τ sig) (Vo c) ∗ runRest c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) adm (pdats m outs) Lc.win Lc.arr_whole c
      ((pdats m outs p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c _]
      icases HO with ⟨%W, HO⟩; iexists W; isplitr; · ipureintro; exact fun _ _ => Or.inl (by rw [hrec c _]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      Lc.win Lc.arr_whole c (pdats m outs) ((pdats m outs p c).share_full (hq c))
      (fun b => Vi c b) (fun b => Vo c b) ((pdats m outs p c).arrAt · (cfgs p).N)
      (fun w => if hw : ((cfgs p).win w).isOut = false then ((pdats m outs p c).arrAt_in w hw _).trans ((hA c w).trans (hVo c _ (hin w hw)).symm) else hout c w hw)
      (fun b hb => hVo c b fun hm => hb (hsub b hm))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c _]
    icases HO with ⟨%W, -, HO⟩; iexists W; iexact HO

theorem in_ne0 : ∀ w : Fin 4, (cfg0.win w).isOut = false → Pipeline.arrRef spec0 w ∉ ([main_v13] : List (Ref sig .tc)) := by decide

theorem out_eq0 : ∀ w : Fin 4, (cfg0.win w).isOut ≠ false → w = 3 := by decide

theorem hF0_out (h : Houts m outs) (c : Dev nD) :
    (dat0 (fun c b => V1 m c b) c).arrAt 3 cfg0.N = V2 m outs c (Pipeline.arrRef spec0 3) :=
  (h.h2 c).symm.trans (Function.update_self (Proc.devRef .tc main_v13 : DevRef τ sig) (outs 2 main_v13 c) (V1 m c)).symm

def reg0 (h : Houts m outs) : Pipeline.RegionSeg (pcfgs (F := F)) adm (pdats m outs) () defs₀ runVar runPairs runLv 0 :=
  mkReg m outs 0 launch0 (V1 m) (V2 m outs) (fun c => body_obligation0 (fun c b => V1 m c b) c)
    (fun _ _ => rfl) (fun _ _ => rfl) (fun _ _ => rfl) (fun _ _ => rfl) (fun _ _ => rfl) [main_v13] (V2_of m outs) in_ne0 (by decide)
    (fun c w hw => by obtain rfl := out_eq0 w hw; exact hF0_out m outs h c)

theorem in_ne1 : ∀ w : Fin 6, (cfg1.win w).isOut = false → Pipeline.arrRef spec1 w ∉ ([main_v31] : List (Ref sig .tc)) := by decide

theorem out_eq1 : ∀ w : Fin 6, (cfg1.win w).isOut ≠ false → w = 5 := by decide

theorem hF1_out (h : Houts m outs) (c : Dev nD) :
    (dat1 (fun c b => V3 m outs c b) c).arrAt 5 cfg1.N = V4 m outs c (Pipeline.arrRef spec1 5) :=
  (h.h4 c).symm.trans (Function.update_self (Proc.devRef .tc main_v31 : DevRef τ sig) (outs 4 main_v31 c) (V3 m outs c)).symm

def reg1 (h : Houts m outs) : Pipeline.RegionSeg (pcfgs (F := F)) adm (pdats m outs) () defs₀ runVar runPairs runLv 1 :=
  mkReg m outs 1 launch1 (V3 m outs) (V4 m outs) (fun c => body_obligation1 (fun c b => V3 m outs c b) c)
    (fun _ _ => rfl) (fun _ _ => rfl) (fun _ _ => rfl) (fun _ _ => rfl) (fun _ _ => rfl) [main_v31] (V4_of m outs) in_ne1 (by decide)
    (fun c w hw => by obtain rfl := out_eq1 w hw; exact hF1_out m outs h c)

theorem in_ne2 : ∀ w : Fin 4, (cfg2.win w).isOut = false → Pipeline.arrRef spec2 w ∉ ([main_v36] : List (Ref sig .tc)) := by decide

theorem out_eq2 : ∀ w : Fin 4, (cfg2.win w).isOut ≠ false → w = 3 := by decide

theorem hF2_out (h : Houts m outs) (c : Dev nD) :
    (dat2 (fun c b => V5 m outs c b) c).arrAt 3 cfg2.N = V6 m outs c (Pipeline.arrRef spec2 3) :=
  (h.h6 c).symm.trans (Function.update_self (Proc.devRef .tc main_v36 : DevRef τ sig) (outs 6 main_v36 c) (V5 m outs c)).symm

def reg2 (h : Houts m outs) : Pipeline.RegionSeg (pcfgs (F := F)) adm (pdats m outs) () defs₀ runVar runPairs runLv 2 :=
  mkReg m outs 2 launch2 (V5 m outs) (V6 m outs) (fun c => body_obligation2 (fun c b => V5 m outs c b) c)
    (fun _ _ => rfl) (fun _ _ => rfl) (fun _ _ => rfl) (fun _ _ => rfl) (fun _ _ => rfl) [main_v36] (V6_of m outs) in_ne2 (by decide)
    (fun c w hw => by obtain rfl := out_eq2 w hw; exact hF2_out m outs h c)

theorem in_ne3 : ∀ w : Fin 6, (cfg3.win w).isOut = false → Pipeline.arrRef spec3 w ∉ ([main_v54] : List (Ref sig .tc)) := by decide

theorem out_eq3 : ∀ w : Fin 6, (cfg3.win w).isOut ≠ false → w = 5 := by decide

theorem hF3_out (h : Houts m outs) (c : Dev nD) :
    (dat3 (fun c b => V7 m outs c b) c).arrAt 5 cfg3.N = V8 m outs c (Pipeline.arrRef spec3 5) :=
  (h.h8 c).symm.trans (Function.update_self (Proc.devRef .tc main_v54 : DevRef τ sig) (outs 8 main_v54 c) (V7 m outs c)).symm

def reg3 (h : Houts m outs) : Pipeline.RegionSeg (pcfgs (F := F)) adm (pdats m outs) () defs₀ runVar runPairs runLv 3 :=
  mkReg m outs 3 launch3 (V7 m outs) (V8 m outs) (fun c => body_obligation3 (fun c b => V7 m outs c b) c)
    (fun _ _ => rfl) (fun _ _ => rfl) (fun _ _ => rfl) (fun _ _ => rfl) (fun _ _ => rfl) [main_v54] (V8_of m outs) in_ne3 (by decide)
    (fun c w hw => by obtain rfl := out_eq3 w hw; exact hF3_out m outs h c)

theorem in_ne4 : ∀ w : Fin 5, (cfg4.win w).isOut = false → Pipeline.arrRef spec4 w ∉ ([main_v60] : List (Ref sig .tc)) := by decide

theorem out_eq4 : ∀ w : Fin 5, (cfg4.win w).isOut ≠ false → w = 4 := by decide

theorem hF4_out (h : Houts m outs) (c : Dev nD) :
    (dat4 (fun c b => V9 m outs c b) c).arrAt 4 cfg4.N = V10 m outs c (Pipeline.arrRef spec4 4) :=
  (h.h10 c).symm.trans (Function.update_self (Proc.devRef .tc main_v60 : DevRef τ sig) (outs 10 main_v60 c) (V9 m outs c)).symm

def reg4 (h : Houts m outs) : Pipeline.RegionSeg (pcfgs (F := F)) adm (pdats m outs) () defs₀ runVar runPairs runLv 4 :=
  mkReg m outs 4 launch4 (V9 m outs) (V10 m outs) (fun c => body_obligation4 (fun c b => V9 m outs c b) c)
    (fun _ _ => rfl) (fun _ _ => rfl) (fun _ _ => rfl) (fun _ _ => rfl) (fun _ _ => rfl) [main_v60] (V10_of m outs) in_ne4 (by decide)
    (fun c w hw => by obtain rfl := out_eq4 w hw; exact hF4_out m outs h c)

theorem in_ne5 : ∀ w : Fin 10, (cfg5.win w).isOut = false → Pipeline.arrRef spec5 w ∉ ([main_v72_0, main_v72_1] : List (Ref sig .tc)) := by decide

theorem out_eq5 : ∀ w : Fin 10, (cfg5.win w).isOut ≠ false → w = 8 ∨ w = 9 := by decide

theorem hF5_out0 (h : Houts m outs) (c : Dev nD) :
    (dat5 (fun c b => V11 m outs c b) c).arrAt 8 cfg5.N = V12 m outs c (Pipeline.arrRef spec5 8) :=
  (h.h12_0 c).symm.trans
    ((Function.update_of_ne (StableHlo.devRef_ne_of_ne (by decide : main_v72_0 ≠ main_v72_1) : (Proc.devRef .tc main_v72_0 : DevRef τ sig) ≠ (Proc.devRef .tc main_v72_1 : DevRef τ sig))
        (outs 12 main_v72_1 c) (Function.update (V11 m outs c) (Proc.devRef .tc main_v72_0 : DevRef τ sig) (outs 12 main_v72_0 c))).trans
      (Function.update_self (Proc.devRef .tc main_v72_0 : DevRef τ sig) (outs 12 main_v72_0 c) (V11 m outs c))).symm
theorem hF5_out1 (h : Houts m outs) (c : Dev nD) :
    (dat5 (fun c b => V11 m outs c b) c).arrAt 9 cfg5.N = V12 m outs c (Pipeline.arrRef spec5 9) :=
  (h.h12_1 c).symm.trans
    (Function.update_self (Proc.devRef .tc main_v72_1 : DevRef τ sig) (outs 12 main_v72_1 c) (Function.update (V11 m outs c) (Proc.devRef .tc main_v72_0 : DevRef τ sig) (outs 12 main_v72_0 c))).symm

def reg5 (h : Houts m outs) : Pipeline.RegionSeg (pcfgs (F := F)) adm (pdats m outs) () defs₀ runVar runPairs runLv 5 :=
  mkReg m outs 5 launch5 (V11 m outs) (V12 m outs) (fun c => body_obligation5 (fun c b => V11 m outs c b) c)
    (fun _ _ => rfl) (fun _ _ => rfl) (fun _ _ => rfl) (fun _ _ => rfl) (fun _ _ => rfl) [main_v72_0, main_v72_1] (V12_of m outs) in_ne5 (by decide)
    (fun c w hw => by rcases out_eq5 w hw with rfl | rfl; exacts [hF5_out0 m outs h c, hF5_out1 m outs h c])

set_option backward.isDefEq.respectTransparency.types false in
theorem run_main (ρ : Dev nD → PrngReg) (h : Houts m outs) :
    θ_run defs (onTc (τ := τ) (main (F := F))) ⟨m, fun _ => 0, ρ⟩
      (fun r => ∀ c : Dev nD, ∀ b ∈ Pipeline.ucRefs τ sig, r.2.mem ((c : Thread nD τ).1, b) = V12 m outs c b) := by
  refine Pipeline.θ_run_regions_kit_dev (pcfgs (F := F)) adm (pdats m outs) () cellOf_inj emb₁ defs₀ runVar runPairs runLv m ρ main
    (segs m outs runVar runPairs runLv (fun _ c => runRest c) () (pdats m outs)
      (reg0 m outs h) (reg1 m outs h) (reg2 m outs h) (reg3 m outs h) (reg4 m outs h) (reg5 m outs h))
    (fun c Q => by
      rewrite [main_chain c, Pipeline.Seg.run_eq_chain,
        show (segs m outs runVar runPairs runLv (fun _ c => runRest c) () (pdats m outs)
            (reg0 m outs h) (reg1 m outs h) (reg2 m outs h) (reg3 m outs h) (reg4 m outs h) (reg5 m outs h) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ runRest c))
    (Tₙ := fun c => StableHlo.held (c : Thread nD τ) (Pipeline.ucRefs τ sig) (V12 m outs c))
    (hch := fun c => ⟨.rfl, .rfl, .rfl, .rfl, .rfl, .rfl, .rfl, .rfl, .rfl, .rfl, .rfl, .rfl,
      sep_mono .rfl (by iintro ⟨-, H⟩; iexact H)⟩)
    (hinit := by
      refine Pipeline.initEach runPairs runLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m outs c b)
    (hfin := fun c s' => by
      iintro ⟨Hh, HSI⟩
      unfold StableHlo.held
      imodintro
      iapply (pointsTo_read_all (Pipeline.ucRefs τ sig) (fun b => (((c : Thread nD τ)).1, b)) (V12 m outs c) s')
      isplitl [Hh] <;> iassumption)
    (hQ := fun _ hq => hq)

end Run

-- Every argument array holds in the memory `m'` what it held in `m`.
abbrev argsKept (m m' : (ℓ : Loc nD τ sig) → Buf (Elt F) ℓ) (c : Dev nD) : Prop :=
  ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21] : List (Ref sig .tc)).Forall
    fun a => m' ((c.tc : Thread nD τ).loc a) = m ((c.tc : Thread nD τ).loc a)

theorem run_results_args (m : (ℓ : Loc nD τ sig) → Buf (Elt F) ℓ) (ρ : Dev nD → PrngReg) :
    ∃ outs : Outs (F := F), Houts m outs ∧
      θ_run defs (onTc (τ := τ) (main (F := F))) ⟨m, fun _ => 0, ρ⟩ (fun r => ∀ c : Dev nD,
        r.2.mem ((c.tc : Thread nD τ).loc main_v72_0) = outs 12 main_v72_0 c
        ∧ r.2.mem ((c.tc : Thread nD τ).loc main_v72_1) = outs 12 main_v72_1 c
        ∧ argsKept m r.2.mem c) := by
  obtain ⟨outs, h⟩ := exists_outs (F := F) m
  refine ⟨outs, h, (θ_run defs _ _).mono (fun r hr c => ⟨?_, ?_, ?_⟩) (run_main m outs ρ h)⟩
  · exact (hr c _ (mem_uc_run main_v72_0 (by decide))).trans
      ((Function.update_of_ne (StableHlo.devRef_ne_of_ne (by decide : main_v72_0 ≠ main_v72_1) : (Proc.devRef .tc main_v72_0 : DevRef τ sig) ≠ (Proc.devRef .tc main_v72_1 : DevRef τ sig))
          (outs 12 main_v72_1 c) (Function.update (V11 m outs c) (Proc.devRef .tc main_v72_0 : DevRef τ sig) (outs 12 main_v72_0 c))).trans
        (Function.update_self (Proc.devRef .tc main_v72_0 : DevRef τ sig) (outs 12 main_v72_0 c) (V11 m outs c)))
  · exact (hr c _ (mem_uc_run main_v72_1 (by decide))).trans
      (Function.update_self (Proc.devRef .tc main_v72_1 : DevRef τ sig) (outs 12 main_v72_1 c) (Function.update (V11 m outs c) (Proc.devRef .tc main_v72_0 : DevRef τ sig) (outs 12 main_v72_0 c)))
  · simp only [argsKept, List.Forall]
    exact ⟨(hr c _ (mem_uc_run main_arg0 (by decide))).trans (V12_main_arg0 m outs c),
      (hr c _ (mem_uc_run main_arg1 (by decide))).trans (V12_main_arg1 m outs c),
      (hr c _ (mem_uc_run main_arg2 (by decide))).trans (V12_main_arg2 m outs c),
      (hr c _ (mem_uc_run main_arg3 (by decide))).trans (V12_main_arg3 m outs c),
      (hr c _ (mem_uc_run main_arg4 (by decide))).trans (V12_main_arg4 m outs c),
      (hr c _ (mem_uc_run main_arg5 (by decide))).trans (V12_main_arg5 m outs c),
      (hr c _ (mem_uc_run main_arg6 (by decide))).trans (V12_main_arg6 m outs c),
      (hr c _ (mem_uc_run main_arg7 (by decide))).trans (V12_main_arg7 m outs c),
      (hr c _ (mem_uc_run main_arg8 (by decide))).trans (V12_main_arg8 m outs c),
      (hr c _ (mem_uc_run main_arg9 (by decide))).trans (V12_main_arg9 m outs c),
      (hr c _ (mem_uc_run main_arg10 (by decide))).trans (V12_main_arg10 m outs c),
      (hr c _ (mem_uc_run main_arg11 (by decide))).trans (V12_main_arg11 m outs c),
      (hr c _ (mem_uc_run main_arg12 (by decide))).trans (V12_main_arg12 m outs c),
      (hr c _ (mem_uc_run main_arg13 (by decide))).trans (V12_main_arg13 m outs c),
      (hr c _ (mem_uc_run main_arg14 (by decide))).trans (V12_main_arg14 m outs c),
      (hr c _ (mem_uc_run main_arg15 (by decide))).trans (V12_main_arg15 m outs c),
      (hr c _ (mem_uc_run main_arg16 (by decide))).trans (V12_main_arg16 m outs c),
      (hr c _ (mem_uc_run main_arg17 (by decide))).trans (V12_main_arg17 m outs c),
      (hr c _ (mem_uc_run main_arg18 (by decide))).trans (V12_main_arg18 m outs c),
      (hr c _ (mem_uc_run main_arg19 (by decide))).trans (V12_main_arg19 m outs c),
      (hr c _ (mem_uc_run main_arg20 (by decide))).trans (V12_main_arg20 m outs c),
      (hr c _ (mem_uc_run main_arg21 (by decide))).trans (V12_main_arg21 m outs c)⟩

theorem frame (m : (ℓ : Loc nD τ sig) → Buf (Elt F) ℓ) (ρ : Dev nD → PrngReg) :
    θ_run defs (onTc (τ := τ) (main (F := F))) ⟨m, fun _ => 0, ρ⟩ (fun r => ∀ c : Dev nD, argsKept m r.2.mem c) := by
  obtain ⟨_, _, h⟩ := run_results_args (F := F) m ρ
  exact (θ_run defs _ _).mono (fun _ hr c => (hr c).2.2) h

end Cert.KernelIdeal.Hand

end
-- ==== Proof.Ref.Ops.lean ====
import proofs.«419864_j2224793059992_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ unary main_arg0 main_v0 ((extractStridedSlice S4x1x50000x1 ![0, 15, 0, 1] · slices_S4x16x50000x4_S4x1x50000x1_0_15_0_1) : (⟨S4x16x50000x4, .f32⟩ : BufTy).Contents (Elt F) → (⟨S4x1x50000x1, .f32⟩ : BufTy).Contents (Elt F)),
    reshape main_v0 main_v1 rfl shapeCasts_S4x1x50000x1_S4x50000,
    reshape main_v1 main_v2 rfl shapeCasts_S4x50000_S200000x1,
    unary main_arg0 main_v3 ((extractStridedSlice S4x1x50000x1 ![0, 15, 0, 2] · slices_S4x16x50000x4_S4x1x50000x1_0_15_0_2) : (⟨S4x16x50000x4, .f32⟩ : BufTy).Contents (Elt F) → (⟨S4x1x50000x1, .f32⟩ : BufTy).Contents (Elt F)),
    reshape main_v3 main_v4 rfl shapeCasts_S4x1x50000x1_S4x50000,
    reshape main_v4 main_v5 rfl shapeCasts_S4x50000_S200000x1,
    unary main_arg0 main_v6 ((transpose S4x50000x16x4 [0, 2, 1, 3] · transposes_S4x16x50000x4_S4x50000x16x4_0_2_1_3) : (⟨S4x16x50000x4, .f32⟩ : BufTy).Contents (Elt F) → (⟨S4x50000x16x4, .f32⟩ : BufTy).Contents (Elt F)),
    reshape main_v6 main_v7 rfl shapeCasts_S4x50000x16x4_S200000x64,
    unary main_arg1 main_v8 ((extractStridedSlice S1x1600000 ![0, 0] · slices_S2x1600000_S1x1600000_0_0) : (⟨S2x1600000, .i32⟩ : BufTy).Contents (Elt F) → (⟨S1x1600000, .i32⟩ : BufTy).Contents (Elt F)),
    reshape main_v8 main_v9 rfl shapeCasts_S1x1600000_S1600000,
    unary main_arg1 main_v10 ((extractStridedSlice S1x1600000 ![1, 0] · slices_S2x1600000_S1x1600000_1_0) : (⟨S2x1600000, .i32⟩ : BufTy).Contents (Elt F) → (⟨S1x1600000, .i32⟩ : BufTy).Contents (Elt F)),
    reshape main_v10 main_v11 rfl shapeCasts_S1x1600000_S1600000,
    unary main_arg4 main_v12 ((transpose S64x32 [1, 0] · transposes_S32x64_S64x32_1_0) : (⟨S32x64, .f32⟩ : BufTy).Contents (Elt F) → (⟨S64x32, .f32⟩ : BufTy).Contents (Elt F)),
    binary main_v7 main_v12 main_v13 ((fun l r => Host.dotGeneral dot_S200000x64_S64x32_S200000x32_1_0_0_1_n_n none l r) : (⟨S200000x64, .f32⟩ : BufTy).Contents (Elt F) → (⟨S64x32, .f32⟩ : BufTy).Contents (Elt F) → (⟨S200000x32, .f32⟩ : BufTy).Contents (Elt F)),
    unary main_arg5 main_v14 (broadcastInDim S1x32 ![1] bcast_S32_S1x32_1 : (⟨S32, .f32⟩ : BufTy).Contents (Elt F) → (⟨S1x32, .f32⟩ : BufTy).Contents (Elt F)),
    unary main_v14 main_v15 (broadcastInDim S200000x32 ![0, 1] bcast_S1x32_S200000x32_0_1 : (⟨S1x32, .f32⟩ : BufTy).Contents (Elt F) → (⟨S200000x32, .f32⟩ : BufTy).Contents (Elt F)),
    binary main_v13 main_v15 main_v16 (addf : (⟨S200000x32, .f32⟩ : BufTy).Contents (Elt F) → (⟨S200000x32, .f32⟩ : BufTy).Contents (Elt F) → (⟨S200000x32, .f32⟩ : BufTy).Contents (Elt F)) ]

abbrev opsA_W : List (Ref sig .tc) :=
  [main_v0, main_v1, main_v2, main_v3, main_v4, main_v5, main_v6, main_v7, main_v8, main_v9, main_v10, main_v11, main_v12, main_v13, main_v14, main_v15, main_v16]

abbrev opsB : List (HloOp τ sig (Elt F)) :=
  [ nullary main_c (constantI S_ 32 0#32),
    unary main_c main_v17 (broadcastInDim S1600000 ![] bcast_S_S1600000 : (⟨S_, .i32⟩ : BufTy).Contents (Elt F) → (⟨S1600000, .i32⟩ : BufTy).Contents (Elt F)),
    binary main_v9 main_v17 main_v18 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 200000#32),
    unary main_c_0 main_v19 (broadcastInDim S1600000 ![] bcast_S_S1600000 : (⟨S_, .i32⟩ : BufTy).Contents (Elt F) → (⟨S1600000, .i32⟩ : BufTy).Contents (Elt F)),
    binary main_v9 main_v19 main_v20 (addi : (⟨S1600000, .i32⟩ : BufTy).Contents (Elt F) → (⟨S1600000, .i32⟩ : BufTy).Contents (Elt F) → (⟨S1600000, .i32⟩ : BufTy).Contents (Elt F)),
    ternary main_v18 main_v20 main_v9 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v21 main_v22 (broadcastInDim S1600000x1 ![0] bcast_S1600000_S1600000x1_0 : (⟨S1600000, .i32⟩ : BufTy).Contents (Elt F) → (⟨S1600000x1, .i32⟩ : BufTy).Contents (Elt F)),
    binary main_v16 main_v22 main_v23 ((fun x i => Host.gather gather_S200000x32_S1600000x1_S1600000x32_1_0_n_n_0_1_132 x i) : (⟨S200000x32, .f32⟩ : BufTy).Contents (Elt F) → (⟨S1600000x1, .i32⟩ : BufTy).Contents (Elt F) → (⟨S1600000x32, .f32⟩ : BufTy).Contents (Elt F)),
    nullary main_c_1 (constantI S_ 32 0#32),
    unary main_c_1 main_v24 (broadcastInDim S1600000 ![] bcast_S_S1600000 : (⟨S_, .i32⟩ : BufTy).Contents (Elt F) → (⟨S1600000, .i32⟩ : BufTy).Contents (Elt F)),
    binary main_v11 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 200000#32),
    unary main_c_2 main_v26 (broadcastInDim S1600000 ![] bcast_S_S1600000 : (⟨S_, .i32⟩ : BufTy).Contents (Elt F) → (⟨S1600000, .i32⟩ : BufTy).Contents (Elt F)),
    binary main_v11 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_v11 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v16 main_v29 main_v30 ((fun x i => Host.gather gather_S200000x32_S1600000x1_S1600000x32_1_0_n_n_0_1_132 x i) : (⟨S200000x32, .f32⟩ : BufTy).Contents (Elt F) → (⟨S1600000x1, .i32⟩ : BufTy).Contents (Elt F) → (⟨S1600000x32, .f32⟩ : BufTy).Contents (Elt F)),
    binary main_v23 main_v30 main_v31 ((fun a b => concatenate S1600000x64 1 [⟨S1600000x32, a⟩, ⟨S1600000x32, b⟩] concatenates_S1600000x32_S1600000x32_S1600000x64_d1) : (⟨S1600000x32, .f32⟩ : BufTy).Contents (Elt F) → (⟨S1600000x32, .f32⟩ : BufTy).Contents (Elt F) → (⟨S1600000x64, .f32⟩ : BufTy).Contents (Elt F)),
    unary main_arg6 main_v32 ((transpose S64x1 [1, 0] · transposes_S1x64_S64x1_1_0) : (⟨S1x64, .f32⟩ : BufTy).Contents (Elt F) → (⟨S64x1, .f32⟩ : BufTy).Contents (Elt F)),
    binary main_v31 main_v32 main_v33 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    unary main_arg7 main_v34 (broadcastInDim S1x1 ![1] bcast_S1_S1x1_1 : (⟨S1, .f32⟩ : BufTy).Contents (Elt F) → (⟨S1x1, .f32⟩ : BufTy).Contents (Elt F)),
    unary main_v34 main_v35 (broadcastInDim S1600000x1 ![0, 1] bcast_S1x1_S1600000x1_0_1 : (⟨S1x1, .f32⟩ : BufTy).Contents (Elt F) → (⟨S1600000x1, .f32⟩ : BufTy).Contents (Elt F)),
    binary main_v33 main_v35 main_v36 (addf : (⟨S1600000x1, .f32⟩ : BufTy).Contents (Elt F) → (⟨S1600000x1, .f32⟩ : BufTy).Contents (Elt F) → (⟨S1600000x1, .f32⟩ : BufTy).Contents (Elt F)),
    nullary main_cst (constant S_ .f32 0x3C23D70A#32),
    TRef.nullary main_call0.cst (constant S_ .f32 0x00000000#32),
    TRef.unary main_call0.cst main_call0.v0 (broadcastInDim S1600000x1 ![] bcast_S_S1600000x1),
    TRef.binary (.of main_v36 : TRef sig ⟨S1600000x1, .f32⟩) main_call0.v0 main_call0.v1 (cmpf .oge),
    TRef.unary (.of main_cst : TRef sig ⟨S_, .f32⟩) main_call0.v2 id,
    TRef.unary main_call0.v2 main_call0.v3 (broadcastInDim S1600000x1 ![] bcast_S_S1600000x1),
    TRef.binary main_call0.v3 (.of main_v36 : TRef sig ⟨S1600000x1, .f32⟩) main_call0.v4 mulf,
    TRef.ternary main_call0.v1 (.of main_v36 : TRef sig ⟨S1600000x1, .f32⟩) main_call0.v4 main_call0.call0.v0 select,
    unary main_v37 main_v38 (broadcastInDim S1600000x32 ![0, 1] bcast_S1600000x1_S1600000x32_0_1 : (⟨S1600000x1, .f32⟩ : BufTy).Contents (Elt F) → (⟨S1600000x32, .f32⟩ : BufTy).Contents (Elt F)),
    binary main_v23 main_v38 main_v39 (mulf : (⟨S1600000x32, .f32⟩ : BufTy).Contents (Elt F) → (⟨S1600000x32, .f32⟩ : BufTy).Contents (Elt F) → (⟨S1600000x32, .f32⟩ : BufTy).Contents (Elt F)),
    nullary main_cst_3 (constant S_ .f32 0x00000000#32),
    unary main_cst_3 main_v40 (broadcastInDim S200000x32 ![] bcast_S_S200000x32 : (⟨S_, .f32⟩ : BufTy).Contents (Elt F) → (⟨S200000x32, .f32⟩ : BufTy).Contents (Elt F)),
    unary main_v11 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S200000x32_S1600000x1_S1600000x32_1_0_0_1 x i u) : (⟨S200000x32, .f32⟩ : BufTy).Contents (Elt F) → (⟨S1600000x1, .i32⟩ : BufTy).Contents (Elt F) → (⟨S1600000x32, .f32⟩ : BufTy).Contents (Elt F) → (⟨S200000x32, .f32⟩ : BufTy).Contents (Elt F)) ]

abbrev opsB_W : List (Ref sig .tc) :=
  [main_c, main_v17, main_v18, main_c_0, main_v19, main_v20, main_v21, main_v22, main_v23, main_c_1, main_v24, main_v25, main_c_2, main_v26, main_v27, main_v28, main_v29, main_v30, main_v31, main_v32, main_v33, main_v34, main_v35, main_v36, main_cst, main_call0.cst.ref, main_call0.v0.ref, main_call0.v1.ref, main_call0.v2.ref, main_call0.v3.ref, main_call0.v4.ref, main_call0.call0.v0.ref, main_v38, main_v39, main_cst_3, main_v40, main_v41, main_v42]

abbrev opsC : List (HloOp τ sig (Elt F)) :=
  [ TRef.nullary main_call1.cst (constant S_ .f32 0x00000000#32),
    TRef.unary main_call1.cst main_call1.v0 (broadcastInDim S200000x32 ![] bcast_S_S200000x32),
    TRef.binary (.of main_v42 : TRef sig ⟨S200000x32, .f32⟩) main_call1.v0 main_call1.v1 (cmpf .ogt),
    TRef.nullary main_call1.cst_0 (constant S_ .f32 0x00000000#32),
    TRef.unary main_call1.cst_0 main_call1.v2 (broadcastInDim S200000x32 ![] bcast_S_S200000x32),
    TRef.binary (.of main_v42 : TRef sig ⟨S200000x32, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S200000x32 ![] bcast_S_S200000x32),
    TRef.ternary main_call1.v3 main_call1.call0.v1 (.of main_v42 : TRef sig ⟨S200000x32, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S200000x32 ![] bcast_S_S200000x32),
    TRef.binary main_call1.v6 main_call1.v5 main_call1.v7 mulf,
    TRef.ternary main_call1.v1 (.of main_v42 : TRef sig ⟨S200000x32, .f32⟩) main_call1.v7 main_call1.call1.v0 select,
    unary main_arg8 main_v44 ((transpose S32x32 [1, 0] · transposes_S32x32_S32x32_1_0) : (⟨S32x32, .f32⟩ : BufTy).Contents (Elt F) → (⟨S32x32, .f32⟩ : BufTy).Contents (Elt F)),
    binary main_v43 main_v44 main_v45 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    unary main_arg9 main_v46 (broadcastInDim S1x32 ![1] bcast_S32_S1x32_1 : (⟨S32, .f32⟩ : BufTy).Contents (Elt F) → (⟨S1x32, .f32⟩ : BufTy).Contents (Elt F)),
    unary main_v46 main_v47 (broadcastInDim S200000x32 ![0, 1] bcast_S1x32_S200000x32_0_1 : (⟨S1x32, .f32⟩ : BufTy).Contents (Elt F) → (⟨S200000x32, .f32⟩ : BufTy).Contents (Elt F)),
    binary main_v45 main_v47 main_v48 (addf : (⟨S200000x32, .f32⟩ : BufTy).Contents (Elt F) → (⟨S200000x32, .f32⟩ : BufTy).Contents (Elt F) → (⟨S200000x32, .f32⟩ : BufTy).Contents (Elt F)) ]

abbrev opsC_W : List (Ref sig .tc) :=
  [main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref, main_v44, main_v45, main_v46, main_v47, main_v48]

abbrev opsD : List (HloOp τ sig (Elt F)) :=
  [ nullary main_c_4 (constantI S_ 32 0#32),
    unary main_c_4 main_v49 (broadcastInDim S1600000 ![] bcast_S_S1600000 : (⟨S_, .i32⟩ : BufTy).Contents (Elt F) → (⟨S1600000, .i32⟩ : BufTy).Contents (Elt F)),
    binary main_v9 main_v49 main_v50 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 200000#32),
    unary main_c_5 main_v51 (broadcastInDim S1600000 ![] bcast_S_S1600000 : (⟨S_, .i32⟩ : BufTy).Contents (Elt F) → (⟨S1600000, .i32⟩ : BufTy).Contents (Elt F)),
    binary main_v9 main_v51 main_v52 (addi : (⟨S1600000, .i32⟩ : BufTy).Contents (Elt F) → (⟨S1600000, .i32⟩ : BufTy).Contents (Elt F) → (⟨S1600000, .i32⟩ : BufTy).Contents (Elt F)),
    ternary main_v50 main_v52 main_v9 main_v53 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v53 main_v54 (broadcastInDim S1600000x1 ![0] bcast_S1600000_S1600000x1_0 : (⟨S1600000, .i32⟩ : BufTy).Contents (Elt F) → (⟨S1600000x1, .i32⟩ : BufTy).Contents (Elt F)),
    binary main_v48 main_v54 main_v55 ((fun x i => Host.gather gather_S200000x32_S1600000x1_S1600000x32_1_0_n_n_0_1_132 x i) : (⟨S200000x32, .f32⟩ : BufTy).Contents (Elt F) → (⟨S1600000x1, .i32⟩ : BufTy).Contents (Elt F) → (⟨S1600000x32, .f32⟩ : BufTy).Contents (Elt F)),
    nullary main_c_6 (constantI S_ 32 0#32),
    unary main_c_6 main_v56 (broadcastInDim S1600000 ![] bcast_S_S1600000 : (⟨S_, .i32⟩ : BufTy).Contents (Elt F) → (⟨S1600000, .i32⟩ : BufTy).Contents (Elt F)),
    binary main_v11 main_v56 main_v57 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 200000#32),
    unary main_c_7 main_v58 (broadcastInDim S1600000 ![] bcast_S_S1600000 : (⟨S_, .i32⟩ : BufTy).Contents (Elt F) → (⟨S1600000, .i32⟩ : BufTy).Contents (Elt F)),
    binary main_v11 main_v58 main_v59 (addi : (⟨S1600000, .i32⟩ : BufTy).Contents (Elt F) → (⟨S1600000, .i32⟩ : BufTy).Contents (Elt F) → (⟨S1600000, .i32⟩ : BufTy).Contents (Elt F)),
    ternary main_v57 main_v59 main_v11 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v60 main_v61 (broadcastInDim S1600000x1 ![0] bcast_S1600000_S1600000x1_0 : (⟨S1600000, .i32⟩ : BufTy).Contents (Elt F) → (⟨S1600000x1, .i32⟩ : BufTy).Contents (Elt F)),
    binary main_v48 main_v61 main_v62 ((fun x i => Host.gather gather_S200000x32_S1600000x1_S1600000x32_1_0_n_n_0_1_132 x i) : (⟨S200000x32, .f32⟩ : BufTy).Contents (Elt F) → (⟨S1600000x1, .i32⟩ : BufTy).Contents (Elt F) → (⟨S1600000x32, .f32⟩ : BufTy).Contents (Elt F)),
    binary main_v55 main_v62 main_v63 ((fun a b => concatenate S1600000x64 1 [⟨S1600000x32, a⟩, ⟨S1600000x32, b⟩] concatenates_S1600000x32_S1600000x32_S1600000x64_d1) : (⟨S1600000x32, .f32⟩ : BufTy).Contents (Elt F) → (⟨S1600000x32, .f32⟩ : BufTy).Contents (Elt F) → (⟨S1600000x64, .f32⟩ : BufTy).Contents (Elt F)),
    unary main_arg10 main_v64 ((transpose S64x1 [1, 0] · transposes_S1x64_S64x1_1_0) : (⟨S1x64, .f32⟩ : BufTy).Contents (Elt F) → (⟨S64x1, .f32⟩ : BufTy).Contents (Elt F)),
    binary main_v63 main_v64 main_v65 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    unary main_arg11 main_v66 (broadcastInDim S1x1 ![1] bcast_S1_S1x1_1 : (⟨S1, .f32⟩ : BufTy).Contents (Elt F) → (⟨S1x1, .f32⟩ : BufTy).Contents (Elt F)),
    unary main_v66 main_v67 (broadcastInDim S1600000x1 ![0, 1] bcast_S1x1_S1600000x1_0_1 : (⟨S1x1, .f32⟩ : BufTy).Contents (Elt F) → (⟨S1600000x1, .f32⟩ : BufTy).Contents (Elt F)),
    binary main_v65 main_v67 main_v68 (addf : (⟨S1600000x1, .f32⟩ : BufTy).Contents (Elt F) → (⟨S1600000x1, .f32⟩ : BufTy).Contents (Elt F) → (⟨S1600000x1, .f32⟩ : BufTy).Contents (Elt F)),
    nullary main_cst_8 (constant S_ .f32 0x3C23D70A#32),
    TRef.nullary main_call2.cst (constant S_ .f32 0x00000000#32),
    TRef.unary main_call2.cst main_call2.v0 (broadcastInDim S1600000x1 ![] bcast_S_S1600000x1),
    TRef.binary (.of main_v68 : TRef sig ⟨S1600000x1, .f32⟩) main_call2.v0 main_call2.v1 (cmpf .oge),
    TRef.unary (.of main_cst_8 : TRef sig ⟨S_, .f32⟩) main_call2.v2 id,
    TRef.unary main_call2.v2 main_call2.v3 (broadcastInDim S1600000x1 ![] bcast_S_S1600000x1),
    TRef.binary main_call2.v3 (.of main_v68 : TRef sig ⟨S1600000x1, .f32⟩) main_call2.v4 mulf,
    TRef.ternary main_call2.v1 (.of main_v68 : TRef sig ⟨S1600000x1, .f32⟩) main_call2.v4 main_call2.call0.v0 select,
    unary main_v69 main_v70 (broadcastInDim S1600000x32 ![0, 1] bcast_S1600000x1_S1600000x32_0_1 : (⟨S1600000x1, .f32⟩ : BufTy).Contents (Elt F) → (⟨S1600000x32, .f32⟩ : BufTy).Contents (Elt F)),
    binary main_v55 main_v70 main_v71 (mulf : (⟨S1600000x32, .f32⟩ : BufTy).Contents (Elt F) → (⟨S1600000x32, .f32⟩ : BufTy).Contents (Elt F) → (⟨S1600000x32, .f32⟩ : BufTy).Contents (Elt F)),
    nullary main_cst_9 (constant S_ .f32 0x00000000#32),
    unary main_cst_9 main_v72 (broadcastInDim S200000x32 ![] bcast_S_S200000x32 : (⟨S_, .f32⟩ : BufTy).Contents (Elt F) → (⟨S200000x32, .f32⟩ : BufTy).Contents (Elt F)),
    unary main_v11 main_v73 (broadcastInDim S1600000x1 ![0] bcast_S1600000_S1600000x1_0 : (⟨S1600000, .i32⟩ : BufTy).Contents (Elt F) → (⟨S1600000x1, .i32⟩ : BufTy).Contents (Elt F)),
    ternary main_v72 main_v73 main_v71 main_v74 ((fun x i u => Host.scatterAdd scatter_S200000x32_S1600000x1_S1600000x32_1_0_0_1 x i u) : (⟨S200000x32, .f32⟩ : BufTy).Contents (Elt F) → (⟨S1600000x1, .i32⟩ : BufTy).Contents (Elt F) → (⟨S1600000x32, .f32⟩ : BufTy).Contents (Elt F) → (⟨S200000x32, .f32⟩ : BufTy).Contents (Elt F)) ]

abbrev opsD_W : List (Ref sig .tc) :=
  [main_c_4, main_v49, main_v50, main_c_5, main_v51, main_v52, main_v53, main_v54, main_v55, main_c_6, main_v56, main_v57, main_c_7, main_v58, main_v59, main_v60, main_v61, main_v62, main_v63, main_v64, main_v65, main_v66, main_v67, main_v68, main_cst_8, main_call2.cst.ref, main_call2.v0.ref, main_call2.v1.ref, main_call2.v2.ref, main_call2.v3.ref, main_call2.v4.ref, main_call2.call0.v0.ref, main_v70, main_v71, main_cst_9, main_v72, main_v73, main_v74]

abbrev eUnit : List (HloOp τ sig (Elt F)) :=
  [ TRef.nullary main_call3.cst (constant S_ .f32 0x00000000#32),
    TRef.unary main_call3.cst main_call3.v0 (broadcastInDim S200000x32 ![] bcast_S_S200000x32),
    TRef.binary (.of main_v74 : TRef sig ⟨S200000x32, .f32⟩) main_call3.v0 main_call3.v1 (cmpf .ogt),
    TRef.nullary main_call3.cst_0 (constant S_ .f32 0x00000000#32),
    TRef.unary main_call3.cst_0 main_call3.v2 (broadcastInDim S200000x32 ![] bcast_S_S200000x32),
    TRef.binary (.of main_v74 : TRef sig ⟨S200000x32, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S200000x32 ![] bcast_S_S200000x32),
    TRef.ternary main_call3.v3 main_call3.call0.v1 (.of main_v74 : TRef sig ⟨S200000x32, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S200000x32 ![] bcast_S_S200000x32),
    TRef.binary main_call3.v6 main_call3.v5 main_call3.v7 mulf,
    TRef.ternary main_call3.v1 (.of main_v74 : TRef sig ⟨S200000x32, .f32⟩) main_call3.v7 main_call3.call1.v0 select ]
abbrev eUnit_W : List (Ref sig .tc) := [main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref]
abbrev eLin : List (HloOp τ sig (Elt F)) :=
  [ unary main_arg12 main_v76 ((transpose S32x96 [1, 0] · transposes_S96x32_S32x96_1_0) : (⟨S96x32, .f32⟩ : BufTy).Contents (Elt F) → (⟨S32x96, .f32⟩ : BufTy).Contents (Elt F)),
    binary main_v75 main_v76 main_v77 ((fun l r => Host.dotGeneral dot_S200000x32_S32x96_S200000x96_1_0_0_1_n_n none l r) : (⟨S200000x32, .f32⟩ : BufTy).Contents (Elt F) → (⟨S32x96, .f32⟩ : BufTy).Contents (Elt F) → (⟨S200000x96, .f32⟩ : BufTy).Contents (Elt F)),
    unary main_arg14 main_v78 (broadcastInDim S1x96 ![1] bcast_S96_S1x96_1 : (⟨S96, .f32⟩ : BufTy).Contents (Elt F) → (⟨S1x96, .f32⟩ : BufTy).Contents (Elt F)),
    unary main_v78 main_v79 (broadcastInDim S200000x96 ![0, 1] bcast_S1x96_S200000x96_0_1 : (⟨S1x96, .f32⟩ : BufTy).Contents (Elt F) → (⟨S200000x96, .f32⟩ : BufTy).Contents (Elt F)),
    binary main_v77 main_v79 main_v80 (addf : (⟨S200000x96, .f32⟩ : BufTy).Contents (Elt F) → (⟨S200000x96, .f32⟩ : BufTy).Contents (Elt F) → (⟨S200000x96, .f32⟩ : BufTy).Contents (Elt F)) ]
abbrev eLin_W : List (Ref sig .tc) := [main_v76, main_v77, main_v78, main_v79, main_v80]
abbrev eGates : List (HloOp τ sig (Elt F)) :=
  [ unary main_v80 main_v81 ((extractStridedSlice S200000x32 ![0, 0] · slices_S200000x96_S200000x32_0_0) : (⟨S200000x96, .f32⟩ : BufTy).Contents (Elt F) → (⟨S200000x32, .f32⟩ : BufTy).Contents (Elt F)),
    unary main_arg15 main_v82 ((extractStridedSlice S32 ![0] · slices_S96_S32_0) : (⟨S96, .f32⟩ : BufTy).Contents (Elt F) → (⟨S32, .f32⟩ : BufTy).Contents (Elt F)),
    unary main_v82 main_v83 (broadcastInDim S1x32 ![1] bcast_S32_S1x32_1 : (⟨S32, .f32⟩ : BufTy).Contents (Elt F) → (⟨S1x32, .f32⟩ : BufTy).Contents (Elt F)),
    unary main_v83 main_v84 (broadcastInDim S200000x32 ![0, 1] bcast_S1x32_S200000x32_0_1 : (⟨S1x32, .f32⟩ : BufTy).Contents (Elt F) → (⟨S200000x32, .f32⟩ : BufTy).Contents (Elt F)),
    binary main_v81 main_v84 main_v85 (addf : (⟨S200000x32, .f32⟩ : BufTy).Contents (Elt F) → (⟨S200000x32, .f32⟩ : BufTy).Contents (Elt F) → (⟨S200000x32, .f32⟩ : BufTy).Contents (Elt F)),
    unary main_v85 main_v86 (Host.negf : (⟨S200000x32, .f32⟩ : BufTy).Contents (Elt F) → (⟨S200000x32, .f32⟩ : BufTy).Contents (Elt F)),
    unary main_v86 main_v87 (Host.exp : (⟨S200000x32, .f32⟩ : BufTy).Contents (Elt F) → (⟨S200000x32, .f32⟩ : BufTy).Contents (Elt F)),
    nullary main_cst_10 (constant S_ .f32 0x3F800000#32),
    unary main_cst_10 main_v88 (broadcastInDim S200000x32 ![] bcast_S_S200000x32 : (⟨S_, .f32⟩ : BufTy).Contents (Elt F) → (⟨S200000x32, .f32⟩ : BufTy).Contents (Elt F)),
    binary main_v88 main_v87 main_v89 (addf : (⟨S200000x32, .f32⟩ : BufTy).Contents (Elt F) → (⟨S200000x32, .f32⟩ : BufTy).Contents (Elt F) → (⟨S200000x32, .f32⟩ : BufTy).Contents (Elt F)),
    nullary main_cst_11 (constant S_ .f32 0x3F800000#32),
    unary main_cst_11 main_v90 (broadcastInDim S200000x32 ![] bcast_S_S200000x32 : (⟨S_, .f32⟩ : BufTy).Contents (Elt F) → (⟨S200000x32, .f32⟩ : BufTy).Contents (Elt F)),
    binary main_v90 main_v89 main_v91 (Host.divf : (⟨S200000x32, .f32⟩ : BufTy).Contents (Elt F) → (⟨S200000x32, .f32⟩ : BufTy).Contents (Elt F) → (⟨S200000x32, .f32⟩ : BufTy).Contents (Elt F)),
    unary main_v80 main_v92 ((extractStridedSlice S200000x32 ![0, 32] · slices_S200000x96_S200000x32_0_32) : (⟨S200000x96, .f32⟩ : BufTy).Contents (Elt F) → (⟨S200000x32, .f32⟩ : BufTy).Contents (Elt F)),
    unary main_arg15 main_v93 ((extractStridedSlice S32 ![32] · slices_S96_S32_32) : (⟨S96, .f32⟩ : BufTy).Contents (Elt F) → (⟨S32, .f32⟩ : BufTy).Contents (Elt F)),
    unary main_v93 main_v94 (broadcastInDim S1x32 ![1] bcast_S32_S1x32_1 : (⟨S32, .f32⟩ : BufTy).Contents (Elt F) → (⟨S1x32, .f32⟩ : BufTy).Contents (Elt F)),
    unary main_v94 main_v95 (broadcastInDim S200000x32 ![0, 1] bcast_S1x32_S200000x32_0_1 : (⟨S1x32, .f32⟩ : BufTy).Contents (Elt F) → (⟨S200000x32, .f32⟩ : BufTy).Contents (Elt F)),
    binary main_v92 main_v95 main_v96 (addf : (⟨S200000x32, .f32⟩ : BufTy).Contents (Elt F) → (⟨S200000x32, .f32⟩ : BufTy).Contents (Elt F) → (⟨S200000x32, .f32⟩ : BufTy).Contents (Elt F)),
    unary main_v96 main_v97 (Host.negf : (⟨S200000x32, .f32⟩ : BufTy).Contents (Elt F) → (⟨S200000x32, .f32⟩ : BufTy).Contents (Elt F)),
    unary main_v97 main_v98 (Host.exp : (⟨S200000x32, .f32⟩ : BufTy).Contents (Elt F) → (⟨S200000x32, .f32⟩ : BufTy).Contents (Elt F)),
    nullary main_cst_12 (constant S_ .f32 0x3F800000#32),
    unary main_cst_12 main_v99 (broadcastInDim S200000x32 ![] bcast_S_S200000x32 : (⟨S_, .f32⟩ : BufTy).Contents (Elt F) → (⟨S200000x32, .f32⟩ : BufTy).Contents (Elt F)),
    binary main_v99 main_v98 main_v100 (addf : (⟨S200000x32, .f32⟩ : BufTy).Contents (Elt F) → (⟨S200000x32, .f32⟩ : BufTy).Contents (Elt F) → (⟨S200000x32, .f32⟩ : BufTy).Contents (Elt F)),
    nullary main_cst_13 (constant S_ .f32 0x3F800000#32),
    unary main_cst_13 main_v101 (broadcastInDim S200000x32 ![] bcast_S_S200000x32 : (⟨S_, .f32⟩ : BufTy).Contents (Elt F) → (⟨S200000x32, .f32⟩ : BufTy).Contents (Elt F)),
    binary main_v101 main_v100 main_v102 (Host.divf : (⟨S200000x32, .f32⟩ : BufTy).Contents (Elt F) → (⟨S200000x32, .f32⟩ : BufTy).Contents (Elt F) → (⟨S200000x32, .f32⟩ : BufTy).Contents (Elt F)),
    unary main_v80 main_v103 ((extractStridedSlice S200000x32 ![0, 64] · slices_S200000x96_S200000x32_0_64) : (⟨S200000x96, .f32⟩ : BufTy).Contents (Elt F) → (⟨S200000x32, .f32⟩ : BufTy).Contents (Elt F)),
    unary main_arg15 main_v104 ((extractStridedSlice S32 ![64] · slices_S96_S32_64) : (⟨S96, .f32⟩ : BufTy).Contents (Elt F) → (⟨S32, .f32⟩ : BufTy).Contents (Elt F)),
    unary main_v104 main_v105 (broadcastInDim S1x32 ![1] bcast_S32_S1x32_1 : (⟨S32, .f32⟩ : BufTy).Contents (Elt F) → (⟨S1x32, .f32⟩ : BufTy).Contents (Elt F)),
    unary main_v105 main_v106 (broadcastInDim S200000x32 ![0, 1] bcast_S1x32_S200000x32_0_1 : (⟨S1x32, .f32⟩ : BufTy).Contents (Elt F) → (⟨S200000x32, .f32⟩ : BufTy).Contents (Elt F)),
    binary main_v91 main_v106 main_v107 (mulf : (⟨S200000x32, .f32⟩ : BufTy).Contents (Elt F) → (⟨S200000x32, .f32⟩ : BufTy).Contents (Elt F) → (⟨S200000x32, .f32⟩ : BufTy).Contents (Elt F)),
    binary main_v103 main_v107 main_v108 (addf : (⟨S200000x32, .f32⟩ : BufTy).Contents (Elt F) → (⟨S200000x32, .f32⟩ : BufTy).Contents (Elt F) → (⟨S200000x32, .f32⟩ : BufTy).Contents (Elt F)),
    unary main_v108 main_v109 (Host.tanh : (⟨S200000x32, .f32⟩ : BufTy).Contents (Elt F) → (⟨S200000x32, .f32⟩ : BufTy).Contents (Elt F)),
    nullary main_cst_14 (constant S_ .f32 0x3F800000#32),
    unary main_cst_14 main_v110 (broadcastInDim S200000x32 ![] bcast_S_S200000x32 : (⟨S_, .f32⟩ : BufTy).Contents (Elt F) → (⟨S200000x32, .f32⟩ : BufTy).Contents (Elt F)),
    binary main_v110 main_v102 main_v111 (subf : (⟨S200000x32, .f32⟩ : BufTy).Contents (Elt F) → (⟨S200000x32, .f32⟩ : BufTy).Contents (Elt F) → (⟨S200000x32, .f32⟩ : BufTy).Contents (Elt F)),
    binary main_v111 main_v109 main_v112 (mulf : (⟨S200000x32, .f32⟩ : BufTy).Contents (Elt F) → (⟨S200000x32, .f32⟩ : BufTy).Contents (Elt F) → (⟨S200000x32, .f32⟩ : BufTy).Contents (Elt F)) ]
abbrev eGates_W : List (Ref sig .tc) := [main_v81, main_v82, main_v83, main_v84, main_v85, main_v86, main_v87, main_cst_10, main_v88, main_v89, main_cst_11, main_v90, main_v91, main_v92, main_v93, main_v94, main_v95, main_v96, main_v97, main_v98, main_cst_12, main_v99, main_v100, main_cst_13, main_v101, main_v102, main_v103, main_v104, main_v105, main_v106, main_v107, main_v108, main_v109, main_cst_14, main_v110, main_v111, main_v112]
abbrev opsE : List (HloOp τ sig (Elt F)) := eUnit ++ (eLin ++ eGates)

abbrev opsE_W : List (Ref sig .tc) := eUnit_W ++ (eLin_W ++ eGates_W)

abbrev fHeads : List (HloOp τ sig (Elt F)) :=
  [ nary ![main_v112, main_v2, main_v5] main_v113 (fun u => concatenate S200000x34 1 [⟨S200000x32, u 0⟩, ⟨S200000x1, u 1⟩, ⟨S200000x1, u 2⟩] concatenates_S200000x32_S200000x1_S200000x1_S200000x34_d1),
    unary main_arg16 main_v114 ((transpose S34x8 [1, 0] · transposes_S8x34_S34x8_1_0) : (⟨S8x34, .f32⟩ : BufTy).Contents (Elt F) → (⟨S34x8, .f32⟩ : BufTy).Contents (Elt F)),
    binary main_v113 main_v114 main_v115 ((fun l r => Host.dotGeneral dot_S200000x34_S34x8_S200000x8_1_0_0_1_n_n none l r) : (⟨S200000x34, .f32⟩ : BufTy).Contents (Elt F) → (⟨S34x8, .f32⟩ : BufTy).Contents (Elt F) → (⟨S200000x8, .f32⟩ : BufTy).Contents (Elt F)),
    unary main_arg17 main_v116 (broadcastInDim S1x8 ![1] bcast_S8_S1x8_1 : (⟨S8, .f32⟩ : BufTy).Contents (Elt F) → (⟨S1x8, .f32⟩ : BufTy).Contents (Elt F)),
    unary main_v116 main_v117 (broadcastInDim S200000x8 ![0, 1] bcast_S1x8_S200000x8_0_1 : (⟨S1x8, .f32⟩ : BufTy).Contents (Elt F) → (⟨S200000x8, .f32⟩ : BufTy).Contents (Elt F)),
    binary main_v115 main_v117 main_v118 (addf : (⟨S200000x8, .f32⟩ : BufTy).Contents (Elt F) → (⟨S200000x8, .f32⟩ : BufTy).Contents (Elt F) → (⟨S200000x8, .f32⟩ : BufTy).Contents (Elt F)),
    unary main_v118 main_v119 (broadcastInDim S200000x8x1 ![0, 1] bcast_S200000x8_S200000x8x1_0_1 : (⟨S200000x8, .f32⟩ : BufTy).Contents (Elt F) → (⟨S200000x8x1, .f32⟩ : BufTy).Contents (Elt F)),
    unary main_arg18 main_v120 ((transpose S34x8 [1, 0] · transposes_S8x34_S34x8_1_0) : (⟨S8x34, .f32⟩ : BufTy).Contents (Elt F) → (⟨S34x8, .f32⟩ : BufTy).Contents (Elt F)),
    binary main_v113 main_v120 main_v121 ((fun l r => Host.dotGeneral dot_S200000x34_S34x8_S200000x8_1_0_0_1_n_n none l r) : (⟨S200000x34, .f32⟩ : BufTy).Contents (Elt F) → (⟨S34x8, .f32⟩ : BufTy).Contents (Elt F) → (⟨S200000x8, .f32⟩ : BufTy).Contents (Elt F)),
    unary main_arg19 main_v122 (broadcastInDim S1x8 ![1] bcast_S8_S1x8_1 : (⟨S8, .f32⟩ : BufTy).Contents (Elt F) → (⟨S1x8, .f32⟩ : BufTy).Contents (Elt F)),
    unary main_v122 main_v123 (broadcastInDim S200000x8 ![0, 1] bcast_S1x8_S200000x8_0_1 : (⟨S1x8, .f32⟩ : BufTy).Contents (Elt F) → (⟨S200000x8, .f32⟩ : BufTy).Contents (Elt F)),
    binary main_v121 main_v123 main_v124 (addf : (⟨S200000x8, .f32⟩ : BufTy).Contents (Elt F) → (⟨S200000x8, .f32⟩ : BufTy).Contents (Elt F) → (⟨S200000x8, .f32⟩ : BufTy).Contents (Elt F)),
    unary main_v124 main_v125 (broadcastInDim S200000x8x1 ![0, 1] bcast_S200000x8_S200000x8x1_0_1 : (⟨S200000x8, .f32⟩ : BufTy).Contents (Elt F) → (⟨S200000x8x1, .f32⟩ : BufTy).Contents (Elt F)),
    unary main_arg20 main_v126 ((transpose S34x2 [1, 0] · transposes_S2x34_S34x2_1_0) : (⟨S2x34, .f32⟩ : BufTy).Contents (Elt F) → (⟨S34x2, .f32⟩ : BufTy).Contents (Elt F)),
    binary main_v113 main_v126 main_v127 ((fun l r => Host.dotGeneral dot_S200000x34_S34x2_S200000x2_1_0_0_1_n_n none l r) : (⟨S200000x34, .f32⟩ : BufTy).Contents (Elt F) → (⟨S34x2, .f32⟩ : BufTy).Contents (Elt F) → (⟨S200000x2, .f32⟩ : BufTy).Contents (Elt F)),
    unary main_arg21 main_v128 (broadcastInDim S1x2 ![1] bcast_S2_S1x2_1 : (⟨S2, .f32⟩ : BufTy).Contents (Elt F) → (⟨S1x2, .f32⟩ : BufTy).Contents (Elt F)),
    unary main_v128 main_v129 (broadcastInDim S200000x2 ![0, 1] bcast_S1x2_S200000x2_0_1 : (⟨S1x2, .f32⟩ : BufTy).Contents (Elt F) → (⟨S200000x2, .f32⟩ : BufTy).Contents (Elt F)),
    binary main_v127 main_v129 main_v130 (addf : (⟨S200000x2, .f32⟩ : BufTy).Contents (Elt F) → (⟨S200000x2, .f32⟩ : BufTy).Contents (Elt F) → (⟨S200000x2, .f32⟩ : BufTy).Contents (Elt F)) ]
abbrev fHeads_W : List (Ref sig .tc) := [main_v113, main_v114, main_v115, main_v116, main_v117, main_v118, main_v119, main_v120, main_v121, main_v122, main_v123, main_v124, main_v125, main_v126, main_v127, main_v128, main_v129, main_v130]
abbrev fRates : List (HloOp τ sig (Elt F)) :=
  [ unary main_v130 main_v131 ((extractStridedSlice S200000x1 ![0, 0] · slices_S200000x2_S200000x1_0_0) : (⟨S200000x2, .f32⟩ : BufTy).Contents (Elt F) → (⟨S200000x1, .f32⟩ : BufTy).Contents (Elt F)),
    reshape main_v131 main_v132 rfl shapeCasts_S200000x1_S200000,
    unary main_v132 main_v133 (Host.negf : (⟨S200000, .f32⟩ : BufTy).Contents (Elt F) → (⟨S200000, .f32⟩ : BufTy).Contents (Elt F)),
    unary main_v133 main_v134 (Host.exp : (⟨S200000, .f32⟩ : BufTy).Contents (Elt F) → (⟨S200000, .f32⟩ : BufTy).Contents (Elt F)),
    nullary main_cst_15 (constant S_ .f32 0x3F800000#32),
    unary main_cst_15 main_v135 (broadcastInDim S200000 ![] bcast_S_S200000 : (⟨S_, .f32⟩ : BufTy).Contents (Elt F) → (⟨S200000, .f32⟩ : BufTy).Contents (Elt F)),
    binary main_v135 main_v134 main_v136 (addf : (⟨S200000, .f32⟩ : BufTy).Contents (Elt F) → (⟨S200000, .f32⟩ : BufTy).Contents (Elt F) → (⟨S200000, .f32⟩ : BufTy).Contents (Elt F)),
    nullary main_cst_16 (constant S_ .f32 0x3F800000#32),
    unary main_cst_16 main_v137 (broadcastInDim S200000 ![] bcast_S_S200000 : (⟨S_, .f32⟩ : BufTy).Contents (Elt F) → (⟨S200000, .f32⟩ : BufTy).Contents (Elt F)),
    binary main_v137 main_v136 main_v138 (Host.divf : (⟨S200000, .f32⟩ : BufTy).Contents (Elt F) → (⟨S200000, .f32⟩ : BufTy).Contents (Elt F) → (⟨S200000, .f32⟩ : BufTy).Contents (Elt F)),
    unary main_v130 main_v139 ((extractStridedSlice S200000x1 ![0, 1] · slices_S200000x2_S200000x1_0_1) : (⟨S200000x2, .f32⟩ : BufTy).Contents (Elt F) → (⟨S200000x1, .f32⟩ : BufTy).Contents (Elt F)),
    reshape main_v139 main_v140 rfl shapeCasts_S200000x1_S200000,
    unary main_v140 main_v141 (Host.negf : (⟨S200000, .f32⟩ : BufTy).Contents (Elt F) → (⟨S200000, .f32⟩ : BufTy).Contents (Elt F)),
    unary main_v141 main_v142 (Host.exp : (⟨S200000, .f32⟩ : BufTy).Contents (Elt F) → (⟨S200000, .f32⟩ : BufTy).Contents (Elt F)),
    nullary main_cst_17 (constant S_ .f32 0x3F800000#32),
    unary main_cst_17 main_v143 (broadcastInDim S200000 ![] bcast_S_S200000 : (⟨S_, .f32⟩ : BufTy).Contents (Elt F) → (⟨S200000, .f32⟩ : BufTy).Contents (Elt F)),
    binary main_v143 main_v142 main_v144 (addf : (⟨S200000, .f32⟩ : BufTy).Contents (Elt F) → (⟨S200000, .f32⟩ : BufTy).Contents (Elt F) → (⟨S200000, .f32⟩ : BufTy).Contents (Elt F)),
    nullary main_cst_18 (constant S_ .f32 0x3F800000#32),
    unary main_cst_18 main_v145 (broadcastInDim S200000 ![] bcast_S_S200000 : (⟨S_, .f32⟩ : BufTy).Contents (Elt F) → (⟨S200000, .f32⟩ : BufTy).Contents (Elt F)),
    binary main_v145 main_v144 main_v146 (Host.divf : (⟨S200000, .f32⟩ : BufTy).Contents (Elt F) → (⟨S200000, .f32⟩ : BufTy).Contents (Elt F) → (⟨S200000, .f32⟩ : BufTy).Contents (Elt F)),
    reshape main_arg3 main_v147 rfl shapeCasts_S50000x1_S1x50000x1x1,
    unary main_v147 main_v148 (broadcastInDim S4x50000x1x1 ![0, 1, 2, 3] bcast_S1x50000x1x1_S4x50000x1x1_0_1_2_3 : (⟨S1x50000x1x1, .f32⟩ : BufTy).Contents (Elt F) → (⟨S4x50000x1x1, .f32⟩ : BufTy).Contents (Elt F)),
    reshape main_v148 main_v149 rfl shapeCasts_S4x50000x1x1_S200000x1,
    reshape main_v149 main_v150 rfl shapeCasts_S200000x1_S200000,
    unary main_arg2 main_v151 ((extractStridedSlice S200000x1 ![0, 0] · slices_S200000x2_S200000x1_0_0) : (⟨S200000x2, .f32⟩ : BufTy).Contents (Elt F) → (⟨S200000x1, .f32⟩ : BufTy).Contents (Elt F)),
    reshape main_v151 main_v152 rfl shapeCasts_S200000x1_S200000,
    unary main_arg2 main_v153 ((extractStridedSlice S200000x1 ![0, 1] · slices_S200000x2_S200000x1_0_1) : (⟨S200000x2, .f32⟩ : BufTy).Contents (Elt F) → (⟨S200000x1, .f32⟩ : BufTy).Contents (Elt F)),
    reshape main_v153 main_v154 rfl shapeCasts_S200000x1_S200000 ]
abbrev fRates_W : List (Ref sig .tc) := [main_v131, main_v132, main_v133, main_v134, main_cst_15, main_v135, main_v136, main_cst_16, main_v137, main_v138, main_v139, main_v140, main_v141, main_v142, main_cst_17, main_v143, main_v144, main_cst_18, main_v145, main_v146, main_v147, main_v148, main_v149, main_v150, main_v151, main_v152, main_v153, main_v154]
-- One step of I' = I + (α·I·((N − I − R)/N) − β·I), R' = R + β·I: ten operations over fifteen references.
abbrev sirStep (al be nr i r a b c d e f g h i' r' : TRef sig ⟨S200000, .f32⟩) : List (HloOp τ sig (Elt F)) :=
  [ TRef.binary nr i a subf, TRef.binary a r b subf, TRef.binary al i c mulf, TRef.binary b nr d Host.divf, TRef.binary c d e mulf,
    TRef.binary be i f mulf, TRef.binary e f g subf, TRef.binary be i h mulf, TRef.binary i g i' addf, TRef.binary r h r' addf ]
abbrev fStep0 : List (HloOp τ sig (Elt F)) :=
  sirStep (.of main_v138) (.of main_v146) (.of main_v150) (.of main_v152) (.of main_v154) (.of main_v155) (.of main_v156) (.of main_v157) (.of main_v158) (.of main_v159) (.of main_v160) (.of main_v161) (.of main_v162) (.of main_v163) (.of main_v164)
abbrev fStep0_W : List (Ref sig .tc) := [main_v155, main_v156, main_v157, main_v158, main_v159, main_v160, main_v161, main_v162, main_v163, main_v164]
abbrev fStep1 : List (HloOp τ sig (Elt F)) :=
  sirStep (.of main_v138) (.of main_v146) (.of main_v150) (.of main_v163) (.of main_v164) (.of main_v165) (.of main_v166) (.of main_v167) (.of main_v168) (.of main_v169) (.of main_v170) (.of main_v171) (.of main_v172) (.of main_v173) (.of main_v174)
abbrev fStep1_W : List (Ref sig .tc) := [main_v165, main_v166, main_v167, main_v168, main_v169, main_v170, main_v171, main_v172, main_v173, main_v174]
abbrev fStep2 : List (HloOp τ sig (Elt F)) :=
  sirStep (.of main_v138) (.of main_v146) (.of main_v150) (.of main_v173) (.of main_v174) (.of main_v175) (.of main_v176) (.of main_v177) (.of main_v178) (.of main_v179) (.of main_v180) (.of main_v181) (.of main_v182) (.of main_v183) (.of main_v184)
abbrev fStep2_W : List (Ref sig .tc) := [main_v175, main_v176, main_v177, main_v178, main_v179, main_v180, main_v181, main_v182, main_v183, main_v184]
abbrev fStep3 : List (HloOp τ sig (Elt F)) :=
  sirStep (.of main_v138) (.of main_v146) (.of main_v150) (.of main_v183) (.of main_v184) (.of main_v185) (.of main_v186) (.of main_v187) (.of main_v188) (.of main_v189) (.of main_v190) (.of main_v191) (.of main_v192) (.of main_v193) (.of main_v194)
abbrev fStep3_W : List (Ref sig .tc) := [main_v185, main_v186, main_v187, main_v188, main_v189, main_v190, main_v191, main_v192, main_v193, main_v194]
abbrev fStep4 : List (HloOp τ sig (Elt F)) :=
  sirStep (.of main_v138) (.of main_v146) (.of main_v150) (.of main_v193) (.of main_v194) (.of main_v195) (.of main_v196) (.of main_v197) (.of main_v198) (.of main_v199) (.of main_v200) (.of main_v201) (.of main_v202) (.of main_v203) (.of main_v204)
abbrev fStep4_W : List (Ref sig .tc) := [main_v195, main_v196, main_v197, main_v198, main_v199, main_v200, main_v201, main_v202, main_v203, main_v204]
abbrev fStep5 : List (HloOp τ sig (Elt F)) :=
  sirStep (.of main_v138) (.of main_v146) (.of main_v150) (.of main_v203) (.of main_v204) (.of main_v205) (.of main_v206) (.of main_v207) (.of main_v208) (.of main_v209) (.of main_v210) (.of main_v211) (.of main_v212) (.of main_v213) (.of main_v214)
abbrev fStep5_W : List (Ref sig .tc) := [main_v205, main_v206, main_v207, main_v208, main_v209, main_v210, main_v211, main_v212, main_v213, main_v214]
abbrev fStep6 : List (HloOp τ sig (Elt F)) :=
  sirStep (.of main_v138) (.of main_v146) (.of main_v150) (.of main_v213) (.of main_v214) (.of main_v215) (.of main_v216) (.of main_v217) (.of main_v218) (.of main_v219) (.of main_v220) (.of main_v221) (.of main_v222) (.of main_v223) (.of main_v224)
abbrev fStep6_W : List (Ref sig .tc) := [main_v215, main_v216, main_v217, main_v218, main_v219, main_v220, main_v221, main_v222, main_v223, main_v224]
abbrev fStep7 : List (HloOp τ sig (Elt F)) :=
  sirStep (.of main_v138) (.of main_v146) (.of main_v150) (.of main_v223) (.of main_v224) (.of main_v225) (.of main_v226) (.of main_v227) (.of main_v228) (.of main_v229) (.of main_v230) (.of main_v231) (.of main_v232) (.of main_v233) (.of main_v234)
abbrev fStep7_W : List (Ref sig .tc) := [main_v225, main_v226, main_v227, main_v228, main_v229, main_v230, main_v231, main_v232, main_v233, main_v234]
abbrev fOut : List (HloOp τ sig (Elt F)) :=
  [ unary main_v161 main_v235 (broadcastInDim S200000x1 ![0] bcast_S200000_S200000x1_0 : (⟨S200000, .f32⟩ : BufTy).Contents (Elt F) → (⟨S200000x1, .f32⟩ : BufTy).Contents (Elt F)),
    unary main_v171 main_v236 (broadcastInDim S200000x1 ![0] bcast_S200000_S200000x1_0 : (⟨S200000, .f32⟩ : BufTy).Contents (Elt F) → (⟨S200000x1, .f32⟩ : BufTy).Contents (Elt F)),
    unary main_v181 main_v237 (broadcastInDim S200000x1 ![0] bcast_S200000_S200000x1_0 : (⟨S200000, .f32⟩ : BufTy).Contents (Elt F) → (⟨S200000x1, .f32⟩ : BufTy).Contents (Elt F)),
    unary main_v191 main_v238 (broadcastInDim S200000x1 ![0] bcast_S200000_S200000x1_0 : (⟨S200000, .f32⟩ : BufTy).Contents (Elt F) → (⟨S200000x1, .f32⟩ : BufTy).Contents (Elt F)),
    unary main_v201 main_v239 (broadcastInDim S200000x1 ![0] bcast_S200000_S200000x1_0 : (⟨S200000, .f32⟩ : BufTy).Contents (Elt F) → (⟨S200000x1, .f32⟩ : BufTy).Contents (Elt F)),
    unary main_v211 main_v240 (broadcastInDim S200000x1 ![0] bcast_S200000_S200000x1_0 : (⟨S200000, .f32⟩ : BufTy).Contents (Elt F) → (⟨S200000x1, .f32⟩ : BufTy).Contents (Elt F)),
    unary main_v221 main_v241 (broadcastInDim S200000x1 ![0] bcast_S200000_S200000x1_0 : (⟨S200000, .f32⟩ : BufTy).Contents (Elt F) → (⟨S200000x1, .f32⟩ : BufTy).Contents (Elt F)),
    unary main_v231 main_v242 (broadcastInDim S200000x1 ![0] bcast_S200000_S200000x1_0 : (⟨S200000, .f32⟩ : BufTy).Contents (Elt F) → (⟨S200000x1, .f32⟩ : BufTy).Contents (Elt F)),
    nary ![main_v235, main_v236, main_v237, main_v238, main_v239, main_v240, main_v241, main_v242] main_v243 (fun u => concatenate S200000x8 1 [⟨S200000x1, u 0⟩, ⟨S200000x1, u 1⟩, ⟨S200000x1, u 2⟩, ⟨S200000x1, u 3⟩, ⟨S200000x1, u 4⟩, ⟨S200000x1, u 5⟩, ⟨S200000x1, u 6⟩, ⟨S200000x1, u 7⟩] concatenates_S200000x1_S200000x1_S200000x1_S200000x1_S200000x1_S200000x1_S200000x1_S200000x1_S200000x8_d1),
    unary main_v243 main_v244 (broadcastInDim S200000x8x1 ![0, 1] bcast_S200000x8_S200000x8x1_0_1 : (⟨S200000x8, .f32⟩ : BufTy).Contents (Elt F) → (⟨S200000x8x1, .f32⟩ : BufTy).Contents (Elt F)),
    unary main_v162 main_v245 (broadcastInDim S200000x1 ![0] bcast_S200000_S200000x1_0 : (⟨S200000, .f32⟩ : BufTy).Contents (Elt F) → (⟨S200000x1, .f32⟩ : BufTy).Contents (Elt F)),
    unary main_v172 main_v246 (broadcastInDim S200000x1 ![0] bcast_S200000_S200000x1_0 : (⟨S200000, .f32⟩ : BufTy).Contents (Elt F) → (⟨S200000x1, .f32⟩ : BufTy).Contents (Elt F)),
    unary main_v182 main_v247 (broadcastInDim S200000x1 ![0] bcast_S200000_S200000x1_0 : (⟨S200000, .f32⟩ : BufTy).Contents (Elt F) → (⟨S200000x1, .f32⟩ : BufTy).Contents (Elt F)),
    unary main_v192 main_v248 (broadcastInDim S200000x1 ![0] bcast_S200000_S200000x1_0 : (⟨S200000, .f32⟩ : BufTy).Contents (Elt F) → (⟨S200000x1, .f32⟩ : BufTy).Contents (Elt F)),
    unary main_v202 main_v249 (broadcastInDim S200000x1 ![0] bcast_S200000_S200000x1_0 : (⟨S200000, .f32⟩ : BufTy).Contents (Elt F) → (⟨S200000x1, .f32⟩ : BufTy).Contents (Elt F)),
    unary main_v212 main_v250 (broadcastInDim S200000x1 ![0] bcast_S200000_S200000x1_0 : (⟨S200000, .f32⟩ : BufTy).Contents (Elt F) → (⟨S200000x1, .f32⟩ : BufTy).Contents (Elt F)),
    unary main_v222 main_v251 (broadcastInDim S200000x1 ![0] bcast_S200000_S200000x1_0 : (⟨S200000, .f32⟩ : BufTy).Contents (Elt F) → (⟨S200000x1, .f32⟩ : BufTy).Contents (Elt F)),
    unary main_v232 main_v252 (broadcastInDim S200000x1 ![0] bcast_S200000_S200000x1_0 : (⟨S200000, .f32⟩ : BufTy).Contents (Elt F) → (⟨S200000x1, .f32⟩ : BufTy).Contents (Elt F)),
    nary ![main_v245, main_v246, main_v247, main_v248, main_v249, main_v250, main_v251, main_v252] main_v253 (fun u => concatenate S200000x8 1 [⟨S200000x1, u 0⟩, ⟨S200000x1, u 1⟩, ⟨S200000x1, u 2⟩, ⟨S200000x1, u 3⟩, ⟨S200000x1, u 4⟩, ⟨S200000x1, u 5⟩, ⟨S200000x1, u 6⟩, ⟨S200000x1, u 7⟩] concatenates_S200000x1_S200000x1_S200000x1_S200000x1_S200000x1_S200000x1_S200000x1_S200000x1_S200000x8_d1),
    unary main_v253 main_v254 (broadcastInDim S200000x8x1 ![0, 1] bcast_S200000x8_S200000x8x1_0_1 : (⟨S200000x8, .f32⟩ : BufTy).Contents (Elt F) → (⟨S200000x8x1, .f32⟩ : BufTy).Contents (Elt F)),
    binary main_v119 main_v125 main_v255 ((fun a b => concatenate S200000x8x2 2 [⟨S200000x8x1, a⟩, ⟨S200000x8x1, b⟩] concatenates_S200000x8x1_S200000x8x1_S200000x8x2_d2) : (⟨S200000x8x1, .f32⟩ : BufTy).Contents (Elt F) → (⟨S200000x8x1, .f32⟩ : BufTy).Contents (Elt F) → (⟨S200000x8x2, .f32⟩ : BufTy).Contents (Elt F)),
    binary main_v244 main_v254 main_v256 ((fun a b => concatenate S200000x8x2 2 [⟨S200000x8x1, a⟩, ⟨S200000x8x1, b⟩] concatenates_S200000x8x1_S200000x8x1_S200000x8x2_d2) : (⟨S200000x8x1, .f32⟩ : BufTy).Contents (Elt F) → (⟨S200000x8x1, .f32⟩ : BufTy).Contents (Elt F) → (⟨S200000x8x2, .f32⟩ : BufTy).Contents (Elt F)) ]
abbrev fOut_W : List (Ref sig .tc) := [main_v235, main_v236, main_v237, main_v238, main_v239, main_v240, main_v241, main_v242, main_v243, main_v244, main_v245, main_v246, main_v247, main_v248, main_v249, main_v250, main_v251, main_v252, main_v253, main_v254, main_v255, main_v256]
abbrev opsF : List (HloOp τ sig (Elt F)) := fHeads ++ (fRates ++ (fStep0 ++ (fStep1 ++ (fStep2 ++ (fStep3 ++ (fStep4 ++ (fStep5 ++ (fStep6 ++ (fStep7 ++ fOut)))))))))

abbrev opsF_W : List (Ref sig .tc) := fHeads_W ++ (fRates_W ++ (fStep0_W ++ (fStep1_W ++ (fStep2_W ++ (fStep3_W ++ (fStep4_W ++ (fStep5_W ++ (fStep6_W ++ (fStep7_W ++ fOut_W)))))))))

abbrev ops : List (HloOp τ sig (Elt F)) := opsA ++ opsB ++ opsC ++ opsD ++ opsE ++ opsF

end Cert.ReferenceIdeal.Hand

end
-- ==== Proof.Ref.Run.lean ====
import proofs.«419864_j2224793059992_3_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
theorem part0_eq (c : Dev nD) : main_part0 (F := F) c = seq (opsA ++ opsB ++ opsC ++ opsD.take 5) := by
  simp only [main_part0, fn_leaky_relu.body, fn_elu.body, fn_where.body, fn_where_0.body, fn_where_1.body, bind_assoc, pure_bind]
  rfl

set_option maxRecDepth 16384 in
theorem part1_eq (c : Dev nD) : main_part1 (F := F) c = seq (opsD.drop 5 ++ opsE.take 47) := by
  simp only [main_part1, fn_leaky_relu.body, fn_elu.body, fn_where.body, fn_where_0.body, fn_where_1.body, bind_assoc, pure_bind]
  rfl

set_option maxRecDepth 16384 in
theorem part2_eq (c : Dev nD) : main_part2 (F := F) c = seq (opsE.drop 47 ++ opsF.take 50) := by
  simp only [main_part2, fn_leaky_relu.body, fn_elu.body, fn_where.body, fn_where_0.body, fn_where_1.body, bind_assoc, pure_bind]
  rfl

set_option maxRecDepth 16384 in
theorem part3_eq (c : Dev nD) : main_part3 (F := F) c = seq ((opsF.drop 50).take 60) := by
  simp only [main_part3, fn_leaky_relu.body, fn_elu.body, fn_where.body, fn_where_0.body, fn_where_1.body, bind_assoc, pure_bind]
  rfl

set_option maxRecDepth 16384 in
theorem part4_eq (c : Dev nD) : main_part4 (F := F) c = seq ((opsF.drop 50).drop 60) := by
  simp only [main_part4, fn_leaky_relu.body, fn_elu.body, fn_where.body, fn_where_0.body, fn_where_1.body, bind_assoc, pure_bind]
  rfl

theorem take_append_drop_append {α : Type} (n : Nat) (l r : List α) : l.take n ++ (l.drop n ++ r) = l ++ r := by
  rw [← List.append_assoc, List.take_append_drop]

theorem windows_append {α : Type} (A B C D E G : List α) :
    (A ++ B ++ C ++ D.take 5) ++ ((D.drop 5 ++ E.take 47) ++ ((E.drop 47 ++ G.take 50) ++ ((G.drop 50).take 60 ++ (G.drop 50).drop 60)))
      = A ++ B ++ C ++ D ++ E ++ G := by
  simp only [List.append_assoc, List.take_append_drop, take_append_drop_append]

theorem main_eq (c : Dev nD) : main (F := F) c = seq ops := by
  have h : main (F := F) c = seq (opsA ++ opsB ++ opsC ++ opsD.take 5) >>= fun _ => seq (opsD.drop 5 ++ opsE.take 47) >>= fun _ =>
      seq (opsE.drop 47 ++ opsF.take 50) >>= fun _ => seq ((opsF.drop 50).take 60) >>= fun _ => seq ((opsF.drop 50).drop 60) := by
    rw [← part0_eq c, ← part1_eq c, ← part2_eq c, ← part3_eq c, ← part4_eq c]
    rfl
  rw [h, ← seq_append, ← seq_append, ← seq_append, ← seq_append]
  exact congrArg seq (windows_append opsA opsB opsC opsD opsE opsF)

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem opsA_sub : (opsA : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
set_option maxRecDepth 16384 in
theorem opsB_sub : (opsB : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
set_option maxRecDepth 16384 in
theorem opsC_sub : (opsC : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
set_option maxRecDepth 16384 in
theorem opsD_sub : (opsD : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
set_option maxRecDepth 16384 in
theorem opsE_sub : (opsE : List (HloOp τ sig (Elt F))).Forall fun op => op.bufs ⊆ tcRefs τ sig := by
  simp only [opsE, eUnit, eLin, eGates, List.cons_append, List.nil_append, List.Forall, nullary_bufs_sub, unary_bufs_sub, binary_bufs_sub, ternary_bufs_sub, reshape_bufs_sub, nary_bufs_sub, and_self]
set_option maxRecDepth 16384 in
theorem opsF_sub : (opsF : List (HloOp τ sig (Elt F))).Forall fun op => op.bufs ⊆ tcRefs τ sig := by
  simp only [opsF, fHeads, fRates, fStep0, fStep1, fStep2, fStep3, fStep4, fStep5, fStep6, fStep7, fOut, sirStep, List.cons_append, List.nil_append, List.Forall, nullary_bufs_sub, unary_bufs_sub, binary_bufs_sub, ternary_bufs_sub, reshape_bufs_sub, nary_bufs_sub, and_self]

theorem ops_sub : (ops : List (HloOp τ sig (Elt F))).Forall fun op => op.bufs ⊆ tcRefs τ sig :=
  List.forall_append.2 ⟨List.forall_append.2 ⟨List.forall_append.2 ⟨List.forall_append.2 ⟨List.forall_append.2 ⟨opsA_sub, opsB_sub⟩, opsC_sub⟩, opsD_sub⟩,
    opsE_sub⟩, opsF_sub⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

set_option maxRecDepth 16384 in
theorem opsA_writes : (opsA : List (HloOp τ sig (Elt F))).Forall fun op => op.writes ⊆ (opsA_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
set_option maxRecDepth 16384 in
theorem opsB_writes : (opsB : List (HloOp τ sig (Elt F))).Forall fun op => op.writes ⊆ (opsB_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
set_option maxRecDepth 16384 in
theorem opsC_writes : (opsC : List (HloOp τ sig (Elt F))).Forall fun op => op.writes ⊆ (opsC_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
set_option maxRecDepth 16384 in
theorem opsD_writes : (opsD : List (HloOp τ sig (Elt F))).Forall fun op => op.writes ⊆ (opsD_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)
set_option maxRecDepth 16384 in
theorem opsE_writes : (opsE : List (HloOp τ sig (Elt F))).Forall fun op => op.writes ⊆ (opsE_W.map (Proc.devRef (τ := τ) .tc)).toFinset := by
  simp only [opsE, eUnit, eLin, eGates, List.cons_append, List.nil_append, List.Forall, nullary_writes, unary_writes, binary_writes, ternary_writes, reshape_writes, nary_writes,
    Finset.singleton_subset_iff, List.mem_toFinset]
  repeat' apply And.intro
  all_goals exact List.mem_map_of_mem (by decide)
set_option maxRecDepth 16384 in
theorem opsF_writes : (opsF : List (HloOp τ sig (Elt F))).Forall fun op => op.writes ⊆ (opsF_W.map (Proc.devRef (τ := τ) .tc)).toFinset := by
  simp only [opsF, fHeads, fRates, fStep0, fStep1, fStep2, fStep3, fStep4, fStep5, fStep6, fStep7, fOut, sirStep, List.cons_append, List.nil_append, List.Forall, nullary_writes, unary_writes, binary_writes, ternary_writes, reshape_writes, nary_writes,
    Finset.singleton_subset_iff, List.mem_toFinset]
  repeat' apply And.intro
  all_goals exact List.mem_map_of_mem (by decide)

theorem after_ops_of_not_written (V : Valuation τ sig (Elt F)) (r : Ref sig .tc) (hA : r ∉ opsA_W) (hB : r ∉ opsB_W) (hC : r ∉ opsC_W)
    (hD : r ∉ opsD_W) (hE : r ∉ opsE_W) (hF : r ∉ opsF_W) :
    after ops V (Proc.devRef .tc r) = V (Proc.devRef .tc r) := by
  unfold ops
  rw [after_append _ opsF, after_append _ opsE, after_append _ opsD, after_append _ opsC, after_append opsA opsB,
    after_of_writes_sub opsF _ opsF_writes hF, after_of_writes_sub opsE _ opsE_writes hE, after_of_writes_sub opsD _ opsD_writes hD,
    after_of_writes_sub opsC _ opsC_writes hC, after_of_writes_sub opsB _ opsB_writes hB, after_of_writes_sub opsA _ opsA_writes hA]

theorem after_arg0 (V : Valuation τ sig (Elt F)) : after ops V (main_arg0 : DevRef τ sig) = V (main_arg0 : DevRef τ sig) :=
  after_ops_of_not_written V main_arg0 (by decide) (by decide) (by decide) (by decide) (by decide) (by decide)
theorem after_arg1 (V : Valuation τ sig (Elt F)) : after ops V (main_arg1 : DevRef τ sig) = V (main_arg1 : DevRef τ sig) :=
  after_ops_of_not_written V main_arg1 (by decide) (by decide) (by decide) (by decide) (by decide) (by decide)
theorem after_arg2 (V : Valuation τ sig (Elt F)) : after ops V (main_arg2 : DevRef τ sig) = V (main_arg2 : DevRef τ sig) :=
  after_ops_of_not_written V main_arg2 (by decide) (by decide) (by decide) (by decide) (by decide) (by decide)
theorem after_arg3 (V : Valuation τ sig (Elt F)) : after ops V (main_arg3 : DevRef τ sig) = V (main_arg3 : DevRef τ sig) :=
  after_ops_of_not_written V main_arg3 (by decide) (by decide) (by decide) (by decide) (by decide) (by decide)
theorem after_arg4 (V : Valuation τ sig (Elt F)) : after ops V (main_arg4 : DevRef τ sig) = V (main_arg4 : DevRef τ sig) :=
  after_ops_of_not_written V main_arg4 (by decide) (by decide) (by decide) (by decide) (by decide) (by decide)
theorem after_arg5 (V : Valuation τ sig (Elt F)) : after ops V (main_arg5 : DevRef τ sig) = V (main_arg5 : DevRef τ sig) :=
  after_ops_of_not_written V main_arg5 (by decide) (by decide) (by decide) (by decide) (by decide) (by decide)
theorem after_arg6 (V : Valuation τ sig (Elt F)) : after ops V (main_arg6 : DevRef τ sig) = V (main_arg6 : DevRef τ sig) :=
  after_ops_of_not_written V main_arg6 (by decide) (by decide) (by decide) (by decide) (by decide) (by decide)
theorem after_arg7 (V : Valuation τ sig (Elt F)) : after ops V (main_arg7 : DevRef τ sig) = V (main_arg7 : DevRef τ sig) :=
  after_ops_of_not_written V main_arg7 (by decide) (by decide) (by decide) (by decide) (by decide) (by decide)
theorem after_arg8 (V : Valuation τ sig (Elt F)) : after ops V (main_arg8 : DevRef τ sig) = V (main_arg8 : DevRef τ sig) :=
  after_ops_of_not_written V main_arg8 (by decide) (by decide) (by decide) (by decide) (by decide) (by decide)
theorem after_arg9 (V : Valuation τ sig (Elt F)) : after ops V (main_arg9 : DevRef τ sig) = V (main_arg9 : DevRef τ sig) :=
  after_ops_of_not_written V main_arg9 (by decide) (by decide) (by decide) (by decide) (by decide) (by decide)
theorem after_arg10 (V : Valuation τ sig (Elt F)) : after ops V (main_arg10 : DevRef τ sig) = V (main_arg10 : DevRef τ sig) :=
  after_ops_of_not_written V main_arg10 (by decide) (by decide) (by decide) (by decide) (by decide) (by decide)
theorem after_arg11 (V : Valuation τ sig (Elt F)) : after ops V (main_arg11 : DevRef τ sig) = V (main_arg11 : DevRef τ sig) :=
  after_ops_of_not_written V main_arg11 (by decide) (by decide) (by decide) (by decide) (by decide) (by decide)
theorem after_arg12 (V : Valuation τ sig (Elt F)) : after ops V (main_arg12 : DevRef τ sig) = V (main_arg12 : DevRef τ sig) :=
  after_ops_of_not_written V main_arg12 (by decide) (by decide) (by decide) (by decide) (by decide) (by decide)
theorem after_arg13 (V : Valuation τ sig (Elt F)) : after ops V (main_arg13 : DevRef τ sig) = V (main_arg13 : DevRef τ sig) :=
  after_ops_of_not_written V main_arg13 (by decide) (by decide) (by decide) (by decide) (by decide) (by decide)
theorem after_arg14 (V : Valuation τ sig (Elt F)) : after ops V (main_arg14 : DevRef τ sig) = V (main_arg14 : DevRef τ sig) :=
  after_ops_of_not_written V main_arg14 (by decide) (by decide) (by decide) (by decide) (by decide) (by decide)
theorem after_arg15 (V : Valuation τ sig (Elt F)) : after ops V (main_arg15 : DevRef τ sig) = V (main_arg15 : DevRef τ sig) :=
  after_ops_of_not_written V main_arg15 (by decide) (by decide) (by decide) (by decide) (by decide) (by decide)
theorem after_arg16 (V : Valuation τ sig (Elt F)) : after ops V (main_arg16 : DevRef τ sig) = V (main_arg16 : DevRef τ sig) :=
  after_ops_of_not_written V main_arg16 (by decide) (by decide) (by decide) (by decide) (by decide) (by decide)
theorem after_arg17 (V : Valuation τ sig (Elt F)) : after ops V (main_arg17 : DevRef τ sig) = V (main_arg17 : DevRef τ sig) :=
  after_ops_of_not_written V main_arg17 (by decide) (by decide) (by decide) (by decide) (by decide) (by decide)
theorem after_arg18 (V : Valuation τ sig (Elt F)) : after ops V (main_arg18 : DevRef τ sig) = V (main_arg18 : DevRef τ sig) :=
  after_ops_of_not_written V main_arg18 (by decide) (by decide) (by decide) (by decide) (by decide) (by decide)
theorem after_arg19 (V : Valuation τ sig (Elt F)) : after ops V (main_arg19 : DevRef τ sig) = V (main_arg19 : DevRef τ sig) :=
  after_ops_of_not_written V main_arg19 (by decide) (by decide) (by decide) (by decide) (by decide) (by decide)
theorem after_arg20 (V : Valuation τ sig (Elt F)) : after ops V (main_arg20 : DevRef τ sig) = V (main_arg20 : DevRef τ sig) :=
  after_ops_of_not_written V main_arg20 (by decide) (by decide) (by decide) (by decide) (by decide) (by decide)
theorem after_arg21 (V : Valuation τ sig (Elt F)) : after ops V (main_arg21 : DevRef τ sig) = V (main_arg21 : DevRef τ sig) :=
  after_ops_of_not_written V main_arg21 (by decide) (by decide) (by decide) (by decide) (by decide) (by decide)

end Cert.ReferenceIdeal.Hand

end
-- ==== Proof.Ref.Results.lean ====
import proofs.«419864_j2224793059992_3_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- Every argument array holds in the memory `m'` what it held in `m`.
abbrev argsKept (m m' : (ℓ : Loc nD τ sig) → Buf (Elt F) ℓ) (c : Dev nD) : Prop :=
  ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21] : List (Ref sig .tc)).Forall
    fun a => m' ((c.tc : Thread nD τ).loc a) = m ((c.tc : Thread nD τ).loc a)

theorem run_results (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v255) = after ops (launchContents m c) (main_v255 : DevRef τ sig)
      ∧ r.2.mem ((c.tc : Thread nD τ).loc main_v256) = after ops (launchContents m c) (main_v256 : DevRef τ sig)
      ∧ argsKept m r.2.mem c) :=
  (θ_run defs _ _).mono (fun _ h c =>
    ⟨h c main_v255, h c main_v256, by
      simp only [argsKept, List.Forall]
      exact ⟨(h c main_arg0).trans (after_arg0 _), (h c main_arg1).trans (after_arg1 _), (h c main_arg2).trans (after_arg2 _),
      (h c main_arg3).trans (after_arg3 _), (h c main_arg4).trans (after_arg4 _), (h c main_arg5).trans (after_arg5 _),
      (h c main_arg6).trans (after_arg6 _), (h c main_arg7).trans (after_arg7 _), (h c main_arg8).trans (after_arg8 _),
      (h c main_arg9).trans (after_arg9 _), (h c main_arg10).trans (after_arg10 _), (h c main_arg11).trans (after_arg11 _),
      (h c main_arg12).trans (after_arg12 _), (h c main_arg13).trans (after_arg13 _), (h c main_arg14).trans (after_arg14 _),
      (h c main_arg15).trans (after_arg15 _), (h c main_arg16).trans (after_arg16 _), (h c main_arg17).trans (after_arg17 _),
      (h c main_arg18).trans (after_arg18 _), (h c main_arg19).trans (after_arg19 _), (h c main_arg20).trans (after_arg20 _),
      (h c main_arg21).trans (after_arg21 _)⟩⟩)
    (run_main m ρ)

theorem frame (m : (ℓ : Loc nD τ sig) → Buf (Elt F) ℓ) (ρ : Dev nD → PrngReg) :
    θ_run defs (onTc (τ := τ) (main (F := F))) ⟨m, fun _ => 0, ρ⟩ (fun r => ∀ c : Dev nD, argsKept m r.2.mem c) :=
  (θ_run defs _ _).mono (fun _ hr c => (hr c).2.2) (run_results m ρ)

end Cert.ReferenceIdeal.Hand

end
-- ==== Proof.KI.Host.lean ====
import proofs.«419864_j2224793059992_3_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

def featRows (X : FVec F S4x16x50000x4 .f32) : FVec F S200000x64 .f32 :=
  shapeCast S200000x64 (transpose S4x50000x16x4 [0, 2, 1, 3] X transposes_S4x16x50000x4_S4x50000x16x4_0_2_1_3) shapeCasts_S4x50000x16x4_S200000x64

def lastCol1 (X : FVec F S4x16x50000x4 .f32) : FVec F S200000x1 .f32 :=
  shapeCast S200000x1 (shapeCast S4x50000 (extractStridedSlice S4x1x50000x1 ![0, 15, 0, 1] X slices_S4x16x50000x4_S4x1x50000x1_0_15_0_1) shapeCasts_S4x1x50000x1_S4x50000) shapeCasts_S4x50000_S200000x1

def lastCol2 (X : FVec F S4x16x50000x4 .f32) : FVec F S200000x1 .f32 :=
  shapeCast S200000x1 (shapeCast S4x50000 (extractStridedSlice S4x1x50000x1 ![0, 15, 0, 2] X slices_S4x16x50000x4_S4x1x50000x1_0_15_0_2) shapeCasts_S4x1x50000x1_S4x50000) shapeCasts_S4x50000_S200000x1

def srcRow (adj : IVec S2x1600000 32) : IVec S1600000 32 :=
  shapeCast S1600000 (extractStridedSlice S1x1600000 ![0, 0] adj slices_S2x1600000_S1x1600000_0_0) shapeCasts_S1x1600000_S1600000

def dstRow (adj : IVec S2x1600000 32) : IVec S1600000 32 :=
  shapeCast S1600000 (extractStridedSlice S1x1600000 ![1, 0] adj slices_S2x1600000_S1x1600000_1_0) shapeCasts_S1x1600000_S1600000

def wrapIdx (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 200000#32))) a)

def rowsAt (z : FVec F S200000x32 .f32) (idx : IVec S1600000x1 32) : FVec F S1600000x32 .f32 :=
  Host.gather gather_S200000x32_S1600000x1_S1600000x32_1_0_n_n_0_1_132 z idx

def sumInto (dst : IVec S1600000 32) (msg : FVec F S1600000x32 .f32) : FVec F S200000x32 .f32 :=
  Host.scatterAdd scatter_S200000x32_S1600000x1_S1600000x32_1_0_0_1
    (broadcastInDim S200000x32 ![] bcast_S_S200000x32 (constant S_ .f32 0x00000000#32))
    (broadcastInDim S1600000x1 ![0] bcast_S1600000_S1600000x1_0 dst) msg

def row32 (b : FVec F S32 .f32) : FVec F S1x32 .f32 := shapeCast S1x32 b shapeCasts_S32_S1x32
def row96 (b : FVec F S96 .f32) : FVec F S1x96 .f32 := shapeCast S1x96 b shapeCasts_S96_S1x96
def row8 (b : FVec F S8 .f32) : FVec F S1x8 .f32 := shapeCast S1x8 b shapeCasts_S8_S1x8
def row2 (b : FVec F S2 .f32) : FVec F S1x2 .f32 := shapeCast S1x2 b shapeCasts_S2_S1x2

def one11 (b : FVec F S1 .f32) : FVec F S1x1 .f32 := shapeCast S1x1 b shapeCasts_S1_S1x1

def attLo (a : FVec F S1x64 .f32) : FVec F S1x32 .f32 := extractStridedSlice S1x32 ![0, 0] a slices_S1x64_S1x32_0_0
def attHi (a : FVec F S1x64 .f32) : FVec F S1x32 .f32 := extractStridedSlice S1x32 ![0, 32] a slices_S1x64_S1x32_0_32

def popCol (N : FVec F S50000x1 .f32) : FVec F S200000x1 .f32 :=
  broadcastInDim S200000x1 ![0] bcast_S200000_S200000x1_0
    (shapeCast S200000 (broadcastInDim S4x50000 ![0, 1] bcast_S1x50000_S4x50000_0_1
      (shapeCast S1x50000 (shapeCast S50000 N shapeCasts_S50000x1_S50000) shapeCasts_S50000_S1x50000)) shapeCasts_S4x50000_S200000)

def carried (c1 c2 : FVec F S200000x1 .f32) (states : FVec F S200000x2 .f32) (N : FVec F S50000x1 .f32) : FVec F S200000x5 .f32 :=
  concatenate S200000x5 1 [⟨S200000x1, c1⟩, ⟨S200000x1, c2⟩,
    ⟨S200000x1, extractStridedSlice S200000x1 ![0, 0] states slices_S200000x2_S200000x1_0_0⟩,
    ⟨S200000x1, extractStridedSlice S200000x1 ![0, 1] states slices_S200000x2_S200000x1_0_1⟩,
    ⟨S200000x1, popCol N⟩] concatenates_S200000x1_S200000x1_S200000x1_S200000x1_S200000x1_S200000x5_d1

section
variable (W : Valuation τ sig (Elt F))

set_option maxHeartbeats 1000000 in
theorem host0_v7 : after (hostOps0 (F := F)) W (main_v7 : DevRef τ sig) = featRows (W (main_arg0 : DevRef τ sig)) := by
  dsimp only [hostOps0]; after_results; rfl
set_option maxHeartbeats 1000000 in
theorem host0_v2 : after (hostOps0 (F := F)) W (main_v2 : DevRef τ sig) = lastCol1 (W (main_arg0 : DevRef τ sig)) := by
  dsimp only [hostOps0]; after_results; rfl
set_option maxHeartbeats 1000000 in
theorem host0_v5 : after (hostOps0 (F := F)) W (main_v5 : DevRef τ sig) = lastCol2 (W (main_arg0 : DevRef τ sig)) := by
  dsimp only [hostOps0]; after_results; rfl
set_option maxHeartbeats 1000000 in
theorem host0_v9 : after (hostOps0 (F := F)) W (main_v9 : DevRef τ sig) = srcRow (W (main_arg1 : DevRef τ sig)) := by
  dsimp only [hostOps0]; after_results; rfl
set_option maxHeartbeats 1000000 in
theorem host0_v11 : after (hostOps0 (F := F)) W (main_v11 : DevRef τ sig) = dstRow (W (main_arg1 : DevRef τ sig)) := by
  dsimp only [hostOps0]; after_results; rfl
set_option maxHeartbeats 1000000 in
theorem host0_v12 : after (hostOps0 (F := F)) W (main_v12 : DevRef τ sig) = row32 (W (main_arg5 : DevRef τ sig)) := by
  dsimp only [hostOps0]; after_results; rfl

set_option maxHeartbeats 1000000 in
theorem host1_v20 : after (hostOps1 (F := F)) W (main_v20 : DevRef τ sig) = rowsAt (W (main_v13 : DevRef τ sig)) (wrapIdx (W (main_v9 : DevRef τ sig))) := by
  dsimp only [hostOps1]; after_results; rfl
set_option maxHeartbeats 1000000 in
theorem host1_v27 : after (hostOps1 (F := F)) W (main_v27 : DevRef τ sig) = rowsAt (W (main_v13 : DevRef τ sig)) (wrapIdx (W (main_v11 : DevRef τ sig))) := by
  dsimp only [hostOps1]; after_results; rfl
set_option maxHeartbeats 1000000 in
theorem host1_v28 : after (hostOps1 (F := F)) W (main_v28 : DevRef τ sig) = attLo (W (main_arg6 : DevRef τ sig)) := by
  dsimp only [hostOps1]; after_results; rfl
set_option maxHeartbeats 1000000 in
theorem host1_v29 : after (hostOps1 (F := F)) W (main_v29 : DevRef τ sig) = attHi (W (main_arg6 : DevRef τ sig)) := by
  dsimp only [hostOps1]; after_results; rfl
set_option maxHeartbeats 1000000 in
theorem host1_v30 : after (hostOps1 (F := F)) W (main_v30 : DevRef τ sig) = one11 (W (main_arg7 : DevRef τ sig)) := by
  dsimp only [hostOps1]; after_results; rfl

set_option maxHeartbeats 1000000 in
theorem host2_v34 : after (hostOps2 (F := F)) W (main_v34 : DevRef τ sig) = sumInto (W (main_v11 : DevRef τ sig)) (W (main_v31 : DevRef τ sig)) := by
  dsimp only [hostOps2]; after_results; rfl
set_option maxHeartbeats 1000000 in
theorem host2_v35 : after (hostOps2 (F := F)) W (main_v35 : DevRef τ sig) = row32 (W (main_arg9 : DevRef τ sig)) := by
  dsimp only [hostOps2]; after_results; rfl

set_option maxHeartbeats 1000000 in
theorem host3_v43 : after (hostOps3 (F := F)) W (main_v43 : DevRef τ sig) = rowsAt (W (main_v36 : DevRef τ sig)) (wrapIdx (W (main_v9 : DevRef τ sig))) := by
  dsimp only [hostOps3]; after_results; rfl
set_option maxHeartbeats 1000000 in
theorem host3_v50 : after (hostOps3 (F := F)) W (main_v50 : DevRef τ sig) = rowsAt (W (main_v36 : DevRef τ sig)) (wrapIdx (W (main_v11 : DevRef τ sig))) := by
  dsimp only [hostOps3]; after_results; rfl
set_option maxHeartbeats 1000000 in
theorem host3_v51 : after (hostOps3 (F := F)) W (main_v51 : DevRef τ sig) = attLo (W (main_arg10 : DevRef τ sig)) := by
  dsimp only [hostOps3]; after_results; rfl
set_option maxHeartbeats 1000000 in
theorem host3_v52 : after (hostOps3 (F := F)) W (main_v52 : DevRef τ sig) = attHi (W (main_arg10 : DevRef τ sig)) := by
  dsimp only [hostOps3]; after_results; rfl
set_option maxHeartbeats 1000000 in
theorem host3_v53 : after (hostOps3 (F := F)) W (main_v53 : DevRef τ sig) = one11 (W (main_arg11 : DevRef τ sig)) := by
  dsimp only [hostOps3]; after_results; rfl

set_option maxHeartbeats 1000000 in
theorem host4_v57 : after (hostOps4 (F := F)) W (main_v57 : DevRef τ sig) = sumInto (W (main_v11 : DevRef τ sig)) (W (main_v54 : DevRef τ sig)) := by
  dsimp only [hostOps4]; after_results; rfl
set_option maxHeartbeats 1000000 in
theorem host4_v58 : after (hostOps4 (F := F)) W (main_v58 : DevRef τ sig) = row96 (W (main_arg14 : DevRef τ sig)) := by
  dsimp only [hostOps4]; after_results; rfl
set_option maxHeartbeats 1000000 in
theorem host4_v59 : after (hostOps4 (F := F)) W (main_v59 : DevRef τ sig) = row96 (W (main_arg15 : DevRef τ sig)) := by
  dsimp only [hostOps4]; after_results; rfl

set_option maxHeartbeats 1000000 in
theorem host5_v68 : after (hostOps5 (F := F)) W (main_v68 : DevRef τ sig)
    = carried (W (main_v2 : DevRef τ sig)) (W (main_v5 : DevRef τ sig)) (W (main_arg2 : DevRef τ sig)) (W (main_arg3 : DevRef τ sig)) := by
  dsimp only [hostOps5]; after_results; rfl
set_option maxHeartbeats 1000000 in
theorem host5_v69 : after (hostOps5 (F := F)) W (main_v69 : DevRef τ sig) = row8 (W (main_arg17 : DevRef τ sig)) := by
  dsimp only [hostOps5]; after_results; rfl
set_option maxHeartbeats 1000000 in
theorem host5_v70 : after (hostOps5 (F := F)) W (main_v70 : DevRef τ sig) = row8 (W (main_arg19 : DevRef τ sig)) := by
  dsimp only [hostOps5]; after_results; rfl
set_option maxHeartbeats 1000000 in
theorem host5_v71 : after (hostOps5 (F := F)) W (main_v71 : DevRef τ sig) = row2 (W (main_arg21 : DevRef τ sig)) := by
  dsimp only [hostOps5]; after_results; rfl

end

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev M (a b : Nat) : Type := FVec Ideal (⟨2, ![a, b]⟩ : Shape) .f32

abbrev T3 (a b c : Nat) : Type := FVec Ideal (⟨3, ![a, b, c]⟩ : Shape) .f32

abbrev zero32 : EReal := Ideal.ofBits .f32 0x00000000#32
abbrev one32 : EReal := Ideal.ofBits .f32 0x3F800000#32
abbrev slope32 : EReal := Ideal.ofBits .f32 0x3C23D70A#32

def elu (x : EReal) : EReal := Scalar.select (Ideal.cmp .ogt x zero32) x (Ideal.exp x - one32)

def leaky (x : EReal) : EReal := Scalar.select (Ideal.cmp .oge x zero32) x (slope32 * x)

def linAt {n i o : Nat} (h : M n i) (W : M o i) (b : M 1 o) (p : Fin n) (q : Fin o) : EReal :=
  (∑ k : Fin i, h (ix2 p k) * W (ix2 q k)) + b (ix2 0 q)

def lin {n i o : Nat} (h : M n i) (W : M o i) (b : M 1 o) : M n o := fun j => linAt h W b (j 0) (j 1)

def eluLin {n i o : Nat} (h : M n i) (W : M o i) (b : M 1 o) : M n o := lin (fun j => elu (h j)) W b

def scoreAt {e d : Nat} (zs zd : M e d) (aws awd : M 1 d) (ab : M 1 1) (p : Fin e) : EReal :=
  (∑ k : Fin d, zs (ix2 p k) * aws (ix2 0 k)) + (∑ k : Fin d, zd (ix2 p k) * awd (ix2 0 k)) + ab (ix2 0 0)

def edge {e d : Nat} (zs zd : M e d) (aws awd : M 1 d) (ab : M 1 1) : M e d :=
  fun j => zs (ix2 (j 0) (j 1)) * leaky (scoreAt zs zd aws awd ab (j 0))

def gateAt {n : Nat} (h : M n 32) (Wih : M 96 32) (bih : M 1 96) (p : Fin n) (j : Fin 96) : EReal :=
  (∑ k : Fin 32, elu (h (ix2 p k)) * Wih (ix2 j k)) + bih (ix2 0 j)

def gru {n : Nat} (h : M n 32) (Wih : M 96 32) (bih bhh : M 1 96) : M n 32 := fun j =>
  let p := j 0
  let q : Fin 32 := j 1
  let q0 : Fin 96 := ⟨q.val, by omega⟩
  let q1 : Fin 96 := ⟨32 + q.val, by omega⟩
  let q2 : Fin 96 := ⟨64 + q.val, by omega⟩
  let r := Ideal.logistic (gateAt h Wih bih p q0 + bhh (ix2 0 q0))
  let z := Ideal.logistic (gateAt h Wih bih p q1 + bhh (ix2 0 q1))
  let c := Ideal.tanh (gateAt h Wih bih p q2 + r * bhh (ix2 0 q2))
  (one32 - z) * c

def featAt {n : Nat} (h : M n 32) (x : M n 5) (p : Fin n) (k : Fin 34) : EReal :=
  if hk : k.val < 32 then h (ix2 p ⟨k.val, hk⟩) else if k.val = 32 then x (ix2 p 0) else x (ix2 p 1)

def headAt {n o : Nat} (h : M n 32) (x : M n 5) (W : M o 34) (b : M 1 o) (p : Fin n) (t : Fin o) : EReal :=
  (∑ k : Fin 34, featAt h x p k * W (ix2 t k)) + b (ix2 0 t)

def pred {n : Nat} (h : M n 32) (x : M n 5) (WI : M 8 34) (bI : M 1 8) (WR : M 8 34) (bR : M 1 8) : T3 n 8 2 :=
  fun j => if (j 2).val = 0 then headAt h x WI bI (j 0) (j 1) else headAt h x WR bR (j 0) (j 1)

def sirD (al be nr i r : EReal) : EReal × EReal :=
  (al * i * (Ideal.div (nr - i - r) nr) - be * i, be * i)

def sirState (al be nr i0 r0 : EReal) : Nat → EReal × EReal
  | 0 => (i0, r0)
  | t + 1 =>
    let s := sirState al be nr i0 r0 t
    let d := sirD al be nr s.1 s.2
    (s.1 + d.1, s.2 + d.2)

def phy {n : Nat} (h : M n 32) (x : M n 5) (Wsir : M 2 34) (bsir : M 1 2) : T3 n 8 2 := fun j =>
  let p := j 0
  let al := Ideal.logistic (headAt h x Wsir bsir p 0)
  let be := Ideal.logistic (headAt h x Wsir bsir p 1)
  let s := sirState al be (x (ix2 p 4)) (x (ix2 p 2)) (x (ix2 p 3)) (j 1).val
  let d := sirD al be (x (ix2 p 4)) s.1 s.2
  if (j 2).val = 0 then d.1 else d.2

end Cert.Spec

end
-- ==== Proof.KI.Val0.lean ====
import proofs.«419864_j2224793059992_3_alg».proof.Proof.KI.Reg0
import proofs.«419864_j2224793059992_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

theorem mm0_lhs_0 (j : S10000x32.Idx) (k : dot_S10000x64_S64x32_S10000x32_1_0_0_1_n_n.contr.Idx) :
    (dot_S10000x64_S64x32_S10000x32_1_0_0_1_n_n.lhsIdx j k 0).val = (j 0).val := by
  unfold DotDims.lhsIdx
  rw [dif_neg (show ¬(0 : Fin S10000x64.rank) ∈ dot_S10000x64_S64x32_S10000x32_1_0_0_1_n_n.lhsBatch by decide),
    dif_pos (show (0 : Fin S10000x64.rank) ∈ dot_S10000x64_S64x32_S10000x32_1_0_0_1_n_n.lhsNonContracting by decide)]
  rfl
theorem mm0_lhs_1 (j : S10000x32.Idx) (k : dot_S10000x64_S64x32_S10000x32_1_0_0_1_n_n.contr.Idx) :
    (dot_S10000x64_S64x32_S10000x32_1_0_0_1_n_n.lhsIdx j k 1).val = (k ⟨0, by decide⟩).val :=
  dot_S10000x64_S64x32_S10000x32_1_0_0_1_n_n.lhsIdx_val_of_single rfl j k
theorem mm0_rhs_0 (j : S10000x32.Idx) (k : dot_S10000x64_S64x32_S10000x32_1_0_0_1_n_n.contr.Idx) :
    (dot_S10000x64_S64x32_S10000x32_1_0_0_1_n_n.rhsIdx j k 0).val = (k ⟨0, by decide⟩).val :=
  dot_S10000x64_S64x32_S10000x32_1_0_0_1_n_n.rhsIdx_val_of_single rfl j k
theorem mm0_rhs_1 (j : S10000x32.Idx) (k : dot_S10000x64_S64x32_S10000x32_1_0_0_1_n_n.contr.Idx) :
    (dot_S10000x64_S64x32_S10000x32_1_0_0_1_n_n.rhsIdx j k 1).val = (j 1).val := by
  unfold DotDims.rhsIdx
  rw [dif_neg (show ¬(1 : Fin S64x32.rank) ∈ dot_S10000x64_S64x32_S10000x32_1_0_0_1_n_n.rhsBatch by decide),
    dif_pos (show (1 : Fin S64x32.rank) ∈ dot_S10000x64_S64x32_S10000x32_1_0_0_1_n_n.rhsNonContracting by decide)]
  rfl

theorem mm0_apply (L : FVec Ideal S10000x64 .bf16) (R : FVec Ideal S64x32 .bf16) (p : Fin 10000) (q : Fin 32) :
    matmul dot_S10000x64_S64x32_S10000x32_1_0_0_1_n_n none L R (constant (F := Ideal) S10000x32 .f32 0x00000000#32) (ix2 p q)
      = ∑ k : Fin 64, L (ix2 p k) * R (ix2 k q) := by
  show FloatOps.matmul _ none L R _ (ix2 p q) = _
  rw [Ideal.matmul_constant_zero_apply,
    ← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have l2 : dot_S10000x64_S64x32_S10000x32_1_0_0_1_n_n.lhsIdx (ix2 p q) ((contrEquiv1 _ 64 rfl rfl).symm k) = ix2 p k := by
    funext ax; apply Fin.ext
    match ax with
    | ⟨0, _⟩ => exact mm0_lhs_0 _ _
    | ⟨1, _⟩ => exact (mm0_lhs_1 _ _).trans hk
  have r2 : dot_S10000x64_S64x32_S10000x32_1_0_0_1_n_n.rhsIdx (ix2 p q) ((contrEquiv1 _ 64 rfl rfl).symm k) = ix2 k q := by
    funext ax; apply Fin.ext
    match ax with
    | ⟨0, _⟩ => exact (mm0_rhs_0 _ _).trans hk
    | ⟨1, _⟩ => exact mm0_rhs_1 _ _
  rw [l2, r2]

theorem pay0_apply (x : Vec Ideal S10000x64 .f32) (w : Vec Ideal S32x64 .f32) (b : Vec Ideal S1x32 .f32) (p : Fin 10000) (q : Fin 32) :
    k0_pay1 x w b (ix2 p q) = (∑ k : Fin 64, x (ix2 p k) * w (ix2 q k)) + b (ix2 (0 : Fin 1) q) := by
  unfold k0_pay1
  simp only [shapeCast_self]
  rw [addf_apply, broadcastTo_1b_ab_apply, mm0_apply]
  refine congrArg (· + _) (Finset.sum_congr rfl fun k _ => ?_)
  rw [transpose_ix2_apply, truncf_apply, truncf_apply]

theorem lin_block0 (x : Vec Ideal S10000x64 .f32) (w : Vec Ideal S32x64 .f32) (b : Vec Ideal S1x32 .f32)
    (X : Vec Ideal S200000x64 .f32) (j : S10000x32.Idx) (i : S200000x32.Idx)
    (hx : ∀ k : Fin 64, x (ix2 (j 0) k) = X (ix2 (i 0) k)) (hq : (i 1).val = (j 1).val) :
    k0_pay1 x w b j = Cert.Spec.lin (n := 200000) (i := 64) (o := 32) X w b i := by
  obtain ⟨p, q, rfl⟩ : ∃ (p : Fin 10000) (q : Fin 32), j = ix2 p q := ⟨j 0, j 1, eq_ix2 j⟩
  obtain ⟨p', q', rfl⟩ : ∃ (p' : Fin 200000) (q' : Fin 32), i = ix2 p' q' := ⟨i 0, i 1, eq_ix2 i⟩
  have hx' : ∀ k : Fin 64, x (ix2 p k) = X (ix2 p' k) := hx
  obtain rfl : q' = q := Fin.ext hq
  rw [pay0_apply]
  show _ = (∑ k : Fin 64, X (ix2 p' k) * w (ix2 q' k)) + b (ix2 (0 : Fin 1) q')
  exact congrArg (· + _) (Finset.sum_congr rfl fun k _ => by rw [hx' k])

theorem origin0 : (![0, 0] : Fin 2 → Nat) = fun _ => 0 := funext fun a => match a with | ⟨0, _⟩ => rfl | ⟨1, _⟩ => rfl

theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

theorem iblk0_1_eq (c : Dev nD) (t : Fin cfg0.N) : (iblk0 V c 1 t : Vec Ideal S32x64 .f32) = V c main_arg4 := by
  obtain ⟨-, -, e10, e11, -, -, -, -⟩ := index0 t
  funext y
  show V c main_arg4 (((cfg0.win 1).blk t).view.emb y) = V c main_arg4 y
  refine congrArg (V c main_arg4 : S32x64.Idx → EReal) ?_
  funext a; apply Fin.ext
  match a with
  | ⟨0, _⟩ => show win0_1.index t (0 : Fin 2) * 32 + 1 * (y 0).val = (y 0).val; omega
  | ⟨1, _⟩ => show win0_1.index t (1 : Fin 2) * 64 + 1 * (y 1).val = (y 1).val; omega

theorem iblk0_2_eq (c : Dev nD) (t : Fin cfg0.N) : (iblk0 V c 2 t : Vec Ideal S1x32 .f32) = V c main_v12 := by
  obtain ⟨-, -, -, -, e20, e21, -, -⟩ := index0 t
  funext y
  show V c main_v12 (((cfg0.win 2).blk t).view.emb y) = V c main_v12 y
  refine congrArg (V c main_v12 : S1x32.Idx → EReal) ?_
  funext a; apply Fin.ext
  match a with
  | ⟨0, _⟩ => show win0_2.index t (0 : Fin 2) * 1 + 1 * (y 0).val = (y 0).val; omega
  | ⟨1, _⟩ => show win0_2.index t (1 : Fin 2) * 32 + 1 * (y 1).val = (y 1).val; omega

theorem flushed0_eq (c : Dev nD) (t : Fin cfg0.N) :
    (dat0 (F := Ideal) V c).flushed 3 t
      = ((cfg0.win 3).blk t).view.read (Elt Ideal)
          (Cert.Spec.lin (n := 200000) (i := 64) (o := 32) (V c main_v7) (V c main_arg4) (V c main_v12)) := by
  show (cfg0.win 3).cut (grid0.coords t) ((dat0 V c).after 3 t) = _
  rw [after0_3]
  unfold out0_3
  rw [View.canon_unit_zero origin0]
  simp only [View.ld_unit_zero (S := S10000x64) origin0, View.ld_unit_zero (S := S32x64) origin0,
    View.ld_unit_zero (S := S1x32) origin0]
  obtain ⟨e00, e01, -, -, -, -, e30, e31⟩ := index0 t
  funext j
  show k0_pay1 (iblk0 V c 0 t) (iblk0 V c 1 t) (iblk0 V c 2 t) j
      = Cert.Spec.lin (n := 200000) (i := 64) (o := 32) (V c main_v7) (V c main_arg4) (V c main_v12) (((cfg0.win 3).blk t).view.emb j)
  rw [iblk0_1_eq V c t, iblk0_2_eq V c t]
  refine lin_block0 _ _ _ _ j _ (fun k => ?_) ?_
  · show V c main_v7 (((cfg0.win 0).blk t).view.emb (ix2 (j 0) k)) = V c main_v7 (ix2 ((((cfg0.win 3).blk t).view.emb j) 0) k)
    refine congrArg (V c main_v7 : S200000x64.Idx → EReal) ?_
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 64 + 1 * k.val = k.val; omega
  · show win0_3.index t (1 : Fin 2) * 32 + 1 * (j 1).val = (j 1).val; omega

theorem mem_blk0 (t : Fin cfg0.N) (i : S200000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v13).slice (win0_3.rect t)).set ↔ _
  rw [View.set_slice_whole, Rect.mem_set_unit]
  exact Iff.rfl

theorem cover0 (i : S200000x32.Idx) : ∃ t : Fin cfg0.N, (cfg0.win 3).flush t = true ∧ i ∈ ((cfg0.win 3).blk t).view.set := by
  have hi0 : (i 0).val < 200000 := (i 0).isLt
  have hi1 : (i 1).val < 32 := (i 1).isLt
  have hN : cfg0.N = 20 := N_0
  obtain ⟨t, ht⟩ : ∃ t : Fin cfg0.N, t.val = (i 0).val / 10000 := ⟨⟨(i 0).val / 10000, by rw [hN]; omega⟩, rfl⟩
  obtain ⟨-, -, -, -, -, -, e30, e31⟩ := index0 t
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 32 ≤ (i 1).val ∧ (i 1).val < win0_3.index t (1 : Fin 2) * 32 + 32; omega

theorem final0 (c : Dev nD) :
    (dat0 (F := Ideal) V c).arrAt 3 cfg0.N = Cert.Spec.lin (V c main_v7) (V c main_arg4) (V c main_v12) :=
  (dat0 (F := Ideal) V c).arrAt_eq_of_cover 3 _ (fun t _ => flushed0_eq V c t) cover0

end Cert.KernelIdeal.Hand

end
-- ==== Proof.KI.Val1.lean ====
import proofs.«419864_j2224793059992_3_alg».proof.Proof.KI.Reg1
import proofs.«419864_j2224793059992_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

private theorem lanes_of_column {α : Type} (v : S8000x1.Idx → α) (h : S8000x1.Broadcasts S8000x32) (p : Fin 8000) (q : Fin 32) :
    broadcastTo S8000x32 v h (ix2 p q) = v (ix2 p (0 : Fin 1)) := by
  refine broadcastTo_apply v h (ix2 p q) (ix2 p (0 : Fin 1)) fun ax => ?_
  match ax with
  | ⟨0, _⟩ => rfl
  | ⟨1, _⟩ => rfl

private theorem column_of_rows {α : Type} (v : S8000.Idx → α) (h : S8000.ShapeCasts S8000x1) (p : Fin 8000) (u : Fin 1) :
    shapeCast S8000x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

private theorem lane_sum (src : FVec Ideal S8000x32 .f32) (h : S8000x32.Reduces [1] S8000) (hφ : FKind.Formats .f32)
    (hacc : (0x00000000#32 : BitVec 32) = 0x00000000#32) (p : Fin 8000) :
    multiReduction (F := Ideal) .add [1] S8000 src 0x00000000#32 h hφ hacc (ix1 p) = ∑ k : Fin 32, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

theorem message1_at (x0 x1 : Vec Ideal S8000x32 .f32) (x2 x3 : Vec Ideal S1x32 .f32) (x4 : Vec Ideal S1x1 .f32)
    (p : Fin 8000) (q : Fin 32) :
    k1_pay1 (F := Ideal) x0 x1 x2 x3 x4 (ix2 p q)
      = x0 (ix2 p q) * Cert.Spec.leaky ((∑ k : Fin 32, x0 (ix2 p k) * x2 (ix2 0 k))
          + (∑ k : Fin 32, x1 (ix2 p k) * x3 (ix2 0 k)) + x4 (ix2 0 0)) := by
  unfold k1_pay1
  simp only [shapeCast_self]
  simp only [mulf_apply, lanes_of_column, select_apply, cmpf_apply, broadcast_apply, addf_apply, column_of_rows,
    broadcastTo_1b_ab_apply]
  rw [lane_sum, lane_sum]
  simp only [mulf_apply, broadcastTo_1b_ab_apply]
  rfl

theorem message1_entry (x0 x1 : Vec Ideal S8000x32 .f32) (x2 x3 : Vec Ideal S1x32 .f32) (x4 : Vec Ideal S1x1 .f32)
    (zs zd : Cert.Spec.M 1600000 32) (aws awd : Cert.Spec.M 1 32) (ab : Cert.Spec.M 1 1)
    (p : Fin 8000) (q : Fin 32) (r : Fin 1600000)
    (h0 : ∀ k : Fin 32, x0 (ix2 p k) = zs (ix2 r k)) (h1 : ∀ k : Fin 32, x1 (ix2 p k) = zd (ix2 r k))
    (h2 : ∀ k : Fin 32, x2 (ix2 0 k) = aws (ix2 0 k)) (h3 : ∀ k : Fin 32, x3 (ix2 0 k) = awd (ix2 0 k))
    (h4 : x4 (ix2 0 0) = ab (ix2 0 0)) :
    k1_pay1 (F := Ideal) x0 x1 x2 x3 x4 (ix2 p q) = Cert.Spec.edge zs zd aws awd ab (ix2 r q) := by
  rw [message1_at]
  simp only [h0, h1, h2, h3, h4]
  rfl

variable (V : (c : Dev nD) → (b : Ref sig .tc) → Buf (Elt Ideal) ((c : Thread nD τ).loc b))

private theorem zero_offsets : (![0, 0] : Fin 2 → Nat) = fun _ => 0 := funext fun a => by fin_cases a <;> rfl

theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem source_block1 (c : Dev nD) (t : Fin cfg1.N) (y : S8000x32.Idx) (k : S1600000x32.Idx)
    (hk0 : (k 0).val = 8000 * t.val + (y 0).val) (hk1 : (k 1).val = (y 1).val) :
    (iblk1 V c 0 t : Vec Ideal S8000x32 .f32) y = (V c main_v20 : S1600000x32.Idx → EReal) k := by
  obtain ⟨e0, e1, -⟩ := block_index1 t
  unfold iblk1
  rw [View.read_apply]
  show V c main_v20 _ = V c main_v20 _
  congr 1
  funext a
  apply Fin.ext
  match a with
  | ⟨0, _⟩ => show win1_0.index t 0 * 8000 + 1 * (y 0).val = (k 0).val; rw [e0, hk0]; omega
  | ⟨1, _⟩ => show win1_0.index t 1 * 32 + 1 * (y 1).val = (k 1).val; rw [e1, hk1]; omega

theorem dest_block1 (c : Dev nD) (t : Fin cfg1.N) (y : S8000x32.Idx) (k : S1600000x32.Idx)
    (hk0 : (k 0).val = 8000 * t.val + (y 0).val) (hk1 : (k 1).val = (y 1).val) :
    (iblk1 V c 1 t : Vec Ideal S8000x32 .f32) y = (V c main_v27 : S1600000x32.Idx → EReal) k := by
  obtain ⟨-, -, e0, e1, -⟩ := block_index1 t
  unfold iblk1
  rw [View.read_apply]
  show V c main_v27 _ = V c main_v27 _
  congr 1
  funext a
  apply Fin.ext
  match a with
  | ⟨0, _⟩ => show win1_1.index t 0 * 8000 + 1 * (y 0).val = (k 0).val; rw [e0, hk0]; omega
  | ⟨1, _⟩ => show win1_1.index t 1 * 32 + 1 * (y 1).val = (k 1).val; rw [e1, hk1]; omega

theorem aws_block1 (c : Dev nD) (t : Fin cfg1.N) (y : S1x32.Idx) :
    (iblk1 V c 2 t : Vec Ideal S1x32 .f32) y = (V c main_v28 : S1x32.Idx → EReal) y := by
  obtain ⟨-, -, -, -, e0, e1, -⟩ := block_index1 t
  unfold iblk1
  rw [View.read_apply]
  show V c main_v28 _ = V c main_v28 _
  congr 1
  funext a
  apply Fin.ext
  match a with
  | ⟨0, _⟩ => show win1_2.index t 0 * 1 + 1 * (y 0).val = (y 0).val; rw [e0]; omega
  | ⟨1, _⟩ => show win1_2.index t 1 * 32 + 1 * (y 1).val = (y 1).val; rw [e1]; omega

theorem awd_block1 (c : Dev nD) (t : Fin cfg1.N) (y : S1x32.Idx) :
    (iblk1 V c 3 t : Vec Ideal S1x32 .f32) y = (V c main_v29 : S1x32.Idx → EReal) y := by
  obtain ⟨-, -, -, -, -, -, e0, e1, -⟩ := block_index1 t
  unfold iblk1
  rw [View.read_apply]
  show V c main_v29 _ = V c main_v29 _
  congr 1
  funext a
  apply Fin.ext
  match a with
  | ⟨0, _⟩ => show win1_3.index t 0 * 1 + 1 * (y 0).val = (y 0).val; rw [e0]; omega
  | ⟨1, _⟩ => show win1_3.index t 1 * 32 + 1 * (y 1).val = (y 1).val; rw [e1]; omega

theorem bias_block1 (c : Dev nD) (t : Fin cfg1.N) (y : S1x1.Idx) :
    (iblk1 V c 4 t : Vec Ideal S1x1 .f32) y = (V c main_v30 : S1x1.Idx → EReal) y := by
  obtain ⟨-, -, -, -, -, -, -, -, e0, e1, -⟩ := block_index1 t
  unfold iblk1
  rw [View.read_apply]
  show V c main_v30 _ = V c main_v30 _
  congr 1
  funext a
  apply Fin.ext
  match a with
  | ⟨0, _⟩ => show win1_4.index t 0 * 1 + 1 * (y 0).val = (y 0).val; rw [e0]; omega
  | ⟨1, _⟩ => show win1_4.index t 1 * 1 + 1 * (y 1).val = (y 1).val; rw [e1]; omega

abbrev messages1 (c : Dev nD) : Cert.Spec.M 1600000 32 :=
  Cert.Spec.edge (V c main_v20) (V c main_v27) (V c main_v28) (V c main_v29) (V c main_v30)

theorem written1_eq (c : Dev nD) (t : Fin cfg1.N) :
    (dat1 (F := Ideal) V c).flushed 5 t = ((cfg1.win 5).blk t).view.read (Elt Ideal) (messages1 V c) := by
  show (cfg1.win 5).cut (grid1.coords t) ((dat1 V c).after 5 t) = _
  rw [after1_5]
  unfold out1_5
  rw [View.canon_unit_zero zero_offsets]
  simp only [View.ld_unit_zero (S := S8000x32) zero_offsets, View.ld_unit_zero (S := S1x32) zero_offsets,
    View.ld_unit_zero (S := S1x1) zero_offsets]
  have hN : t.val < 200 := lt_of_lt_of_eq t.isLt N_1
  obtain ⟨-, -, -, -, -, -, -, -, -, -, e0, e1⟩ := block_index1 t
  funext j
  obtain ⟨p, q, rfl⟩ : ∃ (p : Fin 8000) (q : Fin 32), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = messages1 V c (((cfg1.win 5).blk t).view.emb (ix2 p q))
  refine (message1_entry _ _ _ _ _ (V c main_v20) (V c main_v27) (V c main_v28) (V c main_v29) (V c main_v30) p q
    ⟨8000 * t.val + p.val, by have := p.isLt; omega⟩
    (fun k => source_block1 V c t _ _ rfl rfl) (fun k => dest_block1 V c t _ _ rfl rfl)
    (fun k => aws_block1 V c t _) (fun k => awd_block1 V c t _) (bias_block1 V c t _)).trans ?_
  refine congrArg (messages1 V c) ?_
  funext a
  apply Fin.ext
  match a with
  | ⟨0, _⟩ => show 8000 * t.val + p.val = win1_5.index t 0 * 8000 + 1 * p.val; rw [e0]; omega
  | ⟨1, _⟩ => show q.val = win1_5.index t 1 * 32 + 1 * q.val; rw [e1]; omega

theorem mem_block1 (t : Fin cfg1.N) (i : S1600000x32.Idx) :
    i ∈ ((cfg1.win 5).blk t).view.set
      ↔ ∀ a : Fin 2, win1_5.index t a * S8000x32.size a ≤ (i a).val
          ∧ (i a).val < win1_5.index t a * S8000x32.size a + S8000x32.size a := by
  show i ∈ ((View.whole main_v31).slice (win1_5.rect t)).set ↔ _
  rw [View.set_slice_whole, Rect.mem_set_unit]
  exact Iff.rfl

theorem covered1 (i : S1600000x32.Idx) :
    ∃ t : Fin cfg1.N, (cfg1.win 5).flush t = true ∧ i ∈ ((cfg1.win 5).blk t).view.set := by
  have hi0 : (i 0).val < 1600000 := (i 0).isLt
  have hi1 : (i 1).val < 32 := (i 1).isLt
  have hN : cfg1.N = 200 := N_1
  let t : Fin cfg1.N := ⟨(i 0).val / 8000, by rw [hN]; omega⟩
  obtain ⟨-, -, -, -, -, -, -, -, -, -, e0, e1⟩ := block_index1 t
  have ht : t.val = (i 0).val / 8000 := rfl
  refine ⟨t, flush1_5 t, ?_⟩
  rw [mem_block1]
  intro a
  match a with
  | ⟨0, _⟩ =>
    show win1_5.index t (0 : Fin 2) * 8000 ≤ (i 0).val ∧ (i 0).val < win1_5.index t (0 : Fin 2) * 8000 + 8000
    rw [e0, ht]; omega
  | ⟨1, _⟩ =>
    show win1_5.index t (1 : Fin 2) * 32 ≤ (i 1).val ∧ (i 1).val < win1_5.index t (1 : Fin 2) * 32 + 32
    rw [e1]; omega

theorem final1 (c : Dev nD) :
    (dat1 (F := Ideal) V c).arrAt 5 cfg1.N
      = Cert.Spec.edge (V c main_v20) (V c main_v27) (V c main_v28) (V c main_v29) (V c main_v30) :=
  (dat1 (F := Ideal) V c).arrAt_eq_of_cover 5 (messages1 V c) (fun t _ => written1_eq V c t) covered1

end Cert.KernelIdeal.Hand

end
-- ==== Proof.KI.Val2.lean ====
import proofs.«419864_j2224793059992_3_alg».proof.Proof.KI.Reg2
import proofs.«419864_j2224793059992_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

theorem mm2_lhs_0 (j : S10000x32.Idx) (k : dot_S10000x32_S32x32_S10000x32_1_0_0_1_n_n.contr.Idx) :
    (dot_S10000x32_S32x32_S10000x32_1_0_0_1_n_n.lhsIdx j k 0).val = (j 0).val := by
  unfold DotDims.lhsIdx
  rw [dif_neg (show ¬(0 : Fin S10000x32.rank) ∈ dot_S10000x32_S32x32_S10000x32_1_0_0_1_n_n.lhsBatch by decide),
    dif_pos (show (0 : Fin S10000x32.rank) ∈ dot_S10000x32_S32x32_S10000x32_1_0_0_1_n_n.lhsNonContracting by decide)]
  rfl
theorem mm2_lhs_1 (j : S10000x32.Idx) (k : dot_S10000x32_S32x32_S10000x32_1_0_0_1_n_n.contr.Idx) :
    (dot_S10000x32_S32x32_S10000x32_1_0_0_1_n_n.lhsIdx j k 1).val = (k ⟨0, by decide⟩).val :=
  dot_S10000x32_S32x32_S10000x32_1_0_0_1_n_n.lhsIdx_val_of_single rfl j k
theorem mm2_rhs_0 (j : S10000x32.Idx) (k : dot_S10000x32_S32x32_S10000x32_1_0_0_1_n_n.contr.Idx) :
    (dot_S10000x32_S32x32_S10000x32_1_0_0_1_n_n.rhsIdx j k 0).val = (k ⟨0, by decide⟩).val :=
  dot_S10000x32_S32x32_S10000x32_1_0_0_1_n_n.rhsIdx_val_of_single rfl j k
theorem mm2_rhs_1 (j : S10000x32.Idx) (k : dot_S10000x32_S32x32_S10000x32_1_0_0_1_n_n.contr.Idx) :
    (dot_S10000x32_S32x32_S10000x32_1_0_0_1_n_n.rhsIdx j k 1).val = (j 1).val := by
  unfold DotDims.rhsIdx
  rw [dif_neg (show ¬(1 : Fin S32x32.rank) ∈ dot_S10000x32_S32x32_S10000x32_1_0_0_1_n_n.rhsBatch by decide),
    dif_pos (show (1 : Fin S32x32.rank) ∈ dot_S10000x32_S32x32_S10000x32_1_0_0_1_n_n.rhsNonContracting by decide)]
  rfl

theorem mm2_apply (L : FVec Ideal S10000x32 .bf16) (R : FVec Ideal S32x32 .bf16) (p : Fin 10000) (q : Fin 32) :
    matmul dot_S10000x32_S32x32_S10000x32_1_0_0_1_n_n none L R (constant (F := Ideal) S10000x32 .f32 0x00000000#32) (ix2 p q)
      = ∑ k : Fin 32, L (ix2 p k) * R (ix2 k q) := by
  show FloatOps.matmul _ none L R _ (ix2 p q) = _
  rw [Ideal.matmul_constant_zero_apply,
    ← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have l2 : dot_S10000x32_S32x32_S10000x32_1_0_0_1_n_n.lhsIdx (ix2 p q) ((contrEquiv1 _ 32 rfl rfl).symm k) = ix2 p k := by
    funext ax; apply Fin.ext
    match ax with
    | ⟨0, _⟩ => exact mm2_lhs_0 _ _
    | ⟨1, _⟩ => exact (mm2_lhs_1 _ _).trans hk
  have r2 : dot_S10000x32_S32x32_S10000x32_1_0_0_1_n_n.rhsIdx (ix2 p q) ((contrEquiv1 _ 32 rfl rfl).symm k) = ix2 k q := by
    funext ax; apply Fin.ext
    match ax with
    | ⟨0, _⟩ => exact (mm2_rhs_0 _ _).trans hk
    | ⟨1, _⟩ => exact mm2_rhs_1 _ _
  rw [l2, r2]

theorem pay2_apply (x : Vec Ideal S10000x32 .f32) (w : Vec Ideal S32x32 .f32) (b : Vec Ideal S1x32 .f32) (p : Fin 10000) (q : Fin 32) :
    k2_pay1 x w b (ix2 p q) = (∑ k : Fin 32, Cert.Spec.elu (x (ix2 p k)) * w (ix2 q k)) + b (ix2 (0 : Fin 1) q) := by
  unfold k2_pay1
  simp only [shapeCast_self]
  rw [addf_apply, broadcastTo_1b_ab_apply, mm2_apply]
  refine congrArg (· + _) (Finset.sum_congr rfl fun k _ => ?_)
  rw [transpose_ix2_apply, truncf_apply, truncf_apply]
  rfl

theorem lin_block2 (x : Vec Ideal S10000x32 .f32) (w : Vec Ideal S32x32 .f32) (b : Vec Ideal S1x32 .f32)
    (X : Vec Ideal S200000x32 .f32) (j : S10000x32.Idx) (i : S200000x32.Idx)
    (hx : ∀ k : Fin 32, x (ix2 (j 0) k) = X (ix2 (i 0) k)) (hq : (i 1).val = (j 1).val) :
    k2_pay1 x w b j = Cert.Spec.eluLin (n := 200000) (i := 32) (o := 32) X w b i := by
  obtain ⟨p, q, rfl⟩ : ∃ (p : Fin 10000) (q : Fin 32), j = ix2 p q := ⟨j 0, j 1, eq_ix2 j⟩
  obtain ⟨p', q', rfl⟩ : ∃ (p' : Fin 200000) (q' : Fin 32), i = ix2 p' q' := ⟨i 0, i 1, eq_ix2 i⟩
  have hx' : ∀ k : Fin 32, x (ix2 p k) = X (ix2 p' k) := hx
  obtain rfl : q' = q := Fin.ext hq
  rw [pay2_apply]
  show _ = (∑ k : Fin 32, Cert.Spec.elu (X (ix2 p' k)) * w (ix2 q' k)) + b (ix2 (0 : Fin 1) q')
  exact congrArg (· + _) (Finset.sum_congr rfl fun k _ => by rw [hx' k])

theorem origin2 : (![0, 0] : Fin 2 → Nat) = fun _ => 0 := funext fun a => match a with | ⟨0, _⟩ => rfl | ⟨1, _⟩ => rfl

theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

theorem iblk2_1_eq (c : Dev nD) (t : Fin cfg2.N) : (iblk2 V c 1 t : Vec Ideal S32x32 .f32) = V c main_arg8 := by
  obtain ⟨-, -, e10, e11, -, -, -, -⟩ := index2 t
  funext y
  show V c main_arg8 (((cfg2.win 1).blk t).view.emb y) = V c main_arg8 y
  refine congrArg (V c main_arg8 : S32x32.Idx → EReal) ?_
  funext a; apply Fin.ext
  match a with
  | ⟨0, _⟩ => show win2_1.index t (0 : Fin 2) * 32 + 1 * (y 0).val = (y 0).val; omega
  | ⟨1, _⟩ => show win2_1.index t (1 : Fin 2) * 32 + 1 * (y 1).val = (y 1).val; omega

theorem iblk2_2_eq (c : Dev nD) (t : Fin cfg2.N) : (iblk2 V c 2 t : Vec Ideal S1x32 .f32) = V c main_v35 := by
  obtain ⟨-, -, -, -, e20, e21, -, -⟩ := index2 t
  funext y
  show V c main_v35 (((cfg2.win 2).blk t).view.emb y) = V c main_v35 y
  refine congrArg (V c main_v35 : S1x32.Idx → EReal) ?_
  funext a; apply Fin.ext
  match a with
  | ⟨0, _⟩ => show win2_2.index t (0 : Fin 2) * 1 + 1 * (y 0).val = (y 0).val; omega
  | ⟨1, _⟩ => show win2_2.index t (1 : Fin 2) * 32 + 1 * (y 1).val = (y 1).val; omega

theorem flushed2_eq (c : Dev nD) (t : Fin cfg2.N) :
    (dat2 (F := Ideal) V c).flushed 3 t
      = ((cfg2.win 3).blk t).view.read (Elt Ideal)
          (Cert.Spec.eluLin (n := 200000) (i := 32) (o := 32) (V c main_v34) (V c main_arg8) (V c main_v35)) := by
  show (cfg2.win 3).cut (grid2.coords t) ((dat2 V c).after 3 t) = _
  rw [after2_3]
  unfold out2_3
  rw [View.canon_unit_zero origin2]
  simp only [View.ld_unit_zero (S := S10000x32) origin2, View.ld_unit_zero (S := S32x32) origin2,
    View.ld_unit_zero (S := S1x32) origin2]
  obtain ⟨e00, e01, -, -, -, -, e30, e31⟩ := index2 t
  funext j
  show k2_pay1 (iblk2 V c 0 t) (iblk2 V c 1 t) (iblk2 V c 2 t) j
      = Cert.Spec.eluLin (n := 200000) (i := 32) (o := 32) (V c main_v34) (V c main_arg8) (V c main_v35) (((cfg2.win 3).blk t).view.emb j)
  rw [iblk2_1_eq V c t, iblk2_2_eq V c t]
  refine lin_block2 _ _ _ _ j _ (fun k => ?_) ?_
  · show V c main_v34 (((cfg2.win 0).blk t).view.emb (ix2 (j 0) k)) = V c main_v34 (ix2 ((((cfg2.win 3).blk t).view.emb j) 0) k)
    refine congrArg (V c main_v34 : S200000x32.Idx → EReal) ?_
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 32 + 1 * k.val = k.val; omega
  · show win2_3.index t (1 : Fin 2) * 32 + 1 * (j 1).val = (j 1).val; omega

theorem mem_blk2 (t : Fin cfg2.N) (i : S200000x32.Idx) :
    i ∈ ((cfg2.win 3).blk t).view.set ↔ ∀ a : Fin 2, win2_3.index t a * S10000x32.size a ≤ (i a).val
      ∧ (i a).val < win2_3.index t a * S10000x32.size a + S10000x32.size a := by
  show i ∈ ((View.whole main_v36).slice (win2_3.rect t)).set ↔ _
  rw [View.set_slice_whole, Rect.mem_set_unit]
  exact Iff.rfl

theorem cover2 (i : S200000x32.Idx) : ∃ t : Fin cfg2.N, (cfg2.win 3).flush t = true ∧ i ∈ ((cfg2.win 3).blk t).view.set := by
  have hi0 : (i 0).val < 200000 := (i 0).isLt
  have hi1 : (i 1).val < 32 := (i 1).isLt
  have hN : cfg2.N = 20 := N_2
  obtain ⟨t, ht⟩ : ∃ t : Fin cfg2.N, t.val = (i 0).val / 10000 := ⟨⟨(i 0).val / 10000, by rw [hN]; omega⟩, rfl⟩
  obtain ⟨-, -, -, -, -, -, e30, e31⟩ := index2 t
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 32 ≤ (i 1).val ∧ (i 1).val < win2_3.index t (1 : Fin 2) * 32 + 32; omega

theorem final2 (c : Dev nD) :
    (dat2 (F := Ideal) V c).arrAt 3 cfg2.N = Cert.Spec.eluLin (V c main_v34) (V c main_arg8) (V c main_v35) :=
  (dat2 (F := Ideal) V c).arrAt_eq_of_cover 3 _ (fun t _ => flushed2_eq V c t) cover2

end Cert.KernelIdeal.Hand

end
-- ==== Proof.KI.Val3.lean ====
import proofs.«419864_j2224793059992_3_alg».proof.Proof.KI.Reg3
import proofs.«419864_j2224793059992_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

private theorem lanes_of_column {α : Type} (v : S8000x1.Idx → α) (h : S8000x1.Broadcasts S8000x32) (p : Fin 8000) (q : Fin 32) :
    broadcastTo S8000x32 v h (ix2 p q) = v (ix2 p (0 : Fin 1)) := by
  refine broadcastTo_apply v h (ix2 p q) (ix2 p (0 : Fin 1)) fun ax => ?_
  match ax with
  | ⟨0, _⟩ => rfl
  | ⟨1, _⟩ => rfl

private theorem column_of_rows {α : Type} (v : S8000.Idx → α) (h : S8000.ShapeCasts S8000x1) (p : Fin 8000) (u : Fin 1) :
    shapeCast S8000x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

private theorem lane_sum (src : FVec Ideal S8000x32 .f32) (h : S8000x32.Reduces [1] S8000) (hφ : FKind.Formats .f32)
    (hacc : (0x00000000#32 : BitVec 32) = 0x00000000#32) (p : Fin 8000) :
    multiReduction (F := Ideal) .add [1] S8000 src 0x00000000#32 h hφ hacc (ix1 p) = ∑ k : Fin 32, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

theorem message3_at (x0 x1 : Vec Ideal S8000x32 .f32) (x2 x3 : Vec Ideal S1x32 .f32) (x4 : Vec Ideal S1x1 .f32)
    (p : Fin 8000) (q : Fin 32) :
    k3_pay1 (F := Ideal) x0 x1 x2 x3 x4 (ix2 p q)
      = x0 (ix2 p q) * Cert.Spec.leaky ((∑ k : Fin 32, x0 (ix2 p k) * x2 (ix2 0 k))
          + (∑ k : Fin 32, x1 (ix2 p k) * x3 (ix2 0 k)) + x4 (ix2 0 0)) := by
  unfold k3_pay1
  simp only [shapeCast_self]
  simp only [mulf_apply, lanes_of_column, select_apply, cmpf_apply, broadcast_apply, addf_apply, column_of_rows,
    broadcastTo_1b_ab_apply]
  rw [lane_sum, lane_sum]
  simp only [mulf_apply, broadcastTo_1b_ab_apply]
  rfl

theorem message3_entry (x0 x1 : Vec Ideal S8000x32 .f32) (x2 x3 : Vec Ideal S1x32 .f32) (x4 : Vec Ideal S1x1 .f32)
    (zs zd : Cert.Spec.M 1600000 32) (aws awd : Cert.Spec.M 1 32) (ab : Cert.Spec.M 1 1)
    (p : Fin 8000) (q : Fin 32) (r : Fin 1600000)
    (h0 : ∀ k : Fin 32, x0 (ix2 p k) = zs (ix2 r k)) (h1 : ∀ k : Fin 32, x1 (ix2 p k) = zd (ix2 r k))
    (h2 : ∀ k : Fin 32, x2 (ix2 0 k) = aws (ix2 0 k)) (h3 : ∀ k : Fin 32, x3 (ix2 0 k) = awd (ix2 0 k))
    (h4 : x4 (ix2 0 0) = ab (ix2 0 0)) :
    k3_pay1 (F := Ideal) x0 x1 x2 x3 x4 (ix2 p q) = Cert.Spec.edge zs zd aws awd ab (ix2 r q) := by
  rw [message3_at]
  simp only [h0, h1, h2, h3, h4]
  rfl

variable (V : (c : Dev nD) → (b : Ref sig .tc) → Buf (Elt Ideal) ((c : Thread nD τ).loc b))

private theorem zero_offsets : (![0, 0] : Fin 2 → Nat) = fun _ => 0 := funext fun a => by fin_cases a <;> rfl

theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem source_block3 (c : Dev nD) (t : Fin cfg3.N) (y : S8000x32.Idx) (k : S1600000x32.Idx)
    (hk0 : (k 0).val = 8000 * t.val + (y 0).val) (hk1 : (k 1).val = (y 1).val) :
    (iblk3 V c 0 t : Vec Ideal S8000x32 .f32) y = (V c main_v43 : S1600000x32.Idx → EReal) k := by
  obtain ⟨e0, e1, -⟩ := block_index3 t
  unfold iblk3
  rw [View.read_apply]
  show V c main_v43 _ = V c main_v43 _
  congr 1
  funext a
  apply Fin.ext
  match a with
  | ⟨0, _⟩ => show win3_0.index t 0 * 8000 + 1 * (y 0).val = (k 0).val; rw [e0, hk0]; omega
  | ⟨1, _⟩ => show win3_0.index t 1 * 32 + 1 * (y 1).val = (k 1).val; rw [e1, hk1]; omega

theorem dest_block3 (c : Dev nD) (t : Fin cfg3.N) (y : S8000x32.Idx) (k : S1600000x32.Idx)
    (hk0 : (k 0).val = 8000 * t.val + (y 0).val) (hk1 : (k 1).val = (y 1).val) :
    (iblk3 V c 1 t : Vec Ideal S8000x32 .f32) y = (V c main_v50 : S1600000x32.Idx → EReal) k := by
  obtain ⟨-, -, e0, e1, -⟩ := block_index3 t
  unfold iblk3
  rw [View.read_apply]
  show V c main_v50 _ = V c main_v50 _
  congr 1
  funext a
  apply Fin.ext
  match a with
  | ⟨0, _⟩ => show win3_1.index t 0 * 8000 + 1 * (y 0).val = (k 0).val; rw [e0, hk0]; omega
  | ⟨1, _⟩ => show win3_1.index t 1 * 32 + 1 * (y 1).val = (k 1).val; rw [e1, hk1]; omega

theorem aws_block3 (c : Dev nD) (t : Fin cfg3.N) (y : S1x32.Idx) :
    (iblk3 V c 2 t : Vec Ideal S1x32 .f32) y = (V c main_v51 : S1x32.Idx → EReal) y := by
  obtain ⟨-, -, -, -, e0, e1, -⟩ := block_index3 t
  unfold iblk3
  rw [View.read_apply]
  show V c main_v51 _ = V c main_v51 _
  congr 1
  funext a
  apply Fin.ext
  match a with
  | ⟨0, _⟩ => show win3_2.index t 0 * 1 + 1 * (y 0).val = (y 0).val; rw [e0]; omega
  | ⟨1, _⟩ => show win3_2.index t 1 * 32 + 1 * (y 1).val = (y 1).val; rw [e1]; omega

theorem awd_block3 (c : Dev nD) (t : Fin cfg3.N) (y : S1x32.Idx) :
    (iblk3 V c 3 t : Vec Ideal S1x32 .f32) y = (V c main_v52 : S1x32.Idx → EReal) y := by
  obtain ⟨-, -, -, -, -, -, e0, e1, -⟩ := block_index3 t
  unfold iblk3
  rw [View.read_apply]
  show V c main_v52 _ = V c main_v52 _
  congr 1
  funext a
  apply Fin.ext
  match a with
  | ⟨0, _⟩ => show win3_3.index t 0 * 1 + 1 * (y 0).val = (y 0).val; rw [e0]; omega
  | ⟨1, _⟩ => show win3_3.index t 1 * 32 + 1 * (y 1).val = (y 1).val; rw [e1]; omega

theorem bias_block3 (c : Dev nD) (t : Fin cfg3.N) (y : S1x1.Idx) :
    (iblk3 V c 4 t : Vec Ideal S1x1 .f32) y = (V c main_v53 : S1x1.Idx → EReal) y := by
  obtain ⟨-, -, -, -, -, -, -, -, e0, e1, -⟩ := block_index3 t
  unfold iblk3
  rw [View.read_apply]
  show V c main_v53 _ = V c main_v53 _
  congr 1
  funext a
  apply Fin.ext
  match a with
  | ⟨0, _⟩ => show win3_4.index t 0 * 1 + 1 * (y 0).val = (y 0).val; rw [e0]; omega
  | ⟨1, _⟩ => show win3_4.index t 1 * 1 + 1 * (y 1).val = (y 1).val; rw [e1]; omega

abbrev messages3 (c : Dev nD) : Cert.Spec.M 1600000 32 :=
  Cert.Spec.edge (V c main_v43) (V c main_v50) (V c main_v51) (V c main_v52) (V c main_v53)

theorem written3_eq (c : Dev nD) (t : Fin cfg3.N) :
    (dat3 (F := Ideal) V c).flushed 5 t = ((cfg3.win 5).blk t).view.read (Elt Ideal) (messages3 V c) := by
  show (cfg3.win 5).cut (grid3.coords t) ((dat3 V c).after 5 t) = _
  rw [after3_5]
  unfold out3_5
  rw [View.canon_unit_zero zero_offsets]
  simp only [View.ld_unit_zero (S := S8000x32) zero_offsets, View.ld_unit_zero (S := S1x32) zero_offsets,
    View.ld_unit_zero (S := S1x1) zero_offsets]
  have hN : t.val < 200 := lt_of_lt_of_eq t.isLt N_3
  obtain ⟨-, -, -, -, -, -, -, -, -, -, e0, e1⟩ := block_index3 t
  funext j
  obtain ⟨p, q, rfl⟩ : ∃ (p : Fin 8000) (q : Fin 32), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
    = messages3 V c (((cfg3.win 5).blk t).view.emb (ix2 p q))
  refine (message3_entry _ _ _ _ _ (V c main_v43) (V c main_v50) (V c main_v51) (V c main_v52) (V c main_v53) p q
    ⟨8000 * t.val + p.val, by have := p.isLt; omega⟩
    (fun k => source_block3 V c t _ _ rfl rfl) (fun k => dest_block3 V c t _ _ rfl rfl)
    (fun k => aws_block3 V c t _) (fun k => awd_block3 V c t _) (bias_block3 V c t _)).trans ?_
  refine congrArg (messages3 V c) ?_
  funext a
  apply Fin.ext
  match a with
  | ⟨0, _⟩ => show 8000 * t.val + p.val = win3_5.index t 0 * 8000 + 1 * p.val; rw [e0]; omega
  | ⟨1, _⟩ => show q.val = win3_5.index t 1 * 32 + 1 * q.val; rw [e1]; omega

theorem mem_block3 (t : Fin cfg3.N) (i : S1600000x32.Idx) :
    i ∈ ((cfg3.win 5).blk t).view.set
      ↔ ∀ a : Fin 2, win3_5.index t a * S8000x32.size a ≤ (i a).val
          ∧ (i a).val < win3_5.index t a * S8000x32.size a + S8000x32.size a := by
  show i ∈ ((View.whole main_v54).slice (win3_5.rect t)).set ↔ _
  rw [View.set_slice_whole, Rect.mem_set_unit]
  exact Iff.rfl

theorem covered3 (i : S1600000x32.Idx) :
    ∃ t : Fin cfg3.N, (cfg3.win 5).flush t = true ∧ i ∈ ((cfg3.win 5).blk t).view.set := by
  have hi0 : (i 0).val < 1600000 := (i 0).isLt
  have hi1 : (i 1).val < 32 := (i 1).isLt
  have hN : cfg3.N = 200 := N_3
  let t : Fin cfg3.N := ⟨(i 0).val / 8000, by rw [hN]; omega⟩
  obtain ⟨-, -, -, -, -, -, -, -, -, -, e0, e1⟩ := block_index3 t
  have ht : t.val = (i 0).val / 8000 := rfl
  refine ⟨t, flush3_5 t, ?_⟩
  rw [mem_block3]
  intro a
  match a with
  | ⟨0, _⟩ =>
    show win3_5.index t (0 : Fin 2) * 8000 ≤ (i 0).val ∧ (i 0).val < win3_5.index t (0 : Fin 2) * 8000 + 8000
    rw [e0, ht]; omega
  | ⟨1, _⟩ =>
    show win3_5.index t (1 : Fin 2) * 32 ≤ (i 1).val ∧ (i 1).val < win3_5.index t (1 : Fin 2) * 32 + 32
    rw [e1]; omega

theorem final3 (c : Dev nD) :
    (dat3 (F := Ideal) V c).arrAt 5 cfg3.N
      = Cert.Spec.edge (V c main_v43) (V c main_v50) (V c main_v51) (V c main_v52) (V c main_v53) :=
  (dat3 (F := Ideal) V c).arrAt_eq_of_cover 5 (messages3 V c) (fun t _ => written3_eq V c t) covered3

end Cert.KernelIdeal.Hand

end
-- ==== Proof.KI.Val4.lean ====
import proofs.«419864_j2224793059992_3_alg».proof.Proof.KI.Reg4
import proofs.«419864_j2224793059992_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

theorem exp_at {s : Shape} {φ : FTy} (x : FVec Ideal s φ) (i : s.Idx) : exp x i = Ideal.exp (x i) := rfl
theorem logistic_at {s : Shape} {φ : FTy} (x : FVec Ideal s φ) (i : s.Idx) : logistic x i = Ideal.logistic (x i) := rfl
theorem tanh_at {s : Shape} {φ : FTy} (x : FVec Ideal s φ) (i : s.Idx) : tanh x i = Ideal.tanh (x i) := rfl

theorem matmul_gates_apply {φ₁ φ₂ : FTy} (A : FVec Ideal S5000x32 φ₁) (B : FVec Ideal S32x96 φ₂) (p : Fin 5000) (j : Fin 96) :
    matmul dot_S5000x32_S32x96_S5000x96_1_0_0_1_n_n none A B (constant (F := Ideal) S5000x96 .f32 0x00000000#32) (ix2 p j)
      = ∑ c : Fin 32, A (ix2 p c) * B (ix2 c j) := by
  show FloatOps.matmul _ none A B (constant (F := Ideal) S5000x96 .f32 0x00000000#32) (ix2 p j) = _
  rw [Ideal.matmul_constant_zero_apply,
    ← Equiv.sum_comp (contrEquiv1 dot_S5000x32_S32x96_S5000x96_1_0_0_1_n_n 32 rfl rfl).symm]
  refine Finset.sum_congr rfl fun c _ => ?_
  have c2 := contrEquiv1_symm_val dot_S5000x32_S32x96_S5000x96_1_0_0_1_n_n 32 rfl rfl c
  have l2 : dot_S5000x32_S32x96_S5000x96_1_0_0_1_n_n.lhsIdx (ix2 p j) ((contrEquiv1 _ 32 rfl rfl).symm c) = ix2 p c := by
    funext ax; apply Fin.ext
    match ax with
    | ⟨0, _⟩ => simp [DotDims.lhsIdx, dot_S5000x32_S32x96_S5000x96_1_0_0_1_n_n]; rfl
    | ⟨1, _⟩ => simp [DotDims.lhsIdx, dot_S5000x32_S32x96_S5000x96_1_0_0_1_n_n]; exact c2
  have r2 : dot_S5000x32_S32x96_S5000x96_1_0_0_1_n_n.rhsIdx (ix2 p j) ((contrEquiv1 _ 32 rfl rfl).symm c) = ix2 c j := by
    funext ax; apply Fin.ext
    match ax with
    | ⟨0, _⟩ => simp [DotDims.rhsIdx, dot_S5000x32_S32x96_S5000x96_1_0_0_1_n_n]; exact c2
    | ⟨1, _⟩ => simp [DotDims.rhsIdx, dot_S5000x32_S32x96_S5000x96_1_0_0_1_n_n]; rfl
  rw [l2, r2]

theorem transpose_weights_apply (w : Vec Ideal S96x32 .f32) (c : Fin 32) (j : Fin 96) :
    transpose S32x96 [1, 0] (truncf (F := Ideal) .bf16 w bitsLt_bf16_f32) transposes_S96x32_p1_0_S32x96 (ix2 c j) = w (ix2 j c) :=
  transpose_ix2_apply _ _ c j

theorem gate_slice_apply {α : Type} (o : Nat) (p : Fin 5000) (q : Fin 32) (k : Fin 96) (hk : k.val = o + q.val)
    (x : S5000x96.Idx → α) (h : S5000x96.Slices ![0, o] S5000x32) :
    extractStridedSlice S5000x32 ![0, o] x h (ix2 p q) = x (ix2 p k) :=
  slice2_axis1_apply o x h p q k hk

theorem bias_slice_apply {α : Type} (o : Nat) (q : Fin 32) (k : Fin 96) (hk : k.val = o + q.val)
    (x : S1x96.Idx → α) (h : S1x96.Slices ![0, o] S1x32) :
    extractStridedSlice S1x32 ![0, o] x h (ix2 (0 : Fin 1) q) = x (ix2 (0 : Fin 1) k) :=
  slice2_axis1_apply o x h 0 q k hk

theorem gru_payload_apply (v0 : Vec Ideal S5000x32 .f32) (v9 : Vec Ideal S96x32 .f32) (v13 v17 : Vec Ideal S1x96 .f32)
    (p : Fin 5000) (q : Fin 32) :
    k4_pay1 (F := Ideal) v0 v9 v13 v17 (ix2 p q) = Cert.Spec.gru v0 v9 v13 v17 (ix2 p q) := by
  unfold k4_pay1
  simp only [mulf_apply, subf_apply, addf_apply, broadcast_apply, tanh_at, logistic_at, exp_at,
    gate_slice_apply 0 p q ⟨q.val, by omega⟩ (Nat.zero_add _).symm, gate_slice_apply 32 p q ⟨32 + q.val, by omega⟩ rfl,
    gate_slice_apply 64 p q ⟨64 + q.val, by omega⟩ rfl,
    bias_slice_apply 0 q ⟨q.val, by omega⟩ (Nat.zero_add _).symm, bias_slice_apply 32 q ⟨32 + q.val, by omega⟩ rfl,
    bias_slice_apply 64 q ⟨64 + q.val, by omega⟩ rfl,
    broadcastTo_1b_ab_apply, shapeCast_self, matmul_gates_apply, truncf_apply, select_apply, cmpf_apply]
  simp only [transpose_weights_apply v9]
  unfold Cert.Spec.gru Cert.Spec.gateAt Cert.Spec.elu
  rfl

theorem gru_payload_eq (v0 : Vec Ideal S5000x32 .f32) (v9 : Vec Ideal S96x32 .f32) (v13 v17 : Vec Ideal S1x96 .f32)
    (j : S5000x32.Idx) : k4_pay1 (F := Ideal) v0 v9 v13 v17 j = Cert.Spec.gru v0 v9 v13 v17 j := by
  obtain ⟨p, q, rfl⟩ : ∃ (p : Fin 5000) (q : Fin 32), j = ix2 p q := ⟨j 0, j 1, eq_ix2 j⟩
  exact gru_payload_apply v0 v9 v13 v17 p q

theorem gru_congr_row {n n' : Nat} (h : Cert.Spec.M n 32) (h' : Cert.Spec.M n' 32) (W W' : Cert.Spec.M 96 32)
    (b b' e e' : Cert.Spec.M 1 96) (j : (⟨2, ![n, 32]⟩ : Shape).Idx) (j' : (⟨2, ![n', 32]⟩ : Shape).Idx)
    (hW : W = W') (hb : b = b') (he : e = e') (hq : (j 1 : Fin 32) = (j' 1 : Fin 32))
    (hrow : ∀ k : Fin 32, h (ix2 (j 0) k) = h' (ix2 (j' 0) k)) :
    Cert.Spec.gru h W b e j = Cert.Spec.gru h' W' b' e' j' := by
  subst hW; subst hb; subst he
  unfold Cert.Spec.gru Cert.Spec.gateAt
  simp only [hrow, hq]

theorem offsets_zero : (![0, 0] : Fin 2 → Nat) = fun _ => 0 := funext fun a => by fin_cases a <;> rfl

theorem block_indices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

variable (V : (c : Dev nD) → (b : Ref sig .tc) → Buf (Elt Ideal) ((c : Thread nD τ).loc b))

theorem weights_whole (c : Dev nD) (t : Fin cfg4.N) : (iblk4 V c 1 t : Vec Ideal S96x32 .f32) = V c main_arg12 := by
  obtain ⟨-, -, e0, e1, -⟩ := block_indices4 t
  funext j
  unfold iblk4
  rw [View.read_apply]
  show V c main_arg12 _ = V c main_arg12 _
  congr 1
  funext a
  apply Fin.ext
  match a with
  | ⟨0, _⟩ => show win4_1.index t (0 : Fin 2) * 96 + 1 * (j 0).val = (j 0).val; rw [e0]; omega
  | ⟨1, _⟩ => show win4_1.index t (1 : Fin 2) * 32 + 1 * (j 1).val = (j 1).val; rw [e1]; omega

theorem input_bias_whole (c : Dev nD) (t : Fin cfg4.N) : (iblk4 V c 2 t : Vec Ideal S1x96 .f32) = V c main_v58 := by
  obtain ⟨-, -, -, -, e0, e1, -⟩ := block_indices4 t
  funext j
  unfold iblk4
  rw [View.read_apply]
  show V c main_v58 _ = V c main_v58 _
  congr 1
  funext a
  apply Fin.ext
  match a with
  | ⟨0, _⟩ => show win4_2.index t (0 : Fin 2) * 1 + 1 * (j 0).val = (j 0).val; rw [e0]; omega
  | ⟨1, _⟩ => show win4_2.index t (1 : Fin 2) * 96 + 1 * (j 1).val = (j 1).val; rw [e1]; omega

theorem hidden_bias_whole (c : Dev nD) (t : Fin cfg4.N) : (iblk4 V c 3 t : Vec Ideal S1x96 .f32) = V c main_v59 := by
  obtain ⟨-, -, -, -, -, -, e0, e1, -⟩ := block_indices4 t
  funext j
  unfold iblk4
  rw [View.read_apply]
  show V c main_v59 _ = V c main_v59 _
  congr 1
  funext a
  apply Fin.ext
  match a with
  | ⟨0, _⟩ => show win4_3.index t (0 : Fin 2) * 1 + 1 * (j 0).val = (j 0).val; rw [e0]; omega
  | ⟨1, _⟩ => show win4_3.index t (1 : Fin 2) * 96 + 1 * (j 1).val = (j 1).val; rw [e1]; omega

abbrev gruOf (c : Dev nD) : S200000x32.Idx → EReal :=
  Cert.Spec.gru (V c main_v57) (V c main_arg12) (V c main_v58) (V c main_v59)

theorem gru_flushed_eq (c : Dev nD) (t : Fin cfg4.N) :
    (dat4 (F := Ideal) V c).flushed 4 t = ((cfg4.win 4).blk t).view.read (Elt Ideal) (gruOf V c) := by
  show (cfg4.win 4).cut (grid4.coords t) ((dat4 V c).after 4 t) = _
  rw [after4_4]
  unfold out4_4
  rw [View.canon_unit_zero offsets_zero]
  simp only [View.ld_unit_zero (S := S5000x32) offsets_zero, View.ld_unit_zero (S := S96x32) offsets_zero,
    View.ld_unit_zero (S := S1x96) offsets_zero]
  obtain ⟨e0, e1, -, -, -, -, -, -, e8, e9⟩ := block_indices4 t
  funext y
  show k4_pay1 (F := Ideal) (iblk4 V c 0 t) (iblk4 V c 1 t) (iblk4 V c 2 t) (iblk4 V c 3 t) y
    = gruOf V c (((cfg4.win 4).blk t).view.emb y)
  refine (gru_payload_eq (iblk4 V c 0 t) (iblk4 V c 1 t) (iblk4 V c 2 t) (iblk4 V c 3 t) y).trans ?_
  refine gru_congr_row _ _ _ _ _ _ _ _ y (((cfg4.win 4).blk t).view.emb y) (weights_whole V c t) (input_bias_whole V c t)
    (hidden_bias_whole V c t) ?_ ?_
  · apply Fin.ext
    show (y 1).val = win4_4.index t (1 : Fin 2) * 32 + 1 * (y 1).val
    rw [e9]; omega
  · intro k
    unfold iblk4
    rw [View.read_apply]
    show V c main_v57 (((cfg4.win 0).blk t).view.emb (ix2 (y 0) k)) = V c main_v57 (ix2 ((((cfg4.win 4).blk t).view.emb y) 0) k)
    congr 1
    funext a
    apply Fin.ext
    match a with
    | ⟨0, _⟩ => show win4_0.index t (0 : Fin 2) * 5000 + 1 * (y 0).val = win4_4.index t (0 : Fin 2) * 5000 + 1 * (y 0).val
                rw [e0, e8]
    | ⟨1, _⟩ => show win4_0.index t (1 : Fin 2) * 32 + 1 * k.val = k.val
                rw [e1]; omega

theorem mem_result_block (t : Fin cfg4.N) (i : S200000x32.Idx) :
    i ∈ ((cfg4.win 4).blk t).view.set ↔ ∀ a : Fin 2, win4_4.index t a * S5000x32.size a ≤ (i a).val ∧ (i a).val < win4_4.index t a * S5000x32.size a + S5000x32.size a := by
  show i ∈ ((View.whole main_v60).slice (win4_4.rect t)).set ↔ _
  rw [View.set_slice_whole, Rect.mem_set_unit]
  exact Iff.rfl

theorem result_cover (i : S200000x32.Idx) : ∃ t : Fin cfg4.N, (cfg4.win 4).flush t = true ∧ i ∈ ((cfg4.win 4).blk t).view.set := by
  have hi0 : (i 0).val < 200000 := (i 0).isLt
  have hi1 : (i 1).val < 32 := (i 1).isLt
  have hN : grid4.N = 40 := N_4
  let t : Fin cfg4.N := ⟨(i 0).val / 5000, by show (i 0).val / 5000 < grid4.N; rw [hN]; omega⟩
  obtain ⟨-, -, -, -, -, -, -, -, e8, e9⟩ := block_indices4 t
  have ht : t.val = (i 0).val / 5000 := rfl
  refine ⟨t, flush4_4 t, ?_⟩
  rw [mem_result_block]
  intro a
  match a with
  | ⟨0, _⟩ => show win4_4.index t (0 : Fin 2) * 5000 ≤ (i 0).val ∧ (i 0).val < win4_4.index t (0 : Fin 2) * 5000 + 5000
              rw [e8, ht]; omega
  | ⟨1, _⟩ => show win4_4.index t (1 : Fin 2) * 32 ≤ (i 1).val ∧ (i 1).val < win4_4.index t (1 : Fin 2) * 32 + 32
              rw [e9]; omega

theorem final4 (c : Dev nD) :
    (dat4 (F := Ideal) V c).arrAt 4 cfg4.N = Cert.Spec.gru (V c main_v57) (V c main_arg12) (V c main_v58) (V c main_v59) :=
  (dat4 (F := Ideal) V c).arrAt_eq_of_cover 4 (gruOf V c) (fun t _ => gru_flushed_eq V c t) result_cover

end Cert.KernelIdeal.Hand

end
-- ==== Proof.KI.Val5a.lean ====
import proofs.«419864_j2224793059992_3_alg».proof.Proof.Gen.KernelIdeal.Skeleton
import proofs.«419864_j2224793059992_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

theorem carried_col_apply (e : FVec Ideal S1000x5 .f32) (o : Nat) (h : S1000x5.Slices ![0, o] S1000x1) (p : Fin 1000) (c : Fin 5)
    (hc : c.val = o) : extractStridedSlice S1000x1 ![0, o] (k5_pay7 (F := Ideal) e) h (ix2 p 0) = e (ix2 p c) := by
  unfold k5_pay7
  rw [shapeCast_self]
  exact slice2_axis1_apply o e h p 0 c (by rw [hc]; rfl)

theorem feat_apply (h : FVec Ideal S1000x32 .f32) (e : FVec Ideal S1000x5 .f32) (p : Fin 1000) (k : Fin 34) :
    k5_pay11 (F := Ideal) h e (ix2 p k) = Cert.Spec.featAt h e p k := by
  unfold k5_pay11 Cert.Spec.featAt
  rw [truncf_apply]
  by_cases hk : k.val < 32
  · rw [dif_pos hk]
    refine Eq.trans (concatenate_apply_piece (1 : Fin 2) _ _ (ix2 p k) 0 (by simp) S1000x32 _ rfl rfl 0 rfl (ix2 p ⟨k.val, hk⟩) ?_ ?_) ?_
    · intro b hb
      match b with
      | ⟨0, _⟩ => rfl
      | ⟨1, _⟩ => exact absurd rfl hb
    · show 0 + k.val = k.val; omega
    · rw [shapeCast_self]
  · rw [dif_neg hk]
    by_cases hk2 : k.val = 32
    · rw [if_pos hk2]
      refine Eq.trans (concatenate_apply_piece (1 : Fin 2) _ _ (ix2 p k) 1 (by simp) S1000x1 _ rfl rfl 32 rfl (ix2 p 0) ?_ ?_) ?_
      · intro b hb
        match b with
        | ⟨0, _⟩ => rfl
        | ⟨1, _⟩ => exact absurd rfl hb
      · show 32 + 0 = k.val; omega
      · exact carried_col_apply e 0 _ p 0 rfl
    · rw [if_neg hk2]
      have hk3 : k.val = 33 := by have := k.isLt; omega
      refine Eq.trans (concatenate_apply_piece (1 : Fin 2) _ _ (ix2 p k) 2 (by simp) S1000x1 _ rfl rfl 33 rfl (ix2 p 0) ?_ ?_) ?_
      · intro b hb
        match b with
        | ⟨0, _⟩ => rfl
        | ⟨1, _⟩ => exact absurd rfl hb
      · show 33 + 0 = k.val; omega
      · exact carried_col_apply e 1 _ p 1 rfl

theorem head8_lhs_0 (j : S1000x8.Idx) (k : dot_S1000x34_S34x8_S1000x8_1_0_0_1_n_n.contr.Idx) :
    (dot_S1000x34_S34x8_S1000x8_1_0_0_1_n_n.lhsIdx j k 0).val = (j 0).val := by
  unfold DotDims.lhsIdx
  rw [dif_neg (show ¬(0 : Fin S1000x34.rank) ∈ dot_S1000x34_S34x8_S1000x8_1_0_0_1_n_n.lhsBatch by decide),
    dif_pos (show (0 : Fin S1000x34.rank) ∈ dot_S1000x34_S34x8_S1000x8_1_0_0_1_n_n.lhsNonContracting by decide)]
  rfl
theorem head8_lhs_1 (j : S1000x8.Idx) (k : dot_S1000x34_S34x8_S1000x8_1_0_0_1_n_n.contr.Idx) :
    (dot_S1000x34_S34x8_S1000x8_1_0_0_1_n_n.lhsIdx j k 1).val = (k ⟨0, by decide⟩).val :=
  dot_S1000x34_S34x8_S1000x8_1_0_0_1_n_n.lhsIdx_val_of_single (cl := 1) rfl j k
theorem head8_rhs_0 (j : S1000x8.Idx) (k : dot_S1000x34_S34x8_S1000x8_1_0_0_1_n_n.contr.Idx) :
    (dot_S1000x34_S34x8_S1000x8_1_0_0_1_n_n.rhsIdx j k 0).val = (k ⟨0, by decide⟩).val :=
  dot_S1000x34_S34x8_S1000x8_1_0_0_1_n_n.rhsIdx_val_of_single (cr := 0) rfl j k
theorem head8_rhs_1 (j : S1000x8.Idx) (k : dot_S1000x34_S34x8_S1000x8_1_0_0_1_n_n.contr.Idx) :
    (dot_S1000x34_S34x8_S1000x8_1_0_0_1_n_n.rhsIdx j k 1).val = (j 1).val := by
  unfold DotDims.rhsIdx
  rw [dif_neg (show ¬(1 : Fin S34x8.rank) ∈ dot_S1000x34_S34x8_S1000x8_1_0_0_1_n_n.rhsBatch by decide),
    dif_pos (show (1 : Fin S34x8.rank) ∈ dot_S1000x34_S34x8_S1000x8_1_0_0_1_n_n.rhsNonContracting by decide)]
  rfl

theorem matmul8_apply (A : FVec Ideal S1000x34 .bf16) (B : FVec Ideal S34x8 .bf16) (p : Fin 1000) (t : Fin 8) :
    matmul dot_S1000x34_S34x8_S1000x8_1_0_0_1_n_n none A B (constant (F := Ideal) S1000x8 .f32 0x00000000#32) (ix2 p t)
      = ∑ k : Fin 34, A (ix2 p k) * B (ix2 k t) := by
  show FloatOps.matmul dot_S1000x34_S34x8_S1000x8_1_0_0_1_n_n none A B (constant (F := Ideal) S1000x8 .f32 0x00000000#32) (ix2 p t) = _
  rw [Ideal.matmul_constant_zero_apply, ← Equiv.sum_comp (contrEquiv1 dot_S1000x34_S34x8_S1000x8_1_0_0_1_n_n 34 rfl rfl).symm]
  refine Finset.sum_congr rfl fun k _ => ?_
  have c2 := contrEquiv1_symm_val dot_S1000x34_S34x8_S1000x8_1_0_0_1_n_n 34 rfl rfl k
  have l2 : dot_S1000x34_S34x8_S1000x8_1_0_0_1_n_n.lhsIdx (ix2 p t) ((contrEquiv1 dot_S1000x34_S34x8_S1000x8_1_0_0_1_n_n 34 rfl rfl).symm k) = ix2 p k := by
    funext ax; apply Fin.ext
    match ax with
    | ⟨0, _⟩ => exact head8_lhs_0 _ _
    | ⟨1, _⟩ => exact (head8_lhs_1 _ _).trans c2
  have r2 : dot_S1000x34_S34x8_S1000x8_1_0_0_1_n_n.rhsIdx (ix2 p t) ((contrEquiv1 dot_S1000x34_S34x8_S1000x8_1_0_0_1_n_n 34 rfl rfl).symm k) = ix2 k t := by
    funext ax; apply Fin.ext
    match ax with
    | ⟨0, _⟩ => exact (head8_rhs_0 _ _).trans c2
    | ⟨1, _⟩ => exact head8_rhs_1 _ _
  rw [l2, r2]

theorem head8_apply (h : FVec Ideal S1000x32 .f32) (e : FVec Ideal S1000x5 .f32) (W : FVec Ideal S8x34 .f32) (b : FVec Ideal S1x8 .f32)
    (p : Fin 1000) (t : Fin 8) : k5_pay12 (F := Ideal) h e W b (ix2 p t) = Cert.Spec.headAt h e W b p t := by
  unfold k5_pay12 Cert.Spec.headAt
  rw [addf_apply, matmul8_apply, broadcastTo_1b_ab_apply, shapeCast_self]
  congr 1
  refine Finset.sum_congr rfl fun k _ => ?_
  rw [feat_apply, transpose_ix2_apply, truncf_apply]

theorem head2_lhs_0 (j : S1000x2.Idx) (k : dot_S1000x34_S34x2_S1000x2_1_0_0_1_n_n.contr.Idx) :
    (dot_S1000x34_S34x2_S1000x2_1_0_0_1_n_n.lhsIdx j k 0).val = (j 0).val := by
  unfold DotDims.lhsIdx
  rw [dif_neg (show ¬(0 : Fin S1000x34.rank) ∈ dot_S1000x34_S34x2_S1000x2_1_0_0_1_n_n.lhsBatch by decide),
    dif_pos (show (0 : Fin S1000x34.rank) ∈ dot_S1000x34_S34x2_S1000x2_1_0_0_1_n_n.lhsNonContracting by decide)]
  rfl
theorem head2_lhs_1 (j : S1000x2.Idx) (k : dot_S1000x34_S34x2_S1000x2_1_0_0_1_n_n.contr.Idx) :
    (dot_S1000x34_S34x2_S1000x2_1_0_0_1_n_n.lhsIdx j k 1).val = (k ⟨0, by decide⟩).val :=
  dot_S1000x34_S34x2_S1000x2_1_0_0_1_n_n.lhsIdx_val_of_single (cl := 1) rfl j k
theorem head2_rhs_0 (j : S1000x2.Idx) (k : dot_S1000x34_S34x2_S1000x2_1_0_0_1_n_n.contr.Idx) :
    (dot_S1000x34_S34x2_S1000x2_1_0_0_1_n_n.rhsIdx j k 0).val = (k ⟨0, by decide⟩).val :=
  dot_S1000x34_S34x2_S1000x2_1_0_0_1_n_n.rhsIdx_val_of_single (cr := 0) rfl j k
theorem head2_rhs_1 (j : S1000x2.Idx) (k : dot_S1000x34_S34x2_S1000x2_1_0_0_1_n_n.contr.Idx) :
    (dot_S1000x34_S34x2_S1000x2_1_0_0_1_n_n.rhsIdx j k 1).val = (j 1).val := by
  unfold DotDims.rhsIdx
  rw [dif_neg (show ¬(1 : Fin S34x2.rank) ∈ dot_S1000x34_S34x2_S1000x2_1_0_0_1_n_n.rhsBatch by decide),
    dif_pos (show (1 : Fin S34x2.rank) ∈ dot_S1000x34_S34x2_S1000x2_1_0_0_1_n_n.rhsNonContracting by decide)]
  rfl

theorem matmul2_apply (A : FVec Ideal S1000x34 .bf16) (B : FVec Ideal S34x2 .bf16) (p : Fin 1000) (q : Fin 2) :
    matmul dot_S1000x34_S34x2_S1000x2_1_0_0_1_n_n none A B (constant (F := Ideal) S1000x2 .f32 0x00000000#32) (ix2 p q)
      = ∑ k : Fin 34, A (ix2 p k) * B (ix2 k q) := by
  show FloatOps.matmul dot_S1000x34_S34x2_S1000x2_1_0_0_1_n_n none A B (constant (F := Ideal) S1000x2 .f32 0x00000000#32) (ix2 p q) = _
  rw [Ideal.matmul_constant_zero_apply, ← Equiv.sum_comp (contrEquiv1 dot_S1000x34_S34x2_S1000x2_1_0_0_1_n_n 34 rfl rfl).symm]
  refine Finset.sum_congr rfl fun k _ => ?_
  have c2 := contrEquiv1_symm_val dot_S1000x34_S34x2_S1000x2_1_0_0_1_n_n 34 rfl rfl k
  have l2 : dot_S1000x34_S34x2_S1000x2_1_0_0_1_n_n.lhsIdx (ix2 p q) ((contrEquiv1 dot_S1000x34_S34x2_S1000x2_1_0_0_1_n_n 34 rfl rfl).symm k) = ix2 p k := by
    funext ax; apply Fin.ext
    match ax with
    | ⟨0, _⟩ => exact head2_lhs_0 _ _
    | ⟨1, _⟩ => exact (head2_lhs_1 _ _).trans c2
  have r2 : dot_S1000x34_S34x2_S1000x2_1_0_0_1_n_n.rhsIdx (ix2 p q) ((contrEquiv1 dot_S1000x34_S34x2_S1000x2_1_0_0_1_n_n 34 rfl rfl).symm k) = ix2 k q := by
    funext ax; apply Fin.ext
    match ax with
    | ⟨0, _⟩ => exact (head2_rhs_0 _ _).trans c2
    | ⟨1, _⟩ => exact head2_rhs_1 _ _
  rw [l2, r2]

theorem head2_apply (h : FVec Ideal S1000x32 .f32) (e : FVec Ideal S1000x5 .f32) (W : FVec Ideal S2x34 .f32) (b : FVec Ideal S1x2 .f32)
    (p : Fin 1000) (q : Fin 2) : k5_pay14 (F := Ideal) h e W b (ix2 p q) = Cert.Spec.headAt h e W b p q := by
  unfold k5_pay14 Cert.Spec.headAt
  rw [addf_apply, matmul2_apply, broadcastTo_1b_ab_apply, shapeCast_self]
  congr 1
  refine Finset.sum_congr rfl fun k _ => ?_
  rw [feat_apply, transpose_ix2_apply, truncf_apply]

theorem rate0_apply (h : FVec Ideal S1000x32 .f32) (e : FVec Ideal S1000x5 .f32) (W : FVec Ideal S2x34 .f32) (b : FVec Ideal S1x2 .f32)
    (p : Fin 1000) : k5_pay15 (F := Ideal) h e W b (ix2 p 0) = Ideal.logistic (Cert.Spec.headAt h e W b p 0) := by
  unfold k5_pay15
  show Ideal.logistic (extractStridedSlice S1000x1 ![0, 0] (k5_pay14 (F := Ideal) h e W b) slices_S1000x2_o0_0_S1000x1 (ix2 p 0)) = _
  rw [slice2_axis1_apply 0 _ _ p 0 0 rfl, head2_apply]
theorem rate1_apply (h : FVec Ideal S1000x32 .f32) (e : FVec Ideal S1000x5 .f32) (W : FVec Ideal S2x34 .f32) (b : FVec Ideal S1x2 .f32)
    (p : Fin 1000) : k5_pay16 (F := Ideal) h e W b (ix2 p 0) = Ideal.logistic (Cert.Spec.headAt h e W b p 1) := by
  unfold k5_pay16
  show Ideal.logistic (extractStridedSlice S1000x1 ![0, 1] (k5_pay14 (F := Ideal) h e W b) slices_S1000x2_o0_1_S1000x1 (ix2 p 0)) = _
  rw [slice2_axis1_apply 1 _ _ p 0 1 rfl, head2_apply]

theorem lastUnit_apply (A : FVec Ideal S1000x8 .f32) (p : Fin 1000) (t : Fin 8) (u : Fin 1) :
    shapeCast S1000x8x1 A shapeCasts_S1000x8_S1000x8x1 (ix3 p t u) = A (ix2 p t) :=
  shapeCast_apply A _ _ _ (by
    rw [Shape.rowMajor_val_two, Shape.rowMajor_val_three]
    show p.val * 8 + t.val = (p.val * 8 + t.val) * 1 + u.val
    have := u.isLt; omega)

theorem pair_last_apply (A B : FVec Ideal S1000x8 .f32) (p : Fin 1000) (t : Fin 8) (s : Fin 2) :
    concatenate S1000x8x2 2 [⟨S1000x8x1, shapeCast S1000x8x1 A shapeCasts_S1000x8_S1000x8x1⟩,
        ⟨S1000x8x1, shapeCast S1000x8x1 B shapeCasts_S1000x8_S1000x8x1⟩] concatenates_S1000x8x1_S1000x8x1_S1000x8x2_d2 (ix3 p t s)
      = if s.val = 0 then A (ix2 p t) else B (ix2 p t) := by
  by_cases hs : s.val = 0
  · rw [if_pos hs]
    refine Eq.trans (concatenate_pair_apply_left (t := S1000x8x2) (s₁ := S1000x8x1) (s₂ := S1000x8x1) (2 : Fin 3) _ _ _ (ix3 p t s) rfl (ix3 p t (0 : Fin 1)) ?_) ?_
    · intro b
      match b with
      | ⟨0, _⟩ => rfl
      | ⟨1, _⟩ => rfl
      | ⟨2, _⟩ => exact hs.symm
    · exact lastUnit_apply A p t 0
  · rw [if_neg hs]
    refine Eq.trans (concatenate_pair_apply_right (t := S1000x8x2) (s₁ := S1000x8x1) (s₂ := S1000x8x1) (2 : Fin 3) _ _ _ (ix3 p t s) rfl rfl (ix3 p t (0 : Fin 1)) ?_ ?_) ?_
    · intro b hb
      match b with
      | ⟨0, _⟩ => rfl
      | ⟨1, _⟩ => rfl
      | ⟨2, _⟩ => exact absurd rfl hb
    · show 0 + 1 = s.val
      have := s.isLt; omega
    · exact lastUnit_apply B p t 0

theorem pred_block (h : FVec Ideal S1000x32 .f32) (e : FVec Ideal S1000x5 .f32) (WI : FVec Ideal S8x34 .f32) (bI : FVec Ideal S1x8 .f32)
    (WR : FVec Ideal S8x34 .f32) (bR : FVec Ideal S1x8 .f32) :
    k5_pay5 (F := Ideal) (k5_pay12 h e WI bI) (k5_pay13 h e WR bR) = Cert.Spec.pred h e WI bI WR bR := by
  funext i
  obtain ⟨p, t, s, rfl⟩ : ∃ (p : Fin 1000) (t : Fin 8) (s : Fin 2), i = ix3 p t s := ⟨i 0, i 1, i 2, eq_ix3 i⟩
  unfold k5_pay5
  rw [pair_last_apply, show k5_pay13 (F := Ideal) h e WR bR = k5_pay12 h e WR bR from rfl, head8_apply, head8_apply]
  rfl

theorem cols8_apply (c : Fin 8 → FVec Ideal S1000x1 .f32) (p : Fin 1000) (t : Fin 8) :
    concatenate S1000x8 1 [⟨S1000x1, c 0⟩, ⟨S1000x1, c 1⟩, ⟨S1000x1, c 2⟩, ⟨S1000x1, c 3⟩, ⟨S1000x1, c 4⟩, ⟨S1000x1, c 5⟩, ⟨S1000x1, c 6⟩, ⟨S1000x1, c 7⟩]
        concatenates_S1000x1_S1000x1_S1000x1_S1000x1_S1000x1_S1000x1_S1000x1_S1000x1_S1000x8_d1 (ix2 p t) = c t (ix2 p (0 : Fin 1)) :=
  concatenate_ofFn_unit_apply (t := S1000x8) (s₁ := S1000x1) (1 : Fin 2) c concatenates_S1000x1_S1000x1_S1000x1_S1000x1_S1000x1_S1000x1_S1000x1_S1000x1_S1000x8_d1
    rfl rfl (ix2 p t) t rfl (ix2 p (0 : Fin 1)) (fun b hb => match b with
      | ⟨0, _⟩ => rfl
      | ⟨1, _⟩ => absurd rfl hb)

end Cert.KernelIdeal.Hand

end
-- ==== Proof.KI.Val5b.lean ====
import proofs.«419864_j2224793059992_3_alg».proof.Proof.KI.Val5a

set_option maxRecDepth 16384

noncomputable section

open scoped BigOperators

namespace Cert.KernelIdeal.Hand

open Cert.KernelIdeal Cert.KernelIdeal.Gen
open Idealize.ShloMosaic Idealize.ShloMosaic.ValueIdx

section Recurrence

variable (v6 v7 v8 v36 v38 : FVec Ideal S1000x1 .f32) (j : S1000x1.Idx)

abbrev stAt (k : Nat) : EReal × EReal := Cert.Spec.sirState (v36 j) (v38 j) (v8 j) (v6 j) (v7 j) k

abbrev incAt (k : Nat) : EReal × EReal :=
  Cert.Spec.sirD (v36 j) (v38 j) (v8 j) (stAt v6 v7 v8 v36 v38 j k).1 (stAt v6 v7 v8 v36 v38 j k).2

theorem incI_apply (I R : FVec Ideal S1000x1 .f32) (k : Nat) (hI : I j = (stAt v6 v7 v8 v36 v38 j k).1) (hR : R j = (stAt v6 v7 v8 v36 v38 j k).2) :
    subf (mulf (mulf v36 I) (divf (subf (subf v8 I) R) v8)) (mulf v38 I) j = (incAt v6 v7 v8 v36 v38 j k).1 := by
  show (Cert.Spec.sirD (v36 j) (v38 j) (v8 j) (I j) (R j)).1 = _
  rw [hI, hR]

theorem incR_apply (I : FVec Ideal S1000x1 .f32) (k : Nat) (hI : I j = (stAt v6 v7 v8 v36 v38 j k).1) :
    mulf v38 I j = (incAt v6 v7 v8 v36 v38 j k).2 := by
  show v38 j * I j = _
  rw [hI]; rfl

theorem nextI_apply (I dI : FVec Ideal S1000x1 .f32) (k : Nat) (hI : I j = (stAt v6 v7 v8 v36 v38 j k).1) (hd : dI j = (incAt v6 v7 v8 v36 v38 j k).1) :
    addf I dI j = (stAt v6 v7 v8 v36 v38 j (k + 1)).1 := by
  show I j + dI j = _
  rw [hI, hd]; rfl
theorem nextR_apply (R dR : FVec Ideal S1000x1 .f32) (k : Nat) (hR : R j = (stAt v6 v7 v8 v36 v38 j k).2) (hd : dR j = (incAt v6 v7 v8 v36 v38 j k).2) :
    addf R dR j = (stAt v6 v7 v8 v36 v38 j (k + 1)).2 := by
  show R j + dR j = _
  rw [hR, hd]; rfl

theorem sir_d0I : k5_pay18 (F := Ideal) v6 v7 v8 v36 v38 (subf v8 v6) j = (incAt v6 v7 v8 v36 v38 j 0).1 := incI_apply v6 v7 v8 v36 v38 j v6 v7 0 rfl rfl
theorem sir_d0R : k5_pay19 (F := Ideal) v6 v38 j = (incAt v6 v7 v8 v36 v38 j 0).2 := incR_apply v6 v7 v8 v36 v38 j v6 0 rfl
theorem sir_s1I : k5_pay20 (F := Ideal) v6 v7 v8 v36 v38 (subf v8 v6) j = (stAt v6 v7 v8 v36 v38 j 1).1 := nextI_apply v6 v7 v8 v36 v38 j v6 (k5_pay18 v6 v7 v8 v36 v38 (subf v8 v6)) 0 rfl (sir_d0I v6 v7 v8 v36 v38 j)
theorem sir_s1R : k5_pay21 (F := Ideal) v6 v7 v38 j = (stAt v6 v7 v8 v36 v38 j 1).2 := nextR_apply v6 v7 v8 v36 v38 j v7 (k5_pay19 v6 v38) 0 rfl (sir_d0R v6 v7 v8 v36 v38 j)
theorem sir_d1I : k5_pay22 (F := Ideal) v6 v7 v8 v36 v38 (subf v8 v6) j = (incAt v6 v7 v8 v36 v38 j 1).1 :=
  incI_apply v6 v7 v8 v36 v38 j (k5_pay20 v6 v7 v8 v36 v38 (subf v8 v6)) (k5_pay21 v6 v7 v38) 1 (sir_s1I v6 v7 v8 v36 v38 j) (sir_s1R v6 v7 v8 v36 v38 j)
theorem sir_d1R : k5_pay23 (F := Ideal) v6 v7 v8 v36 v38 (subf v8 v6) j = (incAt v6 v7 v8 v36 v38 j 1).2 := incR_apply v6 v7 v8 v36 v38 j (k5_pay20 v6 v7 v8 v36 v38 (subf v8 v6)) 1 (sir_s1I v6 v7 v8 v36 v38 j)
theorem sir_s2I : k5_pay24 (F := Ideal) v6 v7 v8 v36 v38 (subf v8 v6) j = (stAt v6 v7 v8 v36 v38 j 2).1 :=
  nextI_apply v6 v7 v8 v36 v38 j (k5_pay20 v6 v7 v8 v36 v38 (subf v8 v6)) (k5_pay22 v6 v7 v8 v36 v38 (subf v8 v6)) 1 (sir_s1I v6 v7 v8 v36 v38 j) (sir_d1I v6 v7 v8 v36 v38 j)
theorem sir_s2R : k5_pay25 (F := Ideal) v6 v7 v8 v36 v38 (subf v8 v6) j = (stAt v6 v7 v8 v36 v38 j 2).2 :=
  nextR_apply v6 v7 v8 v36 v38 j (k5_pay21 v6 v7 v38) (k5_pay23 v6 v7 v8 v36 v38 (subf v8 v6)) 1 (sir_s1R v6 v7 v8 v36 v38 j) (sir_d1R v6 v7 v8 v36 v38 j)
theorem sir_d2I : k5_pay26 (F := Ideal) v6 v7 v8 v36 v38 (subf v8 v6) j = (incAt v6 v7 v8 v36 v38 j 2).1 :=
  incI_apply v6 v7 v8 v36 v38 j (k5_pay24 v6 v7 v8 v36 v38 (subf v8 v6)) (k5_pay25 v6 v7 v8 v36 v38 (subf v8 v6)) 2 (sir_s2I v6 v7 v8 v36 v38 j) (sir_s2R v6 v7 v8 v36 v38 j)
theorem sir_d2R : k5_pay27 (F := Ideal) v6 v7 v8 v36 v38 (subf v8 v6) j = (incAt v6 v7 v8 v36 v38 j 2).2 := incR_apply v6 v7 v8 v36 v38 j (k5_pay24 v6 v7 v8 v36 v38 (subf v8 v6)) 2 (sir_s2I v6 v7 v8 v36 v38 j)
theorem sir_s3I : k5_pay28 (F := Ideal) v6 v7 v8 v36 v38 (subf v8 v6) j = (stAt v6 v7 v8 v36 v38 j 3).1 :=
  nextI_apply v6 v7 v8 v36 v38 j (k5_pay24 v6 v7 v8 v36 v38 (subf v8 v6)) (k5_pay26 v6 v7 v8 v36 v38 (subf v8 v6)) 2 (sir_s2I v6 v7 v8 v36 v38 j) (sir_d2I v6 v7 v8 v36 v38 j)
theorem sir_s3R : k5_pay29 (F := Ideal) v6 v7 v8 v36 v38 (subf v8 v6) j = (stAt v6 v7 v8 v36 v38 j 3).2 :=
  nextR_apply v6 v7 v8 v36 v38 j (k5_pay25 v6 v7 v8 v36 v38 (subf v8 v6)) (k5_pay27 v6 v7 v8 v36 v38 (subf v8 v6)) 2 (sir_s2R v6 v7 v8 v36 v38 j) (sir_d2R v6 v7 v8 v36 v38 j)
theorem sir_d3I : k5_pay30 (F := Ideal) v6 v7 v8 v36 v38 (subf v8 v6) j = (incAt v6 v7 v8 v36 v38 j 3).1 :=
  incI_apply v6 v7 v8 v36 v38 j (k5_pay28 v6 v7 v8 v36 v38 (subf v8 v6)) (k5_pay29 v6 v7 v8 v36 v38 (subf v8 v6)) 3 (sir_s3I v6 v7 v8 v36 v38 j) (sir_s3R v6 v7 v8 v36 v38 j)
theorem sir_d3R : k5_pay31 (F := Ideal) v6 v7 v8 v36 v38 (subf v8 v6) j = (incAt v6 v7 v8 v36 v38 j 3).2 := incR_apply v6 v7 v8 v36 v38 j (k5_pay28 v6 v7 v8 v36 v38 (subf v8 v6)) 3 (sir_s3I v6 v7 v8 v36 v38 j)
theorem sir_s4I : k5_pay32 (F := Ideal) v6 v7 v8 v36 v38 (subf v8 v6) j = (stAt v6 v7 v8 v36 v38 j 4).1 :=
  nextI_apply v6 v7 v8 v36 v38 j (k5_pay28 v6 v7 v8 v36 v38 (subf v8 v6)) (k5_pay30 v6 v7 v8 v36 v38 (subf v8 v6)) 3 (sir_s3I v6 v7 v8 v36 v38 j) (sir_d3I v6 v7 v8 v36 v38 j)
theorem sir_s4R : k5_pay33 (F := Ideal) v6 v7 v8 v36 v38 (subf v8 v6) j = (stAt v6 v7 v8 v36 v38 j 4).2 :=
  nextR_apply v6 v7 v8 v36 v38 j (k5_pay29 v6 v7 v8 v36 v38 (subf v8 v6)) (k5_pay31 v6 v7 v8 v36 v38 (subf v8 v6)) 3 (sir_s3R v6 v7 v8 v36 v38 j) (sir_d3R v6 v7 v8 v36 v38 j)
theorem sir_d4I : k5_pay34 (F := Ideal) v6 v7 v8 v36 v38 (subf v8 v6) j = (incAt v6 v7 v8 v36 v38 j 4).1 :=
  incI_apply v6 v7 v8 v36 v38 j (k5_pay32 v6 v7 v8 v36 v38 (subf v8 v6)) (k5_pay33 v6 v7 v8 v36 v38 (subf v8 v6)) 4 (sir_s4I v6 v7 v8 v36 v38 j) (sir_s4R v6 v7 v8 v36 v38 j)
theorem sir_d4R : k5_pay35 (F := Ideal) v6 v7 v8 v36 v38 (subf v8 v6) j = (incAt v6 v7 v8 v36 v38 j 4).2 := incR_apply v6 v7 v8 v36 v38 j (k5_pay32 v6 v7 v8 v36 v38 (subf v8 v6)) 4 (sir_s4I v6 v7 v8 v36 v38 j)
theorem sir_s5I : k5_pay36 (F := Ideal) v6 v7 v8 v36 v38 (subf v8 v6) j = (stAt v6 v7 v8 v36 v38 j 5).1 :=
  nextI_apply v6 v7 v8 v36 v38 j (k5_pay32 v6 v7 v8 v36 v38 (subf v8 v6)) (k5_pay34 v6 v7 v8 v36 v38 (subf v8 v6)) 4 (sir_s4I v6 v7 v8 v36 v38 j) (sir_d4I v6 v7 v8 v36 v38 j)
theorem sir_s5R : k5_pay37 (F := Ideal) v6 v7 v8 v36 v38 (subf v8 v6) j = (stAt v6 v7 v8 v36 v38 j 5).2 :=
  nextR_apply v6 v7 v8 v36 v38 j (k5_pay33 v6 v7 v8 v36 v38 (subf v8 v6)) (k5_pay35 v6 v7 v8 v36 v38 (subf v8 v6)) 4 (sir_s4R v6 v7 v8 v36 v38 j) (sir_d4R v6 v7 v8 v36 v38 j)
theorem sir_d5I : k5_pay38 (F := Ideal) v6 v7 v8 v36 v38 (subf v8 v6) j = (incAt v6 v7 v8 v36 v38 j 5).1 :=
  incI_apply v6 v7 v8 v36 v38 j (k5_pay36 v6 v7 v8 v36 v38 (subf v8 v6)) (k5_pay37 v6 v7 v8 v36 v38 (subf v8 v6)) 5 (sir_s5I v6 v7 v8 v36 v38 j) (sir_s5R v6 v7 v8 v36 v38 j)
theorem sir_d5R : k5_pay39 (F := Ideal) v6 v7 v8 v36 v38 (subf v8 v6) j = (incAt v6 v7 v8 v36 v38 j 5).2 := incR_apply v6 v7 v8 v36 v38 j (k5_pay36 v6 v7 v8 v36 v38 (subf v8 v6)) 5 (sir_s5I v6 v7 v8 v36 v38 j)
theorem sir_s6I : k5_pay40 (F := Ideal) v6 v7 v8 v36 v38 (subf v8 v6) j = (stAt v6 v7 v8 v36 v38 j 6).1 :=
  nextI_apply v6 v7 v8 v36 v38 j (k5_pay36 v6 v7 v8 v36 v38 (subf v8 v6)) (k5_pay38 v6 v7 v8 v36 v38 (subf v8 v6)) 5 (sir_s5I v6 v7 v8 v36 v38 j) (sir_d5I v6 v7 v8 v36 v38 j)
theorem sir_s6R : k5_pay41 (F := Ideal) v6 v7 v8 v36 v38 (subf v8 v6) j = (stAt v6 v7 v8 v36 v38 j 6).2 :=
  nextR_apply v6 v7 v8 v36 v38 j (k5_pay37 v6 v7 v8 v36 v38 (subf v8 v6)) (k5_pay39 v6 v7 v8 v36 v38 (subf v8 v6)) 5 (sir_s5R v6 v7 v8 v36 v38 j) (sir_d5R v6 v7 v8 v36 v38 j)

abbrev sirI6 : FVec Ideal S1000x1 .f32 := k5_pay40 v6 v7 v8 v36 v38 (subf v8 v6)
abbrev sirR6 : FVec Ideal S1000x1 .f32 := k5_pay41 v6 v7 v8 v36 v38 (subf v8 v6)

abbrev sirD6 : FVec Ideal S1000x1 .f32 := k5_pay1 v8 v36 v38 (sirI6 v6 v7 v8 v36 v38) (sirR6 v6 v7 v8 v36 v38) (k5_pay42 v6 v7 v8 v36 v38 (subf v8 v6))

theorem sir_d6I : sirD6 v6 v7 v8 v36 v38 j = (incAt v6 v7 v8 v36 v38 j 6).1 :=
  incI_apply v6 v7 v8 v36 v38 j (sirI6 v6 v7 v8 v36 v38) (sirR6 v6 v7 v8 v36 v38) 6 (sir_s6I v6 v7 v8 v36 v38 j) (sir_s6R v6 v7 v8 v36 v38 j)
theorem sir_d6R : k5_pay2 (F := Ideal) v38 (sirI6 v6 v7 v8 v36 v38) j = (incAt v6 v7 v8 v36 v38 j 6).2 := incR_apply v6 v7 v8 v36 v38 j (sirI6 v6 v7 v8 v36 v38) 6 (sir_s6I v6 v7 v8 v36 v38 j)
theorem sir_s7I : k5_pay3 (F := Ideal) (sirI6 v6 v7 v8 v36 v38) (sirD6 v6 v7 v8 v36 v38) j = (stAt v6 v7 v8 v36 v38 j 7).1 :=
  nextI_apply v6 v7 v8 v36 v38 j (sirI6 v6 v7 v8 v36 v38) (sirD6 v6 v7 v8 v36 v38) 6 (sir_s6I v6 v7 v8 v36 v38 j) (sir_d6I v6 v7 v8 v36 v38 j)
theorem sir_s7R : addf (sirR6 v6 v7 v8 v36 v38) (k5_pay2 (F := Ideal) v38 (sirI6 v6 v7 v8 v36 v38)) j = (stAt v6 v7 v8 v36 v38 j 7).2 :=
  nextR_apply v6 v7 v8 v36 v38 j (sirR6 v6 v7 v8 v36 v38) (k5_pay2 v38 (sirI6 v6 v7 v8 v36 v38)) 6 (sir_s6R v6 v7 v8 v36 v38 j) (sir_d6R v6 v7 v8 v36 v38 j)
theorem sir_d7I : subf (mulf (mulf v36 (k5_pay3 (F := Ideal) (sirI6 v6 v7 v8 v36 v38) (sirD6 v6 v7 v8 v36 v38)))
      (divf (subf (subf v8 (k5_pay3 (sirI6 v6 v7 v8 v36 v38) (sirD6 v6 v7 v8 v36 v38))) (addf (sirR6 v6 v7 v8 v36 v38) (k5_pay2 v38 (sirI6 v6 v7 v8 v36 v38)))) v8))
      (mulf v38 (k5_pay3 (sirI6 v6 v7 v8 v36 v38) (sirD6 v6 v7 v8 v36 v38))) j = (incAt v6 v7 v8 v36 v38 j 7).1 :=
  incI_apply v6 v7 v8 v36 v38 j (k5_pay3 (sirI6 v6 v7 v8 v36 v38) (sirD6 v6 v7 v8 v36 v38)) (addf (sirR6 v6 v7 v8 v36 v38) (k5_pay2 v38 (sirI6 v6 v7 v8 v36 v38))) 7 (sir_s7I v6 v7 v8 v36 v38 j) (sir_s7R v6 v7 v8 v36 v38 j)
theorem sir_d7R : mulf v38 (k5_pay3 (F := Ideal) (sirI6 v6 v7 v8 v36 v38) (sirD6 v6 v7 v8 v36 v38)) j = (incAt v6 v7 v8 v36 v38 j 7).2 :=
  incR_apply v6 v7 v8 v36 v38 j (k5_pay3 (sirI6 v6 v7 v8 v36 v38) (sirD6 v6 v7 v8 v36 v38)) 7 (sir_s7I v6 v7 v8 v36 v38 j)

end Recurrence

theorem cols8_apply_of (c0 c1 c2 c3 c4 c5 c6 c7 : FVec Ideal S1000x1 .f32) (p : Fin 1000) (t : Fin 8) (k : Fin 8 → EReal)
    (h0 : c0 (ix2 p 0) = k 0) (h1 : c1 (ix2 p 0) = k 1) (h2 : c2 (ix2 p 0) = k 2) (h3 : c3 (ix2 p 0) = k 3)
    (h4 : c4 (ix2 p 0) = k 4) (h5 : c5 (ix2 p 0) = k 5) (h6 : c6 (ix2 p 0) = k 6) (h7 : c7 (ix2 p 0) = k 7) :
    concatenate S1000x8 1 [⟨S1000x1, c0⟩, ⟨S1000x1, c1⟩, ⟨S1000x1, c2⟩, ⟨S1000x1, c3⟩, ⟨S1000x1, c4⟩, ⟨S1000x1, c5⟩, ⟨S1000x1, c6⟩, ⟨S1000x1, c7⟩]
        concatenates_S1000x1_S1000x1_S1000x1_S1000x1_S1000x1_S1000x1_S1000x1_S1000x1_S1000x8_d1 (ix2 p t) = k t := by
  refine Eq.trans (cols8_apply ![c0, c1, c2, c3, c4, c5, c6, c7] p t) ?_
  match t with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7

def sirPay (v6 v7 v8 v36 v38 : FVec Ideal S1000x1 .f32) : FVec Ideal S1000x8x2 .f32 :=
  k5_pay6 v8 v36 v38 (k5_pay18 v6 v7 v8 v36 v38 (subf v8 v6)) (k5_pay22 v6 v7 v8 v36 v38 (subf v8 v6)) (k5_pay26 v6 v7 v8 v36 v38 (subf v8 v6)) (k5_pay30 v6 v7 v8 v36 v38 (subf v8 v6)) (k5_pay34 v6 v7 v8 v36 v38 (subf v8 v6)) (k5_pay38 v6 v7 v8 v36 v38 (subf v8 v6))
    (sirI6 v6 v7 v8 v36 v38) (sirR6 v6 v7 v8 v36 v38) (sirD6 v6 v7 v8 v36 v38)
    (k5_pay4 v38 (k5_pay19 v6 v38) (k5_pay23 v6 v7 v8 v36 v38 (subf v8 v6)) (k5_pay27 v6 v7 v8 v36 v38 (subf v8 v6)) (k5_pay31 v6 v7 v8 v36 v38 (subf v8 v6)) (k5_pay35 v6 v7 v8 v36 v38 (subf v8 v6)) (k5_pay39 v6 v7 v8 v36 v38 (subf v8 v6))
      (sirI6 v6 v7 v8 v36 v38) (sirD6 v6 v7 v8 v36 v38))

theorem sirPay_apply (v6 v7 v8 v36 v38 : FVec Ideal S1000x1 .f32) (p : Fin 1000) (t : Fin 8) (s : Fin 2) :
    sirPay v6 v7 v8 v36 v38 (ix3 p t s)
      = if s.val = 0 then (incAt v6 v7 v8 v36 v38 (ix2 p 0) t.val).1 else (incAt v6 v7 v8 v36 v38 (ix2 p 0) t.val).2 := by
  unfold sirPay k5_pay6
  rw [pair_last_apply]
  by_cases hs : s.val = 0
  · rw [if_pos hs, if_pos hs]
    exact cols8_apply_of _ _ _ _ _ _ _ _ p t (fun n => (incAt v6 v7 v8 v36 v38 (ix2 p 0) n.val).1)
      (sir_d0I v6 v7 v8 v36 v38 _) (sir_d1I v6 v7 v8 v36 v38 _) (sir_d2I v6 v7 v8 v36 v38 _) (sir_d3I v6 v7 v8 v36 v38 _) (sir_d4I v6 v7 v8 v36 v38 _) (sir_d5I v6 v7 v8 v36 v38 _)
      (sir_d6I v6 v7 v8 v36 v38 _) (sir_d7I v6 v7 v8 v36 v38 _)
  · rw [if_neg hs, if_neg hs]
    unfold k5_pay4
    exact cols8_apply_of _ _ _ _ _ _ _ _ p t (fun n => (incAt v6 v7 v8 v36 v38 (ix2 p 0) n.val).2)
      (sir_d0R v6 v7 v8 v36 v38 _) (sir_d1R v6 v7 v8 v36 v38 _) (sir_d2R v6 v7 v8 v36 v38 _) (sir_d3R v6 v7 v8 v36 v38 _) (sir_d4R v6 v7 v8 v36 v38 _) (sir_d5R v6 v7 v8 v36 v38 _)
      (sir_d6R v6 v7 v8 v36 v38 _) (sir_d7R v6 v7 v8 v36 v38 _)

theorem phy_block (h : FVec Ideal S1000x32 .f32) (e : FVec Ideal S1000x5 .f32) (Ws : FVec Ideal S2x34 .f32) (bs : FVec Ideal S1x2 .f32) :
    sirPay (k5_pay8 (F := Ideal) e) (k5_pay9 e) (k5_pay10 e) (k5_pay15 h e Ws bs) (k5_pay16 h e Ws bs) = Cert.Spec.phy h e Ws bs := by
  funext i
  obtain ⟨p, t, s, rfl⟩ : ∃ (p : Fin 1000) (t : Fin 8) (s : Fin 2), i = ix3 p t s := ⟨i 0, i 1, i 2, eq_ix3 i⟩
  rw [sirPay_apply]
  have h6 : k5_pay8 (F := Ideal) e (ix2 p 0) = e (ix2 p 2) := carried_col_apply e 2 slices_S1000x5_o0_2_S1000x1 p 2 rfl
  have h7 : k5_pay9 (F := Ideal) e (ix2 p 0) = e (ix2 p 3) := carried_col_apply e 3 slices_S1000x5_o0_3_S1000x1 p 3 rfl
  have h8 : k5_pay10 (F := Ideal) e (ix2 p 0) = e (ix2 p 4) := carried_col_apply e 4 slices_S1000x5_o0_4_S1000x1 p 4 rfl
  dsimp only [incAt, stAt]
  rw [h6, h7, h8, rate0_apply, rate1_apply]
  rfl

end Cert.KernelIdeal.Hand

end
-- ==== Proof.KI.Val5r.lean ====
import proofs.«419864_j2224793059992_3_alg».proof.Proof.Spec

noncomputable section

open scoped BigOperators

namespace Cert.Spec

open Idealize.ShloMosaic Idealize.ShloMosaic.ValueIdx

variable {n n' : Nat} (h : M n 32) (x : M n 5) (H : M n' 32) (X : M n' 5) (p : Fin n) (P : Fin n')

theorem featAt_rows (hh : ∀ k : Fin 32, h (ix2 p k) = H (ix2 P k)) (hx : ∀ k : Fin 5, x (ix2 p k) = X (ix2 P k)) (k : Fin 34) :
    featAt h x p k = featAt H X P k := by
  unfold featAt
  rw [hx 0, hx 1]
  split
  · exact hh _
  · rfl

theorem headAt_rows {o : Nat} (W : M o 34) (b : M 1 o) (hh : ∀ k : Fin 32, h (ix2 p k) = H (ix2 P k))
    (hx : ∀ k : Fin 5, x (ix2 p k) = X (ix2 P k)) (t : Fin o) : headAt h x W b p t = headAt H X W b P t := by
  unfold headAt
  congr 1
  exact Finset.sum_congr rfl fun k _ => by rw [featAt_rows h x H X p P hh hx k]

theorem pred_rows (WI : M 8 34) (bI : M 1 8) (WR : M 8 34) (bR : M 1 8) (y : (⟨3, ![n, 8, 2]⟩ : Shape).Idx) (i : (⟨3, ![n', 8, 2]⟩ : Shape).Idx)
    (hh : ∀ k : Fin 32, h (ix2 (y 0) k) = H (ix2 (i 0) k)) (hx : ∀ k : Fin 5, x (ix2 (y 0) k) = X (ix2 (i 0) k))
    (h1 : (y 1).val = (i 1).val) (h2 : (y 2).val = (i 2).val) : pred h x WI bI WR bR y = pred H X WI bI WR bR i := by
  obtain ⟨p, t, s, rfl⟩ : ∃ (p : Fin n) (t : Fin 8) (s : Fin 2), y = ix3 p t s := ⟨y 0, y 1, y 2, eq_ix3 y⟩
  obtain ⟨P, t', s', rfl⟩ : ∃ (P : Fin n') (t' : Fin 8) (s' : Fin 2), i = ix3 P t' s' := ⟨i 0, i 1, i 2, eq_ix3 i⟩
  obtain rfl : t = t' := Fin.ext h1
  obtain rfl : s = s' := Fin.ext h2
  show (if s.val = 0 then headAt h x WI bI p t else headAt h x WR bR p t)
    = (if s.val = 0 then headAt H X WI bI P t else headAt H X WR bR P t)
  rw [headAt_rows h x H X p P WI bI hh hx t, headAt_rows h x H X p P WR bR hh hx t]

theorem phy_rows (Ws : M 2 34) (bs : M 1 2) (y : (⟨3, ![n, 8, 2]⟩ : Shape).Idx) (i : (⟨3, ![n', 8, 2]⟩ : Shape).Idx)
    (hh : ∀ k : Fin 32, h (ix2 (y 0) k) = H (ix2 (i 0) k)) (hx : ∀ k : Fin 5, x (ix2 (y 0) k) = X (ix2 (i 0) k))
    (h1 : (y 1).val = (i 1).val) (h2 : (y 2).val = (i 2).val) : phy h x Ws bs y = phy H X Ws bs i := by
  obtain ⟨p, t, s, rfl⟩ : ∃ (p : Fin n) (t : Fin 8) (s : Fin 2), y = ix3 p t s := ⟨y 0, y 1, y 2, eq_ix3 y⟩
  obtain ⟨P, t', s', rfl⟩ : ∃ (P : Fin n') (t' : Fin 8) (s' : Fin 2), i = ix3 P t' s' := ⟨i 0, i 1, i 2, eq_ix3 i⟩
  obtain rfl : t = t' := Fin.ext h1
  obtain rfl : s = s' := Fin.ext h2
  have hh' : ∀ k : Fin 32, h (ix2 p k) = H (ix2 P k) := hh
  have hx' : ∀ k : Fin 5, x (ix2 p k) = X (ix2 P k) := hx
  show (if s.val = 0 then
        (sirD (Ideal.logistic (headAt h x Ws bs p 0)) (Ideal.logistic (headAt h x Ws bs p 1)) (x (ix2 p 4))
          (sirState (Ideal.logistic (headAt h x Ws bs p 0)) (Ideal.logistic (headAt h x Ws bs p 1)) (x (ix2 p 4)) (x (ix2 p 2)) (x (ix2 p 3)) t.val).1
          (sirState (Ideal.logistic (headAt h x Ws bs p 0)) (Ideal.logistic (headAt h x Ws bs p 1)) (x (ix2 p 4)) (x (ix2 p 2)) (x (ix2 p 3)) t.val).2).1
      else
        (sirD (Ideal.logistic (headAt h x Ws bs p 0)) (Ideal.logistic (headAt h x Ws bs p 1)) (x (ix2 p 4))
          (sirState (Ideal.logistic (headAt h x Ws bs p 0)) (Ideal.logistic (headAt h x Ws bs p 1)) (x (ix2 p 4)) (x (ix2 p 2)) (x (ix2 p 3)) t.val).1
          (sirState (Ideal.logistic (headAt h x Ws bs p 0)) (Ideal.logistic (headAt h x Ws bs p 1)) (x (ix2 p 4)) (x (ix2 p 2)) (x (ix2 p 3)) t.val).2).2)
    = phy H X Ws bs (ix3 P t s)
  rw [headAt_rows h x H X p P Ws bs hh' hx' 0, headAt_rows h x H X p P Ws bs hh' hx' 1, hx' 2, hx' 3, hx' 4]
  rfl

end Cert.Spec

end
-- ==== Proof.KI.Val5.lean ====
import proofs.«419864_j2224793059992_3_alg».proof.Proof.KI.Reg5
import proofs.«419864_j2224793059992_3_alg».proof.Proof.KI.Val5b
import proofs.«419864_j2224793059992_3_alg».proof.Proof.KI.Val5r
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero_off2 : (![0, 0] : Fin 2 → Nat) = fun _ => 0 := funext fun a => by fin_cases a <;> rfl
theorem zero_off3 : (![0, 0, 0] : Fin 3 → Nat) = fun _ => 0 := funext fun a => by fin_cases a <;> rfl

theorem out5_8_eq (x0 : Vec Ideal S1000x32 .f32) (x1 : Vec Ideal S1000x5 .f32) (x2 : Vec Ideal S8x34 .f32) (x3 : Vec Ideal S1x8 .f32)
    (x4 : Vec Ideal S8x34 .f32) (x5 : Vec Ideal S1x8 .f32) (x6 : Vec Ideal S2x34 .f32) (x7 : Vec Ideal S1x2 .f32) :
    out5_8 (F := Ideal) x0 x1 x2 x3 x4 x5 x6 x7 = Cert.Spec.pred x0 x1 x2 x3 x4 x5 := by
  unfold out5_8
  rw [View.canon_unit_zero zero_off3]
  simp only [View.ld_unit_zero (S := S1000x32) zero_off2, View.ld_unit_zero (S := S1000x5) zero_off2,
    View.ld_unit_zero (S := S8x34) zero_off2, View.ld_unit_zero (S := S1x8) zero_off2]
  exact pred_block x0 x1 x2 x3 x4 x5

theorem out5_9_eq (x0 : Vec Ideal S1000x32 .f32) (x1 : Vec Ideal S1000x5 .f32) (x2 : Vec Ideal S8x34 .f32) (x3 : Vec Ideal S1x8 .f32)
    (x4 : Vec Ideal S8x34 .f32) (x5 : Vec Ideal S1x8 .f32) (x6 : Vec Ideal S2x34 .f32) (x7 : Vec Ideal S1x2 .f32) :
    out5_9 (F := Ideal) x0 x1 x2 x3 x4 x5 x6 x7 = Cert.Spec.phy x0 x1 x6 x7 := by
  unfold out5_9
  dsimp only
  rw [View.canon_unit_zero zero_off3]
  simp only [View.ld_unit_zero (S := S1000x32) zero_off2, View.ld_unit_zero (S := S1000x5) zero_off2,
    View.ld_unit_zero (S := S2x34) zero_off2, View.ld_unit_zero (S := S1x2) zero_off2]
  exact phy_block x0 x1 x6 x7

theorem after5_8_eq (c : Dev nD) (t : Fin cfg5.N) :
    (dat5 V c).after 8 t = Cert.Spec.pred (iblk5 V c 0 t) (iblk5 V c 1 t) (iblk5 V c 2 t) (iblk5 V c 3 t) (iblk5 V c 4 t) (iblk5 V c 5 t) :=
  (after5_8 V c t).trans (out5_8_eq _ _ _ _ _ _ _ _)
theorem after5_9_eq (c : Dev nD) (t : Fin cfg5.N) :
    (dat5 V c).after 9 t = Cert.Spec.phy (iblk5 V c 0 t) (iblk5 V c 1 t) (iblk5 V c 6 t) (iblk5 V c 7 t) :=
  (after5_9 V c t).trans (out5_9_eq _ _ _ _ _ _ _ _)

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 3) = t.val ∧ win5_8.index t (1 : Fin 3) = 0 ∧ win5_8.index t (2 : Fin 3) = 0
    ∧ win5_9.index t (0 : Fin 3) = t.val ∧ win5_9.index t (1 : Fin 3) = 0 ∧ win5_9.index t (2 : Fin 3) = 0 :=
  (by decide +kernel : ∀ t : Fin grid5.N, _)

theorem iblk5_0_apply (c : Dev nD) (t : Fin cfg5.N) (x : S1000x32.Idx) (k : S200000x32.Idx)
    (hk0 : (k 0).val = t.val * 1000 + (x 0).val) (hk1 : (k 1).val = (x 1).val) :
    (iblk5 V c 0 t : Vec Ideal S1000x32 .f32) x = (V c main_v60 : S200000x32.Idx → EReal) k := by
  obtain ⟨e0, e1, -⟩ := idx_facts5 t
  unfold iblk5
  rw [View.read_apply]
  show (V c main_v60 : S200000x32.Idx → EReal) _ = _
  congr 1
  funext a
  apply Fin.ext
  match a with
  | ⟨0, _⟩ => show win5_0.index t (0 : Fin 2) * 1000 + 1 * (x 0).val = (k 0).val; rw [e0, hk0]; omega
  | ⟨1, _⟩ => show win5_0.index t (1 : Fin 2) * 32 + 1 * (x 1).val = (k 1).val; rw [e1, hk1]; omega

theorem iblk5_1_apply (c : Dev nD) (t : Fin cfg5.N) (x : S1000x5.Idx) (k : S200000x5.Idx)
    (hk0 : (k 0).val = t.val * 1000 + (x 0).val) (hk1 : (k 1).val = (x 1).val) :
    (iblk5 V c 1 t : Vec Ideal S1000x5 .f32) x = (V c main_v68 : S200000x5.Idx → EReal) k := by
  obtain ⟨-, -, e0, e1, -⟩ := idx_facts5 t
  unfold iblk5
  rw [View.read_apply]
  show (V c main_v68 : S200000x5.Idx → EReal) _ = _
  congr 1
  funext a
  apply Fin.ext
  match a with
  | ⟨0, _⟩ => show win5_1.index t (0 : Fin 2) * 1000 + 1 * (x 0).val = (k 0).val; rw [e0, hk0]; omega
  | ⟨1, _⟩ => show win5_1.index t (1 : Fin 2) * 5 + 1 * (x 1).val = (k 1).val; rw [e1, hk1]; omega

theorem iblk5_2_eq (c : Dev nD) (t : Fin cfg5.N) : (iblk5 V c 2 t : Vec Ideal S8x34 .f32) = (V c main_arg16 : S8x34.Idx → EReal) := by
  obtain ⟨-, -, -, -, e0, e1, -⟩ := idx_facts5 t
  funext x
  unfold iblk5
  rw [View.read_apply]
  show (V c main_arg16 : S8x34.Idx → EReal) _ = _
  congr 1
  funext a
  apply Fin.ext
  match a with
  | ⟨0, _⟩ => show win5_2.index t (0 : Fin 2) * 8 + 1 * (x 0).val = (x 0).val; rw [e0]; omega
  | ⟨1, _⟩ => show win5_2.index t (1 : Fin 2) * 34 + 1 * (x 1).val = (x 1).val; rw [e1]; omega
theorem iblk5_3_eq (c : Dev nD) (t : Fin cfg5.N) : (iblk5 V c 3 t : Vec Ideal S1x8 .f32) = (V c main_v69 : S1x8.Idx → EReal) := by
  obtain ⟨-, -, -, -, -, -, e0, e1, -⟩ := idx_facts5 t
  funext x
  unfold iblk5
  rw [View.read_apply]
  show (V c main_v69 : S1x8.Idx → EReal) _ = _
  congr 1
  funext a
  apply Fin.ext
  match a with
  | ⟨0, _⟩ => show win5_3.index t (0 : Fin 2) * 1 + 1 * (x 0).val = (x 0).val; rw [e0]; omega
  | ⟨1, _⟩ => show win5_3.index t (1 : Fin 2) * 8 + 1 * (x 1).val = (x 1).val; rw [e1]; omega
theorem iblk5_4_eq (c : Dev nD) (t : Fin cfg5.N) : (iblk5 V c 4 t : Vec Ideal S8x34 .f32) = (V c main_arg18 : S8x34.Idx → EReal) := by
  obtain ⟨-, -, -, -, -, -, -, -, e0, e1, -⟩ := idx_facts5 t
  funext x
  unfold iblk5
  rw [View.read_apply]
  show (V c main_arg18 : S8x34.Idx → EReal) _ = _
  congr 1
  funext a
  apply Fin.ext
  match a with
  | ⟨0, _⟩ => show win5_4.index t (0 : Fin 2) * 8 + 1 * (x 0).val = (x 0).val; rw [e0]; omega
  | ⟨1, _⟩ => show win5_4.index t (1 : Fin 2) * 34 + 1 * (x 1).val = (x 1).val; rw [e1]; omega
theorem iblk5_5_eq (c : Dev nD) (t : Fin cfg5.N) : (iblk5 V c 5 t : Vec Ideal S1x8 .f32) = (V c main_v70 : S1x8.Idx → EReal) := by
  obtain ⟨-, -, -, -, -, -, -, -, -, -, e0, e1, -⟩ := idx_facts5 t
  funext x
  unfold iblk5
  rw [View.read_apply]
  show (V c main_v70 : S1x8.Idx → EReal) _ = _
  congr 1
  funext a
  apply Fin.ext
  match a with
  | ⟨0, _⟩ => show win5_5.index t (0 : Fin 2) * 1 + 1 * (x 0).val = (x 0).val; rw [e0]; omega
  | ⟨1, _⟩ => show win5_5.index t (1 : Fin 2) * 8 + 1 * (x 1).val = (x 1).val; rw [e1]; omega
theorem iblk5_6_eq (c : Dev nD) (t : Fin cfg5.N) : (iblk5 V c 6 t : Vec Ideal S2x34 .f32) = (V c main_arg20 : S2x34.Idx → EReal) := by
  obtain ⟨-, -, -, -, -, -, -, -, -, -, -, -, e0, e1, -⟩ := idx_facts5 t
  funext x
  unfold iblk5
  rw [View.read_apply]
  show (V c main_arg20 : S2x34.Idx → EReal) _ = _
  congr 1
  funext a
  apply Fin.ext
  match a with
  | ⟨0, _⟩ => show win5_6.index t (0 : Fin 2) * 2 + 1 * (x 0).val = (x 0).val; rw [e0]; omega
  | ⟨1, _⟩ => show win5_6.index t (1 : Fin 2) * 34 + 1 * (x 1).val = (x 1).val; rw [e1]; omega
theorem iblk5_7_eq (c : Dev nD) (t : Fin cfg5.N) : (iblk5 V c 7 t : Vec Ideal S1x2 .f32) = (V c main_v71 : S1x2.Idx → EReal) := by
  obtain ⟨-, -, -, -, -, -, -, -, -, -, -, -, -, -, e0, e1, -⟩ := idx_facts5 t
  funext x
  unfold iblk5
  rw [View.read_apply]
  show (V c main_v71 : S1x2.Idx → EReal) _ = _
  congr 1
  funext a
  apply Fin.ext
  match a with
  | ⟨0, _⟩ => show win5_7.index t (0 : Fin 2) * 1 + 1 * (x 0).val = (x 0).val; rw [e0]; omega
  | ⟨1, _⟩ => show win5_7.index t (1 : Fin 2) * 2 + 1 * (x 1).val = (x 1).val; rw [e1]; omega

abbrev predOf (c : Dev nD) : S200000x8x2.Idx → EReal :=
  Cert.Spec.pred (n := 200000) (V c main_v60) (V c main_v68) (V c main_arg16) (V c main_v69) (V c main_arg18) (V c main_v70)

abbrev phyOf (c : Dev nD) : S200000x8x2.Idx → EReal :=
  Cert.Spec.phy (n := 200000) (V c main_v60) (V c main_v68) (V c main_arg20) (V c main_v71)

theorem flushed5_8_eq (c : Dev nD) (t : Fin cfg5.N) :
    (dat5 V c).flushed 8 t = ((cfg5.win 8).blk t).view.read (Elt Ideal) (predOf V c) := by
  show (cfg5.win 8).cut (grid5.coords t) ((dat5 V c).after 8 t) = _
  rw [after5_8_eq, iblk5_2_eq, iblk5_3_eq, iblk5_4_eq, iblk5_5_eq]
  have e := idx_facts5 t
  have e80 : win5_8.index t (0 : Fin 3) = t.val := e.2.2.2.2.2.2.2.2.2.2.2.2.2.2.2.2.1
  have e81 : win5_8.index t (1 : Fin 3) = 0 := e.2.2.2.2.2.2.2.2.2.2.2.2.2.2.2.2.2.1
  have e82 : win5_8.index t (2 : Fin 3) = 0 := e.2.2.2.2.2.2.2.2.2.2.2.2.2.2.2.2.2.2.1
  funext y
  rw [View.read_apply]
  have hy0 : (((cfg5.win 8).blk t).view.emb y (0 : Fin 3)).val = t.val * 1000 + (y (0 : Fin 3)).val := by
    show win5_8.index t (0 : Fin 3) * 1000 + 1 * (y (0 : Fin 3)).val = _; rw [e80]; omega
  have hy1 : (((cfg5.win 8).blk t).view.emb y (1 : Fin 3)).val = (y (1 : Fin 3)).val := by
    show win5_8.index t (1 : Fin 3) * 8 + 1 * (y (1 : Fin 3)).val = _; rw [e81]; omega
  have hy2 : (((cfg5.win 8).blk t).view.emb y (2 : Fin 3)).val = (y (2 : Fin 3)).val := by
    show win5_8.index t (2 : Fin 3) * 2 + 1 * (y (2 : Fin 3)).val = _; rw [e82]; omega
  exact Cert.Spec.pred_rows (n := 1000) (n' := 200000) (iblk5 V c 0 t) (iblk5 V c 1 t) (V c main_v60) (V c main_v68) _ _ _ _
    ((cfg5.win 8).xinj (grid5.coords t) y) (((cfg5.win 8).blk t).view.emb y)
    (fun k => iblk5_0_apply V c t _ _ hy0 rfl) (fun k => iblk5_1_apply V c t _ _ hy0 rfl) hy1.symm hy2.symm

theorem flushed5_9_eq (c : Dev nD) (t : Fin cfg5.N) :
    (dat5 V c).flushed 9 t = ((cfg5.win 9).blk t).view.read (Elt Ideal) (phyOf V c) := by
  show (cfg5.win 9).cut (grid5.coords t) ((dat5 V c).after 9 t) = _
  rw [after5_9_eq, iblk5_6_eq, iblk5_7_eq]
  have e := idx_facts5 t
  have e90 : win5_9.index t (0 : Fin 3) = t.val := e.2.2.2.2.2.2.2.2.2.2.2.2.2.2.2.2.2.2.2.1
  have e91 : win5_9.index t (1 : Fin 3) = 0 := e.2.2.2.2.2.2.2.2.2.2.2.2.2.2.2.2.2.2.2.2.1
  have e92 : win5_9.index t (2 : Fin 3) = 0 := e.2.2.2.2.2.2.2.2.2.2.2.2.2.2.2.2.2.2.2.2.2
  funext y
  rw [View.read_apply]
  have hy0 : (((cfg5.win 9).blk t).view.emb y (0 : Fin 3)).val = t.val * 1000 + (y (0 : Fin 3)).val := by
    show win5_9.index t (0 : Fin 3) * 1000 + 1 * (y (0 : Fin 3)).val = _; rw [e90]; omega
  have hy1 : (((cfg5.win 9).blk t).view.emb y (1 : Fin 3)).val = (y (1 : Fin 3)).val := by
    show win5_9.index t (1 : Fin 3) * 8 + 1 * (y (1 : Fin 3)).val = _; rw [e91]; omega
  have hy2 : (((cfg5.win 9).blk t).view.emb y (2 : Fin 3)).val = (y (2 : Fin 3)).val := by
    show win5_9.index t (2 : Fin 3) * 2 + 1 * (y (2 : Fin 3)).val = _; rw [e92]; omega
  exact Cert.Spec.phy_rows (n := 1000) (n' := 200000) (iblk5 V c 0 t) (iblk5 V c 1 t) (V c main_v60) (V c main_v68) _ _
    ((cfg5.win 9).xinj (grid5.coords t) y) (((cfg5.win 9).blk t).view.emb y)
    (fun k => iblk5_0_apply V c t _ _ hy0 rfl) (fun k => iblk5_1_apply V c t _ _ hy0 rfl) hy1.symm hy2.symm

theorem mem_blk5_8 (t : Fin cfg5.N) (i : S200000x8x2.Idx) :
    i ∈ ((cfg5.win 8).blk t).view.set ↔ ∀ a : Fin 3, win5_8.index t a * S1000x8x2.size a ≤ (i a).val ∧ (i a).val < win5_8.index t a * S1000x8x2.size a + S1000x8x2.size a := by
  show i ∈ ((View.whole main_v72_0).slice (win5_8.rect t)).set ↔ _
  rw [View.set_slice_whole, Rect.mem_set_unit]
  exact Iff.rfl
theorem mem_blk5_9 (t : Fin cfg5.N) (i : S200000x8x2.Idx) :
    i ∈ ((cfg5.win 9).blk t).view.set ↔ ∀ a : Fin 3, win5_9.index t a * S1000x8x2.size a ≤ (i a).val ∧ (i a).val < win5_9.index t a * S1000x8x2.size a + S1000x8x2.size a := by
  show i ∈ ((View.whole main_v72_1).slice (win5_9.rect t)).set ↔ _
  rw [View.set_slice_whole, Rect.mem_set_unit]
  exact Iff.rfl

theorem cover5_8_rows (i : S200000x8x2.Idx) : ∃ t : Fin cfg5.N, (cfg5.win 8).flush t = true ∧ i ∈ ((cfg5.win 8).blk t).view.set := by
  have hi0 : (i 0).val < 200000 := (i 0).isLt
  have hi1 : (i 1).val < 8 := (i 1).isLt
  have hi2 : (i 2).val < 2 := (i 2).isLt
  have hN : cfg5.N = 200 := N_5
  let t : Fin cfg5.N := ⟨(i 0).val / 1000, by rw [hN]; omega⟩
  have e := idx_facts5 t
  have e80 : win5_8.index t (0 : Fin 3) = (i 0).val / 1000 := e.2.2.2.2.2.2.2.2.2.2.2.2.2.2.2.2.1
  have e81 : win5_8.index t (1 : Fin 3) = 0 := e.2.2.2.2.2.2.2.2.2.2.2.2.2.2.2.2.2.1
  have e82 : win5_8.index t (2 : Fin 3) = 0 := e.2.2.2.2.2.2.2.2.2.2.2.2.2.2.2.2.2.2.1
  refine ⟨t, flush5_8 t, ?_⟩
  rw [mem_blk5_8]
  intro a
  match a with
  | ⟨0, _⟩ => show win5_8.index t (0 : Fin 3) * 1000 ≤ (i 0).val ∧ (i 0).val < win5_8.index t (0 : Fin 3) * 1000 + 1000; rw [e80]; omega
  | ⟨1, _⟩ => show win5_8.index t (1 : Fin 3) * 8 ≤ (i 1).val ∧ (i 1).val < win5_8.index t (1 : Fin 3) * 8 + 8; rw [e81]; omega
  | ⟨2, _⟩ => show win5_8.index t (2 : Fin 3) * 2 ≤ (i 2).val ∧ (i 2).val < win5_8.index t (2 : Fin 3) * 2 + 2; rw [e82]; omega
theorem cover5_9_rows (i : S200000x8x2.Idx) : ∃ t : Fin cfg5.N, (cfg5.win 9).flush t = true ∧ i ∈ ((cfg5.win 9).blk t).view.set := by
  have hi0 : (i 0).val < 200000 := (i 0).isLt
  have hi1 : (i 1).val < 8 := (i 1).isLt
  have hi2 : (i 2).val < 2 := (i 2).isLt
  have hN : cfg5.N = 200 := N_5
  let t : Fin cfg5.N := ⟨(i 0).val / 1000, by rw [hN]; omega⟩
  have e := idx_facts5 t
  have e90 : win5_9.index t (0 : Fin 3) = (i 0).val / 1000 := e.2.2.2.2.2.2.2.2.2.2.2.2.2.2.2.2.2.2.2.1
  have e91 : win5_9.index t (1 : Fin 3) = 0 := e.2.2.2.2.2.2.2.2.2.2.2.2.2.2.2.2.2.2.2.2.1
  have e92 : win5_9.index t (2 : Fin 3) = 0 := e.2.2.2.2.2.2.2.2.2.2.2.2.2.2.2.2.2.2.2.2.2
  refine ⟨t, flush5_9 t, ?_⟩
  rw [mem_blk5_9]
  intro a
  match a with
  | ⟨0, _⟩ => show win5_9.index t (0 : Fin 3) * 1000 ≤ (i 0).val ∧ (i 0).val < win5_9.index t (0 : Fin 3) * 1000 + 1000; rw [e90]; omega
  | ⟨1, _⟩ => show win5_9.index t (1 : Fin 3) * 8 ≤ (i 1).val ∧ (i 1).val < win5_9.index t (1 : Fin 3) * 8 + 8; rw [e91]; omega
  | ⟨2, _⟩ => show win5_9.index t (2 : Fin 3) * 2 ≤ (i 2).val ∧ (i 2).val < win5_9.index t (2 : Fin 3) * 2 + 2; rw [e92]; omega

theorem final5_pred (c : Dev nD) :
    (dat5 (F := Ideal) V c).arrAt 8 cfg5.N
      = Cert.Spec.pred (n := 200000) (V c main_v60) (V c main_v68) (V c main_arg16) (V c main_v69) (V c main_arg18) (V c main_v70) :=
  (dat5 V c).arrAt_eq_of_cover 8 (predOf V c) (fun t _ => flushed5_8_eq V c t) (cover5_8_rows)

theorem final5_phy (c : Dev nD) :
    (dat5 (F := Ideal) V c).arrAt 9 cfg5.N
      = Cert.Spec.phy (n := 200000) (V c main_v60) (V c main_v68) (V c main_arg20) (V c main_v71) :=
  (dat5 V c).arrAt_eq_of_cover 9 (phyOf V c) (fun t _ => flushed5_9_eq V c t) (cover5_9_rows)

end Cert.KernelIdeal.Hand

end
-- ==== Proof.KI.Chain.lean ====
import proofs.«419864_j2224793059992_3_alg».proof.Proof.Gen.KernelIdeal.Regions
import proofs.«419864_j2224793059992_3_alg».proof.Proof.KI.Host
import proofs.«419864_j2224793059992_3_alg».proof.Proof.KI.Val0
import proofs.«419864_j2224793059992_3_alg».proof.Proof.KI.Val1
import proofs.«419864_j2224793059992_3_alg».proof.Proof.KI.Val2
import proofs.«419864_j2224793059992_3_alg».proof.Proof.KI.Val3
import proofs.«419864_j2224793059992_3_alg».proof.Proof.KI.Val4
import proofs.«419864_j2224793059992_3_alg».proof.Proof.KI.Val5
import proofs.«419864_j2224793059992_3_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (outs : Outs (F := Ideal)) (c : Dev nD)

theorem keep1 (r : Ref sig .tc) (h1 : r ∉ hostOps0_W := by decide) : V1 m c r = m ((c : Thread nD τ).loc r) :=
  (V1_of m c r h1).trans rfl
theorem keep2 (r : Ref sig .tc) (h2 : r ∉ ([main_v13] : List (Ref sig .tc)) := by decide) : V2 m outs c r = V1 m c r :=
  V2_of m outs c r h2
theorem keep3 (r : Ref sig .tc) (h2 : r ∉ ([main_v13] : List (Ref sig .tc)) := by decide) (h3 : r ∉ hostOps1_W := by decide) :
    V3 m outs c r = V1 m c r := (V3_of m outs c r h3).trans (keep2 m outs c r h2)
theorem keep4 (r : Ref sig .tc) (h2 : r ∉ ([main_v13] : List (Ref sig .tc)) := by decide) (h3 : r ∉ hostOps1_W := by decide)
    (h4 : r ∉ ([main_v31] : List (Ref sig .tc)) := by decide) : V4 m outs c r = V1 m c r :=
  (V4_of m outs c r h4).trans (keep3 m outs c r h2 h3)
theorem keep5 (r : Ref sig .tc) (h2 : r ∉ ([main_v13] : List (Ref sig .tc)) := by decide) (h3 : r ∉ hostOps1_W := by decide)
    (h4 : r ∉ ([main_v31] : List (Ref sig .tc)) := by decide) (h5 : r ∉ hostOps2_W := by decide) : V5 m outs c r = V1 m c r :=
  (V5_of m outs c r h5).trans (keep4 m outs c r h2 h3 h4)
theorem keep6 (r : Ref sig .tc) (h2 : r ∉ ([main_v13] : List (Ref sig .tc)) := by decide) (h3 : r ∉ hostOps1_W := by decide)
    (h4 : r ∉ ([main_v31] : List (Ref sig .tc)) := by decide) (h5 : r ∉ hostOps2_W := by decide)
    (h6 : r ∉ ([main_v36] : List (Ref sig .tc)) := by decide) : V6 m outs c r = V1 m c r :=
  (V6_of m outs c r h6).trans (keep5 m outs c r h2 h3 h4 h5)
theorem keep7 (r : Ref sig .tc) (h2 : r ∉ ([main_v13] : List (Ref sig .tc)) := by decide) (h3 : r ∉ hostOps1_W := by decide)
    (h4 : r ∉ ([main_v31] : List (Ref sig .tc)) := by decide) (h5 : r ∉ hostOps2_W := by decide)
    (h6 : r ∉ ([main_v36] : List (Ref sig .tc)) := by decide) (h7 : r ∉ hostOps3_W := by decide) : V7 m outs c r = V1 m c r :=
  (V7_of m outs c r h7).trans (keep6 m outs c r h2 h3 h4 h5 h6)
theorem keep8 (r : Ref sig .tc) (h2 : r ∉ ([main_v13] : List (Ref sig .tc)) := by decide) (h3 : r ∉ hostOps1_W := by decide)
    (h4 : r ∉ ([main_v31] : List (Ref sig .tc)) := by decide) (h5 : r ∉ hostOps2_W := by decide)
    (h6 : r ∉ ([main_v36] : List (Ref sig .tc)) := by decide) (h7 : r ∉ hostOps3_W := by decide)
    (h8 : r ∉ ([main_v54] : List (Ref sig .tc)) := by decide) : V8 m outs c r = V1 m c r :=
  (V8_of m outs c r h8).trans (keep7 m outs c r h2 h3 h4 h5 h6 h7)
theorem keep9 (r : Ref sig .tc) (h2 : r ∉ ([main_v13] : List (Ref sig .tc)) := by decide) (h3 : r ∉ hostOps1_W := by decide)
    (h4 : r ∉ ([main_v31] : List (Ref sig .tc)) := by decide) (h5 : r ∉ hostOps2_W := by decide)
    (h6 : r ∉ ([main_v36] : List (Ref sig .tc)) := by decide) (h7 : r ∉ hostOps3_W := by decide)
    (h8 : r ∉ ([main_v54] : List (Ref sig .tc)) := by decide) (h9 : r ∉ hostOps4_W := by decide) : V9 m outs c r = V1 m c r :=
  (V9_of m outs c r h9).trans (keep8 m outs c r h2 h3 h4 h5 h6 h7 h8)
theorem keep10 (r : Ref sig .tc) (h2 : r ∉ ([main_v13] : List (Ref sig .tc)) := by decide) (h3 : r ∉ hostOps1_W := by decide)
    (h4 : r ∉ ([main_v31] : List (Ref sig .tc)) := by decide) (h5 : r ∉ hostOps2_W := by decide)
    (h6 : r ∉ ([main_v36] : List (Ref sig .tc)) := by decide) (h7 : r ∉ hostOps3_W := by decide)
    (h8 : r ∉ ([main_v54] : List (Ref sig .tc)) := by decide) (h9 : r ∉ hostOps4_W := by decide)
    (h10 : r ∉ ([main_v60] : List (Ref sig .tc)) := by decide) : V10 m outs c r = V1 m c r :=
  (V10_of m outs c r h10).trans (keep9 m outs c r h2 h3 h4 h5 h6 h7 h8 h9)
theorem keep11 (r : Ref sig .tc) (h2 : r ∉ ([main_v13] : List (Ref sig .tc)) := by decide) (h3 : r ∉ hostOps1_W := by decide)
    (h4 : r ∉ ([main_v31] : List (Ref sig .tc)) := by decide) (h5 : r ∉ hostOps2_W := by decide)
    (h6 : r ∉ ([main_v36] : List (Ref sig .tc)) := by decide) (h7 : r ∉ hostOps3_W := by decide)
    (h8 : r ∉ ([main_v54] : List (Ref sig .tc)) := by decide) (h9 : r ∉ hostOps4_W := by decide)
    (h10 : r ∉ ([main_v60] : List (Ref sig .tc)) := by decide) (h11 : r ∉ hostOps5_W := by decide) : V11 m outs c r = V1 m c r :=
  (V11_of m outs c r h11).trans (keep10 m outs c r h2 h3 h4 h5 h6 h7 h8 h9 h10)

abbrev aX := (m ((c : Thread nD τ).loc main_arg0))
abbrev aAdj := (m ((c : Thread nD τ).loc main_arg1))

theorem V1_v7 : V1 m c main_v7 = featRows (F := Ideal) (m ((c : Thread nD τ).loc main_arg0)) := host0_v7 (V0 m c)
theorem V1_v12 : V1 m c main_v12 = row32 (F := Ideal) (m ((c : Thread nD τ).loc main_arg5)) := host0_v12 (V0 m c)
theorem V1_v9 : V1 m c main_v9 = srcRow (m ((c : Thread nD τ).loc main_arg1)) := host0_v9 (V0 m c)
theorem V1_v11 : V1 m c main_v11 = dstRow (m ((c : Thread nD τ).loc main_arg1)) := host0_v11 (V0 m c)
theorem V1_v2 : V1 m c main_v2 = lastCol1 (F := Ideal) (m ((c : Thread nD τ).loc main_arg0)) := host0_v2 (V0 m c)
theorem V1_v5 : V1 m c main_v5 = lastCol2 (F := Ideal) (m ((c : Thread nD τ).loc main_arg0)) := host0_v5 (V0 m c)

def kz1 : Cert.Spec.M 200000 32 :=
  Cert.Spec.lin (featRows (F := Ideal) (m ((c : Thread nD τ).loc main_arg0))) (m ((c : Thread nD τ).loc main_arg4)) (row32 (F := Ideal) (m ((c : Thread nD τ).loc main_arg5)))

def km1 : Cert.Spec.M 1600000 32 :=
  Cert.Spec.edge (rowsAt (F := Ideal) (kz1 m c) (wrapIdx (srcRow (m ((c : Thread nD τ).loc main_arg1))))) (rowsAt (F := Ideal) (kz1 m c) (wrapIdx (dstRow (m ((c : Thread nD τ).loc main_arg1)))))
    (attLo (F := Ideal) (m ((c : Thread nD τ).loc main_arg6))) (attHi (F := Ideal) (m ((c : Thread nD τ).loc main_arg6))) (one11 (F := Ideal) (m ((c : Thread nD τ).loc main_arg7)))

def kh1 : Cert.Spec.M 200000 32 := sumInto (F := Ideal) (dstRow (m ((c : Thread nD τ).loc main_arg1))) (km1 m c)

def kz2 : Cert.Spec.M 200000 32 := Cert.Spec.eluLin (kh1 m c) (m ((c : Thread nD τ).loc main_arg8)) (row32 (F := Ideal) (m ((c : Thread nD τ).loc main_arg9)))

def km2 : Cert.Spec.M 1600000 32 :=
  Cert.Spec.edge (rowsAt (F := Ideal) (kz2 m c) (wrapIdx (srcRow (m ((c : Thread nD τ).loc main_arg1))))) (rowsAt (F := Ideal) (kz2 m c) (wrapIdx (dstRow (m ((c : Thread nD τ).loc main_arg1)))))
    (attLo (F := Ideal) (m ((c : Thread nD τ).loc main_arg10))) (attHi (F := Ideal) (m ((c : Thread nD τ).loc main_arg10))) (one11 (F := Ideal) (m ((c : Thread nD τ).loc main_arg11)))
def kh2 : Cert.Spec.M 200000 32 := sumInto (F := Ideal) (dstRow (m ((c : Thread nD τ).loc main_arg1))) (km2 m c)

def kg : Cert.Spec.M 200000 32 := Cert.Spec.gru (kh2 m c) (m ((c : Thread nD τ).loc main_arg12)) (row96 (F := Ideal) (m ((c : Thread nD τ).loc main_arg14))) (row96 (F := Ideal) (m ((c : Thread nD τ).loc main_arg15)))

def kx5 : Cert.Spec.M 200000 5 :=
  carried (F := Ideal) (lastCol1 (F := Ideal) (m ((c : Thread nD τ).loc main_arg0))) (lastCol2 (F := Ideal) (m ((c : Thread nD τ).loc main_arg0))) (m ((c : Thread nD τ).loc main_arg2)) (m ((c : Thread nD τ).loc main_arg3))

def kpred : Cert.Spec.T3 200000 8 2 :=
  Cert.Spec.pred (kg m c) (kx5 m c) (m ((c : Thread nD τ).loc main_arg16)) (row8 (F := Ideal) (m ((c : Thread nD τ).loc main_arg17))) (m ((c : Thread nD τ).loc main_arg18)) (row8 (F := Ideal) (m ((c : Thread nD τ).loc main_arg19)))
def kphy : Cert.Spec.T3 200000 8 2 :=
  Cert.Spec.phy (kg m c) (kx5 m c) (m ((c : Thread nD τ).loc main_arg20)) (row2 (F := Ideal) (m ((c : Thread nD τ).loc main_arg21)))

theorem o2_eq (h2 : outs 2 main_v13 c = (dat0 (F := Ideal) (fun c b => V1 m c b) c).arrAt 3 cfg0.N) :
    outs 2 main_v13 c = kz1 m c := by
  rw [h2, final0]
  show Cert.Spec.lin (V1 m c main_v7) (V1 m c main_arg4) (V1 m c main_v12) = _
  rw [V1_v7, keep1 m c main_arg4, V1_v12]
  rfl

theorem V2_v13 : V2 m outs c main_v13 = outs 2 main_v13 c := by
  simp only [V2, Function.update_self]

theorem o4_eq (h2 : outs 2 main_v13 c = kz1 m c)
    (h4 : outs 4 main_v31 c = (dat1 (F := Ideal) (fun c b => V3 m outs c b) c).arrAt 5 cfg1.N) :
    outs 4 main_v31 c = km1 m c := by
  rw [h4, final1]
  show Cert.Spec.edge (V3 m outs c main_v20) (V3 m outs c main_v27) (V3 m outs c main_v28) (V3 m outs c main_v29) (V3 m outs c main_v30) = _
  have e20 : V3 m outs c main_v20 = rowsAt (F := Ideal) (kz1 m c) (wrapIdx (srcRow (m ((c : Thread nD τ).loc main_arg1)))) := by
    refine (host1_v20 (V2 m outs c)).trans ?_
    rw [V2_v13, h2, keep2 m outs c main_v9, V1_v9]
  have e27 : V3 m outs c main_v27 = rowsAt (F := Ideal) (kz1 m c) (wrapIdx (dstRow (m ((c : Thread nD τ).loc main_arg1)))) := by
    refine (host1_v27 (V2 m outs c)).trans ?_
    rw [V2_v13, h2, keep2 m outs c main_v11, V1_v11]
  have e28 : V3 m outs c main_v28 = attLo (F := Ideal) (m ((c : Thread nD τ).loc main_arg6)) := by
    refine (host1_v28 (V2 m outs c)).trans ?_
    rw [keep2 m outs c main_arg6, keep1 m c main_arg6]
  have e29 : V3 m outs c main_v29 = attHi (F := Ideal) (m ((c : Thread nD τ).loc main_arg6)) := by
    refine (host1_v29 (V2 m outs c)).trans ?_
    rw [keep2 m outs c main_arg6, keep1 m c main_arg6]
  have e30 : V3 m outs c main_v30 = one11 (F := Ideal) (m ((c : Thread nD τ).loc main_arg7)) := by
    refine (host1_v30 (V2 m outs c)).trans ?_
    rw [keep2 m outs c main_arg7, keep1 m c main_arg7]
  rw [e20, e27, e28, e29, e30]
  rfl

theorem V4_v31 : V4 m outs c main_v31 = outs 4 main_v31 c := by
  simp only [V4, Function.update_self]

theorem o6_eq (h4 : outs 4 main_v31 c = km1 m c)
    (h6 : outs 6 main_v36 c = (dat2 (F := Ideal) (fun c b => V5 m outs c b) c).arrAt 3 cfg2.N) :
    outs 6 main_v36 c = kz2 m c := by
  rw [h6, final2]
  show Cert.Spec.eluLin (V5 m outs c main_v34) (V5 m outs c main_arg8) (V5 m outs c main_v35) = _
  have e34 : V5 m outs c main_v34 = kh1 m c := by
    refine (host2_v34 (V4 m outs c)).trans ?_
    rw [V4_v31, h4, keep4 m outs c main_v11, V1_v11]
    rfl
  have e35 : V5 m outs c main_v35 = row32 (F := Ideal) (m ((c : Thread nD τ).loc main_arg9)) := by
    refine (host2_v35 (V4 m outs c)).trans ?_
    rw [keep4 m outs c main_arg9, keep1 m c main_arg9]
  rw [e34, keep5 m outs c main_arg8, keep1 m c main_arg8, e35]
  rfl

theorem V6_v36 : V6 m outs c main_v36 = outs 6 main_v36 c := by
  simp only [V6, Function.update_self]

theorem o8_eq (h6 : outs 6 main_v36 c = kz2 m c)
    (h8 : outs 8 main_v54 c = (dat3 (F := Ideal) (fun c b => V7 m outs c b) c).arrAt 5 cfg3.N) :
    outs 8 main_v54 c = km2 m c := by
  rw [h8, final3]
  show Cert.Spec.edge (V7 m outs c main_v43) (V7 m outs c main_v50) (V7 m outs c main_v51) (V7 m outs c main_v52) (V7 m outs c main_v53) = _
  have e43 : V7 m outs c main_v43 = rowsAt (F := Ideal) (kz2 m c) (wrapIdx (srcRow (m ((c : Thread nD τ).loc main_arg1)))) := by
    refine (host3_v43 (V6 m outs c)).trans ?_
    rw [V6_v36, h6, keep6 m outs c main_v9, V1_v9]
  have e50 : V7 m outs c main_v50 = rowsAt (F := Ideal) (kz2 m c) (wrapIdx (dstRow (m ((c : Thread nD τ).loc main_arg1)))) := by
    refine (host3_v50 (V6 m outs c)).trans ?_
    rw [V6_v36, h6, keep6 m outs c main_v11, V1_v11]
  have e51 : V7 m outs c main_v51 = attLo (F := Ideal) (m ((c : Thread nD τ).loc main_arg10)) := by
    refine (host3_v51 (V6 m outs c)).trans ?_
    rw [keep6 m outs c main_arg10, keep1 m c main_arg10]
  have e52 : V7 m outs c main_v52 = attHi (F := Ideal) (m ((c : Thread nD τ).loc main_arg10)) := by
    refine (host3_v52 (V6 m outs c)).trans ?_
    rw [keep6 m outs c main_arg10, keep1 m c main_arg10]
  have e53 : V7 m outs c main_v53 = one11 (F := Ideal) (m ((c : Thread nD τ).loc main_arg11)) := by
    refine (host3_v53 (V6 m outs c)).trans ?_
    rw [keep6 m outs c main_arg11, keep1 m c main_arg11]
  rw [e43, e50, e51, e52, e53]
  rfl

theorem V8_v54 : V8 m outs c main_v54 = outs 8 main_v54 c := by
  simp only [V8, Function.update_self]

theorem o10_eq (h8 : outs 8 main_v54 c = km2 m c)
    (h10 : outs 10 main_v60 c = (dat4 (F := Ideal) (fun c b => V9 m outs c b) c).arrAt 4 cfg4.N) :
    outs 10 main_v60 c = kg m c := by
  rw [h10, final4]
  show Cert.Spec.gru (V9 m outs c main_v57) (V9 m outs c main_arg12) (V9 m outs c main_v58) (V9 m outs c main_v59) = _
  have e57 : V9 m outs c main_v57 = kh2 m c := by
    refine (host4_v57 (V8 m outs c)).trans ?_
    rw [V8_v54, h8, keep8 m outs c main_v11, V1_v11]
    rfl
  have e58 : V9 m outs c main_v58 = row96 (F := Ideal) (m ((c : Thread nD τ).loc main_arg14)) := by
    refine (host4_v58 (V8 m outs c)).trans ?_
    rw [keep8 m outs c main_arg14, keep1 m c main_arg14]
  have e59 : V9 m outs c main_v59 = row96 (F := Ideal) (m ((c : Thread nD τ).loc main_arg15)) := by
    refine (host4_v59 (V8 m outs c)).trans ?_
    rw [keep8 m outs c main_arg15, keep1 m c main_arg15]
  rw [e57, keep9 m outs c main_arg12, keep1 m c main_arg12, e58, e59]
  rfl

theorem V10_v60 : V10 m outs c main_v60 = outs 10 main_v60 c := by
  simp only [V10, Function.update_self]

theorem V11_v60 (h10 : outs 10 main_v60 c = kg m c) : V11 m outs c main_v60 = kg m c := by
  rw [V11_of m outs c main_v60 (by decide), V10_v60, h10]

theorem V11_v68 : V11 m outs c main_v68 = kx5 m c := by
  refine (host5_v68 (V10 m outs c)).trans ?_
  rw [keep10 m outs c main_v2, V1_v2, keep10 m outs c main_v5, V1_v5, keep10 m outs c main_arg2, keep1 m c main_arg2,
    keep10 m outs c main_arg3, keep1 m c main_arg3]
  rfl

theorem o12_0_eq (h10 : outs 10 main_v60 c = kg m c)
    (h12 : outs 12 main_v72_0 c = (dat5 (F := Ideal) (fun c b => V11 m outs c b) c).arrAt 8 cfg5.N) :
    outs 12 main_v72_0 c = kpred m c := by
  rw [h12, final5_pred]
  show Cert.Spec.pred (V11 m outs c main_v60) (V11 m outs c main_v68) (V11 m outs c main_arg16) (V11 m outs c main_v69)
    (V11 m outs c main_arg18) (V11 m outs c main_v70) = _
  have e69 : V11 m outs c main_v69 = row8 (F := Ideal) (m ((c : Thread nD τ).loc main_arg17)) := by
    refine (host5_v69 (V10 m outs c)).trans ?_
    rw [keep10 m outs c main_arg17, keep1 m c main_arg17]
  have e70 : V11 m outs c main_v70 = row8 (F := Ideal) (m ((c : Thread nD τ).loc main_arg19)) := by
    refine (host5_v70 (V10 m outs c)).trans ?_
    rw [keep10 m outs c main_arg19, keep1 m c main_arg19]
  rw [V11_v60 m outs c h10, V11_v68, keep11 m outs c main_arg16, keep1 m c main_arg16, e69,
    keep11 m outs c main_arg18, keep1 m c main_arg18, e70]
  rfl

theorem o12_1_eq (h10 : outs 10 main_v60 c = kg m c)
    (h12 : outs 12 main_v72_1 c = (dat5 (F := Ideal) (fun c b => V11 m outs c b) c).arrAt 9 cfg5.N) :
    outs 12 main_v72_1 c = kphy m c := by
  rw [h12, final5_phy]
  show Cert.Spec.phy (V11 m outs c main_v60) (V11 m outs c main_v68) (V11 m outs c main_arg20) (V11 m outs c main_v71) = _
  have e71 : V11 m outs c main_v71 = row2 (F := Ideal) (m ((c : Thread nD τ).loc main_arg21)) := by
    refine (host5_v71 (V10 m outs c)).trans ?_
    rw [keep10 m outs c main_arg21, keep1 m c main_arg21]
  rw [V11_v60 m outs c h10, V11_v68, keep11 m outs c main_arg20, keep1 m c main_arg20, e71]
  rfl

end Cert.KernelIdeal.Hand

end
-- ==== Proof.KI.Glue.lean ====
import proofs.«419864_j2224793059992_3_alg».proof.Proof.KI.Host
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

variable {F : FTy → Type} [FloatOps F]

theorem row32_eq (b : FVec F S32 .f32) : row32 b = fun j => b (ix1 (j 1)) := by
  funext j
  obtain ⟨u, i, rfl⟩ : ∃ u i, j = ix2 u i := ⟨_, _, eq_ix2 j⟩
  exact shapeCast_a_1a_apply b shapeCasts_S32_S1x32 u i

theorem row96_eq (b : FVec F S96 .f32) : row96 b = fun j => b (ix1 (j 1)) := by
  funext j
  obtain ⟨u, i, rfl⟩ : ∃ u i, j = ix2 u i := ⟨_, _, eq_ix2 j⟩
  exact shapeCast_a_1a_apply b shapeCasts_S96_S1x96 u i

theorem row8_eq (b : FVec F S8 .f32) : row8 b = fun j => b (ix1 (j 1)) := by
  funext j
  obtain ⟨u, i, rfl⟩ : ∃ u i, j = ix2 u i := ⟨_, _, eq_ix2 j⟩
  exact shapeCast_a_1a_apply b shapeCasts_S8_S1x8 u i

theorem row2_eq (b : FVec F S2 .f32) : row2 b = fun j => b (ix1 (j 1)) := by
  funext j
  obtain ⟨u, i, rfl⟩ : ∃ u i, j = ix2 u i := ⟨_, _, eq_ix2 j⟩
  exact shapeCast_a_1a_apply b shapeCasts_S2_S1x2 u i

theorem one11_eq (b : FVec F S1 .f32) : one11 b = fun _ => b (ix1 0) := by
  funext j
  obtain ⟨u, i, rfl⟩ : ∃ u i, j = ix2 u i := ⟨_, _, eq_ix2 j⟩
  obtain rfl : i = 0 := Subsingleton.elim _ _
  exact shapeCast_a_1a_apply b shapeCasts_S1_S1x1 u 0

theorem attLo_eq (a : FVec F S1x64 .f32) :
    attLo a = fun j => a (ix2 0 ⟨(j 1).val, by have := idx2_lt1 j; omega⟩) := by
  funext j
  obtain ⟨u, i, rfl⟩ : ∃ u i, j = ix2 u i := ⟨_, _, eq_ix2 j⟩
  obtain rfl : u = 0 := Subsingleton.elim _ _
  exact slice2_axis1_apply 0 a slices_S1x64_S1x32_0_0 0 i _ (Nat.zero_add _).symm

theorem attHi_eq (a : FVec F S1x64 .f32) :
    attHi a = fun j => a (ix2 0 ⟨32 + (j 1).val, by have := idx2_lt1 j; omega⟩) := by
  funext j
  obtain ⟨u, i, rfl⟩ : ∃ u i, j = ix2 u i := ⟨_, _, eq_ix2 j⟩
  obtain rfl : u = 0 := Subsingleton.elim _ _
  exact slice2_axis1_apply 32 a slices_S1x64_S1x32_0_32 0 i _ rfl

theorem carried_piece (c1 c2 : FVec F S200000x1 .f32) (states : FVec F S200000x2 .f32) (N : FVec F S50000x1 .f32)
    (p : Fin 200000) (c : Fin 5) (x₁ : FVec F S200000x1 .f32)
    (hx : [(⟨S200000x1, c1⟩ : (s : Shape) × (s.Idx → F .f32)), ⟨S200000x1, c2⟩,
      ⟨S200000x1, extractStridedSlice S200000x1 ![0, 0] states slices_S200000x2_S200000x1_0_0⟩,
      ⟨S200000x1, extractStridedSlice S200000x1 ![0, 1] states slices_S200000x2_S200000x1_0_1⟩,
      ⟨S200000x1, popCol N⟩][c.val]'(by have := c.isLt; simpa using this) = ⟨S200000x1, x₁⟩) :
    carried c1 c2 states N (ix2 p c) = x₁ (ix2 p 0) := by
  unfold carried
  refine concatenate_apply_piece (1 : Fin 2) _ _ (ix2 p c) c.val (by have := c.isLt; simpa using this) S200000x1 x₁ hx rfl c.val ?_
    (ix2 p 0) ?_ ?_
  · match c with
    | ⟨0, _⟩ => rfl
    | ⟨1, _⟩ => rfl
    | ⟨2, _⟩ => rfl
    | ⟨3, _⟩ => rfl
    | ⟨4, _⟩ => rfl
  · intro b hb
    match b with
    | ⟨0, _⟩ => rfl
    | ⟨1, _⟩ => exact absurd rfl hb
  · show c.val + 0 = c.val
    rfl

theorem carried_col0 (c1 c2 : FVec F S200000x1 .f32) (states : FVec F S200000x2 .f32) (N : FVec F S50000x1 .f32)
    (p : Fin 200000) : carried c1 c2 states N (ix2 p 0) = c1 (ix2 p 0) :=
  carried_piece c1 c2 states N p 0 c1 rfl

theorem carried_col1 (c1 c2 : FVec F S200000x1 .f32) (states : FVec F S200000x2 .f32) (N : FVec F S50000x1 .f32)
    (p : Fin 200000) : carried c1 c2 states N (ix2 p 1) = c2 (ix2 p 0) :=
  carried_piece c1 c2 states N p 1 c2 rfl

theorem carried_col2 (c1 c2 : FVec F S200000x1 .f32) (states : FVec F S200000x2 .f32) (N : FVec F S50000x1 .f32)
    (p : Fin 200000) : carried c1 c2 states N (ix2 p 2) = states (ix2 p 0) :=
  (carried_piece c1 c2 states N p 2 _ rfl).trans
    (slice2_axis1_apply 0 states slices_S200000x2_S200000x1_0_0 p 0 0 rfl)

theorem carried_col3 (c1 c2 : FVec F S200000x1 .f32) (states : FVec F S200000x2 .f32) (N : FVec F S50000x1 .f32)
    (p : Fin 200000) : carried c1 c2 states N (ix2 p 3) = states (ix2 p 1) :=
  (carried_piece c1 c2 states N p 3 _ rfl).trans
    (slice2_axis1_apply 1 states slices_S200000x2_S200000x1_0_1 p 0 1 rfl)

theorem carried_col4 (c1 c2 : FVec F S200000x1 .f32) (states : FVec F S200000x2 .f32) (N : FVec F S50000x1 .f32)
    (p : Fin 200000) : carried c1 c2 states N (ix2 p 4) = popCol N (ix2 p 0) :=
  carried_piece c1 c2 states N p 4 _ rfl

theorem popCol_apply (N : FVec F S50000x1 .f32) (p : Fin 200000) :
    popCol N (ix2 p 0) = N (ix2 ⟨p.val % 50000, Nat.mod_lt _ (by decide)⟩ 0) := by
  have hq : p.val / 50000 < 4 := by have := p.isLt; omega
  have hr : p.val % 50000 < 50000 := Nat.mod_lt _ (by decide)
  unfold popCol

  refine (broadcastInDim_apply _ _ _ (ix2 p 0) (ix1 p) fun a => ?_).trans ?_
  · match a with
    | ⟨0, _⟩ => exact (if_neg (show ¬((200000 : ℕ) = 1) by decide)).symm

  refine (shapeCast_apply _ _ (ix1 p) (ix2 ⟨p.val / 50000, hq⟩ ⟨p.val % 50000, hr⟩) ?_).trans ?_
  · rw [Shape.rowMajor_val_two, Shape.rowMajor_val_one]
    show p.val / 50000 * 50000 + p.val % 50000 = p.val
    omega

  refine (broadcastInDim_apply _ _ _ (ix2 ⟨p.val / 50000, hq⟩ ⟨p.val % 50000, hr⟩)
    (ix2 (0 : Fin 1) ⟨p.val % 50000, hr⟩) fun a => ?_).trans ?_
  · match a with
    | ⟨0, _⟩ => exact (if_pos rfl).symm
    | ⟨1, _⟩ => exact (if_neg (show ¬((50000 : ℕ) = 1) by decide)).symm

  refine (shapeCast_a_1a_apply _ _ (0 : Fin 1) ⟨p.val % 50000, hr⟩).trans ?_
  refine shapeCast_apply _ _ _ _ ?_
  rw [Shape.rowMajor_val_two, Shape.rowMajor_val_one]
  show p.val % 50000 * 1 + 0 = p.val % 50000
  omega

theorem lastCol_apply (X : FVec F S4x16x50000x4 .f32) (f : Fin 4)
    (h : S4x16x50000x4.Slices ![0, 15, 0, f.val] S4x1x50000x1) (p : Fin 200000) :
    shapeCast S200000x1 (shapeCast S4x50000 (extractStridedSlice S4x1x50000x1 ![0, 15, 0, f.val] X h)
        shapeCasts_S4x1x50000x1_S4x50000) shapeCasts_S4x50000_S200000x1 (ix2 p 0)
      = X (ix4 ⟨p.val / 50000, by have := p.isLt; omega⟩ 15 ⟨p.val % 50000, Nat.mod_lt _ (by decide)⟩ f) := by
  have hq : p.val / 50000 < 4 := by have := p.isLt; omega
  have hr : p.val % 50000 < 50000 := Nat.mod_lt _ (by decide)
  refine (shapeCast_apply _ _ (ix2 p 0) (ix2 ⟨p.val / 50000, hq⟩ ⟨p.val % 50000, hr⟩) ?_).trans ?_
  · rw [Shape.rowMajor_val_two, Shape.rowMajor_val_two]
    show p.val / 50000 * 50000 + p.val % 50000 = p.val * 1 + 0
    omega
  refine (shapeCast_apply _ _ (ix2 ⟨p.val / 50000, hq⟩ ⟨p.val % 50000, hr⟩)
    (ix4 ⟨p.val / 50000, hq⟩ (0 : Fin 1) ⟨p.val % 50000, hr⟩ (0 : Fin 1)) ?_).trans ?_
  · rw [Shape.rowMajor_val_four, Shape.rowMajor_val_two]
    show ((p.val / 50000 * 1 + 0) * 50000 + p.val % 50000) * 1 + 0 = p.val / 50000 * 50000 + p.val % 50000
    omega
  refine extractStridedSlice_apply _ _ _ _ _ fun a => ?_
  match a with
  | ⟨0, _⟩ => exact (Nat.zero_add _).symm
  | ⟨1, _⟩ => rfl
  | ⟨2, _⟩ => exact (Nat.zero_add _).symm
  | ⟨3, _⟩ => rfl

theorem lastCol1_apply (X : FVec F S4x16x50000x4 .f32) (p : Fin 200000) :
    lastCol1 X (ix2 p 0)
      = X (ix4 ⟨p.val / 50000, by have := p.isLt; omega⟩ 15 ⟨p.val % 50000, Nat.mod_lt _ (by decide)⟩ 1) :=
  lastCol_apply X 1 slices_S4x16x50000x4_S4x1x50000x1_0_15_0_1 p

theorem lastCol2_apply (X : FVec F S4x16x50000x4 .f32) (p : Fin 200000) :
    lastCol2 X (ix2 p 0)
      = X (ix4 ⟨p.val / 50000, by have := p.isLt; omega⟩ 15 ⟨p.val % 50000, Nat.mod_lt _ (by decide)⟩ 2) :=
  lastCol_apply X 2 slices_S4x16x50000x4_S4x1x50000x1_0_15_0_2 p

theorem featRows_apply (X : FVec F S4x16x50000x4 .f32) (p : Fin 200000) (k : Fin 64) :
    featRows X (ix2 p k)
      = X (ix4 ⟨p.val / 50000, by have := p.isLt; omega⟩ ⟨k.val / 4, by have := k.isLt; omega⟩
          ⟨p.val % 50000, Nat.mod_lt _ (by decide)⟩ ⟨k.val % 4, Nat.mod_lt _ (by decide)⟩) := by
  have hq : p.val / 50000 < 4 := by have := p.isLt; omega
  have hr : p.val % 50000 < 50000 := Nat.mod_lt _ (by decide)
  have ht : k.val / 4 < 16 := by have := k.isLt; omega
  have hf : k.val % 4 < 4 := Nat.mod_lt _ (by decide)
  unfold featRows
  refine (shapeCast_apply _ _ (ix2 p k)
    (ix4 ⟨p.val / 50000, hq⟩ ⟨p.val % 50000, hr⟩ ⟨k.val / 4, ht⟩ ⟨k.val % 4, hf⟩) ?_).trans ?_
  · rw [Shape.rowMajor_val_four, Shape.rowMajor_val_two]
    show ((p.val / 50000 * 50000 + p.val % 50000) * 16 + k.val / 4) * 4 + k.val % 4 = p.val * 64 + k.val
    omega
  refine transpose_apply _ _ _ _ _ fun b => ?_
  match b with
  | ⟨0, _⟩ => rfl
  | ⟨1, _⟩ => rfl
  | ⟨2, _⟩ => rfl
  | ⟨3, _⟩ => rfl

end Cert.KernelIdeal.Hand

end
-- ==== Proof.Ref.Stages.lean ====
import proofs.«419864_j2224793059992_3_alg».proof.ReferenceIdeal
import proofs.«419864_j2224793059992_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.Hand

open Cert.ReferenceIdeal Cert.ReferenceIdeal.Facts₀
open Idealize.ShloMosaic Idealize.ShloMosaic.ValueIdx

variable [Facts₀]

theorem zero32_eq : Cert.Spec.zero32 = 0 := by simp [Ideal.ofBits, Ideal.ieee]

theorem one32_eq : Cert.Spec.one32 = 1 := by simp [Ideal.ofBits, Ideal.ieee, -EReal.coe_mul]; norm_num

theorem bcast0_apply {t : Shape} (h : S_.BroadcastsInDim t (![] : Fin 0 → Fin t.rank)) (w : BitVec 32) (j : t.Idx) :
    broadcastInDim t ![] h (constant (F := Ideal) S_ .f32 w) j = Ideal.ofBits .f32 w :=
  (broadcastInDim_apply _ h _ j ix0 (fun a => a.elim0)).trans rfl

theorem elu_stage (x : FVec Ideal S200000x32 .f32) :
    select (cmpf .ogt x (broadcastInDim S200000x32 ![] bcast_S_S200000x32 (constant (F := Ideal) S_ .f32 0x00000000#32))) x
      (mulf (broadcastInDim S200000x32 ![] bcast_S_S200000x32 (constant (F := Ideal) S_ .f32 0x3F800000#32))
        (Host.expm1 (select (cmpf .ogt x (broadcastInDim S200000x32 ![] bcast_S_S200000x32 (constant (F := Ideal) S_ .f32 0x00000000#32)))
          (broadcastInDim S200000x32 ![] bcast_S_S200000x32 (id (constant (F := Ideal) S_ .f32 0x00000000#32))) x)))
      = fun j => Cert.Spec.elu (x j) := by
  funext j
  rw [select_apply, cmpf_apply, mulf_apply, bcast0_apply, bcast0_apply]
  show Scalar.select (Ideal.cmp .ogt (x j) Cert.Spec.zero32) (x j)
      (Cert.Spec.one32 * (Ideal.exp (Scalar.select (Ideal.cmp .ogt (x j) Cert.Spec.zero32)
        (broadcastInDim S200000x32 ![] bcast_S_S200000x32 (constant (F := Ideal) S_ .f32 0x00000000#32) j) (x j)) - 1)) = _
  unfold Cert.Spec.elu
  rcases BitVec.eq_zero_or_eq_one (Ideal.cmp .ogt (x j) Cert.Spec.zero32) with h | h
  · rw [h, select_zero, select_zero, select_zero, one32_eq, one_mul]
  · rw [h, select_one, select_one]

section PlainDot
variable (M K N : Nat)

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

theorem plain_dot_apply (l : FVec Ideal ⟨2, ![M, K]⟩ .f32) (r : FVec Ideal ⟨2, ![K, N]⟩ .f32) (p : Fin M) (q : Fin N) :
    Host.dotGeneral (DotDims.plain M K N) none l r (ix2 p q) = ∑ c : Fin K, l (ix2 p c) * r (ix2 c q) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 M K N _ _).trans hk
      | ⟨1, _⟩ => exact plain_rhs1 M K N _ _)
  rw [el, er]

end PlainDot

theorem bias_apply {n o : Nat} (hb1 : (⟨1, ![o]⟩ : Shape).BroadcastsInDim ⟨2, ![1, o]⟩ (![1] : Fin 1 → Fin 2))
    (hb2 : (⟨2, ![1, o]⟩ : Shape).BroadcastsInDim ⟨2, ![n, o]⟩ (![0, 1] : Fin 2 → Fin 2)) {α : Type}
    (b : (⟨1, ![o]⟩ : Shape).Idx → α) (p : Fin n) (q : Fin o) :
    broadcastInDim ⟨2, ![n, o]⟩ ![0, 1] hb2 (broadcastInDim ⟨2, ![1, o]⟩ ![1] hb1 b) (ix2 p q) = b (ix1 q) := by
  refine (broadcastInDim_apply _ hb2 _ (ix2 p q) (ix2 (0 : Fin 1) q) fun a => ?_).trans
    (broadcastInDim_apply _ hb1 b (ix2 (0 : Fin 1) q) (ix1 q) fun a => ?_)
  · match a with
    | ⟨0, _⟩ => rfl
    | ⟨1, _⟩ =>
      show q.val = if o = 1 then 0 else q.val
      split
      · have := q.isLt; omega
      · rfl
  · match a with
    | ⟨0, _⟩ =>
      show q.val = if o = 1 then 0 else q.val
      split
      · have := q.isLt; omega
      · rfl

theorem lin_apply {n i o : Nat} (ht : (⟨2, ![o, i]⟩ : Shape).Transposes [1, 0] ⟨2, ![i, o]⟩)
    (hb1 : (⟨1, ![o]⟩ : Shape).BroadcastsInDim ⟨2, ![1, o]⟩ (![1] : Fin 1 → Fin 2))
    (hb2 : (⟨2, ![1, o]⟩ : Shape).BroadcastsInDim ⟨2, ![n, o]⟩ (![0, 1] : Fin 2 → Fin 2))
    (x : FVec Ideal ⟨2, ![n, i]⟩ .f32) (W : FVec Ideal ⟨2, ![o, i]⟩ .f32) (b : FVec Ideal ⟨1, ![o]⟩ .f32) :
    addf (Host.dotGeneral (DotDims.plain n i o) none x (transpose ⟨2, ![i, o]⟩ [1, 0] W ht))
        (broadcastInDim ⟨2, ![n, o]⟩ ![0, 1] hb2 (broadcastInDim ⟨2, ![1, o]⟩ ![1] hb1 b))
      = Cert.Spec.lin x W (fun j => b (ix1 (j 1))) := by
  funext j
  obtain ⟨p, q, rfl⟩ : ∃ p q, j = ix2 p q := ⟨j 0, j 1, eq_ix2 j⟩
  rw [addf_apply, plain_dot_apply, bias_apply]
  show _ = (∑ k : Fin i, x (ix2 p k) * W (ix2 q k)) + b (ix1 q)
  congr 1
  refine Finset.sum_congr rfl fun k _ => ?_
  rw [transpose_ix2_apply]

section Names
variable {F : FTy → Type} [FloatOps F]

def rEluV (x : FVec F S200000x32 .f32) : FVec F S200000x32 .f32 :=
  select (cmpf .ogt x (broadcastInDim S200000x32 ![] bcast_S_S200000x32 (constant (F := F) S_ .f32 0x00000000#32))) x
    (mulf (broadcastInDim S200000x32 ![] bcast_S_S200000x32 (constant (F := F) S_ .f32 0x3F800000#32))
      (Host.expm1 (select (cmpf .ogt x (broadcastInDim S200000x32 ![] bcast_S_S200000x32 (constant (F := F) S_ .f32 0x00000000#32)))
        (broadcastInDim S200000x32 ![] bcast_S_S200000x32 (id (constant (F := F) S_ .f32 0x00000000#32))) x)))

def rLin64 (x : FVec F S200000x64 .f32) (W : FVec F S32x64 .f32) (b : FVec F S32 .f32) : FVec F S200000x32 .f32 :=
  addf (Host.dotGeneral dot_S200000x64_S64x32_S200000x32_1_0_0_1_n_n none x (transpose S64x32 [1, 0] W transposes_S32x64_S64x32_1_0))
    (broadcastInDim S200000x32 ![0, 1] bcast_S1x32_S200000x32_0_1 (broadcastInDim S1x32 ![1] bcast_S32_S1x32_1 b))

def rLin32 (x : FVec F S200000x32 .f32) (W : FVec F S32x32 .f32) (b : FVec F S32 .f32) : FVec F S200000x32 .f32 :=
  addf (Host.dotGeneral dot_S200000x32_S32x32_S200000x32_1_0_0_1_n_n none x (transpose S32x32 [1, 0] W transposes_S32x32_S32x32_1_0))
    (broadcastInDim S200000x32 ![0, 1] bcast_S1x32_S200000x32_0_1 (broadcastInDim S1x32 ![1] bcast_S32_S1x32_1 b))

def rLin96 (x : FVec F S200000x32 .f32) (W : FVec F S96x32 .f32) (b : FVec F S96 .f32) : FVec F S200000x96 .f32 :=
  addf (Host.dotGeneral dot_S200000x32_S32x96_S200000x96_1_0_0_1_n_n none x (transpose S32x96 [1, 0] W transposes_S96x32_S32x96_1_0))
    (broadcastInDim S200000x96 ![0, 1] bcast_S1x96_S200000x96_0_1 (broadcastInDim S1x96 ![1] bcast_S96_S1x96_1 b))

end Names

theorem rEluV_eq (x : FVec Ideal S200000x32 .f32) : rEluV x = fun j => Cert.Spec.elu (x j) := elu_stage x

theorem rLin64_eq (x : FVec Ideal S200000x64 .f32) (W : FVec Ideal S32x64 .f32) (b : FVec Ideal S32 .f32) :
    rLin64 x W b = Cert.Spec.lin x W (fun j => b (ix1 (j 1))) :=
  lin_apply transposes_S32x64_S64x32_1_0 bcast_S32_S1x32_1 bcast_S1x32_S200000x32_0_1 x W b

theorem rLin32_eq (x : FVec Ideal S200000x32 .f32) (W : FVec Ideal S32x32 .f32) (b : FVec Ideal S32 .f32) :
    rLin32 x W b = Cert.Spec.lin x W (fun j => b (ix1 (j 1))) :=
  lin_apply transposes_S32x32_S32x32_1_0 bcast_S32_S1x32_1 bcast_S1x32_S200000x32_0_1 x W b

theorem rLin96_eq (x : FVec Ideal S200000x32 .f32) (W : FVec Ideal S96x32 .f32) (b : FVec Ideal S96 .f32) :
    rLin96 x W b = Cert.Spec.lin x W (fun j => b (ix1 (j 1))) :=
  lin_apply transposes_S96x32_S32x96_1_0 bcast_S96_S1x96_1 bcast_S1x96_S200000x96_0_1 x W b

theorem rLin32_rEluV_eq (h : FVec Ideal S200000x32 .f32) (W : FVec Ideal S32x32 .f32) (b : FVec Ideal S32 .f32) :
    rLin32 (rEluV h) W b = Cert.Spec.eluLin h W (fun j => b (ix1 (j 1))) := by
  rw [rEluV_eq, rLin32_eq]; rfl

section Names2
variable {F : FTy → Type} [FloatOps F]

def rScore (zs zd : FVec F S1600000x32 .f32) (aW : FVec F S1x64 .f32) (ab : FVec F S1 .f32) : FVec F S1600000x1 .f32 :=
  addf (Host.dotGeneral dot_S1600000x64_S64x1_S1600000x1_1_0_0_1_n_n none
      (concatenate S1600000x64 1 [⟨S1600000x32, zs⟩, ⟨S1600000x32, zd⟩] concatenates_S1600000x32_S1600000x32_S1600000x64_d1)
      (transpose S64x1 [1, 0] aW transposes_S1x64_S64x1_1_0))
    (broadcastInDim S1600000x1 ![0, 1] bcast_S1x1_S1600000x1_0_1 (broadcastInDim S1x1 ![1] bcast_S1_S1x1_1 ab))

def rLeaky (e : FVec F S1600000x1 .f32) : FVec F S1600000x1 .f32 :=
  select (cmpf .oge e (broadcastInDim S1600000x1 ![] bcast_S_S1600000x1 (constant (F := F) S_ .f32 0x00000000#32))) e
    (mulf (broadcastInDim S1600000x1 ![] bcast_S_S1600000x1 (id (constant (F := F) S_ .f32 0x3C23D70A#32))) e)

def rEdge (zs zd : FVec F S1600000x32 .f32) (aW : FVec F S1x64 .f32) (ab : FVec F S1 .f32) : FVec F S1600000x32 .f32 :=
  mulf zs (broadcastInDim S1600000x32 ![0, 1] bcast_S1600000x1_S1600000x32_0_1 (rLeaky (rScore zs zd aW ab)))

end Names2

theorem score_sum (zs zd : FVec Ideal S1600000x32 .f32) (aW : FVec Ideal S1x64 .f32) (p : Fin 1600000) :
    (∑ c : Fin 64, concatenate S1600000x64 1 [⟨S1600000x32, zs⟩, ⟨S1600000x32, zd⟩]
          concatenates_S1600000x32_S1600000x32_S1600000x64_d1 (ix2 p c)
        * transpose S64x1 [1, 0] aW transposes_S1x64_S64x1_1_0 (ix2 c (0 : Fin 1)))
      = (∑ k : Fin 32, zs (ix2 p k) * aW (ix2 (0 : Fin 1) (⟨k.val, by omega⟩ : Fin 64)))
        + ∑ k : Fin 32, zd (ix2 p k) * aW (ix2 (0 : Fin 1) (⟨32 + k.val, by omega⟩ : Fin 64)) := by
  refine (Fin.sum_univ_add (M := EReal) (a := 32) (b := 32) (fun c : Fin 64 =>
    concatenate S1600000x64 1 [⟨S1600000x32, zs⟩, ⟨S1600000x32, zd⟩]
          concatenates_S1600000x32_S1600000x32_S1600000x64_d1 (ix2 p c)
        * transpose S64x1 [1, 0] aW transposes_S1x64_S64x1_1_0 (ix2 c (0 : Fin 1)))).trans ?_
  congr 1
  · refine Finset.sum_congr rfl fun k _ => ?_
    rw [transpose_ix2_apply]
    rw [concatenate_pair_apply_left (1 : Fin 2) zs zd concatenates_S1600000x32_S1600000x32_S1600000x64_d1
      (ix2 p (Fin.castAdd 32 k)) rfl (ix2 p k) (fun b => by match b with | ⟨0, _⟩ => rfl | ⟨1, _⟩ => rfl)]
    rfl
  · refine Finset.sum_congr rfl fun k _ => ?_
    rw [transpose_ix2_apply]
    rw [concatenate_pair_apply_right (1 : Fin 2) zs zd concatenates_S1600000x32_S1600000x32_S1600000x64_d1
      (ix2 p (Fin.natAdd 32 k)) rfl rfl (ix2 p k)
      (fun b hb => by
        match b with
        | ⟨0, _⟩ => rfl
        | ⟨1, _⟩ => exact absurd rfl hb)
      (by show k.val + 32 = 32 + k.val; omega)]
    rfl

theorem rScore_apply (zs zd : FVec Ideal S1600000x32 .f32) (aW : FVec Ideal S1x64 .f32) (ab : FVec Ideal S1 .f32)
    (p : Fin 1600000) :
    rScore zs zd aW ab (ix2 p (0 : Fin 1))
      = Cert.Spec.scoreAt zs zd (fun j => aW (ix2 (0 : Fin 1) (⟨(j 1).val, by have := idx2_lt1 j; omega⟩ : Fin 64)))
          (fun j => aW (ix2 (0 : Fin 1) (⟨32 + (j 1).val, by have := idx2_lt1 j; omega⟩ : Fin 64)))
          (fun _ => ab (ix1 (0 : Fin 1))) p := by
  unfold rScore Cert.Spec.scoreAt
  rw [addf_apply, bias_apply]
  congr 1
  exact (plain_dot_apply 1600000 64 1 _ _ p 0).trans (score_sum zs zd aW p)

theorem rEdge_eq (zs zd : FVec Ideal S1600000x32 .f32) (aW : FVec Ideal S1x64 .f32) (ab : FVec Ideal S1 .f32) :
    rEdge zs zd aW ab
      = Cert.Spec.edge zs zd (fun j => aW (ix2 (0 : Fin 1) (⟨(j 1).val, by have := idx2_lt1 j; omega⟩ : Fin 64)))
          (fun j => aW (ix2 (0 : Fin 1) (⟨32 + (j 1).val, by have := idx2_lt1 j; omega⟩ : Fin 64)))
          (fun _ => ab (ix1 (0 : Fin 1))) := by
  funext j
  obtain ⟨p, q, rfl⟩ : ∃ p q, j = ix2 p q := ⟨j 0, j 1, eq_ix2 j⟩
  unfold rEdge Cert.Spec.edge
  rw [mulf_apply]
  rw [broadcastInDim_apply _ bcast_S1600000x1_S1600000x32_0_1 _ (ix2 p q) (ix2 p (0 : Fin 1)) (fun a => by
    match a with
    | ⟨0, _⟩ => rfl
    | ⟨1, _⟩ => rfl)]
  unfold rLeaky
  rw [select_apply, cmpf_apply, mulf_apply, bcast0_apply, rScore_apply]
  rfl

end Cert.ReferenceIdeal.Hand

end
-- ==== Proof.Ref.ChainReads.lean ====
import proofs.«419864_j2224793059992_3_alg».proof.Proof.Ref.Ops
import proofs.«419864_j2224793059992_3_alg».proof.Proof.Ref.Stages
import proofs.«419864_j2224793059992_3_alg».proof.Proof.Spec
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

section Leaves
variable {F : FTy → Type} [FloatOps F]

def rFeatRows (X : FVec F S4x16x50000x4 .f32) : FVec F S200000x64 .f32 :=
  shapeCast S200000x64 (transpose S4x50000x16x4 [0, 2, 1, 3] X transposes_S4x16x50000x4_S4x50000x16x4_0_2_1_3) shapeCasts_S4x50000x16x4_S200000x64

def rLastCol1 (X : FVec F S4x16x50000x4 .f32) : FVec F S200000x1 .f32 :=
  shapeCast S200000x1 (shapeCast S4x50000 (extractStridedSlice S4x1x50000x1 ![0, 15, 0, 1] X slices_S4x16x50000x4_S4x1x50000x1_0_15_0_1) shapeCasts_S4x1x50000x1_S4x50000) shapeCasts_S4x50000_S200000x1

def rLastCol2 (X : FVec F S4x16x50000x4 .f32) : FVec F S200000x1 .f32 :=
  shapeCast S200000x1 (shapeCast S4x50000 (extractStridedSlice S4x1x50000x1 ![0, 15, 0, 2] X slices_S4x16x50000x4_S4x1x50000x1_0_15_0_2) shapeCasts_S4x1x50000x1_S4x50000) shapeCasts_S4x50000_S200000x1

def rSrc (adj : IVec S2x1600000 32) : IVec S1600000 32 :=
  shapeCast S1600000 (extractStridedSlice S1x1600000 ![0, 0] adj slices_S2x1600000_S1x1600000_0_0) shapeCasts_S1x1600000_S1600000

def rDst (adj : IVec S2x1600000 32) : IVec S1600000 32 :=
  shapeCast S1600000 (extractStridedSlice S1x1600000 ![1, 0] adj slices_S2x1600000_S1x1600000_1_0) shapeCasts_S1x1600000_S1600000

def rWrap (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 200000#32))) a)

def rRowsAt (z : FVec F S200000x32 .f32) (idx : IVec S1600000x1 32) : FVec F S1600000x32 .f32 :=
  Host.gather gather_S200000x32_S1600000x1_S1600000x32_1_0_n_n_0_1_132 z idx

def rSumInto (dst : IVec S1600000 32) (msg : FVec F S1600000x32 .f32) : FVec F S200000x32 .f32 :=
  Host.scatterAdd scatter_S200000x32_S1600000x1_S1600000x32_1_0_0_1
    (broadcastInDim S200000x32 ![] bcast_S_S200000x32 (constant S_ .f32 0x00000000#32))
    (broadcastInDim S1600000x1 ![0] bcast_S1600000_S1600000x1_0 dst) msg

variable (W : Valuation τ sig (Elt F))

set_option maxHeartbeats 1000000 in
theorem readA_v16 : after (opsA (F := F)) W (main_v16 : DevRef τ sig)
    = rLin64 (rFeatRows (W (main_arg0 : DevRef τ sig))) (W (main_arg4 : DevRef τ sig)) (W (main_arg5 : DevRef τ sig)) := by
  dsimp only [opsA]; after_results; rfl
set_option maxHeartbeats 1000000 in
theorem readA_v2 : after (opsA (F := F)) W (main_v2 : DevRef τ sig) = rLastCol1 (W (main_arg0 : DevRef τ sig)) := by
  dsimp only [opsA]; after_results; rfl
set_option maxHeartbeats 1000000 in
theorem readA_v5 : after (opsA (F := F)) W (main_v5 : DevRef τ sig) = rLastCol2 (W (main_arg0 : DevRef τ sig)) := by
  dsimp only [opsA]; after_results; rfl
set_option maxHeartbeats 1000000 in
theorem readA_v9 : after (opsA (F := F)) W (main_v9 : DevRef τ sig) = rSrc (W (main_arg1 : DevRef τ sig)) := by
  dsimp only [opsA]; after_results; rfl
set_option maxHeartbeats 1000000 in
theorem readA_v11 : after (opsA (F := F)) W (main_v11 : DevRef τ sig) = rDst (W (main_arg1 : DevRef τ sig)) := by
  dsimp only [opsA]; after_results; rfl

set_option maxHeartbeats 4000000 in
theorem readB_v42 : after (opsB (F := F)) W (main_v42 : DevRef τ sig)
    = rSumInto (W (main_v11 : DevRef τ sig))
        (rEdge (rRowsAt (W (main_v16 : DevRef τ sig)) (rWrap (W (main_v9 : DevRef τ sig))))
          (rRowsAt (W (main_v16 : DevRef τ sig)) (rWrap (W (main_v11 : DevRef τ sig))))
          (W (main_arg6 : DevRef τ sig)) (W (main_arg7 : DevRef τ sig))) := by
  dsimp only [opsB]; after_results; rfl

set_option maxHeartbeats 4000000 in
theorem readC_v48 : after (opsC (F := F)) W (main_v48 : DevRef τ sig)
    = rLin32 (rEluV (W (main_v42 : DevRef τ sig))) (W (main_arg8 : DevRef τ sig)) (W (main_arg9 : DevRef τ sig)) := by
  dsimp only [opsC]; after_results; rfl

set_option maxHeartbeats 4000000 in
theorem readD_v74 : after (opsD (F := F)) W (main_v74 : DevRef τ sig)
    = rSumInto (W (main_v11 : DevRef τ sig))
        (rEdge (rRowsAt (W (main_v48 : DevRef τ sig)) (rWrap (W (main_v9 : DevRef τ sig))))
          (rRowsAt (W (main_v48 : DevRef τ sig)) (rWrap (W (main_v11 : DevRef τ sig))))
          (W (main_arg10 : DevRef τ sig)) (W (main_arg11 : DevRef τ sig))) := by
  dsimp only [opsD]; after_results; rfl

end Leaves

end Cert.ReferenceIdeal.Hand

end
-- ==== Proof.Ref.Stages2.lean ====
import proofs.«419864_j2224793059992_3_alg».proof.Proof.Ref.Stages

set_option maxRecDepth 16384

noncomputable section

open scoped BigOperators

namespace Cert.ReferenceIdeal.Hand

open Cert.ReferenceIdeal Cert.ReferenceIdeal.Facts₀
open Idealize.ShloMosaic Idealize.ShloMosaic.ValueIdx

variable [Facts₀]

section Names4
variable {F : FTy → Type} [FloatOps F]

def rSigm {s : Shape} (h0 : S_.BroadcastsInDim s (![] : Fin 0 → Fin s.rank)) (y : FVec F s .f32) : FVec F s .f32 :=
  Host.divf (broadcastInDim s ![] h0 (constant (F := F) S_ .f32 0x3F800000#32))
    (addf (broadcastInDim s ![] h0 (constant (F := F) S_ .f32 0x3F800000#32)) (Host.exp (Host.negf y)))

def rBhh (o : Nat) (hs : S96.Slices ![o] S32) (bhh : FVec F S96 .f32) : FVec F S200000x32 .f32 :=
  broadcastInDim S200000x32 ![0, 1] bcast_S1x32_S200000x32_0_1
    (broadcastInDim S1x32 ![1] bcast_S32_S1x32_1 (extractStridedSlice S32 ![o] bhh hs))

def rGateR (g : FVec F S200000x96 .f32) (bhh : FVec F S96 .f32) : FVec F S200000x32 .f32 :=
  rSigm bcast_S_S200000x32
    (addf (extractStridedSlice S200000x32 ![0, 0] g slices_S200000x96_S200000x32_0_0) (rBhh 0 slices_S96_S32_0 bhh))

def rGateZ (g : FVec F S200000x96 .f32) (bhh : FVec F S96 .f32) : FVec F S200000x32 .f32 :=
  rSigm bcast_S_S200000x32
    (addf (extractStridedSlice S200000x32 ![0, 32] g slices_S200000x96_S200000x32_0_32) (rBhh 32 slices_S96_S32_32 bhh))

def rCand (g : FVec F S200000x96 .f32) (bhh : FVec F S96 .f32) : FVec F S200000x32 .f32 :=
  Host.tanh (addf (extractStridedSlice S200000x32 ![0, 64] g slices_S200000x96_S200000x32_0_64)
    (mulf (rGateR g bhh) (rBhh 64 slices_S96_S32_64 bhh)))

def rGru (u : FVec F S200000x32 .f32) (Wih : FVec F S96x32 .f32) (bih bhh : FVec F S96 .f32) : FVec F S200000x32 .f32 :=
  mulf (subf (broadcastInDim S200000x32 ![] bcast_S_S200000x32 (constant (F := F) S_ .f32 0x3F800000#32))
      (rGateZ (rLin96 u Wih bih) bhh))
    (rCand (rLin96 u Wih bih) bhh)

end Names4

theorem rSigm_apply {s : Shape} (h0 : S_.BroadcastsInDim s (![] : Fin 0 → Fin s.rank)) (y : FVec Ideal s .f32) (j : s.Idx) :
    rSigm h0 y j = Ideal.logistic (y j) := by
  unfold rSigm
  show Ideal.div (broadcastInDim s ![] h0 (constant (F := Ideal) S_ .f32 0x3F800000#32) j)
    (broadcastInDim s ![] h0 (constant (F := Ideal) S_ .f32 0x3F800000#32) j + Ideal.exp (-(y j))) = _
  rw [bcast0_apply]
  show Ideal.div Cert.Spec.one32 (Cert.Spec.one32 + Ideal.exp (-(y j))) = _
  rw [one32_eq]
  rfl

theorem rBhh_apply (o : Nat) (hs : S96.Slices ![o] S32) (bhh : FVec Ideal S96 .f32) (p : Fin 200000) (q : Fin 32)
    (k : Fin 96) (hk : k.val = o + q.val) : rBhh o hs bhh (ix2 p q) = bhh (ix1 k) := by
  unfold rBhh
  rw [bias_apply]
  exact extractStridedSlice_apply _ bhh hs (ix1 q) (ix1 k) (fun a => by match a with | ⟨0, _⟩ => exact hk)

theorem gate_slice_apply (o : Nat) (hs : S200000x96.Slices ![0, o] S200000x32) (g : FVec Ideal S200000x96 .f32)
    (p : Fin 200000) (q : Fin 32) (k : Fin 96) (hk : k.val = o + q.val) :
    extractStridedSlice S200000x32 ![0, o] g hs (ix2 p q) = g (ix2 p k) :=
  slice2_axis1_apply o g hs p q k hk

theorem rGru_eq (h : FVec Ideal S200000x32 .f32) (Wih : FVec Ideal S96x32 .f32) (bih bhh : FVec Ideal S96 .f32) :
    rGru (rEluV h) Wih bih bhh = Cert.Spec.gru h Wih (fun j => bih (ix1 (j 1))) (fun j => bhh (ix1 (j 1))) := by
  funext j
  obtain ⟨p, q, rfl⟩ : ∃ p q, j = ix2 p q := ⟨j 0, j 1, eq_ix2 j⟩
  have hq := q.isLt
  unfold rGru
  rw [rEluV_eq, rLin96_eq]
  generalize hg : Cert.Spec.lin (fun j => Cert.Spec.elu (h j)) Wih (fun j => bih (ix1 (j 1))) = g
  have hgate : ∀ t : Fin 96, g (ix2 p t) = Cert.Spec.gateAt h Wih (fun j => bih (ix1 (j 1))) p t := fun t => by
    rw [← hg]; rfl
  have hR : rGateR g bhh (ix2 p q)
      = Ideal.logistic (Cert.Spec.gateAt h Wih (fun j => bih (ix1 (j 1))) p ⟨q.val, by omega⟩ + bhh (ix1 (⟨q.val, by omega⟩ : Fin 96))) := by
    unfold rGateR
    rw [rSigm_apply, addf_apply, gate_slice_apply 0 _ g p q ⟨q.val, by omega⟩ (Nat.zero_add _).symm,
      rBhh_apply 0 _ bhh p q ⟨q.val, by omega⟩ (Nat.zero_add _).symm, hgate]
  have hZ : rGateZ g bhh (ix2 p q)
      = Ideal.logistic (Cert.Spec.gateAt h Wih (fun j => bih (ix1 (j 1))) p ⟨32 + q.val, by omega⟩ + bhh (ix1 (⟨32 + q.val, by omega⟩ : Fin 96))) := by
    unfold rGateZ
    rw [rSigm_apply, addf_apply, gate_slice_apply 32 _ g p q ⟨32 + q.val, by omega⟩ rfl,
      rBhh_apply 32 _ bhh p q ⟨32 + q.val, by omega⟩ rfl, hgate]
  have hC : rCand g bhh (ix2 p q)
      = Ideal.tanh (Cert.Spec.gateAt h Wih (fun j => bih (ix1 (j 1))) p ⟨64 + q.val, by omega⟩
          + rGateR g bhh (ix2 p q) * bhh (ix1 (⟨64 + q.val, by omega⟩ : Fin 96))) := by
    unfold rCand
    show Ideal.tanh (_ + _ * _) = _
    rw [gate_slice_apply 64 _ g p q ⟨64 + q.val, by omega⟩ rfl,
      rBhh_apply 64 _ bhh p q ⟨64 + q.val, by omega⟩ rfl, hgate]
  rw [mulf_apply, subf_apply, bcast0_apply, hZ, hC, hR]
  rfl

section Names5
variable {F : FTy → Type} [FloatOps F]

def rFeat (h : FVec F S200000x32 .f32) (c2 c5 : FVec F S200000x1 .f32) : FVec F S200000x34 .f32 :=
  concatenate S200000x34 1 [⟨S200000x32, h⟩, ⟨S200000x1, c2⟩, ⟨S200000x1, c5⟩]
    concatenates_S200000x32_S200000x1_S200000x1_S200000x34_d1

def rHead8 (feat : FVec F S200000x34 .f32) (W : FVec F S8x34 .f32) (b : FVec F S8 .f32) : FVec F S200000x8 .f32 :=
  addf (Host.dotGeneral dot_S200000x34_S34x8_S200000x8_1_0_0_1_n_n none feat (transpose S34x8 [1, 0] W transposes_S8x34_S34x8_1_0))
    (broadcastInDim S200000x8 ![0, 1] bcast_S1x8_S200000x8_0_1 (broadcastInDim S1x8 ![1] bcast_S8_S1x8_1 b))

def rHead2 (feat : FVec F S200000x34 .f32) (W : FVec F S2x34 .f32) (b : FVec F S2 .f32) : FVec F S200000x2 .f32 :=
  addf (Host.dotGeneral dot_S200000x34_S34x2_S200000x2_1_0_0_1_n_n none feat (transpose S34x2 [1, 0] W transposes_S2x34_S34x2_1_0))
    (broadcastInDim S200000x2 ![0, 1] bcast_S1x2_S200000x2_0_1 (broadcastInDim S1x2 ![1] bcast_S2_S1x2_1 b))

def rPair (a b : FVec F S200000x8 .f32) : FVec F S200000x8x2 .f32 :=
  concatenate S200000x8x2 2
    [⟨S200000x8x1, broadcastInDim S200000x8x1 ![0, 1] bcast_S200000x8_S200000x8x1_0_1 a⟩,
     ⟨S200000x8x1, broadcastInDim S200000x8x1 ![0, 1] bcast_S200000x8_S200000x8x1_0_1 b⟩]
    concatenates_S200000x8x1_S200000x8x1_S200000x8x2_d2

def rPred (feat : FVec F S200000x34 .f32) (WI : FVec F S8x34 .f32) (bI : FVec F S8 .f32) (WR : FVec F S8x34 .f32)
    (bR : FVec F S8 .f32) : FVec F S200000x8x2 .f32 :=
  rPair (rHead8 feat WI bI) (rHead8 feat WR bR)

end Names5

theorem rFeat_apply (h : FVec Ideal S200000x32 .f32) (c2 c5 : FVec Ideal S200000x1 .f32) (x5 : Cert.Spec.M 200000 5)
    (h2 : ∀ p : Fin 200000, x5 (ix2 p (0 : Fin 5)) = c2 (ix2 p (0 : Fin 1)))
    (h5 : ∀ p : Fin 200000, x5 (ix2 p (1 : Fin 5)) = c5 (ix2 p (0 : Fin 1))) (p : Fin 200000) (k : Fin 34) :
    rFeat h c2 c5 (ix2 p k) = Cert.Spec.featAt h x5 p k := by
  have hk := k.isLt
  unfold rFeat Cert.Spec.featAt
  by_cases h32 : k.val < 32
  · rw [dif_pos h32]
    exact concatenate_apply_piece (t := S200000x34) (1 : Fin 2) [⟨S200000x32, h⟩, ⟨S200000x1, c2⟩, ⟨S200000x1, c5⟩]
        concatenates_S200000x32_S200000x1_S200000x1_S200000x34_d1 (ix2 p k)
      0 (by show 0 < 3; omega) S200000x32 h rfl rfl 0 rfl (ix2 p ⟨k.val, h32⟩)
      (fun b hb => by
        match b with
        | ⟨0, _⟩ => rfl
        | ⟨1, _⟩ => exact absurd rfl hb)
      (Nat.zero_add _)
  · rw [dif_neg h32]
    by_cases h33 : k.val = 32
    · rw [if_pos h33, h2]
      exact concatenate_apply_piece (t := S200000x34) (1 : Fin 2) [⟨S200000x32, h⟩, ⟨S200000x1, c2⟩, ⟨S200000x1, c5⟩]
        concatenates_S200000x32_S200000x1_S200000x1_S200000x34_d1 (ix2 p k)
        1 (by show 1 < 3; omega) S200000x1 c2 rfl rfl 32 rfl (ix2 p (0 : Fin 1))
        (fun b hb => by
          match b with
          | ⟨0, _⟩ => rfl
          | ⟨1, _⟩ => exact absurd rfl hb)
        (by show 32 + 0 = k.val; omega)
    · rw [if_neg h33, h5]
      exact concatenate_apply_piece (t := S200000x34) (1 : Fin 2) [⟨S200000x32, h⟩, ⟨S200000x1, c2⟩, ⟨S200000x1, c5⟩]
        concatenates_S200000x32_S200000x1_S200000x1_S200000x34_d1 (ix2 p k)
        2 (by show 2 < 3; omega) S200000x1 c5 rfl rfl 33 rfl (ix2 p (0 : Fin 1))
        (fun b hb => by
          match b with
          | ⟨0, _⟩ => rfl
          | ⟨1, _⟩ => exact absurd rfl hb)
        (by show 33 + 0 = k.val; omega)

theorem rHead8_apply (h : FVec Ideal S200000x32 .f32) (c2 c5 : FVec Ideal S200000x1 .f32) (x5 : Cert.Spec.M 200000 5)
    (h2 : ∀ p : Fin 200000, x5 (ix2 p (0 : Fin 5)) = c2 (ix2 p (0 : Fin 1)))
    (h5 : ∀ p : Fin 200000, x5 (ix2 p (1 : Fin 5)) = c5 (ix2 p (0 : Fin 1)))
    (W : FVec Ideal S8x34 .f32) (b : FVec Ideal S8 .f32) (p : Fin 200000) (t : Fin 8) :
    rHead8 (rFeat h c2 c5) W b (ix2 p t) = Cert.Spec.headAt h x5 W (fun j => b (ix1 (j 1))) p t := by
  have e : rHead8 (rFeat h c2 c5) W b = Cert.Spec.lin (rFeat h c2 c5) W (fun j => b (ix1 (j 1))) :=
    lin_apply transposes_S8x34_S34x8_1_0 bcast_S8_S1x8_1 bcast_S1x8_S200000x8_0_1 _ W b
  rw [e]
  show (∑ k : Fin 34, rFeat h c2 c5 (ix2 p k) * W (ix2 t k)) + b (ix1 t) = _
  unfold Cert.Spec.headAt
  congr 1
  exact Finset.sum_congr rfl fun k _ => by rw [rFeat_apply h c2 c5 x5 h2 h5]

theorem rHead2_apply (h : FVec Ideal S200000x32 .f32) (c2 c5 : FVec Ideal S200000x1 .f32) (x5 : Cert.Spec.M 200000 5)
    (h2 : ∀ p : Fin 200000, x5 (ix2 p (0 : Fin 5)) = c2 (ix2 p (0 : Fin 1)))
    (h5 : ∀ p : Fin 200000, x5 (ix2 p (1 : Fin 5)) = c5 (ix2 p (0 : Fin 1)))
    (W : FVec Ideal S2x34 .f32) (b : FVec Ideal S2 .f32) (p : Fin 200000) (t : Fin 2) :
    rHead2 (rFeat h c2 c5) W b (ix2 p t) = Cert.Spec.headAt h x5 W (fun j => b (ix1 (j 1))) p t := by
  have e : rHead2 (rFeat h c2 c5) W b = Cert.Spec.lin (rFeat h c2 c5) W (fun j => b (ix1 (j 1))) :=
    lin_apply transposes_S2x34_S34x2_1_0 bcast_S2_S1x2_1 bcast_S1x2_S200000x2_0_1 _ W b
  rw [e]
  show (∑ k : Fin 34, rFeat h c2 c5 (ix2 p k) * W (ix2 t k)) + b (ix1 t) = _
  unfold Cert.Spec.headAt
  congr 1
  exact Finset.sum_congr rfl fun k _ => by rw [rFeat_apply h c2 c5 x5 h2 h5]

theorem rPair_apply {α : Type} (a b : (S200000x8).Idx → α) (p : Fin 200000) (t : Fin 8) (c : Fin 2) :
    concatenate S200000x8x2 2
      [⟨S200000x8x1, broadcastInDim S200000x8x1 ![0, 1] bcast_S200000x8_S200000x8x1_0_1 a⟩,
       ⟨S200000x8x1, broadcastInDim S200000x8x1 ![0, 1] bcast_S200000x8_S200000x8x1_0_1 b⟩]
      concatenates_S200000x8x1_S200000x8x1_S200000x8x2_d2 (ix3 p t c)
      = if c.val = 0 then a (ix2 p t) else b (ix2 p t) := by
  have hb : ∀ (x : (S200000x8).Idx → α),
      broadcastInDim S200000x8x1 ![0, 1] bcast_S200000x8_S200000x8x1_0_1 x (ix3 p t (0 : Fin 1)) = x (ix2 p t) := fun x =>
    broadcastInDim_apply _ bcast_S200000x8_S200000x8x1_0_1 x (ix3 p t (0 : Fin 1)) (ix2 p t) (fun a => by
      match a with
      | ⟨0, _⟩ => rfl
      | ⟨1, _⟩ => rfl)
  match c with
  | ⟨0, h0⟩ =>
    rw [if_pos rfl]
    exact (concatenate_pair_apply_left (t := S200000x8x2) (2 : Fin 3)
      (broadcastInDim S200000x8x1 ![0, 1] bcast_S200000x8_S200000x8x1_0_1 a)
      (broadcastInDim S200000x8x1 ![0, 1] bcast_S200000x8_S200000x8x1_0_1 b)
      concatenates_S200000x8x1_S200000x8x1_S200000x8x2_d2 (ix3 p t ⟨0, h0⟩) rfl
      (ix3 p t (0 : Fin 1)) (fun b => by match b with | ⟨0, _⟩ => rfl | ⟨1, _⟩ => rfl | ⟨2, _⟩ => rfl)).trans (hb a)
  | ⟨1, h1⟩ =>
    rw [if_neg Nat.one_ne_zero]
    exact (concatenate_pair_apply_right (t := S200000x8x2) (2 : Fin 3)
      (broadcastInDim S200000x8x1 ![0, 1] bcast_S200000x8_S200000x8x1_0_1 a)
      (broadcastInDim S200000x8x1 ![0, 1] bcast_S200000x8_S200000x8x1_0_1 b)
      concatenates_S200000x8x1_S200000x8x1_S200000x8x2_d2 (ix3 p t ⟨1, h1⟩) rfl rfl
      (ix3 p t (0 : Fin 1))
      (fun b hb => by
        match b with
        | ⟨0, _⟩ => rfl
        | ⟨1, _⟩ => rfl
        | ⟨2, _⟩ => exact absurd rfl hb)
      (Nat.zero_add 1)).trans (hb b)

theorem rPred_eq (h : FVec Ideal S200000x32 .f32) (c2 c5 : FVec Ideal S200000x1 .f32) (x5 : Cert.Spec.M 200000 5)
    (h2 : ∀ p : Fin 200000, x5 (ix2 p (0 : Fin 5)) = c2 (ix2 p (0 : Fin 1)))
    (h5 : ∀ p : Fin 200000, x5 (ix2 p (1 : Fin 5)) = c5 (ix2 p (0 : Fin 1)))
    (WI : FVec Ideal S8x34 .f32) (bI : FVec Ideal S8 .f32) (WR : FVec Ideal S8x34 .f32) (bR : FVec Ideal S8 .f32) :
    rPred (rFeat h c2 c5) WI bI WR bR
      = Cert.Spec.pred h x5 WI (fun j => bI (ix1 (j 1))) WR (fun j => bR (ix1 (j 1))) := by
  funext j
  obtain ⟨p, t, c, rfl⟩ : ∃ p t c, j = ix3 p t c := ⟨j 0, j 1, j 2, eq_ix3 j⟩
  unfold rPred rPair
  rw [rPair_apply, rHead8_apply h c2 c5 x5 h2 h5, rHead8_apply h c2 c5 x5 h2 h5]
  rfl

section Names6
variable {F : FTy → Type} [FloatOps F]

def rCol0 (X : FVec F S200000x2 .f32) : FVec F S200000 .f32 :=
  shapeCast S200000 (extractStridedSlice S200000x1 ![0, 0] X slices_S200000x2_S200000x1_0_0) shapeCasts_S200000x1_S200000

def rCol1 (X : FVec F S200000x2 .f32) : FVec F S200000 .f32 :=
  shapeCast S200000 (extractStridedSlice S200000x1 ![0, 1] X slices_S200000x2_S200000x1_0_1) shapeCasts_S200000x1_S200000

def rNrep (N : FVec F S50000x1 .f32) : FVec F S200000 .f32 :=
  shapeCast S200000
    (shapeCast S200000x1
      (broadcastInDim S4x50000x1x1 ![0, 1, 2, 3] bcast_S1x50000x1x1_S4x50000x1x1_0_1_2_3
        (shapeCast S1x50000x1x1 N shapeCasts_S50000x1_S1x50000x1x1))
      shapeCasts_S4x50000x1x1_S200000x1)
    shapeCasts_S200000x1_S200000

def rDI (al be nr i r : FVec F S200000 .f32) : FVec F S200000 .f32 :=
  subf (mulf (mulf al i) (Host.divf (subf (subf nr i) r) nr)) (mulf be i)

def rDR (be i : FVec F S200000 .f32) : FVec F S200000 .f32 := mulf be i

def rSirStep (al be nr : FVec F S200000 .f32) (s : FVec F S200000 .f32 × FVec F S200000 .f32) :
    FVec F S200000 .f32 × FVec F S200000 .f32 :=
  (addf s.1 (rDI al be nr s.1 s.2), addf s.2 (rDR be s.1))

def rSir (al be nr i0 r0 : FVec F S200000 .f32) : Nat → FVec F S200000 .f32 × FVec F S200000 .f32
  | 0 => (i0, r0)
  | t + 1 => rSirStep al be nr (rSir al be nr i0 r0 t)

def rStack8 (d0 d1 d2 d3 d4 d5 d6 d7 : FVec F S200000 .f32) : FVec F S200000x8 .f32 :=
  concatenate S200000x8 1
    [⟨S200000x1, broadcastInDim S200000x1 ![0] bcast_S200000_S200000x1_0 d0⟩,
     ⟨S200000x1, broadcastInDim S200000x1 ![0] bcast_S200000_S200000x1_0 d1⟩,
     ⟨S200000x1, broadcastInDim S200000x1 ![0] bcast_S200000_S200000x1_0 d2⟩,
     ⟨S200000x1, broadcastInDim S200000x1 ![0] bcast_S200000_S200000x1_0 d3⟩,
     ⟨S200000x1, broadcastInDim S200000x1 ![0] bcast_S200000_S200000x1_0 d4⟩,
     ⟨S200000x1, broadcastInDim S200000x1 ![0] bcast_S200000_S200000x1_0 d5⟩,
     ⟨S200000x1, broadcastInDim S200000x1 ![0] bcast_S200000_S200000x1_0 d6⟩,
     ⟨S200000x1, broadcastInDim S200000x1 ![0] bcast_S200000_S200000x1_0 d7⟩]
    concatenates_S200000x1_S200000x1_S200000x1_S200000x1_S200000x1_S200000x1_S200000x1_S200000x1_S200000x8_d1

def rPhyOf (al be nr i0 r0 : FVec F S200000 .f32) : FVec F S200000x8x2 .f32 :=
  rPair
    (rStack8
      (rDI al be nr (rSir al be nr i0 r0 0).1 (rSir al be nr i0 r0 0).2)
      (rDI al be nr (rSir al be nr i0 r0 1).1 (rSir al be nr i0 r0 1).2)
      (rDI al be nr (rSir al be nr i0 r0 2).1 (rSir al be nr i0 r0 2).2)
      (rDI al be nr (rSir al be nr i0 r0 3).1 (rSir al be nr i0 r0 3).2)
      (rDI al be nr (rSir al be nr i0 r0 4).1 (rSir al be nr i0 r0 4).2)
      (rDI al be nr (rSir al be nr i0 r0 5).1 (rSir al be nr i0 r0 5).2)
      (rDI al be nr (rSir al be nr i0 r0 6).1 (rSir al be nr i0 r0 6).2)
      (rDI al be nr (rSir al be nr i0 r0 7).1 (rSir al be nr i0 r0 7).2))
    (rStack8
      (rDR be (rSir al be nr i0 r0 0).1) (rDR be (rSir al be nr i0 r0 1).1)
      (rDR be (rSir al be nr i0 r0 2).1) (rDR be (rSir al be nr i0 r0 3).1)
      (rDR be (rSir al be nr i0 r0 4).1) (rDR be (rSir al be nr i0 r0 5).1)
      (rDR be (rSir al be nr i0 r0 6).1) (rDR be (rSir al be nr i0 r0 7).1))

def rPhy (feat : FVec F S200000x34 .f32) (Wsir : FVec F S2x34 .f32) (bsir : FVec F S2 .f32) (states : FVec F S200000x2 .f32)
    (N : FVec F S50000x1 .f32) : FVec F S200000x8x2 .f32 :=
  rPhyOf (rSigm bcast_S_S200000 (rCol0 (rHead2 feat Wsir bsir))) (rSigm bcast_S_S200000 (rCol1 (rHead2 feat Wsir bsir)))
    (rNrep N) (rCol0 states) (rCol1 states)

end Names6

theorem rCol0_apply (X : FVec Ideal S200000x2 .f32) (p : Fin 200000) : rCol0 X (ix1 p) = X (ix2 p (0 : Fin 2)) := by
  unfold rCol0
  refine (shapeCast_apply _ shapeCasts_S200000x1_S200000 (ix1 p) (ix2 p (0 : Fin 1)) (by
    rw [Shape.rowMajor_val_two, Shape.rowMajor_val_one]
    show p.val * 1 + 0 = p.val
    omega)).trans ?_
  exact slice2_axis1_apply 0 X slices_S200000x2_S200000x1_0_0 p (0 : Fin 1) (0 : Fin 2) rfl

theorem rCol1_apply (X : FVec Ideal S200000x2 .f32) (p : Fin 200000) : rCol1 X (ix1 p) = X (ix2 p (1 : Fin 2)) := by
  unfold rCol1
  refine (shapeCast_apply _ shapeCasts_S200000x1_S200000 (ix1 p) (ix2 p (0 : Fin 1)) (by
    rw [Shape.rowMajor_val_two, Shape.rowMajor_val_one]
    show p.val * 1 + 0 = p.val
    omega)).trans ?_
  exact slice2_axis1_apply 1 X slices_S200000x2_S200000x1_0_1 p (0 : Fin 1) (1 : Fin 2) rfl

theorem rNrep_apply (N : FVec Ideal S50000x1 .f32) (p : Fin 200000) :
    rNrep N (ix1 p) = N (ix2 (⟨p.val % 50000, Nat.mod_lt _ (by decide)⟩ : Fin 50000) (0 : Fin 1)) := by
  have hp := p.isLt
  unfold rNrep
  refine (shapeCast_apply _ shapeCasts_S200000x1_S200000 (ix1 p) (ix2 p (0 : Fin 1)) (by
    rw [Shape.rowMajor_val_two, Shape.rowMajor_val_one]
    show p.val * 1 + 0 = p.val
    omega)).trans ?_
  refine (shapeCast_apply _ shapeCasts_S4x50000x1x1_S200000x1 (ix2 p (0 : Fin 1))
    (ix4 (⟨p.val / 50000, by omega⟩ : Fin 4) (⟨p.val % 50000, Nat.mod_lt _ (by decide)⟩ : Fin 50000) (0 : Fin 1) (0 : Fin 1)) (by
    rw [Shape.rowMajor_val_four, Shape.rowMajor_val_two]
    show ((p.val / 50000 * 50000 + p.val % 50000) * 1 + 0) * 1 + 0 = p.val * 1 + 0
    omega)).trans ?_
  refine (broadcastInDim_apply _ bcast_S1x50000x1x1_S4x50000x1x1_0_1_2_3 _ _
    (ix4 (0 : Fin 1) (⟨p.val % 50000, Nat.mod_lt _ (by decide)⟩ : Fin 50000) (0 : Fin 1) (0 : Fin 1)) (fun a => by
    match a with
    | ⟨0, _⟩ => rfl
    | ⟨1, _⟩ => rfl
    | ⟨2, _⟩ => rfl
    | ⟨3, _⟩ => rfl)).trans ?_
  exact shapeCast_apply N shapeCasts_S50000x1_S1x50000x1x1 _ (ix2 (⟨p.val % 50000, Nat.mod_lt _ (by decide)⟩ : Fin 50000) (0 : Fin 1)) (by
    rw [Shape.rowMajor_val_four, Shape.rowMajor_val_two]
    show (p.val % 50000) * 1 + 0 = ((0 * 50000 + p.val % 50000) * 1 + 0) * 1 + 0
    omega)

theorem rSir_apply (al be nr i0 r0 : FVec Ideal S200000 .f32) (j : S200000.Idx) : ∀ t : Nat,
    ((rSir al be nr i0 r0 t).1 j, (rSir al be nr i0 r0 t).2 j) = Cert.Spec.sirState (al j) (be j) (nr j) (i0 j) (r0 j) t
  | 0 => rfl
  | t + 1 => by
    have ih := rSir_apply al be nr i0 r0 j t
    show ((rSirStep al be nr (rSir al be nr i0 r0 t)).1 j, (rSirStep al be nr (rSir al be nr i0 r0 t)).2 j) = _
    unfold Cert.Spec.sirState
    rw [← ih]
    rfl

theorem rDI_apply (al be nr i0 r0 : FVec Ideal S200000 .f32) (j : S200000.Idx) (t : Nat) :
    rDI al be nr (rSir al be nr i0 r0 t).1 (rSir al be nr i0 r0 t).2 j
      = (Cert.Spec.sirD (al j) (be j) (nr j) (Cert.Spec.sirState (al j) (be j) (nr j) (i0 j) (r0 j) t).1
          (Cert.Spec.sirState (al j) (be j) (nr j) (i0 j) (r0 j) t).2).1 := by
  rw [← rSir_apply al be nr i0 r0 j t]; rfl

theorem rDR_apply (al be nr i0 r0 : FVec Ideal S200000 .f32) (j : S200000.Idx) (t : Nat) :
    rDR be (rSir al be nr i0 r0 t).1 j
      = (Cert.Spec.sirD (al j) (be j) (nr j) (Cert.Spec.sirState (al j) (be j) (nr j) (i0 j) (r0 j) t).1
          (Cert.Spec.sirState (al j) (be j) (nr j) (i0 j) (r0 j) t).2).2 := by
  rw [← rSir_apply al be nr i0 r0 j t]; rfl

theorem col_apply {α : Type} (d : S200000.Idx → α) (p : Fin 200000) :
    broadcastInDim S200000x1 ![0] bcast_S200000_S200000x1_0 d (ix2 p (0 : Fin 1)) = d (ix1 p) :=
  broadcastInDim_apply _ bcast_S200000_S200000x1_0 d (ix2 p (0 : Fin 1)) (ix1 p) (fun a => by
    match a with
    | ⟨0, _⟩ => rfl)

abbrev cols8 {α : Type} (d : Fin 8 → S200000.Idx → α) : List ((s : Shape) × (s.Idx → α)) :=
  [⟨S200000x1, broadcastInDim S200000x1 ![0] bcast_S200000_S200000x1_0 (d 0)⟩,
   ⟨S200000x1, broadcastInDim S200000x1 ![0] bcast_S200000_S200000x1_0 (d 1)⟩,
   ⟨S200000x1, broadcastInDim S200000x1 ![0] bcast_S200000_S200000x1_0 (d 2)⟩,
   ⟨S200000x1, broadcastInDim S200000x1 ![0] bcast_S200000_S200000x1_0 (d 3)⟩,
   ⟨S200000x1, broadcastInDim S200000x1 ![0] bcast_S200000_S200000x1_0 (d 4)⟩,
   ⟨S200000x1, broadcastInDim S200000x1 ![0] bcast_S200000_S200000x1_0 (d 5)⟩,
   ⟨S200000x1, broadcastInDim S200000x1 ![0] bcast_S200000_S200000x1_0 (d 6)⟩,
   ⟨S200000x1, broadcastInDim S200000x1 ![0] bcast_S200000_S200000x1_0 (d 7)⟩]

theorem rStack8_apply (d : Fin 8 → FVec Ideal S200000 .f32) (p : Fin 200000) (t : Fin 8) :
    rStack8 (d 0) (d 1) (d 2) (d 3) (d 4) (d 5) (d 6) (d 7) (ix2 p t) = d t (ix1 p) := by
  unfold rStack8
  rw [← col_apply (d t) p]
  have key : ∀ (k : Nat) (hk : k < 8), t.val = k →
      (cols8 d)[k]'hk = ⟨S200000x1, broadcastInDim S200000x1 ![0] bcast_S200000_S200000x1_0 (d t)⟩ := by
    intro k hk hkt
    have : t = ⟨k, hk⟩ := Fin.ext hkt
    subst this
    interval_cases k <;> rfl
  have pre : ∀ (k : Nat) (hk : k ≤ 8),
      ((((cols8 d).take k).map (·.1)).map
          fun s => if h : s.rank = S200000x8.rank then s.size ((1 : Fin S200000x8.rank).cast h.symm) else 0).sum = k := by
    intro k hk
    interval_cases k <;> rfl
  exact concatenate_apply_piece (t := S200000x8) (1 : Fin 2) (cols8 d)
    concatenates_S200000x1_S200000x1_S200000x1_S200000x1_S200000x1_S200000x1_S200000x1_S200000x1_S200000x8_d1 (ix2 p t)
    t.val t.isLt S200000x1 _ (key t.val t.isLt rfl) rfl t.val (pre t.val (Nat.le_of_lt t.isLt)) (ix2 p (0 : Fin 1))
    (fun b hb => by
      match b with
      | ⟨0, _⟩ => rfl
      | ⟨1, _⟩ => exact absurd rfl hb)
    (Nat.add_zero _)

theorem rPhyOf_apply (al be nr i0 r0 : FVec Ideal S200000 .f32) (p : Fin 200000) (t : Fin 8) (c : Fin 2) :
    rPhyOf al be nr i0 r0 (ix3 p t c)
      = if c.val = 0 then
          (Cert.Spec.sirD (al (ix1 p)) (be (ix1 p)) (nr (ix1 p))
            (Cert.Spec.sirState (al (ix1 p)) (be (ix1 p)) (nr (ix1 p)) (i0 (ix1 p)) (r0 (ix1 p)) t.val).1
            (Cert.Spec.sirState (al (ix1 p)) (be (ix1 p)) (nr (ix1 p)) (i0 (ix1 p)) (r0 (ix1 p)) t.val).2).1
        else
          (Cert.Spec.sirD (al (ix1 p)) (be (ix1 p)) (nr (ix1 p))
            (Cert.Spec.sirState (al (ix1 p)) (be (ix1 p)) (nr (ix1 p)) (i0 (ix1 p)) (r0 (ix1 p)) t.val).1
            (Cert.Spec.sirState (al (ix1 p)) (be (ix1 p)) (nr (ix1 p)) (i0 (ix1 p)) (r0 (ix1 p)) t.val).2).2 := by
  unfold rPhyOf rPair
  rw [rPair_apply]
  have eI := rStack8_apply (fun s : Fin 8 => rDI al be nr (rSir al be nr i0 r0 s.val).1 (rSir al be nr i0 r0 s.val).2) p t
  have eR := rStack8_apply (fun s : Fin 8 => rDR be (rSir al be nr i0 r0 s.val).1) p t
  rw [show rStack8
      (rDI al be nr (rSir al be nr i0 r0 0).1 (rSir al be nr i0 r0 0).2)
      (rDI al be nr (rSir al be nr i0 r0 1).1 (rSir al be nr i0 r0 1).2)
      (rDI al be nr (rSir al be nr i0 r0 2).1 (rSir al be nr i0 r0 2).2)
      (rDI al be nr (rSir al be nr i0 r0 3).1 (rSir al be nr i0 r0 3).2)
      (rDI al be nr (rSir al be nr i0 r0 4).1 (rSir al be nr i0 r0 4).2)
      (rDI al be nr (rSir al be nr i0 r0 5).1 (rSir al be nr i0 r0 5).2)
      (rDI al be nr (rSir al be nr i0 r0 6).1 (rSir al be nr i0 r0 6).2)
      (rDI al be nr (rSir al be nr i0 r0 7).1 (rSir al be nr i0 r0 7).2) (ix2 p t)
      = rDI al be nr (rSir al be nr i0 r0 t.val).1 (rSir al be nr i0 r0 t.val).2 (ix1 p) from eI,
    show rStack8
      (rDR be (rSir al be nr i0 r0 0).1) (rDR be (rSir al be nr i0 r0 1).1)
      (rDR be (rSir al be nr i0 r0 2).1) (rDR be (rSir al be nr i0 r0 3).1)
      (rDR be (rSir al be nr i0 r0 4).1) (rDR be (rSir al be nr i0 r0 5).1)
      (rDR be (rSir al be nr i0 r0 6).1) (rDR be (rSir al be nr i0 r0 7).1) (ix2 p t)
      = rDR be (rSir al be nr i0 r0 t.val).1 (ix1 p) from eR,
    rDI_apply, rDR_apply]

theorem rPhy_eq (h : FVec Ideal S200000x32 .f32) (c2 c5 : FVec Ideal S200000x1 .f32) (x5 : Cert.Spec.M 200000 5)
    (states : FVec Ideal S200000x2 .f32) (N : FVec Ideal S50000x1 .f32)
    (h0 : ∀ p : Fin 200000, x5 (ix2 p (0 : Fin 5)) = c2 (ix2 p (0 : Fin 1)))
    (h1 : ∀ p : Fin 200000, x5 (ix2 p (1 : Fin 5)) = c5 (ix2 p (0 : Fin 1)))
    (h2 : ∀ p : Fin 200000, x5 (ix2 p (2 : Fin 5)) = states (ix2 p (0 : Fin 2)))
    (h3 : ∀ p : Fin 200000, x5 (ix2 p (3 : Fin 5)) = states (ix2 p (1 : Fin 2)))
    (h4 : ∀ p : Fin 200000, x5 (ix2 p (4 : Fin 5))
      = N (ix2 (⟨p.val % 50000, Nat.mod_lt _ (by decide)⟩ : Fin 50000) (0 : Fin 1)))
    (Wsir : FVec Ideal S2x34 .f32) (bsir : FVec Ideal S2 .f32) :
    rPhy (rFeat h c2 c5) Wsir bsir states N = Cert.Spec.phy h x5 Wsir (fun j => bsir (ix1 (j 1))) := by
  funext j
  obtain ⟨p, t, c, rfl⟩ : ∃ p t c, j = ix3 p t c := ⟨j 0, j 1, j 2, eq_ix3 j⟩
  unfold rPhy
  rw [rPhyOf_apply, rSigm_apply, rSigm_apply, rCol0_apply, rCol1_apply, rCol0_apply, rCol1_apply, rNrep_apply,
    rHead2_apply h c2 c5 x5 h0 h1, rHead2_apply h c2 c5 x5 h0 h1, ← h2, ← h3, ← h4]
  rfl

end Cert.ReferenceIdeal.Hand

end
-- ==== Proof.Ref.ChainEF.lean ====
import proofs.«419864_j2224793059992_3_alg».proof.Proof.Ref.Ops
import proofs.«419864_j2224793059992_3_alg».proof.Proof.Ref.Run
import proofs.«419864_j2224793059992_3_alg».proof.Proof.Ref.Stages
import proofs.«419864_j2224793059992_3_alg».proof.Proof.Ref.Stages2
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

theorem nary8_result {x0 x1 x2 x3 x4 x5 x6 x7 y : Ref sig .tc}
    (f : ((k : Fin 8) → ((![x0, x1, x2, x3, x4, x5, x6, x7] : Fin 8 → Ref sig .tc) k).ty.Contents (Elt F)) → y.ty.Contents (Elt F))
    (hxs hy) (V : Valuation τ sig (Elt F)) :
    (nary (τ := τ) ![x0, x1, x2, x3, x4, x5, x6, x7] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
          (Fin.cons (V (Proc.devRef .tc x6)) (Fin.cons (V (Proc.devRef .tc x7)) (fun i => i.elim0))))))))) := by
  rw [nary_result]; congr 1; funext k; fin_cases k <;> rfl

macro "after_reads" : tactic =>
  `(tactic| (simp only [after_cons, after_nil]
             repeat (first
               | rw [nullary_result] | rw [unary_result] | rw [binary_result] | rw [ternary_result]
               | rw [reshape_result] | rw [nary8_result] | rw [nary_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

set_option maxRecDepth 16384 in
theorem eUnit_writes : (eUnit : List (HloOp τ sig (Elt F))).Forall fun op => op.writes ⊆ ((eUnit_W).map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem eUnit_keeps (V : Valuation τ sig (Elt F)) (r : Ref sig .tc) (hr : r ∉ eUnit_W) :
    after (eUnit (F := F)) V (Proc.devRef .tc r) = V (Proc.devRef .tc r) :=
  after_of_writes_sub eUnit V eUnit_writes hr

set_option maxRecDepth 16384 in
theorem eLin_writes : (eLin : List (HloOp τ sig (Elt F))).Forall fun op => op.writes ⊆ ((eLin_W).map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem eLin_keeps (V : Valuation τ sig (Elt F)) (r : Ref sig .tc) (hr : r ∉ eLin_W) :
    after (eLin (F := F)) V (Proc.devRef .tc r) = V (Proc.devRef .tc r) :=
  after_of_writes_sub eLin V eLin_writes hr

set_option maxRecDepth 16384 in
theorem eGates_writes : (eGates : List (HloOp τ sig (Elt F))).Forall fun op => op.writes ⊆ ((eGates_W).map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem eGates_keeps (V : Valuation τ sig (Elt F)) (r : Ref sig .tc) (hr : r ∉ eGates_W) :
    after (eGates (F := F)) V (Proc.devRef .tc r) = V (Proc.devRef .tc r) :=
  after_of_writes_sub eGates V eGates_writes hr

theorem opsE_cut : (opsE : List (HloOp τ sig (Elt F))) = eUnit ++ (eLin ++ eGates) := rfl

section
variable (W : Valuation τ sig (Elt F))

set_option maxHeartbeats 4000000 in
theorem unit_v75 : after (eUnit (F := F)) W (main_v75 : DevRef τ sig)
    = rEluV (F := F) (W (main_v74 : DevRef τ sig)) := by
  dsimp only [eUnit]; after_reads; rfl
set_option maxHeartbeats 1000000 in
theorem lin_v80 : after (eLin (F := F)) W (main_v80 : DevRef τ sig)
    = rLin96 (F := F) (W (main_v75 : DevRef τ sig)) (W (main_arg12 : DevRef τ sig)) (W (main_arg14 : DevRef τ sig)) := by
  dsimp only [eLin]; after_reads; rfl
set_option maxHeartbeats 4000000 in
theorem gates_v112 : after (eGates (F := F)) W (main_v112 : DevRef τ sig)
    = mulf (subf (broadcastInDim S200000x32 ![] bcast_S_S200000x32 (constant (F := F) S_ .f32 0x3F800000#32))
        (rGateZ (W (main_v80 : DevRef τ sig)) (W (main_arg15 : DevRef τ sig)))) (rCand (W (main_v80 : DevRef τ sig)) (W (main_arg15 : DevRef τ sig))) := by
  dsimp only [eGates]; after_reads; rfl

theorem chainE_v112 : after (opsE (F := F)) W (main_v112 : DevRef τ sig)
    = rGru (F := F) (rEluV (W (main_v74 : DevRef τ sig))) (W (main_arg12 : DevRef τ sig)) (W (main_arg14 : DevRef τ sig)) (W (main_arg15 : DevRef τ sig)) := by
  rw [opsE_cut, after_append, after_append, gates_v112, lin_v80, unit_v75,
    eLin_keeps _ main_arg15 (by decide), eUnit_keeps _ main_arg15 (by decide),
    eUnit_keeps _ main_arg12 (by decide), eUnit_keeps _ main_arg14 (by decide)]
  rfl

end

set_option maxRecDepth 16384 in
theorem fHeads_writes : (fHeads : List (HloOp τ sig (Elt F))).Forall fun op => op.writes ⊆ ((fHeads_W).map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem fHeads_keeps (V : Valuation τ sig (Elt F)) (r : Ref sig .tc) (hr : r ∉ fHeads_W) :
    after (fHeads (F := F)) V (Proc.devRef .tc r) = V (Proc.devRef .tc r) :=
  after_of_writes_sub fHeads V fHeads_writes hr

set_option maxRecDepth 16384 in
theorem fRates_writes : (fRates : List (HloOp τ sig (Elt F))).Forall fun op => op.writes ⊆ ((fRates_W).map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem fRates_keeps (V : Valuation τ sig (Elt F)) (r : Ref sig .tc) (hr : r ∉ fRates_W) :
    after (fRates (F := F)) V (Proc.devRef .tc r) = V (Proc.devRef .tc r) :=
  after_of_writes_sub fRates V fRates_writes hr

set_option maxRecDepth 16384 in
theorem fStep0_writes : (fStep0 : List (HloOp τ sig (Elt F))).Forall fun op => op.writes ⊆ ((fStep0_W).map (Proc.devRef (τ := τ) .tc)).toFinset := by
  simp only [fStep0, sirStep, List.Forall, nullary_writes, unary_writes, binary_writes, ternary_writes, reshape_writes, nary_writes,
    Finset.singleton_subset_iff, List.mem_toFinset]
  repeat' apply And.intro
  all_goals exact List.mem_map_of_mem (by decide)

theorem fStep0_keeps (V : Valuation τ sig (Elt F)) (r : Ref sig .tc) (hr : r ∉ fStep0_W) :
    after (fStep0 (F := F)) V (Proc.devRef .tc r) = V (Proc.devRef .tc r) :=
  after_of_writes_sub fStep0 V fStep0_writes hr

set_option maxRecDepth 16384 in
theorem fStep1_writes : (fStep1 : List (HloOp τ sig (Elt F))).Forall fun op => op.writes ⊆ ((fStep1_W).map (Proc.devRef (τ := τ) .tc)).toFinset := by
  simp only [fStep1, sirStep, List.Forall, nullary_writes, unary_writes, binary_writes, ternary_writes, reshape_writes, nary_writes,
    Finset.singleton_subset_iff, List.mem_toFinset]
  repeat' apply And.intro
  all_goals exact List.mem_map_of_mem (by decide)

theorem fStep1_keeps (V : Valuation τ sig (Elt F)) (r : Ref sig .tc) (hr : r ∉ fStep1_W) :
    after (fStep1 (F := F)) V (Proc.devRef .tc r) = V (Proc.devRef .tc r) :=
  after_of_writes_sub fStep1 V fStep1_writes hr

set_option maxRecDepth 16384 in
theorem fStep2_writes : (fStep2 : List (HloOp τ sig (Elt F))).Forall fun op => op.writes ⊆ ((fStep2_W).map (Proc.devRef (τ := τ) .tc)).toFinset := by
  simp only [fStep2, sirStep, List.Forall, nullary_writes, unary_writes, binary_writes, ternary_writes, reshape_writes, nary_writes,
    Finset.singleton_subset_iff, List.mem_toFinset]
  repeat' apply And.intro
  all_goals exact List.mem_map_of_mem (by decide)

theorem fStep2_keeps (V : Valuation τ sig (Elt F)) (r : Ref sig .tc) (hr : r ∉ fStep2_W) :
    after (fStep2 (F := F)) V (Proc.devRef .tc r) = V (Proc.devRef .tc r) :=
  after_of_writes_sub fStep2 V fStep2_writes hr

set_option maxRecDepth 16384 in
theorem fStep3_writes : (fStep3 : List (HloOp τ sig (Elt F))).Forall fun op => op.writes ⊆ ((fStep3_W).map (Proc.devRef (τ := τ) .tc)).toFinset := by
  simp only [fStep3, sirStep, List.Forall, nullary_writes, unary_writes, binary_writes, ternary_writes, reshape_writes, nary_writes,
    Finset.singleton_subset_iff, List.mem_toFinset]
  repeat' apply And.intro
  all_goals exact List.mem_map_of_mem (by decide)

theorem fStep3_keeps (V : Valuation τ sig (Elt F)) (r : Ref sig .tc) (hr : r ∉ fStep3_W) :
    after (fStep3 (F := F)) V (Proc.devRef .tc r) = V (Proc.devRef .tc r) :=
  after_of_writes_sub fStep3 V fStep3_writes hr

set_option maxRecDepth 16384 in
theorem fStep4_writes : (fStep4 : List (HloOp τ sig (Elt F))).Forall fun op => op.writes ⊆ ((fStep4_W).map (Proc.devRef (τ := τ) .tc)).toFinset := by
  simp only [fStep4, sirStep, List.Forall, nullary_writes, unary_writes, binary_writes, ternary_writes, reshape_writes, nary_writes,
    Finset.singleton_subset_iff, List.mem_toFinset]
  repeat' apply And.intro
  all_goals exact List.mem_map_of_mem (by decide)

theorem fStep4_keeps (V : Valuation τ sig (Elt F)) (r : Ref sig .tc) (hr : r ∉ fStep4_W) :
    after (fStep4 (F := F)) V (Proc.devRef .tc r) = V (Proc.devRef .tc r) :=
  after_of_writes_sub fStep4 V fStep4_writes hr

set_option maxRecDepth 16384 in
theorem fStep5_writes : (fStep5 : List (HloOp τ sig (Elt F))).Forall fun op => op.writes ⊆ ((fStep5_W).map (Proc.devRef (τ := τ) .tc)).toFinset := by
  simp only [fStep5, sirStep, List.Forall, nullary_writes, unary_writes, binary_writes, ternary_writes, reshape_writes, nary_writes,
    Finset.singleton_subset_iff, List.mem_toFinset]
  repeat' apply And.intro
  all_goals exact List.mem_map_of_mem (by decide)

theorem fStep5_keeps (V : Valuation τ sig (Elt F)) (r : Ref sig .tc) (hr : r ∉ fStep5_W) :
    after (fStep5 (F := F)) V (Proc.devRef .tc r) = V (Proc.devRef .tc r) :=
  after_of_writes_sub fStep5 V fStep5_writes hr

set_option maxRecDepth 16384 in
theorem fStep6_writes : (fStep6 : List (HloOp τ sig (Elt F))).Forall fun op => op.writes ⊆ ((fStep6_W).map (Proc.devRef (τ := τ) .tc)).toFinset := by
  simp only [fStep6, sirStep, List.Forall, nullary_writes, unary_writes, binary_writes, ternary_writes, reshape_writes, nary_writes,
    Finset.singleton_subset_iff, List.mem_toFinset]
  repeat' apply And.intro
  all_goals exact List.mem_map_of_mem (by decide)

theorem fStep6_keeps (V : Valuation τ sig (Elt F)) (r : Ref sig .tc) (hr : r ∉ fStep6_W) :
    after (fStep6 (F := F)) V (Proc.devRef .tc r) = V (Proc.devRef .tc r) :=
  after_of_writes_sub fStep6 V fStep6_writes hr

set_option maxRecDepth 16384 in
theorem fStep7_writes : (fStep7 : List (HloOp τ sig (Elt F))).Forall fun op => op.writes ⊆ ((fStep7_W).map (Proc.devRef (τ := τ) .tc)).toFinset := by
  simp only [fStep7, sirStep, List.Forall, nullary_writes, unary_writes, binary_writes, ternary_writes, reshape_writes, nary_writes,
    Finset.singleton_subset_iff, List.mem_toFinset]
  repeat' apply And.intro
  all_goals exact List.mem_map_of_mem (by decide)

theorem fStep7_keeps (V : Valuation τ sig (Elt F)) (r : Ref sig .tc) (hr : r ∉ fStep7_W) :
    after (fStep7 (F := F)) V (Proc.devRef .tc r) = V (Proc.devRef .tc r) :=
  after_of_writes_sub fStep7 V fStep7_writes hr

set_option maxRecDepth 16384 in
theorem fOut_writes : (fOut : List (HloOp τ sig (Elt F))).Forall fun op => op.writes ⊆ ((fOut_W).map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem fOut_keeps (V : Valuation τ sig (Elt F)) (r : Ref sig .tc) (hr : r ∉ fOut_W) :
    after (fOut (F := F)) V (Proc.devRef .tc r) = V (Proc.devRef .tc r) :=
  after_of_writes_sub fOut V fOut_writes hr

theorem opsF_cut : (opsF : List (HloOp τ sig (Elt F)))
    = fHeads ++ (fRates ++ (fStep0 ++ (fStep1 ++ (fStep2 ++ (fStep3 ++ (fStep4 ++ (fStep5 ++ (fStep6 ++ (fStep7 ++ fOut))))))))) := rfl

section
variable (W : Valuation τ sig (Elt F))

set_option maxHeartbeats 1000000 in
theorem heads_v119 : after (fHeads (F := F)) W (main_v119 : DevRef τ sig)
    = (broadcastInDim S200000x8x1 ![0, 1] bcast_S200000x8_S200000x8x1_0_1 (rHead8 (F := F) (rFeat (W (main_v112 : DevRef τ sig)) (W (main_v2 : DevRef τ sig)) (W (main_v5 : DevRef τ sig))) (W (main_arg16 : DevRef τ sig)) (W (main_arg17 : DevRef τ sig)))) := by
  dsimp only [fHeads]; after_reads; rfl
set_option maxHeartbeats 1000000 in
theorem heads_v125 : after (fHeads (F := F)) W (main_v125 : DevRef τ sig)
    = (broadcastInDim S200000x8x1 ![0, 1] bcast_S200000x8_S200000x8x1_0_1 (rHead8 (F := F) (rFeat (W (main_v112 : DevRef τ sig)) (W (main_v2 : DevRef τ sig)) (W (main_v5 : DevRef τ sig))) (W (main_arg18 : DevRef τ sig)) (W (main_arg19 : DevRef τ sig)))) := by
  dsimp only [fHeads]; after_reads; rfl
set_option maxHeartbeats 1000000 in
theorem heads_v130 : after (fHeads (F := F)) W (main_v130 : DevRef τ sig)
    = rHead2 (F := F) (rFeat (W (main_v112 : DevRef τ sig)) (W (main_v2 : DevRef τ sig)) (W (main_v5 : DevRef τ sig))) (W (main_arg20 : DevRef τ sig)) (W (main_arg21 : DevRef τ sig)) := by
  dsimp only [fHeads]; after_reads; rfl
set_option maxHeartbeats 1000000 in
theorem rates_v138 : after (fRates (F := F)) W (main_v138 : DevRef τ sig)
    = rSigm (F := F) bcast_S_S200000 (rCol0 (W (main_v130 : DevRef τ sig))) := by
  dsimp only [fRates]; after_reads; rfl
set_option maxHeartbeats 1000000 in
theorem rates_v146 : after (fRates (F := F)) W (main_v146 : DevRef τ sig)
    = rSigm (F := F) bcast_S_S200000 (rCol1 (W (main_v130 : DevRef τ sig))) := by
  dsimp only [fRates]; after_reads; rfl
set_option maxHeartbeats 1000000 in
theorem rates_v150 : after (fRates (F := F)) W (main_v150 : DevRef τ sig)
    = rNrep (F := F) (W (main_arg3 : DevRef τ sig)) := by
  dsimp only [fRates]; after_reads; rfl
set_option maxHeartbeats 1000000 in
theorem rates_v152 : after (fRates (F := F)) W (main_v152 : DevRef τ sig)
    = rCol0 (F := F) (W (main_arg2 : DevRef τ sig)) := by
  dsimp only [fRates]; after_reads; rfl
set_option maxHeartbeats 1000000 in
theorem rates_v154 : after (fRates (F := F)) W (main_v154 : DevRef τ sig)
    = rCol1 (F := F) (W (main_arg2 : DevRef τ sig)) := by
  dsimp only [fRates]; after_reads; rfl
set_option maxHeartbeats 1000000 in
theorem step0_di : after (fStep0 (F := F)) W (main_v161 : DevRef τ sig)
    = rDI (F := F) (W (main_v138 : DevRef τ sig)) (W (main_v146 : DevRef τ sig)) (W (main_v150 : DevRef τ sig)) (W (main_v152 : DevRef τ sig)) (W (main_v154 : DevRef τ sig)) := by
  dsimp only [fStep0, sirStep]; after_reads; rfl
set_option maxHeartbeats 1000000 in
theorem step0_dr : after (fStep0 (F := F)) W (main_v162 : DevRef τ sig)
    = rDR (F := F) (W (main_v146 : DevRef τ sig)) (W (main_v152 : DevRef τ sig)) := by
  dsimp only [fStep0, sirStep]; after_reads; rfl
set_option maxHeartbeats 1000000 in
theorem step0_i : after (fStep0 (F := F)) W (main_v163 : DevRef τ sig)
    = addf (W (main_v152 : DevRef τ sig)) (rDI (F := F) (W (main_v138 : DevRef τ sig)) (W (main_v146 : DevRef τ sig)) (W (main_v150 : DevRef τ sig)) (W (main_v152 : DevRef τ sig)) (W (main_v154 : DevRef τ sig))) := by
  dsimp only [fStep0, sirStep]; after_reads; rfl
set_option maxHeartbeats 1000000 in
theorem step0_r : after (fStep0 (F := F)) W (main_v164 : DevRef τ sig)
    = addf (W (main_v154 : DevRef τ sig)) (rDR (F := F) (W (main_v146 : DevRef τ sig)) (W (main_v152 : DevRef τ sig))) := by
  dsimp only [fStep0, sirStep]; after_reads; rfl
set_option maxHeartbeats 1000000 in
theorem step1_di : after (fStep1 (F := F)) W (main_v171 : DevRef τ sig)
    = rDI (F := F) (W (main_v138 : DevRef τ sig)) (W (main_v146 : DevRef τ sig)) (W (main_v150 : DevRef τ sig)) (W (main_v163 : DevRef τ sig)) (W (main_v164 : DevRef τ sig)) := by
  dsimp only [fStep1, sirStep]; after_reads; rfl
set_option maxHeartbeats 1000000 in
theorem step1_dr : after (fStep1 (F := F)) W (main_v172 : DevRef τ sig)
    = rDR (F := F) (W (main_v146 : DevRef τ sig)) (W (main_v163 : DevRef τ sig)) := by
  dsimp only [fStep1, sirStep]; after_reads; rfl
set_option maxHeartbeats 1000000 in
theorem step1_i : after (fStep1 (F := F)) W (main_v173 : DevRef τ sig)
    = addf (W (main_v163 : DevRef τ sig)) (rDI (F := F) (W (main_v138 : DevRef τ sig)) (W (main_v146 : DevRef τ sig)) (W (main_v150 : DevRef τ sig)) (W (main_v163 : DevRef τ sig)) (W (main_v164 : DevRef τ sig))) := by
  dsimp only [fStep1, sirStep]; after_reads; rfl
set_option maxHeartbeats 1000000 in
theorem step1_r : after (fStep1 (F := F)) W (main_v174 : DevRef τ sig)
    = addf (W (main_v164 : DevRef τ sig)) (rDR (F := F) (W (main_v146 : DevRef τ sig)) (W (main_v163 : DevRef τ sig))) := by
  dsimp only [fStep1, sirStep]; after_reads; rfl
set_option maxHeartbeats 1000000 in
theorem step2_di : after (fStep2 (F := F)) W (main_v181 : DevRef τ sig)
    = rDI (F := F) (W (main_v138 : DevRef τ sig)) (W (main_v146 : DevRef τ sig)) (W (main_v150 : DevRef τ sig)) (W (main_v173 : DevRef τ sig)) (W (main_v174 : DevRef τ sig)) := by
  dsimp only [fStep2, sirStep]; after_reads; rfl
set_option maxHeartbeats 1000000 in
theorem step2_dr : after (fStep2 (F := F)) W (main_v182 : DevRef τ sig)
    = rDR (F := F) (W (main_v146 : DevRef τ sig)) (W (main_v173 : DevRef τ sig)) := by
  dsimp only [fStep2, sirStep]; after_reads; rfl
set_option maxHeartbeats 1000000 in
theorem step2_i : after (fStep2 (F := F)) W (main_v183 : DevRef τ sig)
    = addf (W (main_v173 : DevRef τ sig)) (rDI (F := F) (W (main_v138 : DevRef τ sig)) (W (main_v146 : DevRef τ sig)) (W (main_v150 : DevRef τ sig)) (W (main_v173 : DevRef τ sig)) (W (main_v174 : DevRef τ sig))) := by
  dsimp only [fStep2, sirStep]; after_reads; rfl
set_option maxHeartbeats 1000000 in
theorem step2_r : after (fStep2 (F := F)) W (main_v184 : DevRef τ sig)
    = addf (W (main_v174 : DevRef τ sig)) (rDR (F := F) (W (main_v146 : DevRef τ sig)) (W (main_v173 : DevRef τ sig))) := by
  dsimp only [fStep2, sirStep]; after_reads; rfl
set_option maxHeartbeats 1000000 in
theorem step3_di : after (fStep3 (F := F)) W (main_v191 : DevRef τ sig)
    = rDI (F := F) (W (main_v138 : DevRef τ sig)) (W (main_v146 : DevRef τ sig)) (W (main_v150 : DevRef τ sig)) (W (main_v183 : DevRef τ sig)) (W (main_v184 : DevRef τ sig)) := by
  dsimp only [fStep3, sirStep]; after_reads; rfl
set_option maxHeartbeats 1000000 in
theorem step3_dr : after (fStep3 (F := F)) W (main_v192 : DevRef τ sig)
    = rDR (F := F) (W (main_v146 : DevRef τ sig)) (W (main_v183 : DevRef τ sig)) := by
  dsimp only [fStep3, sirStep]; after_reads; rfl
set_option maxHeartbeats 1000000 in
theorem step3_i : after (fStep3 (F := F)) W (main_v193 : DevRef τ sig)
    = addf (W (main_v183 : DevRef τ sig)) (rDI (F := F) (W (main_v138 : DevRef τ sig)) (W (main_v146 : DevRef τ sig)) (W (main_v150 : DevRef τ sig)) (W (main_v183 : DevRef τ sig)) (W (main_v184 : DevRef τ sig))) := by
  dsimp only [fStep3, sirStep]; after_reads; rfl
set_option maxHeartbeats 1000000 in
theorem step3_r : after (fStep3 (F := F)) W (main_v194 : DevRef τ sig)
    = addf (W (main_v184 : DevRef τ sig)) (rDR (F := F) (W (main_v146 : DevRef τ sig)) (W (main_v183 : DevRef τ sig))) := by
  dsimp only [fStep3, sirStep]; after_reads; rfl
set_option maxHeartbeats 1000000 in
theorem step4_di : after (fStep4 (F := F)) W (main_v201 : DevRef τ sig)
    = rDI (F := F) (W (main_v138 : DevRef τ sig)) (W (main_v146 : DevRef τ sig)) (W (main_v150 : DevRef τ sig)) (W (main_v193 : DevRef τ sig)) (W (main_v194 : DevRef τ sig)) := by
  dsimp only [fStep4, sirStep]; after_reads; rfl
set_option maxHeartbeats 1000000 in
theorem step4_dr : after (fStep4 (F := F)) W (main_v202 : DevRef τ sig)
    = rDR (F := F) (W (main_v146 : DevRef τ sig)) (W (main_v193 : DevRef τ sig)) := by
  dsimp only [fStep4, sirStep]; after_reads; rfl
set_option maxHeartbeats 1000000 in
theorem step4_i : after (fStep4 (F := F)) W (main_v203 : DevRef τ sig)
    = addf (W (main_v193 : DevRef τ sig)) (rDI (F := F) (W (main_v138 : DevRef τ sig)) (W (main_v146 : DevRef τ sig)) (W (main_v150 : DevRef τ sig)) (W (main_v193 : DevRef τ sig)) (W (main_v194 : DevRef τ sig))) := by
  dsimp only [fStep4, sirStep]; after_reads; rfl
set_option maxHeartbeats 1000000 in
theorem step4_r : after (fStep4 (F := F)) W (main_v204 : DevRef τ sig)
    = addf (W (main_v194 : DevRef τ sig)) (rDR (F := F) (W (main_v146 : DevRef τ sig)) (W (main_v193 : DevRef τ sig))) := by
  dsimp only [fStep4, sirStep]; after_reads; rfl
set_option maxHeartbeats 1000000 in
theorem step5_di : after (fStep5 (F := F)) W (main_v211 : DevRef τ sig)
    = rDI (F := F) (W (main_v138 : DevRef τ sig)) (W (main_v146 : DevRef τ sig)) (W (main_v150 : DevRef τ sig)) (W (main_v203 : DevRef τ sig)) (W (main_v204 : DevRef τ sig)) := by
  dsimp only [fStep5, sirStep]; after_reads; rfl
set_option maxHeartbeats 1000000 in
theorem step5_dr : after (fStep5 (F := F)) W (main_v212 : DevRef τ sig)
    = rDR (F := F) (W (main_v146 : DevRef τ sig)) (W (main_v203 : DevRef τ sig)) := by
  dsimp only [fStep5, sirStep]; after_reads; rfl
set_option maxHeartbeats 1000000 in
theorem step5_i : after (fStep5 (F := F)) W (main_v213 : DevRef τ sig)
    = addf (W (main_v203 : DevRef τ sig)) (rDI (F := F) (W (main_v138 : DevRef τ sig)) (W (main_v146 : DevRef τ sig)) (W (main_v150 : DevRef τ sig)) (W (main_v203 : DevRef τ sig)) (W (main_v204 : DevRef τ sig))) := by
  dsimp only [fStep5, sirStep]; after_reads; rfl
set_option maxHeartbeats 1000000 in
theorem step5_r : after (fStep5 (F := F)) W (main_v214 : DevRef τ sig)
    = addf (W (main_v204 : DevRef τ sig)) (rDR (F := F) (W (main_v146 : DevRef τ sig)) (W (main_v203 : DevRef τ sig))) := by
  dsimp only [fStep5, sirStep]; after_reads; rfl
set_option maxHeartbeats 1000000 in
theorem step6_di : after (fStep6 (F := F)) W (main_v221 : DevRef τ sig)
    = rDI (F := F) (W (main_v138 : DevRef τ sig)) (W (main_v146 : DevRef τ sig)) (W (main_v150 : DevRef τ sig)) (W (main_v213 : DevRef τ sig)) (W (main_v214 : DevRef τ sig)) := by
  dsimp only [fStep6, sirStep]; after_reads; rfl
set_option maxHeartbeats 1000000 in
theorem step6_dr : after (fStep6 (F := F)) W (main_v222 : DevRef τ sig)
    = rDR (F := F) (W (main_v146 : DevRef τ sig)) (W (main_v213 : DevRef τ sig)) := by
  dsimp only [fStep6, sirStep]; after_reads; rfl
set_option maxHeartbeats 1000000 in
theorem step6_i : after (fStep6 (F := F)) W (main_v223 : DevRef τ sig)
    = addf (W (main_v213 : DevRef τ sig)) (rDI (F := F) (W (main_v138 : DevRef τ sig)) (W (main_v146 : DevRef τ sig)) (W (main_v150 : DevRef τ sig)) (W (main_v213 : DevRef τ sig)) (W (main_v214 : DevRef τ sig))) := by
  dsimp only [fStep6, sirStep]; after_reads; rfl
set_option maxHeartbeats 1000000 in
theorem step6_r : after (fStep6 (F := F)) W (main_v224 : DevRef τ sig)
    = addf (W (main_v214 : DevRef τ sig)) (rDR (F := F) (W (main_v146 : DevRef τ sig)) (W (main_v213 : DevRef τ sig))) := by
  dsimp only [fStep6, sirStep]; after_reads; rfl
set_option maxHeartbeats 1000000 in
theorem step7_di : after (fStep7 (F := F)) W (main_v231 : DevRef τ sig)
    = rDI (F := F) (W (main_v138 : DevRef τ sig)) (W (main_v146 : DevRef τ sig)) (W (main_v150 : DevRef τ sig)) (W (main_v223 : DevRef τ sig)) (W (main_v224 : DevRef τ sig)) := by
  dsimp only [fStep7, sirStep]; after_reads; rfl
set_option maxHeartbeats 1000000 in
theorem step7_dr : after (fStep7 (F := F)) W (main_v232 : DevRef τ sig)
    = rDR (F := F) (W (main_v146 : DevRef τ sig)) (W (main_v223 : DevRef τ sig)) := by
  dsimp only [fStep7, sirStep]; after_reads; rfl
set_option maxHeartbeats 1000000 in
theorem step7_i : after (fStep7 (F := F)) W (main_v233 : DevRef τ sig)
    = addf (W (main_v223 : DevRef τ sig)) (rDI (F := F) (W (main_v138 : DevRef τ sig)) (W (main_v146 : DevRef τ sig)) (W (main_v150 : DevRef τ sig)) (W (main_v223 : DevRef τ sig)) (W (main_v224 : DevRef τ sig))) := by
  dsimp only [fStep7, sirStep]; after_reads; rfl
set_option maxHeartbeats 1000000 in
theorem step7_r : after (fStep7 (F := F)) W (main_v234 : DevRef τ sig)
    = addf (W (main_v224 : DevRef τ sig)) (rDR (F := F) (W (main_v146 : DevRef τ sig)) (W (main_v223 : DevRef τ sig))) := by
  dsimp only [fStep7, sirStep]; after_reads; rfl
set_option maxHeartbeats 1000000 in
theorem out_v255 : after (fOut (F := F)) W (main_v255 : DevRef τ sig)
    = concatenate S200000x8x2 2 [⟨S200000x8x1, (W (main_v119 : DevRef τ sig))⟩, ⟨S200000x8x1, (W (main_v125 : DevRef τ sig))⟩] concatenates_S200000x8x1_S200000x8x1_S200000x8x2_d2 := by
  dsimp only [fOut]; after_reads
set_option maxHeartbeats 4000000 in
theorem out_v256 : after (fOut (F := F)) W (main_v256 : DevRef τ sig)
    = rPair (F := F) (rStack8 (W (main_v161 : DevRef τ sig)) (W (main_v171 : DevRef τ sig)) (W (main_v181 : DevRef τ sig)) (W (main_v191 : DevRef τ sig)) (W (main_v201 : DevRef τ sig)) (W (main_v211 : DevRef τ sig)) (W (main_v221 : DevRef τ sig)) (W (main_v231 : DevRef τ sig)))
      (rStack8 (W (main_v162 : DevRef τ sig)) (W (main_v172 : DevRef τ sig)) (W (main_v182 : DevRef τ sig)) (W (main_v192 : DevRef τ sig)) (W (main_v202 : DevRef τ sig)) (W (main_v212 : DevRef τ sig)) (W (main_v222 : DevRef τ sig)) (W (main_v232 : DevRef τ sig))) := by
  dsimp only [fOut]; after_reads; rfl

end

-- The eight steps in order: each reads the state the step before left, and no later step writes an earlier step's two increments.
theorem steps_v256 (V : Valuation τ sig (Elt F)) (al be nr i0 r0 : FVec F S200000 .f32)
    (hal : V (main_v138 : DevRef τ sig) = al) (hbe : V (main_v146 : DevRef τ sig) = be) (hnr : V (main_v150 : DevRef τ sig) = nr)
    (hi : V (main_v152 : DevRef τ sig) = i0) (hr : V (main_v154 : DevRef τ sig) = r0) :
    after ((fStep0 (F := F)) ++ ((fStep1 (F := F)) ++ ((fStep2 (F := F)) ++ ((fStep3 (F := F)) ++ ((fStep4 (F := F)) ++ ((fStep5 (F := F)) ++ ((fStep6 (F := F)) ++ ((fStep7 (F := F)) ++ (fOut))))))))) V (main_v256 : DevRef τ sig) = rPhyOf al be nr i0 r0 := by
  simp only [after_append]
  rw [out_v256]
  simp only [
    fStep1_keeps _ main_v161 (by decide), fStep1_keeps _ main_v162 (by decide), fStep2_keeps _ main_v161 (by decide),
    fStep2_keeps _ main_v162 (by decide), fStep3_keeps _ main_v161 (by decide), fStep3_keeps _ main_v162 (by decide),
    fStep4_keeps _ main_v161 (by decide), fStep4_keeps _ main_v162 (by decide), fStep5_keeps _ main_v161 (by decide),
    fStep5_keeps _ main_v162 (by decide), fStep6_keeps _ main_v161 (by decide), fStep6_keeps _ main_v162 (by decide),
    fStep7_keeps _ main_v161 (by decide), fStep7_keeps _ main_v162 (by decide), fStep2_keeps _ main_v171 (by decide),
    fStep2_keeps _ main_v172 (by decide), fStep3_keeps _ main_v171 (by decide), fStep3_keeps _ main_v172 (by decide),
    fStep4_keeps _ main_v171 (by decide), fStep4_keeps _ main_v172 (by decide), fStep5_keeps _ main_v171 (by decide),
    fStep5_keeps _ main_v172 (by decide), fStep6_keeps _ main_v171 (by decide), fStep6_keeps _ main_v172 (by decide),
    fStep7_keeps _ main_v171 (by decide), fStep7_keeps _ main_v172 (by decide), fStep3_keeps _ main_v181 (by decide),
    fStep3_keeps _ main_v182 (by decide), fStep4_keeps _ main_v181 (by decide), fStep4_keeps _ main_v182 (by decide),
    fStep5_keeps _ main_v181 (by decide), fStep5_keeps _ main_v182 (by decide), fStep6_keeps _ main_v181 (by decide),
    fStep6_keeps _ main_v182 (by decide), fStep7_keeps _ main_v181 (by decide), fStep7_keeps _ main_v182 (by decide),
    fStep4_keeps _ main_v191 (by decide), fStep4_keeps _ main_v192 (by decide), fStep5_keeps _ main_v191 (by decide),
    fStep5_keeps _ main_v192 (by decide), fStep6_keeps _ main_v191 (by decide), fStep6_keeps _ main_v192 (by decide),
    fStep7_keeps _ main_v191 (by decide), fStep7_keeps _ main_v192 (by decide), fStep5_keeps _ main_v201 (by decide),
    fStep5_keeps _ main_v202 (by decide), fStep6_keeps _ main_v201 (by decide), fStep6_keeps _ main_v202 (by decide),
    fStep7_keeps _ main_v201 (by decide), fStep7_keeps _ main_v202 (by decide), fStep6_keeps _ main_v211 (by decide),
    fStep6_keeps _ main_v212 (by decide), fStep7_keeps _ main_v211 (by decide), fStep7_keeps _ main_v212 (by decide),
    fStep7_keeps _ main_v221 (by decide), fStep7_keeps _ main_v222 (by decide)]
  replace hi : V (main_v152 : DevRef τ sig) = (rSir al be nr i0 r0 0).1 := hi
  replace hr : V (main_v154 : DevRef τ sig) = (rSir al be nr i0 r0 0).2 := hr
  rw [step0_di, step0_dr, hal, hbe, hnr, hi, hr]
  generalize hV : after (fStep0 (F := F)) V = V1
  obtain ⟨hal, hbe, hnr, hi, hr⟩ : V1 (main_v138 : DevRef τ sig) = al ∧ V1 (main_v146 : DevRef τ sig) = be ∧ V1 (main_v150 : DevRef τ sig) = nr
      ∧ V1 (main_v163 : DevRef τ sig) = (rSir al be nr i0 r0 1).1 ∧ V1 (main_v164 : DevRef τ sig) = (rSir al be nr i0 r0 1).2 := by
    subst hV
    exact ⟨(fStep0_keeps V main_v138 (by decide)).trans hal, (fStep0_keeps V main_v146 (by decide)).trans hbe,
      (fStep0_keeps V main_v150 (by decide)).trans hnr, by rw [step0_i, hal, hbe, hnr, hi, hr]; rfl, by rw [step0_r, hbe, hi, hr]; rfl⟩
  rw [step1_di, step1_dr, hal, hbe, hnr, hi, hr]
  generalize hV : after (fStep1 (F := F)) V1 = V2
  obtain ⟨hal, hbe, hnr, hi, hr⟩ : V2 (main_v138 : DevRef τ sig) = al ∧ V2 (main_v146 : DevRef τ sig) = be ∧ V2 (main_v150 : DevRef τ sig) = nr
      ∧ V2 (main_v173 : DevRef τ sig) = (rSir al be nr i0 r0 2).1 ∧ V2 (main_v174 : DevRef τ sig) = (rSir al be nr i0 r0 2).2 := by
    subst hV
    exact ⟨(fStep1_keeps V1 main_v138 (by decide)).trans hal, (fStep1_keeps V1 main_v146 (by decide)).trans hbe,
      (fStep1_keeps V1 main_v150 (by decide)).trans hnr, by rw [step1_i, hal, hbe, hnr, hi, hr]; rfl, by rw [step1_r, hbe, hi, hr]; rfl⟩
  rw [step2_di, step2_dr, hal, hbe, hnr, hi, hr]
  generalize hV : after (fStep2 (F := F)) V2 = V3
  obtain ⟨hal, hbe, hnr, hi, hr⟩ : V3 (main_v138 : DevRef τ sig) = al ∧ V3 (main_v146 : DevRef τ sig) = be ∧ V3 (main_v150 : DevRef τ sig) = nr
      ∧ V3 (main_v183 : DevRef τ sig) = (rSir al be nr i0 r0 3).1 ∧ V3 (main_v184 : DevRef τ sig) = (rSir al be nr i0 r0 3).2 := by
    subst hV
    exact ⟨(fStep2_keeps V2 main_v138 (by decide)).trans hal, (fStep2_keeps V2 main_v146 (by decide)).trans hbe,
      (fStep2_keeps V2 main_v150 (by decide)).trans hnr, by rw [step2_i, hal, hbe, hnr, hi, hr]; rfl, by rw [step2_r, hbe, hi, hr]; rfl⟩
  rw [step3_di, step3_dr, hal, hbe, hnr, hi, hr]
  generalize hV : after (fStep3 (F := F)) V3 = V4
  obtain ⟨hal, hbe, hnr, hi, hr⟩ : V4 (main_v138 : DevRef τ sig) = al ∧ V4 (main_v146 : DevRef τ sig) = be ∧ V4 (main_v150 : DevRef τ sig) = nr
      ∧ V4 (main_v193 : DevRef τ sig) = (rSir al be nr i0 r0 4).1 ∧ V4 (main_v194 : DevRef τ sig) = (rSir al be nr i0 r0 4).2 := by
    subst hV
    exact ⟨(fStep3_keeps V3 main_v138 (by decide)).trans hal, (fStep3_keeps V3 main_v146 (by decide)).trans hbe,
      (fStep3_keeps V3 main_v150 (by decide)).trans hnr, by rw [step3_i, hal, hbe, hnr, hi, hr]; rfl, by rw [step3_r, hbe, hi, hr]; rfl⟩
  rw [step4_di, step4_dr, hal, hbe, hnr, hi, hr]
  generalize hV : after (fStep4 (F := F)) V4 = V5
  obtain ⟨hal, hbe, hnr, hi, hr⟩ : V5 (main_v138 : DevRef τ sig) = al ∧ V5 (main_v146 : DevRef τ sig) = be ∧ V5 (main_v150 : DevRef τ sig) = nr
      ∧ V5 (main_v203 : DevRef τ sig) = (rSir al be nr i0 r0 5).1 ∧ V5 (main_v204 : DevRef τ sig) = (rSir al be nr i0 r0 5).2 := by
    subst hV
    exact ⟨(fStep4_keeps V4 main_v138 (by decide)).trans hal, (fStep4_keeps V4 main_v146 (by decide)).trans hbe,
      (fStep4_keeps V4 main_v150 (by decide)).trans hnr, by rw [step4_i, hal, hbe, hnr, hi, hr]; rfl, by rw [step4_r, hbe, hi, hr]; rfl⟩
  rw [step5_di, step5_dr, hal, hbe, hnr, hi, hr]
  generalize hV : after (fStep5 (F := F)) V5 = V6
  obtain ⟨hal, hbe, hnr, hi, hr⟩ : V6 (main_v138 : DevRef τ sig) = al ∧ V6 (main_v146 : DevRef τ sig) = be ∧ V6 (main_v150 : DevRef τ sig) = nr
      ∧ V6 (main_v213 : DevRef τ sig) = (rSir al be nr i0 r0 6).1 ∧ V6 (main_v214 : DevRef τ sig) = (rSir al be nr i0 r0 6).2 := by
    subst hV
    exact ⟨(fStep5_keeps V5 main_v138 (by decide)).trans hal, (fStep5_keeps V5 main_v146 (by decide)).trans hbe,
      (fStep5_keeps V5 main_v150 (by decide)).trans hnr, by rw [step5_i, hal, hbe, hnr, hi, hr]; rfl, by rw [step5_r, hbe, hi, hr]; rfl⟩
  rw [step6_di, step6_dr, hal, hbe, hnr, hi, hr]
  generalize hV : after (fStep6 (F := F)) V6 = V7
  obtain ⟨hal, hbe, hnr, hi, hr⟩ : V7 (main_v138 : DevRef τ sig) = al ∧ V7 (main_v146 : DevRef τ sig) = be ∧ V7 (main_v150 : DevRef τ sig) = nr
      ∧ V7 (main_v223 : DevRef τ sig) = (rSir al be nr i0 r0 7).1 ∧ V7 (main_v224 : DevRef τ sig) = (rSir al be nr i0 r0 7).2 := by
    subst hV
    exact ⟨(fStep6_keeps V6 main_v138 (by decide)).trans hal, (fStep6_keeps V6 main_v146 (by decide)).trans hbe,
      (fStep6_keeps V6 main_v150 (by decide)).trans hnr, by rw [step6_i, hal, hbe, hnr, hi, hr]; rfl, by rw [step6_r, hbe, hi, hr]; rfl⟩
  rw [step7_di, step7_dr, hal, hbe, hnr, hi, hr]
  rfl

theorem steps_v255 (V : Valuation τ sig (Elt F)) :
    after (fStep0 (F := F) ++ (fStep1 (F := F) ++ (fStep2 (F := F) ++ (fStep3 (F := F) ++ (fStep4 (F := F) ++ (fStep5 (F := F) ++ (fStep6 (F := F) ++ (fStep7 (F := F) ++ fOut)))))))) V (main_v255 : DevRef τ sig)
      = concatenate S200000x8x2 2 [⟨S200000x8x1, (V (main_v119 : DevRef τ sig))⟩, ⟨S200000x8x1, (V (main_v125 : DevRef τ sig))⟩] concatenates_S200000x8x1_S200000x8x1_S200000x8x2_d2 := by
  simp only [after_append]
  rw [out_v255, fStep7_keeps _ main_v119 (by decide), fStep7_keeps _ main_v125 (by decide),
    fStep6_keeps _ main_v119 (by decide), fStep6_keeps _ main_v125 (by decide),
    fStep5_keeps _ main_v119 (by decide), fStep5_keeps _ main_v125 (by decide),
    fStep4_keeps _ main_v119 (by decide), fStep4_keeps _ main_v125 (by decide),
    fStep3_keeps _ main_v119 (by decide), fStep3_keeps _ main_v125 (by decide),
    fStep2_keeps _ main_v119 (by decide), fStep2_keeps _ main_v125 (by decide),
    fStep1_keeps _ main_v119 (by decide), fStep1_keeps _ main_v125 (by decide),
    fStep0_keeps _ main_v119 (by decide), fStep0_keeps _ main_v125 (by decide)]

section
variable (W : Valuation τ sig (Elt F))

theorem chainF_v255 : after (opsF (F := F)) W (main_v255 : DevRef τ sig)
    = rPred (F := F) (rFeat (W (main_v112 : DevRef τ sig)) (W (main_v2 : DevRef τ sig)) (W (main_v5 : DevRef τ sig))) (W (main_arg16 : DevRef τ sig)) (W (main_arg17 : DevRef τ sig)) (W (main_arg18 : DevRef τ sig)) (W (main_arg19 : DevRef τ sig)) := by
  rw [opsF_cut, after_append, after_append, steps_v255,
    fRates_keeps _ main_v119 (by decide), fRates_keeps _ main_v125 (by decide), heads_v119, heads_v125]
  rfl

theorem chainF_v256 : after (opsF (F := F)) W (main_v256 : DevRef τ sig)
    = rPhy (F := F) (rFeat (W (main_v112 : DevRef τ sig)) (W (main_v2 : DevRef τ sig)) (W (main_v5 : DevRef τ sig))) (W (main_arg20 : DevRef τ sig)) (W (main_arg21 : DevRef τ sig)) (W (main_arg2 : DevRef τ sig)) (W (main_arg3 : DevRef τ sig)) := by
  rw [opsF_cut, after_append, after_append]
  refine (steps_v256 (after (fRates (F := F)) (after (fHeads (F := F)) W))
    (rSigm bcast_S_S200000 (rCol0 (rHead2 (F := F) (rFeat (W (main_v112 : DevRef τ sig)) (W (main_v2 : DevRef τ sig)) (W (main_v5 : DevRef τ sig))) (W (main_arg20 : DevRef τ sig)) (W (main_arg21 : DevRef τ sig))))) (rSigm bcast_S_S200000 (rCol1 (rHead2 (F := F) (rFeat (W (main_v112 : DevRef τ sig)) (W (main_v2 : DevRef τ sig)) (W (main_v5 : DevRef τ sig))) (W (main_arg20 : DevRef τ sig)) (W (main_arg21 : DevRef τ sig)))))
    (rNrep (W (main_arg3 : DevRef τ sig))) (rCol0 (W (main_arg2 : DevRef τ sig))) (rCol1 (W (main_arg2 : DevRef τ sig)))
    (by rw [rates_v138, heads_v130]) (by rw [rates_v146, heads_v130])
    (by rw [rates_v150, fHeads_keeps _ main_arg3 (by decide)])
    (by rw [rates_v152, fHeads_keeps _ main_arg2 (by decide)])
    (by rw [rates_v154, fHeads_keeps _ main_arg2 (by decide)])).trans ?_
  rfl

end

end Cert.ReferenceIdeal.Hand

end
-- ==== Proof.Ref.Chain.lean ====
import proofs.«419864_j2224793059992_3_alg».proof.Proof.Ref.ChainReads
import proofs.«419864_j2224793059992_3_alg».proof.Proof.Ref.Run
import proofs.«419864_j2224793059992_3_alg».proof.Proof.Ref.Stages2
import proofs.«419864_j2224793059992_3_alg».proof.Proof.Ref.ChainEF
set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo Idealize.ShloMosaic.ValueIdx

section Keep
variable {F : FTy → Type} [FloatOps F] (V : Valuation τ sig (Elt F))

theorem keepA (r : Ref sig .tc) (h : r ∉ opsA_W) : after (opsA (F := F)) V (Proc.devRef .tc r) = V (Proc.devRef .tc r) :=
  after_of_writes_sub opsA V opsA_writes h
theorem keepB (r : Ref sig .tc) (h : r ∉ opsB_W) : after (opsB (F := F)) V (Proc.devRef .tc r) = V (Proc.devRef .tc r) :=
  after_of_writes_sub opsB V opsB_writes h
theorem keepC (r : Ref sig .tc) (h : r ∉ opsC_W) : after (opsC (F := F)) V (Proc.devRef .tc r) = V (Proc.devRef .tc r) :=
  after_of_writes_sub opsC V opsC_writes h
theorem keepD (r : Ref sig .tc) (h : r ∉ opsD_W) : after (opsD (F := F)) V (Proc.devRef .tc r) = V (Proc.devRef .tc r) :=
  after_of_writes_sub opsD V opsD_writes h
theorem keepE (r : Ref sig .tc) (h : r ∉ opsE_W) : after (opsE (F := F)) V (Proc.devRef .tc r) = V (Proc.devRef .tc r) :=
  after_of_writes_sub opsE V opsE_writes h

theorem keepAB (r : Ref sig .tc) (hA : r ∉ opsA_W) (hB : r ∉ opsB_W) :
    after (opsB (F := F)) (after opsA V) (Proc.devRef .tc r) = V (Proc.devRef .tc r) :=
  (keepB _ r hB).trans (keepA V r hA)
theorem keepAC (r : Ref sig .tc) (hA : r ∉ opsA_W) (hB : r ∉ opsB_W) (hC : r ∉ opsC_W) :
    after (opsC (F := F)) (after opsB (after opsA V)) (Proc.devRef .tc r) = V (Proc.devRef .tc r) :=
  (keepC _ r hC).trans (keepAB V r hA hB)
theorem keepAD (r : Ref sig .tc) (hA : r ∉ opsA_W) (hB : r ∉ opsB_W) (hC : r ∉ opsC_W) (hD : r ∉ opsD_W) :
    after (opsD (F := F)) (after opsC (after opsB (after opsA V))) (Proc.devRef .tc r) = V (Proc.devRef .tc r) :=
  (keepD _ r hD).trans (keepAC V r hA hB hC)
theorem keepAE (r : Ref sig .tc) (hA : r ∉ opsA_W) (hB : r ∉ opsB_W) (hC : r ∉ opsC_W) (hD : r ∉ opsD_W) (hE : r ∉ opsE_W) :
    after (opsE (F := F)) (after opsD (after opsC (after opsB (after opsA V)))) (Proc.devRef .tc r) = V (Proc.devRef .tc r) :=
  (keepE _ r hE).trans (keepAD V r hA hB hC hD)

theorem carryB (r : Ref sig .tc) (hB : r ∉ opsB_W) :
    after (opsB (F := F)) (after opsA V) (Proc.devRef .tc r) = after opsA V (Proc.devRef .tc r) := keepB _ r hB
theorem carryC (r : Ref sig .tc) (hB : r ∉ opsB_W) (hC : r ∉ opsC_W) :
    after (opsC (F := F)) (after opsB (after opsA V)) (Proc.devRef .tc r) = after opsA V (Proc.devRef .tc r) :=
  (keepC _ r hC).trans (carryB V r hB)
theorem carryD (r : Ref sig .tc) (hB : r ∉ opsB_W) (hC : r ∉ opsC_W) (hD : r ∉ opsD_W) :
    after (opsD (F := F)) (after opsC (after opsB (after opsA V))) (Proc.devRef .tc r) = after opsA V (Proc.devRef .tc r) :=
  (keepD _ r hD).trans (carryC V r hB hC)
theorem carryE (r : Ref sig .tc) (hB : r ∉ opsB_W) (hC : r ∉ opsC_W) (hD : r ∉ opsD_W) (hE : r ∉ opsE_W) :
    after (opsE (F := F)) (after opsD (after opsC (after opsB (after opsA V)))) (Proc.devRef .tc r) = after opsA V (Proc.devRef .tc r) :=
  (keepE _ r hE).trans (carryD V r hB hC hD)

end Keep

abbrev rRow {o : Nat} (b : FVec Ideal ⟨1, ![o]⟩ .f32) : Cert.Spec.M 1 o := fun j => b (ix1 (j 1))

abbrev rAttLo (aW : FVec Ideal S1x64 .f32) : Cert.Spec.M 1 32 :=
  fun j => aW (ix2 (0 : Fin 1) (⟨(j 1).val, by have := idx2_lt1 j; omega⟩ : Fin 64))
abbrev rAttHi (aW : FVec Ideal S1x64 .f32) : Cert.Spec.M 1 32 :=
  fun j => aW (ix2 (0 : Fin 1) (⟨32 + (j 1).val, by have := idx2_lt1 j; omega⟩ : Fin 64))
abbrev rAtt0 (ab : FVec Ideal S1 .f32) : Cert.Spec.M 1 1 := fun _ => ab (ix1 (0 : Fin 1))

variable (V : Valuation τ sig (Elt Ideal))

def rZ1 : Cert.Spec.M 200000 32 :=
  Cert.Spec.lin (n := 200000) (i := 64) (o := 32) (rFeatRows (V (main_arg0 : DevRef τ sig))) (V (main_arg4 : DevRef τ sig))
    (rRow (V (main_arg5 : DevRef τ sig)))

def rM1 : Cert.Spec.M 1600000 32 :=
  Cert.Spec.edge (rRowsAt (rZ1 V) (rWrap (rSrc (V (main_arg1 : DevRef τ sig))))) (rRowsAt (rZ1 V) (rWrap (rDst (V (main_arg1 : DevRef τ sig)))))
    (rAttLo (V (main_arg6 : DevRef τ sig))) (rAttHi (V (main_arg6 : DevRef τ sig))) (rAtt0 (V (main_arg7 : DevRef τ sig)))

def rH1 : Cert.Spec.M 200000 32 := rSumInto (rDst (V (main_arg1 : DevRef τ sig))) (rM1 V)

def rZ2 : Cert.Spec.M 200000 32 :=
  Cert.Spec.eluLin (n := 200000) (i := 32) (o := 32) (rH1 V) (V (main_arg8 : DevRef τ sig)) (rRow (V (main_arg9 : DevRef τ sig)))

def rM2 : Cert.Spec.M 1600000 32 :=
  Cert.Spec.edge (rRowsAt (rZ2 V) (rWrap (rSrc (V (main_arg1 : DevRef τ sig))))) (rRowsAt (rZ2 V) (rWrap (rDst (V (main_arg1 : DevRef τ sig)))))
    (rAttLo (V (main_arg10 : DevRef τ sig))) (rAttHi (V (main_arg10 : DevRef τ sig))) (rAtt0 (V (main_arg11 : DevRef τ sig)))

def rH2 : Cert.Spec.M 200000 32 := rSumInto (rDst (V (main_arg1 : DevRef τ sig))) (rM2 V)

def rG : Cert.Spec.M 200000 32 :=
  Cert.Spec.gru (n := 200000) (rH2 V) (V (main_arg12 : DevRef τ sig)) (rRow (V (main_arg14 : DevRef τ sig))) (rRow (V (main_arg15 : DevRef τ sig)))

theorem chain_v16 : after opsA V (main_v16 : DevRef τ sig) = rZ1 V :=
  (readA_v16 V).trans (rLin64_eq _ _ _)

theorem chain_v42 : after opsB (after opsA V) (main_v42 : DevRef τ sig) = rH1 V := by
  rw [readB_v42, chain_v16, readA_v9, readA_v11, keepA V main_arg6 (by decide), keepA V main_arg7 (by decide), rEdge_eq]
  rfl

theorem chain_v48 : after opsC (after opsB (after opsA V)) (main_v48 : DevRef τ sig) = rZ2 V := by
  rw [readC_v48, chain_v42, keepAB V main_arg8 (by decide) (by decide), keepAB V main_arg9 (by decide) (by decide),
    rLin32_rEluV_eq]
  rfl

theorem chain_v74 : after opsD (after opsC (after opsB (after opsA V))) (main_v74 : DevRef τ sig) = rH2 V := by
  rw [readD_v74, chain_v48, carryC V main_v9 (by decide) (by decide), carryC V main_v11 (by decide) (by decide),
    readA_v9, readA_v11, keepAC V main_arg10 (by decide) (by decide) (by decide),
    keepAC V main_arg11 (by decide) (by decide) (by decide), rEdge_eq]
  rfl

theorem chain_v112 : after opsE (after opsD (after opsC (after opsB (after opsA V)))) (main_v112 : DevRef τ sig) = rG V := by
  rw [chainE_v112, chain_v74, keepAD V main_arg12 (by decide) (by decide) (by decide) (by decide),
    keepAD V main_arg14 (by decide) (by decide) (by decide) (by decide),
    keepAD V main_arg15 (by decide) (by decide) (by decide) (by decide), rGru_eq]
  rfl

theorem after_ops_eq : after ops V = after opsF (after opsE (after opsD (after opsC (after opsB (after opsA V))))) := by
  unfold ops; rw [after_append _ opsF, after_append _ opsE, after_append _ opsD, after_append _ opsC, after_append opsA opsB]

theorem chain_pred (x5 : Cert.Spec.M 200000 5)
    (h0 : ∀ p : Fin 200000, x5 (ix2 p (0 : Fin 5)) = rLastCol1 (V (main_arg0 : DevRef τ sig)) (ix2 p (0 : Fin 1)))
    (h1 : ∀ p : Fin 200000, x5 (ix2 p (1 : Fin 5)) = rLastCol2 (V (main_arg0 : DevRef τ sig)) (ix2 p (0 : Fin 1))) :
    after ops V (main_v255 : DevRef τ sig)
      = Cert.Spec.pred (rG V) x5 (V (main_arg16 : DevRef τ sig)) (rRow (V (main_arg17 : DevRef τ sig)))
          (V (main_arg18 : DevRef τ sig)) (rRow (V (main_arg19 : DevRef τ sig))) := by
  rw [after_ops_eq, chainF_v255, chain_v112,
    carryE V main_v2 (by decide) (by decide) (by decide) (by decide), carryE V main_v5 (by decide) (by decide) (by decide) (by decide),
    readA_v2, readA_v5,
    keepAE V main_arg16 (by decide) (by decide) (by decide) (by decide) (by decide),
    keepAE V main_arg17 (by decide) (by decide) (by decide) (by decide) (by decide),
    keepAE V main_arg18 (by decide) (by decide) (by decide) (by decide) (by decide),
    keepAE V main_arg19 (by decide) (by decide) (by decide) (by decide) (by decide)]
  exact rPred_eq (rG V) (rLastCol1 (V (main_arg0 : DevRef τ sig))) (rLastCol2 (V (main_arg0 : DevRef τ sig))) x5 h0 h1 _ _ _ _

theorem chain_phy (x5 : Cert.Spec.M 200000 5)
    (h0 : ∀ p : Fin 200000, x5 (ix2 p (0 : Fin 5)) = rLastCol1 (V (main_arg0 : DevRef τ sig)) (ix2 p (0 : Fin 1)))
    (h1 : ∀ p : Fin 200000, x5 (ix2 p (1 : Fin 5)) = rLastCol2 (V (main_arg0 : DevRef τ sig)) (ix2 p (0 : Fin 1)))
    (h2 : ∀ p : Fin 200000, x5 (ix2 p (2 : Fin 5)) = (V (main_arg2 : DevRef τ sig) : FVec Ideal S200000x2 .f32) (ix2 p (0 : Fin 2)))
    (h3 : ∀ p : Fin 200000, x5 (ix2 p (3 : Fin 5)) = (V (main_arg2 : DevRef τ sig) : FVec Ideal S200000x2 .f32) (ix2 p (1 : Fin 2)))
    (h4 : ∀ p : Fin 200000, x5 (ix2 p (4 : Fin 5))
      = (V (main_arg3 : DevRef τ sig) : FVec Ideal S50000x1 .f32) (ix2 (⟨p.val % 50000, Nat.mod_lt _ (by decide)⟩ : Fin 50000) (0 : Fin 1))) :
    after ops V (main_v256 : DevRef τ sig)
      = Cert.Spec.phy (rG V) x5 (V (main_arg20 : DevRef τ sig)) (rRow (V (main_arg21 : DevRef τ sig))) := by
  rw [after_ops_eq, chainF_v256, chain_v112,
    carryE V main_v2 (by decide) (by decide) (by decide) (by decide), carryE V main_v5 (by decide) (by decide) (by decide) (by decide),
    readA_v2, readA_v5,
    keepAE V main_arg20 (by decide) (by decide) (by decide) (by decide) (by decide),
    keepAE V main_arg21 (by decide) (by decide) (by decide) (by decide) (by decide),
    keepAE V main_arg2 (by decide) (by decide) (by decide) (by decide) (by decide),
    keepAE V main_arg3 (by decide) (by decide) (by decide) (by decide) (by decide)]
  exact rPhy_eq (rG V) (rLastCol1 (V (main_arg0 : DevRef τ sig))) (rLastCol2 (V (main_arg0 : DevRef τ sig))) x5 _ _ h0 h1 h2 h3 h4 _ _

end Cert.ReferenceIdeal.Hand

end
-- ==== Proof.Alg.lean ====
import proofs.«419864_j2224793059992_3_alg».proof.Defs
import proofs.«419864_j2224793059992_3_alg».proof.Proof.Gen.KernelIdeal
import proofs.«419864_j2224793059992_3_alg».proof.Proof.Gen.ReferenceIdeal
import proofs.«419864_j2224793059992_3_alg».proof.Proof.Gen.Pre_finite_inputs
import proofs.«419864_j2224793059992_3_alg».proof.Proof.KI.Launch
import proofs.«419864_j2224793059992_3_alg».proof.Proof.KI.Chain
import proofs.«419864_j2224793059992_3_alg».proof.Proof.KI.Glue
import proofs.«419864_j2224793059992_3_alg».proof.Proof.Ref.Chain
import proofs.«419864_j2224793059992_3_alg».proof.Proof.Ref.Results

set_option maxRecDepth 16384

noncomputable section

namespace Cert.Proof.Alg

open Idealize.ShloMosaic Idealize.ShloMosaic.TcCoe Idealize.SL.Sem Idealize.ShloMosaic.StableHlo Idealize.ShloMosaic.ValueIdx
open Cert.KernelIdeal.Hand Cert.ReferenceIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)

abbrev V' : Valuation Cert.ReferenceIdeal.τ Cert.ReferenceIdeal.sig (Elt Ideal) := launchContents m' c

theorem kg_eq (h : Agree m m' c) : kg m c = rG (V' m' c) := by
  obtain ⟨a0, a1, a2, a3, a4, a5, a6, a7, a8, a9, a10, a11, a12, a13, a14, a15, a16, a17, a18, a19, a20, a21⟩ := h
  unfold kg kh2 km2 kz2 kh1 km1 kz1 rG rH2 rM2 rZ2 rH1 rM1 rZ1
  simp only [row32_eq, row96_eq, attLo_eq, attHi_eq, one11_eq]
  rw [← a0, ← a1, ← a4, ← a5, ← a6, ← a7, ← a8, ← a9, ← a10, ← a11, ← a12, ← a14, ← a15]
  rfl

theorem kx5_col0 (h : Agree m m' c) (p : Fin 200000) :
    kx5 m c (ix2 p (0 : Fin 5)) = rLastCol1 (F := Ideal) (V' m' c (Cert.ReferenceIdeal.main_arg0 : DevRef Cert.ReferenceIdeal.τ Cert.ReferenceIdeal.sig)) (ix2 p (0 : Fin 1)) := by
  obtain ⟨a0, -⟩ := h
  unfold kx5; rw [carried_col0, ← a0]; rfl
theorem kx5_col1 (h : Agree m m' c) (p : Fin 200000) :
    kx5 m c (ix2 p (1 : Fin 5)) = rLastCol2 (F := Ideal) (V' m' c (Cert.ReferenceIdeal.main_arg0 : DevRef Cert.ReferenceIdeal.τ Cert.ReferenceIdeal.sig)) (ix2 p (0 : Fin 1)) := by
  obtain ⟨a0, -⟩ := h
  unfold kx5; rw [carried_col1, ← a0]; rfl
theorem kx5_col2 (h : Agree m m' c) (p : Fin 200000) :
    kx5 m c (ix2 p (2 : Fin 5)) = V' m' c (Cert.ReferenceIdeal.main_arg2 : DevRef Cert.ReferenceIdeal.τ Cert.ReferenceIdeal.sig) (ix2 p (0 : Fin 2)) := by
  obtain ⟨-, -, a2, -⟩ := h
  unfold kx5; rw [carried_col2, ← a2]
theorem kx5_col3 (h : Agree m m' c) (p : Fin 200000) :
    kx5 m c (ix2 p (3 : Fin 5)) = V' m' c (Cert.ReferenceIdeal.main_arg2 : DevRef Cert.ReferenceIdeal.τ Cert.ReferenceIdeal.sig) (ix2 p (1 : Fin 2)) := by
  obtain ⟨-, -, a2, -⟩ := h
  unfold kx5; rw [carried_col3, ← a2]
theorem kx5_col4 (h : Agree m m' c) (p : Fin 200000) :
    kx5 m c (ix2 p (4 : Fin 5)) = V' m' c (Cert.ReferenceIdeal.main_arg3 : DevRef Cert.ReferenceIdeal.τ Cert.ReferenceIdeal.sig)
      (ix2 (⟨p.val % 50000, Nat.mod_lt _ (by decide)⟩ : Fin 50000) (0 : Fin 1)) := by
  obtain ⟨-, -, -, a3, -⟩ := h
  unfold kx5; rw [carried_col4, popCol_apply, ← a3]

theorem ref_pred_is (h : Agree m m' c) :
    after (ops (F := Ideal)) (V' m' c) (Cert.ReferenceIdeal.main_v255 : DevRef Cert.ReferenceIdeal.τ Cert.ReferenceIdeal.sig) = kpred m c := by
  rw [chain_pred (V' m' c) (kx5 m c) (kx5_col0 m m' c h) (kx5_col1 m m' c h), ← kg_eq m m' c h]
  obtain ⟨a0, a1, a2, a3, a4, a5, a6, a7, a8, a9, a10, a11, a12, a13, a14, a15, a16, a17, a18, a19, a20, a21⟩ := h
  unfold kpred
  simp only [row8_eq]
  rw [← a16, ← a17, ← a18, ← a19]

theorem ref_phy_is (h : Agree m m' c) :
    after (ops (F := Ideal)) (V' m' c) (Cert.ReferenceIdeal.main_v256 : DevRef Cert.ReferenceIdeal.τ Cert.ReferenceIdeal.sig) = kphy m c := by
  rw [chain_phy (V' m' c) (kx5 m c) (kx5_col0 m m' c h) (kx5_col1 m m' c h) (kx5_col2 m m' c h) (kx5_col3 m m' c h) (kx5_col4 m m' c h),
    ← kg_eq m m' c h]
  obtain ⟨a0, a1, a2, a3, a4, a5, a6, a7, a8, a9, a10, a11, a12, a13, a14, a15, a16, a17, a18, a19, a20, a21⟩ := h
  unfold kphy
  simp only [row2_eq]
  rw [← a20, ← a21]

theorem algebraic : Cert.algebraic_KernelIdeal_ReferenceIdeal := by
  intro m ρ m' ρ' _ hagree
  refine ⟨fun c => kpred m c, fun c => kphy m c, ?_, ?_⟩
  · obtain ⟨outs, h, hrun⟩ := Cert.KernelIdeal.Hand.run_results_args (F := Ideal) m ρ
    refine (θ_run (Cert.KernelIdeal.defs (F := Ideal)) _ _).mono (fun r hr c => ?_) hrun
    obtain ⟨h0, h1, hargs⟩ := hr c
    have e2 := o2_eq m outs c (h.h2 c)
    have e4 := o4_eq m outs c e2 (h.h4 c)
    have e6 := o6_eq m outs c e4 (h.h6 c)
    have e8 := o8_eq m outs c e6 (h.h8 c)
    have e10 := o10_eq m outs c e8 (h.h10 c)
    exact ⟨h0.trans (o12_0_eq m outs c e10 (h.h12_0 c)), h1.trans (o12_1_eq m outs c e10 (h.h12_1 c)), hargs⟩
  · refine (θ_run (Cert.ReferenceIdeal.defs (F := Ideal)) _ _).mono (fun r hr c => ?_)
      (Cert.ReferenceIdeal.Hand.run_results (F := Ideal) m' ρ')
    obtain ⟨h0, h1, hargs⟩ := hr c
    exact ⟨h0.trans (ref_pred_is m m' c (hagree c)), h1.trans (ref_phy_is m m' c (hagree c)), hargs⟩

end Cert.Proof.Alg

end
-- ==== Proof.lean ====
import proofs.«419864_j2224793059992_3_alg».proof.Defs
import proofs.«419864_j2224793059992_3_alg».proof.Proof.Gen.Kernel
import proofs.«419864_j2224793059992_3_alg».proof.Proof.Gen.KernelIdeal
import proofs.«419864_j2224793059992_3_alg».proof.Proof.Gen.ReferenceIdeal
import proofs.«419864_j2224793059992_3_alg».proof.Proof.Gen.Pre_finite_inputs
import proofs.«419864_j2224793059992_3_alg».proof.Proof.K.Launch
import proofs.«419864_j2224793059992_3_alg».proof.Proof.KI.Launch
import proofs.«419864_j2224793059992_3_alg».proof.Proof.Ref.Results
import proofs.«419864_j2224793059992_3_alg».proof.Proof.Alg
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame (F := Bits) m ρ
theorem frame_pi : Cert.frame_KernelIdeal := fun m ρ _ => Cert.KernelIdeal.Hand.frame (F := Ideal) m ρ
theorem frame_ri : Cert.frame_ReferenceIdeal := fun m ρ _ => Cert.ReferenceIdeal.Hand.frame (F := Ideal) m ρ
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_p, frame_pi, frame_ri, preserves, Cert.Proof.Alg.algebraic⟩

end Cert.Proof

end
